-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048 : Shape := ⟨2, ![1024, 2048]⟩
abbrev S16x64x1024 : Shape := ⟨3, ![16, 64, 1024]⟩
abbrev S1024x1024 : Shape := ⟨2, ![1024, 1024]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S16x64x1024 : S_.BroadcastsInDim S16x64x1024 (![] : Fin 0 → Fin S16x64x1024.rank)
  reducesTo_S16x64x1024_S_d0_1_2 : S16x64x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg11 : FVec F S1024 .f32) (main_arg12 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  main_v63

def fn_part2 {F : FTy → Type} [FloatOps F] (main_arg7 : FVec F S4096x1024 .f32) (main_arg8 : FVec F S4096 .f32) (main_arg9 : FVec F S1024x4096 .f32) (main_arg10 : FVec F S1024 .f32) (main_arg11 : FVec F S1024 .f32) (main_arg12 : FVec F S1024 .f32) (main_v33 : IVec S_ 1) : IVec S_ 1 :=
  let main_v34 : FVec F S4096x1024 .f32 := Host.absf main_arg7
  let main_cst_12 : FVec F S_ .f32 := constant S_ .f32 0x7F800000#32
  let main_v35 : FVec F S4096x1024 .f32 := broadcastInDim S4096x1024 ![] bcast_S_S4096x1024 main_cst_12
  let main_v36 : IVec S4096x1024 1 := cmpf .olt main_v34 main_v35
  let main_c_13 : IVec S_ 1 := constantI S_ 1 1#1
  let main_v37 : IVec S_ 1 := (fun x v => Host.reduce IntOp.andi x v reducesTo_S4096x1024_S_d0_1 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S1024x4096 .f32 := Host.absf main_arg9
  let main_cst_16 : FVec F S_ .f32 := constant S_ .f32 0x7F800000#32
  let main_v45 : FVec F S1024x4096 .f32 := broadcastInDim S1024x4096 ![] bcast_S_S1024x4096 main_cst_16
  let main_v46 : IVec S1024x4096 1 := cmpf .olt main_v44 main_v45
  let main_c_17 : IVec S_ 1 := constantI S_ 1 1#1
  let main_v47 : IVec S_ 1 := (fun x v => Host.reduce IntOp.andi x v reducesTo_S1024x4096_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_v48 main_v49 main_v50

def fn_part1 {F : FTy → Type} [FloatOps F] (main_arg4 : FVec F S16x64x1024 .f32) (main_arg5 : FVec F S16x64x1024 .f32) (main_arg6 : FVec F S1024x1024 .f32) (main_arg7 : FVec F S4096x1024 .f32) (main_arg8 : FVec F S4096 .f32) (main_arg9 : FVec F S1024x4096 .f32) (main_arg10 : FVec F S1024 .f32) (main_arg11 : FVec F S1024 .f32) (main_arg12 : FVec F S1024 .f32) (main_v13 : IVec S_ 1) (main_v16 : IVec S16x64x1024 1) : IVec S_ 1 :=
  let main_c_5 : IVec S_ 1 := constantI S_ 1 1#1
  let main_v17 : IVec S_ 1 := (fun x v => Host.reduce IntOp.andi x v reducesTo_S16x64x1024_S_d0_1_2 h_S_) main_v16 main_c_5
  let main_v18 : IVec S_ 1 := andi main_v13 main_v17
  let main_v19 : FVec F S16x64x1024 .f32 := Host.absf main_arg4
  let main_cst_6 : FVec F S_ .f32 := constant S_ .f32 0x7F800000#32
  let main_v20 : FVec F S16x64x1024 .f32 := broadcastInDim S16x64x1024 ![] bcast_S_S16x64x1024 main_cst_6
  let main_v21 : IVec S16x64x1024 1 := cmpf .olt main_v19 main_v20
  let main_c_7 : IVec S_ 1 := constantI S_ 1 1#1
  let main_v22 : IVec S_ 1 := (fun x v => Host.reduce IntOp.andi x v reducesTo_S16x64x1024_S_d0_1_2 h_S_) main_v21 main_c_7
  let main_v23 : IVec S_ 1 := andi main_v18 main_v22
  let main_v24 : FVec F S16x64x1024 .f32 := Host.absf main_arg5
  let main_cst_8 : FVec F S_ .f32 := constant S_ .f32 0x7F800000#32
  let main_v25 : FVec F S16x64x1024 .f32 := broadcastInDim S16x64x1024 ![] bcast_S_S16x64x1024 main_cst_8
  let main_v26 : IVec S16x64x1024 1 := cmpf .olt main_v24 main_v25
  let main_c_9 : IVec S_ 1 := constantI S_ 1 1#1
  let main_v27 : IVec S_ 1 := (fun x v => Host.reduce IntOp.andi x v reducesTo_S16x64x1024_S_d0_1_2 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S1024x2048 .f32) (main_arg1 : FVec F S1024x2048 .f32) (main_arg2 : FVec F S1024x2048 .f32) (main_arg3 : FVec F S16x64x1024 .f32) (main_arg4 : FVec F S16x64x1024 .f32) (main_arg5 : FVec F S16x64x1024 .f32) (main_arg6 : FVec F S1024x1024 .f32) (main_arg7 : FVec F S4096x1024 .f32) (main_arg8 : FVec F S4096 .f32) (main_arg9 : FVec F S1024x4096 .f32) (main_arg10 : FVec F S1024 .f32) (main_arg11 : FVec F S1024 .f32) (main_arg12 : FVec F S1024 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S16x64x1024 .f32 := Host.absf main_arg3
  let main_cst_4 : FVec F S_ .f32 := constant S_ .f32 0x7F800000#32
  let main_v15 : FVec F S16x64x1024 .f32 := broadcastInDim S16x64x1024 ![] bcast_S_S16x64x1024 main_cst_4
  let main_v16 : IVec S16x64x1024 1 := cmpf .olt main_v14 main_v15
  fn_part1 (F := F) main_arg4 main_arg5 main_arg6 main_arg7 main_arg8 main_arg9 main_arg10 main_arg11 main_arg12 main_v13 main_v16
-- ==== Kernel.lean ====
abbrev S1024x2048 : Shape := ⟨2, ![1024, 2048]⟩
abbrev S16x64x1024 : Shape := ⟨3, ![16, 64, 1024]⟩
abbrev S1024x1024 : Shape := ⟨2, ![1024, 1024]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S2048x1024 : Shape := ⟨2, ![2048, 1024]⟩
abbrev S_ : Shape := ⟨0, ![]⟩
abbrev S1x1024 : Shape := ⟨2, ![1, 1024]⟩
abbrev S512x512 : Shape := ⟨2, ![512, 512]⟩
abbrev S1x512 : Shape := ⟨2, ![1, 512]⟩
abbrev S512x128 : Shape := ⟨2, ![512, 128]⟩
abbrev S2048x128 : Shape := ⟨2, ![2048, 128]⟩
abbrev S512x2048 : Shape := ⟨2, ![512, 2048]⟩
abbrev S512x64 : Shape := ⟨2, ![512, 64]⟩
abbrev S2048x64 : Shape := ⟨2, ![2048, 64]⟩
abbrev S512 : Shape := ⟨1, ![512]⟩
abbrev S512x1 : Shape := ⟨2, ![512, 1]⟩
abbrev S512x1024 : Shape := ⟨2, ![512, 1024]⟩
abbrev S1x4096 : Shape := ⟨2, ![1, 4096]⟩
abbrev S2048x4096 : Shape := ⟨2, ![2048, 4096]⟩

abbrev nBuf : Space → Nat
  | .hbm => 48
  | .vmem => 78
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S16x64x1024, .f32⟩
  | .hbm, ⟨4, _⟩ => ⟨S16x64x1024, .f32⟩
  | .hbm, ⟨5, _⟩ => ⟨S16x64x1024, .f32⟩
  | .hbm, ⟨6, _⟩ => ⟨S1024x1024, .f32⟩
  | .hbm, ⟨7, _⟩ => ⟨S4096x1024, .f32⟩
  | .hbm, ⟨8, _⟩ => ⟨S4096, .f32⟩
  | .hbm, ⟨9, _⟩ => ⟨S1024x4096, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S_, .f32⟩
  | .hbm, ⟨21, _⟩ => ⟨S1024, .f32⟩
  | .hbm, ⟨22, _⟩ => ⟨S1x1024, .f32⟩
  | .hbm, ⟨23, _⟩ => ⟨S2048x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S2048x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S2048x1024, .f32⟩
  | .hbm, ⟨37, _⟩ => ⟨S1x1024, .f32⟩
  | .hbm, ⟨38, _⟩ => ⟨S1x1024, .f32⟩
  | .hbm, ⟨39, _⟩ => ⟨S2048x1024, .f32⟩
  | .hbm, ⟨40, _⟩ => ⟨S1x4096, .f32⟩
  | .hbm, ⟨41, _⟩ => ⟨S2048x4096, .f32⟩
  | .hbm, ⟨42, _⟩ => ⟨S1x1024, .f32⟩
  | .hbm, ⟨43, _⟩ => ⟨S2048x1024, .f32⟩
  | .hbm, ⟨44, _⟩ => ⟨S1x1024, .f32⟩
  | .hbm, ⟨45, _⟩ => ⟨S1x1024, .f32⟩
  | .hbm, ⟨46, _⟩ => ⟨S2048x1024, .f32⟩
  | .hbm, ⟨47, _⟩ => ⟨S1024x2048, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S1x512, .f32⟩
  | .local _ .vmem, ⟨14, _⟩ => ⟨S1x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S1x512, .f32⟩
  | .local _ .vmem, ⟨23, _⟩ => ⟨S1x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x128, .f32⟩
  | .local _ .vmem, ⟨28, _⟩ => ⟨S512x128, .f32⟩
  | .local _ .vmem, ⟨29, _⟩ => ⟨S2048x128, .f32⟩
  | .local _ .vmem, ⟨30, _⟩ => ⟨S2048x128, .f32⟩
  | .local _ .vmem, ⟨31, _⟩ => ⟨S2048x128, .f32⟩
  | .local _ .vmem, ⟨32, _⟩ => ⟨S2048x128, .f32⟩
  | .local _ .vmem, ⟨33, _⟩ => ⟨S512x128, .f32⟩
  | .local _ .vmem, ⟨34, _⟩ => ⟨S512x128, .f32⟩
  | .local _ .vmem, ⟨35, _⟩ => ⟨S512x512, .f32⟩
  | .local _ .vmem, ⟨36, _⟩ => ⟨S512x512, .f32⟩
  | .local _ .vmem, ⟨37, _⟩ => ⟨S512x512, .f32⟩
  | .local _ .vmem, ⟨38, _⟩ => ⟨S512x512, .f32⟩
  | .local _ .vmem, ⟨39, _⟩ => ⟨S1x512, .f32⟩
  | .local _ .vmem, ⟨40, _⟩ => ⟨S1x512, .f32⟩
  | .local _ .vmem, ⟨41, _⟩ => ⟨S512x512, .f32⟩
  | .local _ .vmem, ⟨42, _⟩ => ⟨S512x512, .f32⟩
  | .local _ .vmem, ⟨43, _⟩ => ⟨S512x512, .f32⟩
  | .local _ .vmem, ⟨44, _⟩ => ⟨S512x1024, .f32⟩
  | .local _ .vmem, ⟨45, _⟩ => ⟨S512x1024, .f32⟩
  | .local _ .vmem, ⟨46, _⟩ => ⟨S512x1024, .f32⟩
  | .local _ .vmem, ⟨47, _⟩ => ⟨S512x1024, .f32⟩
  | .local _ .vmem, ⟨48, _⟩ => ⟨S1x1024, .f32⟩
  | .local _ .vmem, ⟨49, _⟩ => ⟨S1x1024, .f32⟩
  | .local _ .vmem, ⟨50, _⟩ => ⟨S512x1024, .f32⟩
  | .local _ .vmem, ⟨51, _⟩ => ⟨S512x1024, .f32⟩
  | .local _ .vmem, ⟨52, _⟩ => ⟨S512x512, .f32⟩
  | .local _ .vmem, ⟨53, _⟩ => ⟨S512x512, .f32⟩
  | .local _ .vmem, ⟨54, _⟩ => ⟨S512x512, .f32⟩
  | .local _ .vmem, ⟨55, _⟩ => ⟨S512x512, .f32⟩
  | .local _ .vmem, ⟨56, _⟩ => ⟨S1x512, .f32⟩
  | .local _ .vmem, ⟨57, _⟩ => ⟨S1x512, .f32⟩
  | .local _ .vmem, ⟨58, _⟩ => ⟨S512x512, .f32⟩
  | .local _ .vmem, ⟨59, _⟩ => ⟨S512x512, .f32⟩
  | .local _ .vmem, ⟨60, _⟩ => ⟨S512x512, .f32⟩
  | .local _ .vmem, ⟨61, _⟩ => ⟨S512x512, .f32⟩
  | .local _ .vmem, ⟨62, _⟩ => ⟨S512x512, .f32⟩
  | .local _ .vmem, ⟨63, _⟩ => ⟨S512x512, .f32⟩
  | .local _ .vmem, ⟨64, _⟩ => ⟨S512x512, .f32⟩
  | .local _ .vmem, ⟨65, _⟩ => ⟨S1x512, .f32⟩
  | .local _ .vmem, ⟨66, _⟩ => ⟨S1x512, .f32⟩
  | .local _ .vmem, ⟨67, _⟩ => ⟨S512x512, .f32⟩
  | .local _ .vmem, ⟨68, _⟩ => ⟨S512x512, .f32⟩
  | .local _ .vmem, ⟨69, _⟩ => ⟨S512x512, .f32⟩
  | .local _ .vmem, ⟨70, _⟩ => ⟨S512x1024, .f32⟩
  | .local _ .vmem, ⟨71, _⟩ => ⟨S512x1024, .f32⟩
  | .local _ .vmem, ⟨72, _⟩ => ⟨S512x1024, .f32⟩
  | .local _ .vmem, ⟨73, _⟩ => ⟨S512x1024, .f32⟩
  | .local _ .vmem, ⟨74, _⟩ => ⟨S1x1024, .f32⟩
  | .local _ .vmem, ⟨75, _⟩ => ⟨S1x1024, .f32⟩
  | .local _ .vmem, ⟨76, _⟩ => ⟨S512x1024, .f32⟩
  | .local _ .vmem, ⟨77, _⟩ => ⟨S512x1024, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_scratch0 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg3_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg1_1 : Ref sig .tc := ⟨.vmem, 38, rfl⟩
abbrev cc4_stg2_0 : Ref sig .tc := ⟨.vmem, 39, rfl⟩
abbrev cc4_stg2_1 : Ref sig .tc := ⟨.vmem, 40, rfl⟩
abbrev cc4_stg3_0 : Ref sig .tc := ⟨.vmem, 41, rfl⟩
abbrev cc4_stg3_1 : Ref sig .tc := ⟨.vmem, 42, rfl⟩
abbrev cc4_scratch0 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_stg3_0 : Ref sig .tc := ⟨.vmem, 49, rfl⟩
abbrev cc5_stg4_0 : Ref sig .tc := ⟨.vmem, 50, rfl⟩
abbrev cc5_stg4_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg1_1 : Ref sig .tc := ⟨.vmem, 55, rfl⟩
abbrev cc6_stg2_0 : Ref sig .tc := ⟨.vmem, 56, rfl⟩
abbrev cc6_stg2_1 : Ref sig .tc := ⟨.vmem, 57, rfl⟩
abbrev cc6_stg3_0 : Ref sig .tc := ⟨.vmem, 58, rfl⟩
abbrev cc6_stg3_1 : Ref sig .tc := ⟨.vmem, 59, rfl⟩
abbrev cc6_scratch0 : Ref sig .tc := ⟨.vmem, 60, rfl⟩
abbrev cc7_stg0_0 : Ref sig .tc := ⟨.vmem, 61, rfl⟩
abbrev cc7_stg0_1 : Ref sig .tc := ⟨.vmem, 62, rfl⟩
abbrev cc7_stg1_0 : Ref sig .tc := ⟨.vmem, 63, rfl⟩
abbrev cc7_stg1_1 : Ref sig .tc := ⟨.vmem, 64, rfl⟩
abbrev cc7_stg2_0 : Ref sig .tc := ⟨.vmem, 65, rfl⟩
abbrev cc7_stg2_1 : Ref sig .tc := ⟨.vmem, 66, rfl⟩
abbrev cc7_stg3_0 : Ref sig .tc := ⟨.vmem, 67, rfl⟩
abbrev cc7_stg3_1 : Ref sig .tc := ⟨.vmem, 68, rfl⟩
abbrev cc7_scratch0 : Ref sig .tc := ⟨.vmem, 69, rfl⟩
abbrev cc8_stg0_0 : Ref sig .tc := ⟨.vmem, 70, rfl⟩
abbrev cc8_stg0_1 : Ref sig .tc := ⟨.vmem, 71, rfl⟩
abbrev cc8_stg1_0 : Ref sig .tc := ⟨.vmem, 72, rfl⟩
abbrev cc8_stg1_1 : Ref sig .tc := ⟨.vmem, 73, rfl⟩
abbrev cc8_stg2_0 : Ref sig .tc := ⟨.vmem, 74, rfl⟩
abbrev cc8_stg3_0 : Ref sig .tc := ⟨.vmem, 75, rfl⟩
abbrev cc8_stg4_0 : Ref sig .tc := ⟨.vmem, 76, rfl⟩
abbrev cc8_stg4_1 : Ref sig .tc := ⟨.vmem, 77, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem3_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem3_0 : DmaSem sig := 45
abbrev cc5_sem4_0 : DmaSem sig := 46
abbrev cc5_sem4_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem2_1 : DmaSem sig := 53
abbrev cc6_sem3_0 : DmaSem sig := 54
abbrev cc6_sem3_1 : DmaSem sig := 55
abbrev cc7_sem0_0 : DmaSem sig := 56
abbrev cc7_sem0_1 : DmaSem sig := 57
abbrev cc7_sem1_0 : DmaSem sig := 58
abbrev cc7_sem1_1 : DmaSem sig := 59
abbrev cc7_sem2_0 : DmaSem sig := 60
abbrev cc7_sem2_1 : DmaSem sig := 61
abbrev cc7_sem3_0 : DmaSem sig := 62
abbrev cc7_sem3_1 : DmaSem sig := 63
abbrev cc8_sem0_0 : DmaSem sig := 64
abbrev cc8_sem0_1 : DmaSem sig := 65
abbrev cc8_sem1_0 : DmaSem sig := 66
abbrev cc8_sem1_1 : DmaSem sig := 67
abbrev cc8_sem2_0 : DmaSem sig := 68
abbrev cc8_sem3_0 : DmaSem sig := 69
abbrev cc8_sem4_0 : DmaSem sig := 70
abbrev cc8_sem4_1 : DmaSem sig := 71

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v15 : BitVec 1 := Scalar.cmpi .eq arg2 c1_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 2, 2], ![false, false, false]⟩

def k1_cond2 (i : grid1.Coords) : BitVec 1 :=
  let arg2 : BitVec 32 := BitVec.ofNat 32 (i 2).val
  let c1_i32 : BitVec 32 := 1#32
  let v15 : BitVec 1 := Scalar.cmpi .eq arg2 c1_i32
  let v16 : BitVec 32 := Scalar.extui v15
  let c0_i32_8 : BitVec 32 := 0#32
  let v17 : BitVec 1 := Scalar.cmpi .ne v16 c0_i32_8
  v17

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![4, 2, 2], ![false, false, false]⟩

def k2_cond2 (i : grid2.Coords) : BitVec 1 :=
  let arg2 : BitVec 32 := BitVec.ofNat 32 (i 2).val
  let c1_i32 : BitVec 32 := 1#32
  let v15 : BitVec 1 := Scalar.cmpi .eq arg2 c1_i32
  let v16 : BitVec 32 := Scalar.extui v15
  let c0_i32_8 : BitVec 32 := 0#32
  let v17 : BitVec 1 := Scalar.cmpi .ne v16 c0_i32_8
  v17

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨2, ![8, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S512x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S2048x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S512x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨3, ![4, 2, 2], ![false, false, false]⟩

def k4_cond2 (i : grid4.Coords) : BitVec 1 :=
  let arg2 : BitVec 32 := BitVec.ofNat 32 (i 2).val
  let c1_i32 : BitVec 32 := 1#32
  let v15 : BitVec 1 := Scalar.cmpi .eq arg2 c1_i32
  let v16 : BitVec 32 := Scalar.extui v15
  let c0_i32_8 : BitVec 32 := 0#32
  let v17 : BitVec 1 := Scalar.cmpi .ne v16 c0_i32_8
  v17

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S512x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S512x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true, false]

abbrev stage4_3 : Fin 2 → Memref sig .tc .vmem S512x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S512x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x1024 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S512x1024 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨3, ![4, 8, 2], ![false, false, false]⟩

def k6_cond2 (i : grid6.Coords) : BitVec 1 :=
  let arg2 : BitVec 32 := BitVec.ofNat 32 (i 2).val
  let c1_i32 : BitVec 32 := 1#32
  let v14 : BitVec 1 := Scalar.cmpi .eq arg2 c1_i32
  let v15 : BitVec 32 := Scalar.extui v14
  let c0_i32_8 : BitVec 32 := 0#32
  let v16 : BitVec 1 := Scalar.cmpi .ne v15 c0_i32_8
  v16

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc6_transform_3 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S512x512 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S512x512 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![false, true, false]

abbrev stage6_3 : Fin 2 → Memref sig .tc .vmem S512x512 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true, false]

abbrev grid7 : Pipeline.Grid := ⟨3, ![4, 2, 8], ![false, false, false]⟩

def k7_cond2 (i : grid7.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc7_transform_3 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S512x512 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S512x512 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![false, true, false]

abbrev stage7_3 : Fin 2 → Memref sig .tc .vmem S512x512 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true, false]

abbrev grid8 : Pipeline.Grid := ⟨1, ![4], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S512x1024 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S512x1024 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x1024 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x1024 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S512x1024 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

class Facts₀ : Prop where
  transposes_S1024x2048_S2048x1024_1_0 : S1024x2048.Transposes [1, 0] S2048x1024
  shapeCasts_S16x64x1024_S1024x1024 : S16x64x1024.ShapeCasts S1024x1024
  transposes_S1024x1024_S1024x1024_1_0 : S1024x1024.Transposes [1, 0] S1024x1024
  bcast_S_S1024 : S_.BroadcastsInDim S1024 (![] : Fin 0 → Fin S1024.rank)
  shapeCasts_S1024_S1x1024 : S1024.ShapeCasts S1x1024
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  iota_S512x2048_d0_w32 : S512x2048.Iotas .tc 32 [0]
  iota_S512x2048_d1_w32 : S512x2048.Iotas .tc 32 [1]
  inb_S512x128_S512x64_0_0 : ∀ a, (![0, 0] : Fin 2 → Nat) a + S512x64.size a ≤ S512x128.size a
  h_S512x64 : 0 < S512x64.numel
  shapeCasts_S512x64_S512x64 : S512x64.ShapeCasts S512x64
  inb_S512x128_S512x64_0_64 : ∀ a, (![0, 64] : Fin 2 → Nat) a + S512x64.size a ≤ S512x128.size a
  inb_S2048x128_S2048x64_0_0 : ∀ a, (![0, 0] : Fin 2 → Nat) a + S2048x64.size a ≤ S2048x128.size a
  h_S2048x64 : 0 < S2048x64.numel
  shapeCasts_S2048x64_S2048x64 : S2048x64.ShapeCasts S2048x64
  inb_S2048x128_S2048x64_0_64 : ∀ a, (![0, 64] : Fin 2 → Nat) a + S2048x64.size a ≤ S2048x128.size a
  reduces_S512x2048_S512 : S512x2048.Reduces [1] S512
  shapeCasts_S512_S512x1 : S512.ShapeCasts S512x1
  broadcasts_S512x1_S512x2048 : S512x1.Broadcasts S512x2048
  concatenates_S512x64_S512x64_S512x128_d1 : Shape.Concatenates [S512x64, S512x64] S512x128 1
  inb_S512x128_S512x128_0_0 : ∀ a, (![0, 0] : Fin 2 → Nat) a + S512x128.size a ≤ S512x128.size a
  h_S512x128 : 0 < S512x128.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S512x1024_S512 : S512x1024.Reduces [1] S512
  broadcasts_S512x1_S512x1024 : S512x1.Broadcasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S4096_S1x4096 : S4096.ShapeCasts S1x4096
  transposes_S2048x1024_S1024x2048_1_0 : S2048x1024.Transposes [1, 0] S1024x2048
  dot_S512x512_S512x512_S512x512_1_1_0_0_n_n_wf : DotDims.WF S512x512 S512x512 S512x512 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S2048x1024.size a
  hwx0_0 : ∀ i : grid0.Coords, EltTy.bits .f32 = 32 ∨ (Rect.block (s := S2048x1024) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S1024x1024.size a
  hwx0_1 : ∀ i : grid0.Coords, EltTy.bits .f32 = 32 ∨ (Rect.block (s := S1024x1024) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x1024.size a
  hwx0_2 : ∀ i : grid0.Coords, EltTy.bits .f32 = 32 ∨ (Rect.block (s := S1x1024) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S2048x1024.size a
  hwx0_3 : ∀ i : grid0.Coords, EltTy.bits .f32 = 32 ∨ (Rect.block (s := S2048x1024) S512x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S2048x1024.size a
  hwx1_0 : ∀ i : grid1.Coords, EltTy.bits .f32 = 32 ∨ (Rect.block (s := S2048x1024) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S1024x1024.size a
  hwx1_1 : ∀ i : grid1.Coords, EltTy.bits .f32 = 32 ∨ (Rect.block (s := S1024x1024) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x1024.size a
  hwx1_2 : ∀ i : grid1.Coords, EltTy.bits .f32 = 32 ∨ (Rect.block (s := S1x1024) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S2048x1024.size a
  hwx1_3 : ∀ i : grid1.Coords, EltTy.bits .f32 = 32 ∨ (Rect.block (s := S2048x1024) S512x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S2048x1024.size a
  hwx2_0 : ∀ i : grid2.Coords, EltTy.bits .f32 = 32 ∨ (Rect.block (s := S2048x1024) S512x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S1024x1024.size a
  hwx2_1 : ∀ i : grid2.Coords, EltTy.bits .f32 = 32 ∨ (Rect.block (s := S1024x1024) S512x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x1024.size a
  hwx2_2 : ∀ i : grid2.Coords, EltTy.bits .f32 = 32 ∨ (Rect.block (s := S1x1024) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S2048x1024.size a
  hwx2_3 : ∀ i : grid2.Coords, EltTy.bits .f32 = 32 ∨ (Rect.block (s := S2048x1024) S512x512.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x128.size a ≤ S2048x1024.size a
  hwx3_0 : ∀ i : grid3.Coords, EltTy.bits .f32 = 32 ∨ (Rect.block (s := S2048x1024) S512x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x128.size a ≤ S2048x1024.size a
  hwx3_1 : ∀ i : grid3.Coords, EltTy.bits .f32 = 32 ∨ (Rect.block (s := S2048x1024) S2048x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x128.size a ≤ S2048x1024.size a
  hwx3_2 : ∀ i : grid3.Coords, EltTy.bits .f32 = 32 ∨ (Rect.block (s := S2048x1024) S2048x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x128.size a ≤ S2048x1024.size a
  hwx3_3 : ∀ i : grid3.Coords, EltTy.bits .f32 = 32 ∨ (Rect.block (s := S2048x1024) S512x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x512.size a ≤ S2048x1024.size a
  hwx4_0 : ∀ i : grid4.Coords, EltTy.bits .f32 = 32 ∨ (Rect.block (s := S2048x1024) S512x512.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S512x512.size a ≤ S1024x1024.size a
  hwx4_1 : ∀ i : grid4.Coords, EltTy.bits .f32 = 32 ∨ (Rect.block (s := S1024x1024) S512x512.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x512.size a ≤ S1x1024.size a
  hwx4_2 : ∀ i : grid4.Coords, EltTy.bits .f32 = 32 ∨ (Rect.block (s := S1x1024) S1x512.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x512.size a ≤ S2048x1024.size a
  hwx4_3 : ∀ i : grid4.Coords, EltTy.bits .f32 = 32 ∨ (Rect.block (s := S2048x1024) S512x512.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x1024.size a ≤ S2048x1024.size a
  hwx5_0 : ∀ i : grid5.Coords, EltTy.bits .f32 = 32 ∨ (Rect.block (s := S2048x1024) S512x1024.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S512x1024.size a ≤ S2048x1024.size a
  hwx5_1 : ∀ i : grid5.Coords, EltTy.bits .f32 = 32 ∨ (Rect.block (s := S2048x1024) S512x1024.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1024.size a ≤ S1x1024.size a
  hwx5_2 : ∀ i : grid5.Coords, EltTy.bits .f32 = 32 ∨ (Rect.block (s := S1x1024) S1x1024.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x1024.size a ≤ S1x1024.size a
  hwx5_3 : ∀ i : grid5.Coords, EltTy.bits .f32 = 32 ∨ (Rect.block (s := S1x1024) S1x1024.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S512x1024.size a ≤ S2048x1024.size a
  hwx5_4 : ∀ i : grid5.Coords, EltTy.bits .f32 = 32 ∨ (Rect.block (s := S2048x1024) S512x1024.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S512x512.size a ≤ S2048x1024.size a
  hwx6_0 : ∀ i : grid6.Coords, EltTy.bits .f32 = 32 ∨ (Rect.block (s := S2048x1024) S512x512.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S512x512.size a ≤ S4096x1024.size a
  hwx6_1 : ∀ i : grid6.Coords, EltTy.bits .f32 = 32 ∨ (Rect.block (s := S4096x1024) S512x512.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1x512.size a ≤ S1x4096.size a
  hwx6_2 : ∀ i : grid6.Coords, EltTy.bits .f32 = 32 ∨ (Rect.block (s := S1x4096) S1x512.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S512x512.size a ≤ S2048x4096.size a
  hwx6_3 : ∀ i : grid6.Coords, EltTy.bits .f32 = 32 ∨ (Rect.block (s := S2048x4096) S512x512.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S512x512.size a ≤ S2048x4096.size a
  hwx7_0 : ∀ i : grid7.Coords, EltTy.bits .f32 = 32 ∨ (Rect.block (s := S2048x4096) S512x512.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S512x512.size a ≤ S1024x4096.size a
  hwx7_1 : ∀ i : grid7.Coords, EltTy.bits .f32 = 32 ∨ (Rect.block (s := S1024x4096) S512x512.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1x512.size a ≤ S1x1024.size a
  hwx7_2 : ∀ i : grid7.Coords, EltTy.bits .f32 = 32 ∨ (Rect.block (s := S1x1024) S1x512.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S512x512.size a ≤ S2048x1024.size a
  hwx7_3 : ∀ i : grid7.Coords, EltTy.bits .f32 = 32 ∨ (Rect.block (s := S2048x1024) S512x512.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S512x1024.size a ≤ S2048x1024.size a
  hwx8_0 : ∀ i : grid8.Coords, EltTy.bits .f32 = 32 ∨ (Rect.block (s := S2048x1024) S512x1024.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S512x1024.size a ≤ S2048x1024.size a
  hwx8_1 : ∀ i : grid8.Coords, EltTy.bits .f32 = 32 ∨ (Rect.block (s := S2048x1024) S512x1024.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x1024.size a ≤ S1x1024.size a
  hwx8_2 : ∀ i : grid8.Coords, EltTy.bits .f32 = 32 ∨ (Rect.block (s := S1x1024) S1x1024.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x1024.size a ≤ S1x1024.size a
  hwx8_3 : ∀ i : grid8.Coords, EltTy.bits .f32 = 32 ∨ (Rect.block (s := S1x1024) S1x1024.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S512x1024.size a ≤ S2048x1024.size a
  hwx8_4 : ∀ i : grid8.Coords, EltTy.bits .f32 = 32 ∨ (Rect.block (s := S2048x1024) S512x1024.size (cc8_transform_4 i) (hinb8_4 i)).WholeWords (EltTy.packing .f32)

variable [Facts₀]

def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v1) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S512x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v2) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S512x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S1x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v15) S512x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v9) S512x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S2048x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v15) S2048x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v16) S512x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v16) S512x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v6) S512x512.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v18) S1x512.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v19) S512x512.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v2) S512x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v19) S512x1024.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v20) S1x1024.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v21) S1x1024.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v22) S512x1024.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v22) S512x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg7) S512x512.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v23) S1x512.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v24) S512x512.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev idle6 : Fin 4 → grid6.Coords → Bool := fun | 0 => fun _ => false | 1 => fun _ => false | 2 => fun _ => false | 3 => fun i => !(k6_cond2 i == 1#1) | ⟨_ + 4, h⟩ => absurd h (Nat.not_lt.2 (Nat.le_add_left _ _))

abbrev win7_0 : Pipeline.Window sig grid7 :=
  Pipeline.Window.ofSpec (Memref.whole main_v24) S512x512.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg9) S512x512.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v25) S1x512.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v26) S512x512.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev idle7 : Fin 4 → grid7.Coords → Bool := fun | 0 => fun _ => false | 1 => fun _ => false | 2 => fun _ => false | 3 => fun i => !(k7_cond2 i == 1#1) | ⟨_ + 4, h⟩ => absurd h (Nat.not_lt.2 (Nat.le_add_left _ _))

abbrev win8_0 : Pipeline.Window sig grid8 :=
  Pipeline.Window.ofSpec (Memref.whole main_v22) S512x1024.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v26) S512x1024.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v27) S1x1024.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v28) S1x1024.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v29) S512x1024.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

class Facts : Prop extends Facts₀ where

variable [Facts]
-- ==== ReferenceIdeal.lean ====
abbrev S1024x2048 : Shape := ⟨2, ![1024, 2048]⟩
abbrev S16x64x1024 : Shape := ⟨3, ![16, 64, 1024]⟩
abbrev S1024x1024 : Shape := ⟨2, ![1024, 1024]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S16x64x2048 : Shape := ⟨3, ![16, 64, 2048]⟩
abbrev S16x2048x2048 : Shape := ⟨3, ![16, 2048, 2048]⟩
abbrev S_ : Shape := ⟨0, ![]⟩
abbrev S2048x2048 : Shape := ⟨2, ![2048, 2048]⟩
abbrev S1x2048x2048 : Shape := ⟨3, ![1, 2048, 2048]⟩
abbrev S16x2048 : Shape := ⟨2, ![16, 2048]⟩
abbrev S16x2048x1 : Shape := ⟨3, ![16, 2048, 1]⟩
abbrev S16x2048x64 : Shape := ⟨3, ![16, 2048, 64]⟩
abbrev S2048x16x64 : Shape := ⟨3, ![2048, 16, 64]⟩
abbrev S2048x1024 : Shape := ⟨2, ![2048, 1024]⟩
abbrev S2048 : Shape := ⟨1, ![2048]⟩
abbrev S2048x1 : Shape := ⟨2, ![2048, 1]⟩
abbrev S1x1024 : Shape := ⟨2, ![1, 1024]⟩
abbrev S4096x2048 : Shape := ⟨2, ![4096, 2048]⟩
abbrev S4096x1 : Shape := ⟨2, ![4096, 1]⟩
abbrev S1024x1 : Shape := ⟨2, ![1024, 1]⟩

abbrev nBuf : Space → Nat
  | .hbm => 157
  | .vmem => 0
  | .smem => 0
  | _ => 0

abbrev hbmTy0_0 (i : Nat) : BufTy := match i % 128 with
  | 0 => ⟨S1024x2048, .f32⟩
  | 1 => ⟨S1024x2048, .f32⟩
  | 2 => ⟨S1024x2048, .f32⟩
  | 3 => ⟨S16x64x1024, .f32⟩
  | 4 => ⟨S16x64x1024, .f32⟩
  | 5 => ⟨S16x64x1024, .f32⟩
  | 6 => ⟨S1024x1024, .f32⟩
  | 7 => ⟨S4096x1024, .f32⟩
  | 8 => ⟨S4096, .f32⟩
  | 9 => ⟨S1024x4096, .f32⟩
  | 10 => ⟨S1024, .f32⟩
  | 11 => ⟨S1024, .f32⟩
  | 12 => ⟨S1024, .f32⟩
  | 13 => ⟨S16x64x2048, .f32⟩
  | 14 => ⟨S16x64x2048, .f32⟩
  | 15 => ⟨S16x64x2048, .f32⟩
  | 16 => ⟨S16x2048x2048, .f32⟩
  | 17 => ⟨S_, .f32⟩
  | 18 => ⟨S16x2048x2048, .f32⟩
  | 19 => ⟨S16x2048x2048, .f32⟩
  | 20 => ⟨S2048x2048, .i32⟩
  | 21 => ⟨S2048x2048, .i32⟩
  | 22 => ⟨S_, .i32⟩
  | 23 => ⟨S2048x2048, .i32⟩
  | 24 => ⟨S2048x2048, .i32⟩
  | 25 => ⟨S2048x2048, .i1⟩
  | 26 => ⟨S2048x2048, .f32⟩
  | 27 => ⟨S_, .f32⟩
  | 28 => ⟨S2048x2048, .f32⟩
  | 29 => ⟨S2048x2048, .f32⟩
  | 30 => ⟨S1x2048x2048, .f32⟩
  | 31 => ⟨S16x2048x2048, .f32⟩
  | 32 => ⟨S16x2048x2048, .f32⟩
  | 33 => ⟨S_, .f32⟩
  | 34 => ⟨S16x2048, .f32⟩
  | 35 => ⟨S_, .f32⟩
  | 36 => ⟨S16x2048, .f32⟩
  | 37 => ⟨S16x2048, .f32⟩
  | 38 => ⟨S16x2048x1, .f32⟩
  | 39 => ⟨S16x2048x2048, .f32⟩
  | 40 => ⟨S16x2048x2048, .f32⟩
  | 41 => ⟨S16x2048x2048, .f32⟩
  | 42 => ⟨S_, .f32⟩
  | 43 => ⟨S16x2048, .f32⟩
  | 44 => ⟨S16x2048x1, .f32⟩
  | 45 => ⟨S16x2048x2048, .f32⟩
  | 46 => ⟨S16x2048x2048, .f32⟩
  | 47 => ⟨S16x2048x64, .f32⟩
  | 48 => ⟨S2048x16x64, .f32⟩
  | 49 => ⟨S2048x1024, .f32⟩
  | 50 => ⟨S2048x1024, .f32⟩
  | 51 => ⟨S2048x1024, .f32⟩
  | 52 => ⟨S2048x1024, .f32⟩
  | 53 => ⟨S_, .f32⟩
  | 54 => ⟨S2048, .f32⟩
  | 55 => ⟨S2048x1, .f32⟩
  | 56 => ⟨S_, .f32⟩
  | 57 => ⟨S2048x1, .f32⟩
  | 58 => ⟨S2048x1, .f32⟩
  | 59 => ⟨S_, .i32⟩
  | 60 => ⟨S_, .f32⟩
  | 61 => ⟨S2048, .f32⟩
  | 62 => ⟨S2048x1, .f32⟩
  | 63 => ⟨S_, .f32⟩
  | 64 => ⟨S2048x1, .f32⟩
  | 65 => ⟨S2048x1, .f32⟩
  | 66 => ⟨S2048x1024, .f32⟩
  | 67 => ⟨S2048x1024, .f32⟩
  | 68 => ⟨S2048x1024, .f32⟩
  | 69 => ⟨S_, .f32⟩
  | 70 => ⟨S_, .f32⟩
  | 71 => ⟨S_, .f32⟩
  | 72 => ⟨S_, .f32⟩
  | 73 => ⟨S2048, .f32⟩
  | 74 => ⟨S2048x1, .f32⟩
  | 75 => ⟨S2048x1, .f32⟩
  | 76 => ⟨S2048x1, .f32⟩
  | 77 => ⟨S_, .f32⟩
  | 78 => ⟨S_, .i1⟩
  | 79 => ⟨S_, .f32⟩
  | 80 => ⟨S_, .f32⟩
  | 81 => ⟨S2048x1, .f32⟩
  | 82 => ⟨S2048x1, .f32⟩
  | 83 => ⟨S2048x1, .f32⟩
  | 84 => ⟨S2048x1024, .f32⟩
  | 85 => ⟨S2048x1024, .f32⟩
  | 86 => ⟨S_, .f32⟩
  | 87 => ⟨S2048x1, .f32⟩
  | 88 => ⟨S2048x1, .f32⟩
  | 89 => ⟨S2048x1024, .f32⟩
  | 90 => ⟨S2048x1024, .f32⟩
  | 91 => ⟨S1x1024, .f32⟩
  | 92 => ⟨S2048x1024, .f32⟩
  | 93 => ⟨S2048x1024, .f32⟩
  | 94 => ⟨S1x1024, .f32⟩
  | 95 => ⟨S2048x1024, .f32⟩
  | 96 => ⟨S2048x1024, .f32⟩
  | 97 => ⟨S1024x2048, .f32⟩
  | 98 => ⟨S4096x2048, .f32⟩
  | 99 => ⟨S4096x1, .f32⟩
  | 100 => ⟨S4096x2048, .f32⟩
  | 101 => ⟨S4096x2048, .f32⟩
  | 102 => ⟨S_, .f32⟩
  | 103 => ⟨S4096x2048, .f32⟩
  | 104 => ⟨S4096x2048, .f32⟩
  | 105 => ⟨S1024x2048, .f32⟩
  | 106 => ⟨S1024x1, .f32⟩
  | 107 => ⟨S1024x2048, .f32⟩
  | 108 => ⟨S1024x2048, .f32⟩
  | 109 => ⟨S2048x1024, .f32⟩
  | 110 => ⟨S2048x1024, .f32⟩
  | 111 => ⟨S2048x1024, .f32⟩
  | 112 => ⟨S_, .f32⟩
  | 113 => ⟨S2048, .f32⟩
  | 114 => ⟨S2048x1, .f32⟩
  | 115 => ⟨S_, .f32⟩
  | 116 => ⟨S2048x1, .f32⟩
  | 117 => ⟨S2048x1, .f32⟩
  | 118 => ⟨S_, .i32⟩
  | 119 => ⟨S_, .f32⟩
  | 120 => ⟨S2048, .f32⟩
  | 121 => ⟨S2048x1, .f32⟩
  | 122 => ⟨S_, .f32⟩
  | 123 => ⟨S2048x1, .f32⟩
  | 124 => ⟨S2048x1, .f32⟩
  | 125 => ⟨S2048x1024, .f32⟩
  | 126 => ⟨S2048x1024, .f32⟩
  | 127 => ⟨S2048x1024, .f32⟩
  | _ => ⟨S1024x2048, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S2048, .f32⟩
  | 5 => ⟨S2048x1, .f32⟩
  | 6 => ⟨S2048x1, .f32⟩
  | 7 => ⟨S2048x1, .f32⟩
  | 8 => ⟨S_, .f32⟩
  | 9 => ⟨S_, .i1⟩
  | 10 => ⟨S_, .f32⟩
  | 11 => ⟨S_, .f32⟩
  | 12 => ⟨S2048x1, .f32⟩
  | 13 => ⟨S2048x1, .f32⟩
  | 14 => ⟨S2048x1, .f32⟩
  | 15 => ⟨S2048x1024, .f32⟩
  | 16 => ⟨S2048x1024, .f32⟩
  | 17 => ⟨S_, .f32⟩
  | 18 => ⟨S2048x1, .f32⟩
  | 19 => ⟨S2048x1, .f32⟩
  | 20 => ⟨S2048x1024, .f32⟩
  | 21 => ⟨S2048x1024, .f32⟩
  | 22 => ⟨S1x1024, .f32⟩
  | 23 => ⟨S2048x1024, .f32⟩
  | 24 => ⟨S2048x1024, .f32⟩
  | 25 => ⟨S1x1024, .f32⟩
  | 26 => ⟨S2048x1024, .f32⟩
  | 27 => ⟨S2048x1024, .f32⟩
  | 28 => ⟨S1024x2048, .f32⟩
  | _ => ⟨S1024x2048, .f32⟩

abbrev hbmTy (i : Nat) : BufTy := match i / 128 with
  | 0 => hbmTy0_0 i
  | 1 => hbmTy0_1 i
  | _ => ⟨S1024x2048, .f32⟩

abbrev bufTy : (tb : Table) → Fin (tcTables nBuf tb) → BufTy
  | .hbm, ⟨i, _⟩ => hbmTy i
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_c_6 : Ref sig .tc := ⟨.hbm, 59, rfl⟩
abbrev main_call0_call0_cst : Ref sig .tc := ⟨.hbm, 60, rfl⟩
abbrev main_call0_call0_v0 : Ref sig .tc := ⟨.hbm, 61, rfl⟩
abbrev main_call0_call0_v1 : Ref sig .tc := ⟨.hbm, 62, rfl⟩
abbrev main_call0_call0_cst_0 : Ref sig .tc := ⟨.hbm, 63, rfl⟩
abbrev main_call0_call0_v2 : Ref sig .tc := ⟨.hbm, 64, rfl⟩
abbrev main_call0_call0_v3 : Ref sig .tc := ⟨.hbm, 65, rfl⟩
abbrev main_call0_call0_v4 : Ref sig .tc := ⟨.hbm, 66, rfl⟩
abbrev main_call0_call0_v5 : Ref sig .tc := ⟨.hbm, 67, rfl⟩
abbrev main_call0_call0_v6 : Ref sig .tc := ⟨.hbm, 68, rfl⟩
abbrev main_call0_call0_v7 : Ref sig .tc := ⟨.hbm, 69, rfl⟩
abbrev main_call0_call0_cst_1 : Ref sig .tc := ⟨.hbm, 70, rfl⟩
abbrev main_call0_call0_v8 : Ref sig .tc := ⟨.hbm, 71, rfl⟩
abbrev main_call0_call0_cst_2 : Ref sig .tc := ⟨.hbm, 72, rfl⟩
abbrev main_call0_call0_v9 : Ref sig .tc := ⟨.hbm, 73, rfl⟩
abbrev main_call0_call0_v10 : Ref sig .tc := ⟨.hbm, 74, rfl⟩
abbrev main_call0_call0_v11 : Ref sig .tc := ⟨.hbm, 75, rfl⟩
abbrev main_call0_call0_v12 : Ref sig .tc := ⟨.hbm, 76, rfl⟩
abbrev main_call0_call0_cst_3 : Ref sig .tc := ⟨.hbm, 77, rfl⟩
abbrev main_call0_call0_v13 : Ref sig .tc := ⟨.hbm, 78, rfl⟩
abbrev main_call0_call0_cst_4 : Ref sig .tc := ⟨.hbm, 79, rfl⟩
abbrev main_call0_call0_call0_v0 : Ref sig .tc := ⟨.hbm, 80, rfl⟩
abbrev main_call0_call0_call0_v1 : Ref sig .tc := ⟨.hbm, 81, rfl⟩
abbrev main_call0_v0 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_cst_7 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_call1_cst : Ref sig .tc := ⟨.hbm, 102, rfl⟩
abbrev main_call1_v0 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_cst_8 : Ref sig .tc := ⟨.hbm, 112, rfl⟩
abbrev main_v64 : Ref sig .tc := ⟨.hbm, 113, rfl⟩
abbrev main_v65 : Ref sig .tc := ⟨.hbm, 114, rfl⟩
abbrev main_cst_9 : Ref sig .tc := ⟨.hbm, 115, rfl⟩
abbrev main_v66 : Ref sig .tc := ⟨.hbm, 116, rfl⟩
abbrev main_v67 : Ref sig .tc := ⟨.hbm, 117, rfl⟩
abbrev main_c_10 : Ref sig .tc := ⟨.hbm, 118, rfl⟩
abbrev main_call2_call0_cst : Ref sig .tc := ⟨.hbm, 119, rfl⟩
abbrev main_call2_call0_v0 : Ref sig .tc := ⟨.hbm, 120, rfl⟩
abbrev main_call2_call0_v1 : Ref sig .tc := ⟨.hbm, 121, rfl⟩
abbrev main_call2_call0_cst_0 : Ref sig .tc := ⟨.hbm, 122, rfl⟩
abbrev main_call2_call0_v2 : Ref sig .tc := ⟨.hbm, 123, rfl⟩
abbrev main_call2_call0_v3 : Ref sig .tc := ⟨.hbm, 124, rfl⟩
abbrev main_call2_call0_v4 : Ref sig .tc := ⟨.hbm, 125, rfl⟩
abbrev main_call2_call0_v5 : Ref sig .tc := ⟨.hbm, 126, rfl⟩
abbrev main_call2_call0_v6 : Ref sig .tc := ⟨.hbm, 127, rfl⟩
abbrev main_call2_call0_v7 : Ref sig .tc := ⟨.hbm, 128, rfl⟩
abbrev main_call2_call0_cst_1 : Ref sig .tc := ⟨.hbm, 129, rfl⟩
abbrev main_call2_call0_v8 : Ref sig .tc := ⟨.hbm, 130, rfl⟩
abbrev main_call2_call0_cst_2 : Ref sig .tc := ⟨.hbm, 131, rfl⟩
abbrev main_call2_call0_v9 : Ref sig .tc := ⟨.hbm, 132, rfl⟩
abbrev main_call2_call0_v10 : Ref sig .tc := ⟨.hbm, 133, rfl⟩
abbrev main_call2_call0_v11 : Ref sig .tc := ⟨.hbm, 134, rfl⟩
abbrev main_call2_call0_v12 : Ref sig .tc := ⟨.hbm, 135, rfl⟩
abbrev main_call2_call0_cst_3 : Ref sig .tc := ⟨.hbm, 136, rfl⟩
abbrev main_call2_call0_v13 : Ref sig .tc := ⟨.hbm, 137, rfl⟩
abbrev main_call2_call0_cst_4 : Ref sig .tc := ⟨.hbm, 138, rfl⟩
abbrev main_call2_call0_call0_v0 : Ref sig .tc := ⟨.hbm, 139, rfl⟩
abbrev main_call2_call0_call0_v1 : Ref sig .tc := ⟨.hbm, 140, rfl⟩
abbrev main_call2_v0 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_cst_11 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩
abbrev main_v77 : Ref sig .tc := ⟨.hbm, 152, rfl⟩
abbrev main_v78 : Ref sig .tc := ⟨.hbm, 153, rfl⟩
abbrev main_v79 : Ref sig .tc := ⟨.hbm, 154, rfl⟩
abbrev main_v80 : Ref sig .tc := ⟨.hbm, 155, rfl⟩
abbrev main_v81 : Ref sig .tc := ⟨.hbm, 156, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S16x2048x2048_0_1_2 : S1x2048x2048.BroadcastsInDim S16x2048x2048 (![0, 1, 2] : Fin 3 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  transposes_S16x2048x64_S2048x16x64_1_0_2 : S16x2048x64.Transposes [1, 0, 2] S2048x16x64
  shapeCasts_S2048x16x64_S2048x1024 : S2048x16x64.ShapeCasts S2048x1024
  transposes_S1024x2048_S2048x1024_1_0 : S1024x2048.Transposes [1, 0] S2048x1024
  reducesTo_S2048x1024_S2048_d1 : S2048x1024.ReducesTo [1] S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x1024_0_1 : S2048x1.BroadcastsInDim S2048x1024 (![0, 1] : Fin 2 → Fin S2048x1024.rank)
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  transposes_S2048x1024_S1024x2048_1_0 : S2048x1024.Transposes [1, 0] S1024x2048
  bcast_S4096_S4096x1_0 : S4096.BroadcastsInDim S4096x1 (![0] : Fin 1 → Fin S4096x1.rank)
  bcast_S4096x1_S4096x2048_0_1 : S4096x1.BroadcastsInDim S4096x2048 (![0, 1] : Fin 2 → Fin S4096x2048.rank)
  bcast_S_S4096x2048 : S_.BroadcastsInDim S4096x2048 (![] : Fin 0 → Fin S4096x2048.rank)
  bcast_S1024_S1024x1_0 : S1024.BroadcastsInDim S1024x1 (![0] : Fin 1 → Fin S1024x1.rank)
  bcast_S1024x1_S1024x2048_0_1 : S1024x1.BroadcastsInDim S1024x2048 (![0, 1] : Fin 2 → Fin S1024x2048.rank)
  dot_S16x64x1024_S1024x2048_S16x64x2048_2_0_01_1_n_n_wf : DotDims.WF S16x64x1024 S1024x2048 S16x64x2048 [2] [0] [0, 1] [1] [] []
  dot_S16x64x2048_S16x64x2048_S16x2048x2048_1_1_2_2_0_0_wf : DotDims.WF S16x64x2048 S16x64x2048 S16x2048x2048 [1] [1] [2] [2] [0] [0]
  dot_S16x2048x2048_S16x64x2048_S16x2048x64_2_2_1_1_0_0_wf : DotDims.WF S16x2048x2048 S16x64x2048 S16x2048x64 [2] [2] [1] [1] [0] [0]
  dot_S2048x1024_S1024x1024_S2048x1024_1_0_0_1_n_n_wf : DotDims.WF S2048x1024 S1024x1024 S2048x1024 [1] [0] [0] [1] [] []
  dot_S4096x1024_S1024x2048_S4096x2048_1_0_0_1_n_n_wf : DotDims.WF S4096x1024 S1024x2048 S4096x2048 [1] [0] [0] [1] [] []
  dot_S1024x4096_S4096x2048_S1024x2048_1_0_0_1_n_n_wf : DotDims.WF S1024x4096 S4096x2048 S1024x2048 [1] [0] [0] [1] [] []

variable [Facts₀]

def dot_S16x64x1024_S1024x2048_S16x64x2048_2_0_01_1_n_n : DotDims S16x64x1024 S1024x2048 S16x64x2048 where
  lhsContracting := [2]
  rhsContracting := [0]
  lhsNonContracting := [0, 1]
  rhsNonContracting := [1]
  lhsBatch := []
  rhsBatch := []
  wf := dot_S16x64x1024_S1024x2048_S16x64x2048_2_0_01_1_n_n_wf
def dot_S16x64x2048_S16x64x2048_S16x2048x2048_1_1_2_2_0_0 : DotDims S16x64x2048 S16x64x2048 S16x2048x2048 where
  lhsContracting := [1]
  rhsContracting := [1]
  lhsNonContracting := [2]
  rhsNonContracting := [2]
  lhsBatch := [0]
  rhsBatch := [0]
  wf := dot_S16x64x2048_S16x64x2048_S16x2048x2048_1_1_2_2_0_0_wf
def dot_S16x2048x2048_S16x64x2048_S16x2048x64_2_2_1_1_0_0 : DotDims S16x2048x2048 S16x64x2048 S16x2048x64 where
  lhsContracting := [2]
  rhsContracting := [2]
  lhsNonContracting := [1]
  rhsNonContracting := [1]
  lhsBatch := [0]
  rhsBatch := [0]
  wf := dot_S16x2048x2048_S16x64x2048_S16x2048x64_2_2_1_1_0_0_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S4096x1024_S1024x2048_S4096x2048_1_0_0_1_n_n : DotDims S4096x1024 S1024x2048 S4096x2048 where
  lhsContracting := [1]
  rhsContracting := [0]
  lhsNonContracting := [0]
  rhsNonContracting := [1]
  lhsBatch := []
  rhsBatch := []
  wf := dot_S4096x1024_S1024x2048_S4096x2048_1_0_0_1_n_n_wf
def dot_S1024x4096_S4096x2048_S1024x2048_1_0_0_1_n_n : DotDims S1024x4096 S4096x2048 S1024x2048 where
  lhsContracting := [1]
  rhsContracting := [0]
  lhsNonContracting := [0]
  rhsNonContracting := [1]
  lhsBatch := []
  rhsBatch := []
  wf := dot_S1024x4096_S4096x2048_S1024x2048_1_0_0_1_n_n_wf

class Facts : Prop extends Facts₀ where

variable [Facts]
-- ==== Proof.KI.Base.lean ====
import proofs.«176467_j34754875359699_1_alg».proof.Proof.Gen.KernelIdeal.Launch
import proofs.«176467_j34754875359699_1_alg».proof.Proof.Gen.KernelIdeal.Skeleton
import proofs.«176467_j34754875359699_1_alg».proof.Proof.Gen.KernelIdeal.Points
import proofs.«176467_j34754875359699_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
-- ==== Proof.KI.Dat0.lean ====
import proofs.«176467_j34754875359699_1_alg».proof.Proof.KI.Base

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev scM0 : Memref sig .tc .vmem S512x512 .f32 := Memref.whole cc0_scratch0

-- The accumulator after position n: this point's partial product added to zero at an even position, to the previous position's sum at an odd one.
def acc0 (c : Dev nD) : (n : ℕ) → n < cfg0.N → Vec F S512x512 .f32
  | 0, hn => k0_pay2 (iblk0 V c 0 ⟨0, hn⟩) (iblk0 V c 1 ⟨0, hn⟩) k0_pay1
  | n + 1, hn =>
    if (n + 1) % 2 = 0 then
      k0_pay2 (iblk0 V c 0 ⟨n + 1, hn⟩) (iblk0 V c 1 ⟨n + 1, hn⟩) k0_pay1
    else
      k0_pay2 (iblk0 V c 0 ⟨n + 1, hn⟩) (iblk0 V c 1 ⟨n + 1, hn⟩) (acc0 c n (Nat.lt_of_succ_lt hn))

theorem acc0_even (c : Dev nD) (n : ℕ) (hn : n < cfg0.N) (h : n % 2 = 0) :
    acc0 V c n hn = k0_pay2 (iblk0 V c 0 ⟨n, hn⟩) (iblk0 V c 1 ⟨n, hn⟩) k0_pay1 := by
  cases n with
  | zero => rfl
  | succ n => exact if_pos h

theorem acc0_odd (c : Dev nD) (n : ℕ) (hn : n < cfg0.N) (h : n % 2 = 1) :
    acc0 V c n hn = k0_pay2 (iblk0 V c 0 ⟨n, hn⟩) (iblk0 V c 1 ⟨n, hn⟩)
      (acc0 V c (n - 1) (Nat.lt_of_le_of_lt (Nat.sub_le _ _) hn)) := by
  cases n with
  | zero => exact absurd h (by decide)
  | succ n => exact (if_neg (by omega)).trans rfl

theorem acc0_first (c : Dev nD) (t : Fin cfg0.N) (h : t.val % 2 = 0) :
    acc0 V c t.val t.isLt = k0_pay2 (iblk0 V c 0 t) (iblk0 V c 1 t) k0_pay1 :=
  acc0_even V c t.val t.isLt h
theorem acc0_last (c : Dev nD) (t : Fin cfg0.N) (h : t.val % 2 = 1) :
    acc0 V c t.val t.isLt = k0_pay2 (iblk0 V c 0 t) (iblk0 V c 1 t)
      (acc0 V c (t.val - 1) (Nat.lt_of_le_of_lt (Nat.sub_le _ _) t.isLt)) :=
  acc0_odd V c t.val t.isLt h

-- The output block at an odd position: the finished sum with the bias row added.
def out0 (c : Dev nD) (t : Fin cfg0.N) : Vec F S512x512 .f32 :=
  k0_pay3 (acc0 V c t.val t.isLt) (iblk0 V c 2 t)

-- Carried between points: the scratch holds the sum the point before left; before the first point it holds anything.
def Phi0 (c : Dev nD) : (n : ℕ) → n ≤ cfg0.N → sProp 𝕄
  | 0, _ => Pipeline.ΦA spec0 c
  | n + 1, hn => iprop(iprop(owns (c : Thread nD τ) scM0 fullShare (acc0 V c n hn)
      ∗ Pipeline.scopedRestBut (Ix := Unit) (Name := ℕ) (U := UR sig nD τ) (Lvl := ℕ) (Val := Elt F) spec0 c [cc0_scratch0])
      ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(iprop(owns (c : Thread nD τ) scM0 fullShare (acc0 V c n hn)
      ∗ Pipeline.scopedRestBut (Ix := Unit) (Name := ℕ) (U := UR sig nD τ) (Lvl := ℕ) (Val := Elt F) spec0 c [cc0_scratch0])
      ∗ (∃ r, prngReg c r)) := rfl

theorem Phi0_pos (c : Dev nD) (n : ℕ) (h : n ≤ cfg0.N) (hz : n ≠ 0) :
    Phi0 V c n h = iprop(iprop(owns (c : Thread nD τ) scM0 fullShare (acc0 V c (n - 1) (by omega))
      ∗ Pipeline.scopedRestBut (Ix := Unit) (Name := ℕ) (U := UR sig nD τ) (Lvl := ℕ) (Val := Elt F) spec0 c [cc0_scratch0])
      ∗ (∃ r, prngReg c r)) := by
  cases n with
  | zero => exact absurd rfl hz
  | succ n => rfl

theorem PhiA0_eq (c : Dev nD) :
    (Pipeline.ΦA spec0 c : sProp 𝕄)
      = iprop(iprop((∃ d, owns (c : Thread nD τ) scM0 fullShare d)
          ∗ Pipeline.scopedRestBut (Ix := Unit) (Name := ℕ) (U := UR sig nD τ) (Lvl := ℕ) (Val := Elt F) spec0 c [cc0_scratch0])
          ∗ (∃ r, prngReg c r)) := by
  unfold Pipeline.ΦA; rw [scopedRest0_split]; simp only [scM0, owns_whole]; rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 V c t
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem q_eq0 (c : Dev nD) (w : Fin cfg0.W) : (dat0 V c).q w = fullShare := by
  dsimp only [dat0]

theorem owed_eq0 (c : Dev nD) (t : Fin (cfg0.N + 1)) : (dat0 V c).owed t = 0 := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 V c t := by dsimp only [dat0]

theorem Phi_eq0 (c : Dev nD) (t : Fin (cfg0.N + 1)) :
    (dat0 V c).Φ t = Phi0 V c t.val (Nat.le_of_lt_succ t.isLt) := by dsimp only [dat0]

theorem recorded_eq0 (c : Dev nD) (t : Fin (cfg0.N + 1)) : (dat0 V c).recorded t = Set.univ := rfl

end Cert.KernelIdeal.Hand

end
-- ==== Proof.KI.Reg0.lean ====
import proofs.«176467_j34754875359699_1_alg».proof.Proof.KI.Dat0
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

abbrev cond0_0 (i : grid0.Coords) : Prop :=
  (Scalar.cmpi .ne (Scalar.extui (Scalar.cmpi .eq (BitVec.ofNat 32 (i 2).val) 0#32)) 0#32) = 1#1

theorem hcond0_0 : ∀ t : Fin cfg0.N, cond0_0 (grid0.coords t) ↔ t.val % 2 = 0 :=
  (by decide +kernel : ∀ t : Fin grid0.N, cond0_0 (grid0.coords t) ↔ t.val % 2 = 0)

abbrev cond0_1 (i : grid0.Coords) : Prop := k0_cond2 i = 1#1

theorem hcond0_1 : ∀ t : Fin cfg0.N, cond0_1 (grid0.coords t) ↔ t.val % 2 = 1 :=
  (by decide +kernel : ∀ t : Fin grid0.N, cond0_1 (grid0.coords t) ↔ t.val % 2 = 1)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl

theorem idleAt0_3_first : ∀ t : Fin cfg0.N, t.val % 2 = 0 → cfg0.idle 3 (grid0.coords t) = true :=
  (by decide +kernel : ∀ t : Fin grid0.N, t.val % 2 = 0 → cfg0.idle 3 (grid0.coords t) = true)
theorem noFlush0_3_first (t : Fin cfg0.N) (h : t.val % 2 = 0) : (cfg0.win 3).flush t = false := by
  cases hf : (cfg0.win 3).flush t with
  | false => rfl
  | true => have := (flush0_3 t).mp hf; omega

theorem liveAt0_3_last : ∀ t : Fin cfg0.N, t.val % 2 = 1 → cfg0.idle 3 (grid0.coords t) = false :=
  (by decide +kernel : ∀ t : Fin grid0.N, t.val % 2 = 1 → cfg0.idle 3 (grid0.coords t) = false)

theorem hz0 : (![0, 0] : Fin 2 → Nat) = fun _ => 0 := funext fun a => by fin_cases a <;> rfl

set_option maxHeartbeats 1000000 in

-- First half of the contracted axis: the body clears the scratch, adds the first partial product and leaves the output block alone.
theorem sound_kernel0_first (c : Dev nD) (E : Set ℕ) (i : grid0.Coords)
    (arg3 : Memref sig .tc .vmem S512x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S512x512 .f32) (harg6 : arg6.IsWhole)
    (arg7 : Memref sig .tc .vmem S512x512 .f32) (harg7 : arg7.IsWhole)
    (hc0 : cond0_0 i) (hc1 : ¬cond0_1 i)
    (a b : Vec F S512x512 .f32) (bias : Vec F S1x512 .f32) (o : Vec F S512x512 .f32) (K : PUnit → sProp 𝕄) :
    iprop(owns (c : Thread nD τ) arg3 fullShare a ∗ owns (c : Thread nD τ) arg4 fullShare b ∗ owns (c : Thread nD τ) arg5 fullShare bias
        ∗ owns (c : Thread nD τ) arg6 fullShare o ∗ (∃ d, owns (c : Thread nD τ) arg7 fullShare d)
        ∗ (iprop(owns (c : Thread nD τ) arg3 fullShare a ∗ owns (c : Thread nD τ) arg4 fullShare b ∗ owns (c : Thread nD τ) arg5 fullShare bias
            ∗ owns (c : Thread nD τ) arg6 fullShare o ∗ owns (c : Thread nD τ) arg7 fullShare (k0_pay2 a b k0_pay1)) -∗ K ⟨⟩))
      ⊢ wp frame (wpE (defs₀ (F := F)) Variants.none c none) E (cc0__matmul_nt_kernel i arg3 harg3 arg4 harg4 arg5 harg5 arg6 harg6 arg7 harg7) K := by
  simp only [cc0__matmul_nt_kernel_eq_skeleton]; unfold cc0__matmul_nt_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  sl_unfold_run_names
  rw [View.read_writes_eq_canon _ _ _ (fun y => ⟨_, List.mem_cons.mpr (Or.inl rfl), View.mem_set_unit_zero hz0 inb_S512x512_S512x512_0_0 y⟩), View.canon_cons_unit_zero hz0]
  simp only [View.readAt_eq_ld, View.ld_unit_zero (S := S512x512) hz0, View.ld_unit_zero (S := S1x512) hz0,
    View.readCov_unit_zero (S := S512x512) _ hz0]

set_option maxHeartbeats 1000000 in

-- Second half: the body adds the second partial product to the carried sum and stores the finished block.
theorem sound_kernel0_last (c : Dev nD) (E : Set ℕ) (i : grid0.Coords)
    (arg3 : Memref sig .tc .vmem S512x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S512x512 .f32) (harg6 : arg6.IsWhole)
    (arg7 : Memref sig .tc .vmem S512x512 .f32) (harg7 : arg7.IsWhole)
    (hc0 : ¬cond0_0 i) (hc1 : cond0_1 i)
    (a b : Vec F S512x512 .f32) (bias : Vec F S1x512 .f32) (s : Vec F S512x512 .f32) (K : PUnit → sProp 𝕄) :
    iprop(owns (c : Thread nD τ) arg3 fullShare a ∗ owns (c : Thread nD τ) arg4 fullShare b ∗ owns (c : Thread nD τ) arg5 fullShare bias
        ∗ (∃ d, owns (c : Thread nD τ) arg6 fullShare d) ∗ owns (c : Thread nD τ) arg7 fullShare s
        ∗ (iprop(owns (c : Thread nD τ) arg3 fullShare a ∗ owns (c : Thread nD τ) arg4 fullShare b ∗ owns (c : Thread nD τ) arg5 fullShare bias
            ∗ owns (c : Thread nD τ) arg6 fullShare (k0_pay3 (k0_pay2 a b s) bias) ∗ owns (c : Thread nD τ) arg7 fullShare (k0_pay2 a b s)) -∗ K ⟨⟩))
      ⊢ wp frame (wpE (defs₀ (F := F)) Variants.none c none) E (cc0__matmul_nt_kernel i arg3 harg3 arg4 harg4 arg5 harg5 arg6 harg6 arg7 harg7) K := by
  simp only [cc0__matmul_nt_kernel_eq_skeleton]; unfold cc0__matmul_nt_kernel_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0; subst hf1; subst hf2; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    rw [View.read_writes_eq_canon _ _ _ (fun y => ⟨_, List.mem_cons.mpr (Or.inl rfl), View.mem_set_unit_zero hz0 inb_S512x512_S512x512_0_0 y⟩), View.canon_cons_unit_zero hz0]
    simp only [View.readAt_eq_ld, View.ld_unit_zero (S := S512x512) hz0, View.ld_unit_zero (S := S1x512) hz0,
      View.readCov_unit_zero (S := S512x512) _ hz0]
  iexists _; isplitr
  swap; · iexact H4
  ipureintro
  sl_unfold_run_names
  rw [View.read_writes_eq_canon _ _ _ (fun y => ⟨_, List.mem_cons.mpr (Or.inl rfl), View.mem_set_unit_zero hz0 inb_S512x512_S512x512_0_0 y⟩), View.canon_cons_unit_zero hz0]
  simp only [View.readAt_eq_ld, View.ld_unit_zero (S := S512x512) hz0, View.ld_unit_zero (S := S1x512) hz0,
    View.readCov_unit_zero (S := S512x512) _ hz0]

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 2000000 in

-- One grid point: from the blocks of its inputs to the blocks the proof data names after it, by the parity of the position.
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Phi0 V c (t.val + 1) t.isLt from rfl, Phi0_succ]
  rw [show (dat0 V c).Φ t.castSucc = Phi0 V c t.val (Nat.le_of_lt t.isLt) from rfl]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  by_cases h0 : t.val % 2 = 0
  · have hc0 : cond0_0 (grid0.coords t) := (hcond0_0 t).mpr h0
    have hc1 : ¬cond0_1 (grid0.coords t) := fun h => by have := (hcond0_1 t).mp h; omega
    rw [Dat.leavesExact_idle (dat0 V c) 3 t (idleAt0_3_first t h0) (noFlush0_3_first t h0)]
    rw [acc0_first V c t h0]
    by_cases hz : t.val = 0
    · rw [Phi0_zero V c _ _ hz, PhiA0_eq]
      iintro ⟨⟨⟨HS, Hrest⟩, Hg⟩, Ho, ⟨%d0, H0⟩, ⟨%d1, H1⟩, ⟨%d2, H2⟩, ⟨%d3, H3⟩⟩
      iapply (sound_kernel0_first c Set.univ (grid0.coords t) _ _ _ _ _ _ _ _ _ _ hc0 hc1
        (iblk0 V c 0 t) (iblk0 V c 1 t) (iblk0 V c 2 t) ((dat0 V c).before 3 t d3) _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3
    · rw [Phi0_pos V c _ _ hz]
      iintro ⟨⟨⟨HS, Hrest⟩, Hg⟩, Ho, ⟨%d0, H0⟩, ⟨%d1, H1⟩, ⟨%d2, H2⟩, ⟨%d3, H3⟩⟩
      iapply (sound_kernel0_first c Set.univ (grid0.coords t) _ _ _ _ _ _ _ _ _ _ hc0 hc1
        (iblk0 V c 0 t) (iblk0 V c 1 t) (iblk0 V c 2 t) ((dat0 V c).before 3 t d3) _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3
  · have h1 : t.val % 2 = 1 := by omega
    have hz : t.val ≠ 0 := by omega
    have hc0 : ¬cond0_0 (grid0.coords t) := fun h => h0 ((hcond0_0 t).mp h)
    have hc1 : cond0_1 (grid0.coords t) := (hcond0_1 t).mpr h1
    rw [show (dat0 V c).leavesExact 3 t = owns (c : Thread nD τ) (st0_3 t) fullShare ((dat0 V c).after 3 t) from by
      unfold Dat.leavesExact; rw [liveAt0_3_last t h1], after0_3]
    unfold out0
    rw [acc0_last V c t h1, Phi0_pos V c _ _ hz]
    iintro ⟨⟨⟨HS, Hrest⟩, Hg⟩, Ho, ⟨%d0, H0⟩, ⟨%d1, H1⟩, ⟨%d2, H2⟩, ⟨%d3, H3⟩⟩
    iapply (sound_kernel0_last c Set.univ (grid0.coords t) _ _ _ _ _ _ _ _ _ _ hc0 hc1
      (iblk0 V c 0 t) (iblk0 V c 1 t) (iblk0 V c 2 t) (acc0 V c (t.val - 1) (Nat.lt_of_le_of_lt (Nat.sub_le _ _) t.isLt)) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = Phi0 V c 0 (Nat.zero_le _) from rfl, Phi0_zero V c 0 _ rfl]

theorem Phi_out0 (c : Dev nD) (t : Fin (cfg0.N + 1)) (ht : t.val ≠ 0) : (dat0 V c).Φ t ⊢ Pipeline.ΦA spec0 c := by
  rw [Phi_eq0, Phi0_pos V c _ _ ht, PhiA0_eq]
  iintro ⟨⟨HS, Hrest⟩, Hg⟩
  isplitl [HS Hrest]
  · isplitl [HS]; · iexists _; iexact HS
    iexact Hrest
  iexact Hg

theorem hout0 (c : Dev nD) : (dat0 V c).Φ (Fin.last cfg0.N) ⊢ Pipeline.ΦA spec0 c :=
  Phi_out0 V c _ (by rw [Fin.val_last]; have : cfg0.N = 16 := N_0; omega)

end Cert.KernelIdeal.Hand

end
-- ==== Proof.KI.Dat1.lean ====
import proofs.«176467_j34754875359699_1_alg».proof.Proof.KI.Base

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev scM1 : Memref sig .tc .vmem S512x512 .f32 := Memref.whole cc1_scratch0

-- The accumulator after position n: this point's partial product added to zero at an even position, to the previous position's sum at an odd one.
def acc1 (c : Dev nD) : (n : ℕ) → n < cfg1.N → Vec F S512x512 .f32
  | 0, hn => k0_pay2 (iblk1 V c 0 ⟨0, hn⟩) (iblk1 V c 1 ⟨0, hn⟩) k0_pay1
  | n + 1, hn =>
    if (n + 1) % 2 = 0 then
      k0_pay2 (iblk1 V c 0 ⟨n + 1, hn⟩) (iblk1 V c 1 ⟨n + 1, hn⟩) k0_pay1
    else
      k0_pay2 (iblk1 V c 0 ⟨n + 1, hn⟩) (iblk1 V c 1 ⟨n + 1, hn⟩) (acc1 c n (Nat.lt_of_succ_lt hn))

theorem acc1_even (c : Dev nD) (n : ℕ) (hn : n < cfg1.N) (h : n % 2 = 0) :
    acc1 V c n hn = k0_pay2 (iblk1 V c 0 ⟨n, hn⟩) (iblk1 V c 1 ⟨n, hn⟩) k0_pay1 := by
  cases n with
  | zero => rfl
  | succ n => exact if_pos h

theorem acc1_odd (c : Dev nD) (n : ℕ) (hn : n < cfg1.N) (h : n % 2 = 1) :
    acc1 V c n hn = k0_pay2 (iblk1 V c 0 ⟨n, hn⟩) (iblk1 V c 1 ⟨n, hn⟩)
      (acc1 V c (n - 1) (Nat.lt_of_le_of_lt (Nat.sub_le _ _) hn)) := by
  cases n with
  | zero => exact absurd h (by decide)
  | succ n => exact (if_neg (by omega)).trans rfl

theorem acc1_first (c : Dev nD) (t : Fin cfg1.N) (h : t.val % 2 = 0) :
    acc1 V c t.val t.isLt = k0_pay2 (iblk1 V c 0 t) (iblk1 V c 1 t) k0_pay1 :=
  acc1_even V c t.val t.isLt h
theorem acc1_last (c : Dev nD) (t : Fin cfg1.N) (h : t.val % 2 = 1) :
    acc1 V c t.val t.isLt = k0_pay2 (iblk1 V c 0 t) (iblk1 V c 1 t)
      (acc1 V c (t.val - 1) (Nat.lt_of_le_of_lt (Nat.sub_le _ _) t.isLt)) :=
  acc1_odd V c t.val t.isLt h

-- The output block at an odd position: the finished sum with the bias row added.
def out1 (c : Dev nD) (t : Fin cfg1.N) : Vec F S512x512 .f32 :=
  k0_pay3 (acc1 V c t.val t.isLt) (iblk1 V c 2 t)

-- Carried between points: the scratch holds the sum the point before left; before the first point it holds anything.
def Phi1 (c : Dev nD) : (n : ℕ) → n ≤ cfg1.N → sProp 𝕄
  | 0, _ => Pipeline.ΦA spec1 c
  | n + 1, hn => iprop(iprop(owns (c : Thread nD τ) scM1 fullShare (acc1 V c n hn)
      ∗ Pipeline.scopedRestBut (Ix := Unit) (Name := ℕ) (U := UR sig nD τ) (Lvl := ℕ) (Val := Elt F) spec1 c [cc1_scratch0])
      ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(iprop(owns (c : Thread nD τ) scM1 fullShare (acc1 V c n hn)
      ∗ Pipeline.scopedRestBut (Ix := Unit) (Name := ℕ) (U := UR sig nD τ) (Lvl := ℕ) (Val := Elt F) spec1 c [cc1_scratch0])
      ∗ (∃ r, prngReg c r)) := rfl

theorem Phi1_pos (c : Dev nD) (n : ℕ) (h : n ≤ cfg1.N) (hz : n ≠ 0) :
    Phi1 V c n h = iprop(iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0])
      ∗ (∃ r, prngReg c r)) := by
  cases n with
  | zero => exact absurd rfl hz
  | succ n => rfl

theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA; rw [scopedRest1_split]; simp only [scM1, owns_whole]; rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem q_eq1 (c : Dev nD) (w : Fin cfg1.W) : (dat1 V c).q w = fullShare := by
  dsimp only [dat1]

theorem owed_eq1 (c : Dev nD) (t : Fin (cfg1.N + 1)) : (dat1 V c).owed t = 0 := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1 V c t := by dsimp only [dat1]

theorem Phi_eq1 (c : Dev nD) (t : Fin (cfg1.N + 1)) :
    (dat1 V c).Φ t = Phi1 V c t.val (Nat.le_of_lt_succ t.isLt) := by dsimp only [dat1]

theorem recorded_eq1 (c : Dev nD) (t : Fin (cfg1.N + 1)) : (dat1 V c).recorded t = Set.univ := rfl

end Cert.KernelIdeal.Hand

end
-- ==== Proof.KI.Reg1.lean ====
import proofs.«176467_j34754875359699_1_alg».proof.Proof.KI.Dat1
import proofs.«176467_j34754875359699_1_alg».proof.Proof.KI.Reg0
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

abbrev cond1_0 (i : grid1.Coords) : Prop :=
  (Scalar.cmpi .ne (Scalar.extui (Scalar.cmpi .eq (BitVec.ofNat 32 (i 2).val) 0#32)) 0#32) = 1#1

theorem hcond1_0 : ∀ t : Fin cfg1.N, cond1_0 (grid1.coords t) ↔ t.val % 2 = 0 :=
  (by decide +kernel : ∀ t : Fin grid1.N, cond1_0 (grid1.coords t) ↔ t.val % 2 = 0)

abbrev cond1_1 (i : grid1.Coords) : Prop := k1_cond2 i = 1#1

theorem hcond1_1 : ∀ t : Fin cfg1.N, cond1_1 (grid1.coords t) ↔ t.val % 2 = 1 :=
  (by decide +kernel : ∀ t : Fin grid1.N, cond1_1 (grid1.coords t) ↔ t.val % 2 = 1)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl

theorem idleAt1_3_first : ∀ t : Fin cfg1.N, t.val % 2 = 0 → cfg1.idle 3 (grid1.coords t) = true :=
  (by decide +kernel : ∀ t : Fin grid1.N, t.val % 2 = 0 → cfg1.idle 3 (grid1.coords t) = true)
theorem noFlush1_3_first (t : Fin cfg1.N) (h : t.val % 2 = 0) : (cfg1.win 3).flush t = false := by
  cases hf : (cfg1.win 3).flush t with
  | false => rfl
  | true => have := (flush1_3 t).mp hf; omega

theorem liveAt1_3_last : ∀ t : Fin cfg1.N, t.val % 2 = 1 → cfg1.idle 3 (grid1.coords t) = false :=
  (by decide +kernel : ∀ t : Fin grid1.N, t.val % 2 = 1 → cfg1.idle 3 (grid1.coords t) = false)

-- Region 1 runs region 0's kernel function on its own buffers, so region 0's two body lemmas serve it.
theorem cc1_eq : cc1__matmul_nt_kernel (F := F) = cc0__matmul_nt_kernel (F := F) := rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 2000000 in

-- One grid point: from the blocks of its inputs to the blocks the proof data names after it, by the parity of the position.
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [cc1_eq]
  simp only [before1_0, before1_1, before1_2]
  rw [show (dat1 V c).owesAt () t.succ = (dat1 V c).owesAt () t.castSucc from rfl]
  rw [show (dat1 V c).Φ t.succ = Phi1 V c (t.val + 1) t.isLt from rfl, Phi1_succ]
  rw [show (dat1 V c).Φ t.castSucc = Phi1 V c t.val (Nat.le_of_lt t.isLt) from rfl]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  by_cases h0 : t.val % 2 = 0
  · have hc0 : cond1_0 (grid1.coords t) := (hcond1_0 t).mpr h0
    have hc1 : ¬cond1_1 (grid1.coords t) := fun h => by have := (hcond1_1 t).mp h; omega
    rw [Dat.leavesExact_idle (dat1 V c) 3 t (idleAt1_3_first t h0) (noFlush1_3_first t h0)]
    rw [acc1_first V c t h0]
    by_cases hz : t.val = 0
    · rw [Phi1_zero V c _ _ hz, PhiA1_eq]
      iintro ⟨⟨⟨HS, Hrest⟩, Hg⟩, Ho, ⟨%d0, H0⟩, ⟨%d1, H1⟩, ⟨%d2, H2⟩, ⟨%d3, H3⟩⟩
      iapply (sound_kernel0_first c Set.univ (grid1.coords t) _ _ _ _ _ _ _ _ _ _ hc0 hc1
        (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3
    · rw [Phi1_pos V c _ _ hz]
      iintro ⟨⟨⟨HS, Hrest⟩, Hg⟩, Ho, ⟨%d0, H0⟩, ⟨%d1, H1⟩, ⟨%d2, H2⟩, ⟨%d3, H3⟩⟩
      iapply (sound_kernel0_first c Set.univ (grid1.coords t) _ _ _ _ _ _ _ _ _ _ hc0 hc1
        (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3
  · have h1 : t.val % 2 = 1 := by omega
    have hz : t.val ≠ 0 := by omega
    have hc0 : ¬cond1_0 (grid1.coords t) := fun h => h0 ((hcond1_0 t).mp h)
    have hc1 : cond1_1 (grid1.coords t) := (hcond1_1 t).mpr h1
    rw [show (dat1 V c).leavesExact 3 t = owns (c : Thread nD τ) (st1_3 t) fullShare ((dat1 V c).after 3 t) from by
      unfold Dat.leavesExact; rw [liveAt1_3_last t h1], after1_3]
    unfold out1
    rw [acc1_last V c t h1, Phi1_pos V c _ _ hz]
    iintro ⟨⟨⟨HS, Hrest⟩, Hg⟩, Ho, ⟨%d0, H0⟩, ⟨%d1, H1⟩, ⟨%d2, H2⟩, ⟨%d3, H3⟩⟩
    iapply (sound_kernel0_last c Set.univ (grid1.coords t) _ _ _ _ _ _ _ _ _ _ hc0 hc1
      (iblk1 V c 0 t) (iblk1 V c 1 t) (iblk1 V c 2 t) (acc1 V c (t.val - 1) (Nat.lt_of_le_of_lt (Nat.sub_le _ _) t.isLt)) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = Phi1 V c 0 (Nat.zero_le _) from rfl, Phi1_zero V c 0 _ rfl]

theorem Phi_out1 (c : Dev nD) (t : Fin (cfg1.N + 1)) (ht : t.val ≠ 0) : (dat1 V c).Φ t ⊢ Pipeline.ΦA spec1 c := by
  rw [Phi_eq1, Phi1_pos V c _ _ ht, PhiA1_eq]
  iintro ⟨⟨HS, Hrest⟩, Hg⟩
  isplitl [HS Hrest]
  · isplitl [HS]; · iexists _; iexact HS
    iexact Hrest
  iexact Hg

theorem hout1 (c : Dev nD) : (dat1 V c).Φ (Fin.last cfg1.N) ⊢ Pipeline.ΦA spec1 c :=
  Phi_out1 V c _ (by rw [Fin.val_last]; have : cfg1.N = 16 := N_1; omega)

end Cert.KernelIdeal.Hand

end
-- ==== Proof.KI.Dat2.lean ====
import proofs.«176467_j34754875359699_1_alg».proof.Proof.KI.Base

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev scM2 : Memref sig .tc .vmem S512x512 .f32 := Memref.whole cc2_scratch0

-- The accumulator after position n: this point's partial product added to zero at an even position, to the previous position's sum at an odd one.
def acc2 (c : Dev nD) : (n : ℕ) → n < cfg2.N → Vec F S512x512 .f32
  | 0, hn => k0_pay2 (iblk2 V c 0 ⟨0, hn⟩) (iblk2 V c 1 ⟨0, hn⟩) k0_pay1
  | n + 1, hn =>
    if (n + 1) % 2 = 0 then
      k0_pay2 (iblk2 V c 0 ⟨n + 1, hn⟩) (iblk2 V c 1 ⟨n + 1, hn⟩) k0_pay1
    else
      k0_pay2 (iblk2 V c 0 ⟨n + 1, hn⟩) (iblk2 V c 1 ⟨n + 1, hn⟩) (acc2 c n (Nat.lt_of_succ_lt hn))

theorem acc2_even (c : Dev nD) (n : ℕ) (hn : n < cfg2.N) (h : n % 2 = 0) :
    acc2 V c n hn = k0_pay2 (iblk2 V c 0 ⟨n, hn⟩) (iblk2 V c 1 ⟨n, hn⟩) k0_pay1 := by
  cases n with
  | zero => rfl
  | succ n => exact if_pos h

theorem acc2_odd (c : Dev nD) (n : ℕ) (hn : n < cfg2.N) (h : n % 2 = 1) :
    acc2 V c n hn = k0_pay2 (iblk2 V c 0 ⟨n, hn⟩) (iblk2 V c 1 ⟨n, hn⟩)
      (acc2 V c (n - 1) (Nat.lt_of_le_of_lt (Nat.sub_le _ _) hn)) := by
  cases n with
  | zero => exact absurd h (by decide)
  | succ n => exact (if_neg (by omega)).trans rfl

theorem acc2_first (c : Dev nD) (t : Fin cfg2.N) (h : t.val % 2 = 0) :
    acc2 V c t.val t.isLt = k0_pay2 (iblk2 V c 0 t) (iblk2 V c 1 t) k0_pay1 :=
  acc2_even V c t.val t.isLt h
theorem acc2_last (c : Dev nD) (t : Fin cfg2.N) (h : t.val % 2 = 1) :
    acc2 V c t.val t.isLt = k0_pay2 (iblk2 V c 0 t) (iblk2 V c 1 t)
      (acc2 V c (t.val - 1) (Nat.lt_of_le_of_lt (Nat.sub_le _ _) t.isLt)) :=
  acc2_odd V c t.val t.isLt h

-- The output block at an odd position: the finished sum with the bias row added.
def out2 (c : Dev nD) (t : Fin cfg2.N) : Vec F S512x512 .f32 :=
  k0_pay3 (acc2 V c t.val t.isLt) (iblk2 V c 2 t)

-- Carried between points: the scratch holds the sum the point before left; before the first point it holds anything.
def Phi2 (c : Dev nD) : (n : ℕ) → n ≤ cfg2.N → sProp 𝕄
  | 0, _ => Pipeline.ΦA spec2 c
  | n + 1, hn => iprop(iprop(owns (c : Thread nD τ) scM2 fullShare (acc2 V c n hn)
      ∗ Pipeline.scopedRestBut (Ix := Unit) (Name := ℕ) (U := UR sig nD τ) (Lvl := ℕ) (Val := Elt F) spec2 c [cc2_scratch0])
      ∗ (∃ r, prngReg c r))

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(iprop(owns (c : Thread nD τ) scM2 fullShare (acc2 V c n hn)
      ∗ Pipeline.scopedRestBut (Ix := Unit) (Name := ℕ) (U := UR sig nD τ) (Lvl := ℕ) (Val := Elt F) spec2 c [cc2_scratch0])
      ∗ (∃ r, prngReg c r)) := rfl

theorem Phi2_pos (c : Dev nD) (n : ℕ) (h : n ≤ cfg2.N) (hz : n ≠ 0) :
    Phi2 V c n h = iprop(iprop(owns (c : Thread nD τ) scM2 fullShare (acc2 V c (n - 1) (by omega))
      ∗ Pipeline.scopedRestBut (Ix := Unit) (Name := ℕ) (U := UR sig nD τ) (Lvl := ℕ) (Val := Elt F) spec2 c [cc2_scratch0])
      ∗ (∃ r, prngReg c r)) := by
  cases n with
  | zero => exact absurd rfl hz
  | succ n => rfl

theorem PhiA2_eq (c : Dev nD) :
    (Pipeline.ΦA spec2 c : sProp 𝕄)
      = iprop(iprop((∃ d, owns (c : Thread nD τ) scM2 fullShare d)
          ∗ Pipeline.scopedRestBut (Ix := Unit) (Name := ℕ) (U := UR sig nD τ) (Lvl := ℕ) (Val := Elt F) spec2 c [cc2_scratch0])
          ∗ (∃ r, prngReg c r)) := by
  unfold Pipeline.ΦA; rw [scopedRest2_split]; simp only [scM2, owns_whole]; rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 V c t
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem q_eq2 (c : Dev nD) (w : Fin cfg2.W) : (dat2 V c).q w = fullShare := by
  dsimp only [dat2]

theorem owed_eq2 (c : Dev nD) (t : Fin (cfg2.N + 1)) : (dat2 V c).owed t = 0 := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2 V c t := by dsimp only [dat2]

theorem Phi_eq2 (c : Dev nD) (t : Fin (cfg2.N + 1)) :
    (dat2 V c).Φ t = Phi2 V c t.val (Nat.le_of_lt_succ t.isLt) := by dsimp only [dat2]

theorem recorded_eq2 (c : Dev nD) (t : Fin (cfg2.N + 1)) : (dat2 V c).recorded t = Set.univ := rfl

end Cert.KernelIdeal.Hand

end
-- ==== Proof.KI.Reg2.lean ====
import proofs.«176467_j34754875359699_1_alg».proof.Proof.KI.Dat2
import proofs.«176467_j34754875359699_1_alg».proof.Proof.KI.Reg0
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

abbrev cond2_0 (i : grid2.Coords) : Prop :=
  (Scalar.cmpi .ne (Scalar.extui (Scalar.cmpi .eq (BitVec.ofNat 32 (i 2).val) 0#32)) 0#32) = 1#1

theorem hcond2_0 : ∀ t : Fin cfg2.N, cond2_0 (grid2.coords t) ↔ t.val % 2 = 0 :=
  (by decide +kernel : ∀ t : Fin grid2.N, cond2_0 (grid2.coords t) ↔ t.val % 2 = 0)

abbrev cond2_1 (i : grid2.Coords) : Prop := k2_cond2 i = 1#1

theorem hcond2_1 : ∀ t : Fin cfg2.N, cond2_1 (grid2.coords t) ↔ t.val % 2 = 1 :=
  (by decide +kernel : ∀ t : Fin grid2.N, cond2_1 (grid2.coords t) ↔ t.val % 2 = 1)

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl

theorem idleAt2_3_first : ∀ t : Fin cfg2.N, t.val % 2 = 0 → cfg2.idle 3 (grid2.coords t) = true :=
  (by decide +kernel : ∀ t : Fin grid2.N, t.val % 2 = 0 → cfg2.idle 3 (grid2.coords t) = true)
theorem noFlush2_3_first (t : Fin cfg2.N) (h : t.val % 2 = 0) : (cfg2.win 3).flush t = false := by
  cases hf : (cfg2.win 3).flush t with
  | false => rfl
  | true => have := (flush2_3 t).mp hf; omega

theorem liveAt2_3_last : ∀ t : Fin cfg2.N, t.val % 2 = 1 → cfg2.idle 3 (grid2.coords t) = false :=
  (by decide +kernel : ∀ t : Fin grid2.N, t.val % 2 = 1 → cfg2.idle 3 (grid2.coords t) = false)

-- Region 2 runs region 0's kernel function on its own buffers, so region 0's two body lemmas serve it.
theorem cc2_eq : cc2__matmul_nt_kernel (F := F) = cc0__matmul_nt_kernel (F := F) := rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 2000000 in

-- One grid point: from the blocks of its inputs to the blocks the proof data names after it, by the parity of the position.
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [cc2_eq]
  simp only [before2_0, before2_1, before2_2]
  rw [show (dat2 V c).owesAt () t.succ = (dat2 V c).owesAt () t.castSucc from rfl]
  rw [show (dat2 V c).Φ t.succ = Phi2 V c (t.val + 1) t.isLt from rfl, Phi2_succ]
  rw [show (dat2 V c).Φ t.castSucc = Phi2 V c t.val (Nat.le_of_lt t.isLt) from rfl]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  by_cases h0 : t.val % 2 = 0
  · have hc0 : cond2_0 (grid2.coords t) := (hcond2_0 t).mpr h0
    have hc1 : ¬cond2_1 (grid2.coords t) := fun h => by have := (hcond2_1 t).mp h; omega
    rw [Dat.leavesExact_idle (dat2 V c) 3 t (idleAt2_3_first t h0) (noFlush2_3_first t h0)]
    rw [acc2_first V c t h0]
    by_cases hz : t.val = 0
    · rw [Phi2_zero V c _ _ hz, PhiA2_eq]
      iintro ⟨⟨⟨HS, Hrest⟩, Hg⟩, Ho, ⟨%d0, H0⟩, ⟨%d1, H1⟩, ⟨%d2, H2⟩, ⟨%d3, H3⟩⟩
      iapply (sound_kernel0_first c Set.univ (grid2.coords t) _ _ _ _ _ _ _ _ _ _ hc0 hc1
        (iblk2 V c 0 t) (iblk2 V c 1 t) (iblk2 V c 2 t) ((dat2 V c).before 3 t d3) _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3
    · rw [Phi2_pos V c _ _ hz]
      iintro ⟨⟨⟨HS, Hrest⟩, Hg⟩, Ho, ⟨%d0, H0⟩, ⟨%d1, H1⟩, ⟨%d2, H2⟩, ⟨%d3, H3⟩⟩
      iapply (sound_kernel0_first c Set.univ (grid2.coords t) _ _ _ _ _ _ _ _ _ _ hc0 hc1
        (iblk2 V c 0 t) (iblk2 V c 1 t) (iblk2 V c 2 t) ((dat2 V c).before 3 t d3) _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3
  · have h1 : t.val % 2 = 1 := by omega
    have hz : t.val ≠ 0 := by omega
    have hc0 : ¬cond2_0 (grid2.coords t) := fun h => h0 ((hcond2_0 t).mp h)
    have hc1 : cond2_1 (grid2.coords t) := (hcond2_1 t).mpr h1
    rw [show (dat2 V c).leavesExact 3 t = owns (c : Thread nD τ) (st2_3 t) fullShare ((dat2 V c).after 3 t) from by
      unfold Dat.leavesExact; rw [liveAt2_3_last t h1], after2_3]
    unfold out2
    rw [acc2_last V c t h1, Phi2_pos V c _ _ hz]
    iintro ⟨⟨⟨HS, Hrest⟩, Hg⟩, Ho, ⟨%d0, H0⟩, ⟨%d1, H1⟩, ⟨%d2, H2⟩, ⟨%d3, H3⟩⟩
    iapply (sound_kernel0_last c Set.univ (grid2.coords t) _ _ _ _ _ _ _ _ _ _ hc0 hc1
      (iblk2 V c 0 t) (iblk2 V c 1 t) (iblk2 V c 2 t) (acc2 V c (t.val - 1) (Nat.lt_of_le_of_lt (Nat.sub_le _ _) t.isLt)) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = Phi2 V c 0 (Nat.zero_le _) from rfl, Phi2_zero V c 0 _ rfl]

theorem Phi_out2 (c : Dev nD) (t : Fin (cfg2.N + 1)) (ht : t.val ≠ 0) : (dat2 V c).Φ t ⊢ Pipeline.ΦA spec2 c := by
  rw [Phi_eq2, Phi2_pos V c _ _ ht, PhiA2_eq]
  iintro ⟨⟨HS, Hrest⟩, Hg⟩
  isplitl [HS Hrest]
  · isplitl [HS]; · iexists _; iexact HS
    iexact Hrest
  iexact Hg

theorem hout2 (c : Dev nD) : (dat2 V c).Φ (Fin.last cfg2.N) ⊢ Pipeline.ΦA spec2 c :=
  Phi_out2 V c _ (by rw [Fin.val_last]; have : cfg2.N = 16 := N_2; omega)

end Cert.KernelIdeal.Hand

end
-- ==== Proof.KI.Dat3.lean ====
import proofs.«176467_j34754875359699_1_alg».proof.Proof.KI.Base
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev r3_q0 : Rect S512x128 := Rect.unit (s := S512x128) ![0, 0] S512x64.size inb_S512x128_S512x64_0_0

abbrev r3_q1 : Rect S512x128 := Rect.unit (s := S512x128) ![0, 64] S512x64.size inb_S512x128_S512x64_0_64

abbrev r3_k0 : Rect S2048x128 := Rect.unit (s := S2048x128) ![0, 0] S2048x64.size inb_S2048x128_S2048x64_0_0

abbrev r3_k1 : Rect S2048x128 := Rect.unit (s := S2048x128) ![0, 64] S2048x64.size inb_S2048x128_S2048x64_0_64

abbrev r3_o : Rect S512x128 := Rect.unit (s := S512x128) ![0, 0] S512x128.size inb_S512x128_S512x128_0_0

def pay3 (i : grid3.Coords) (q : Vec F S512x128 .f32) (k : Vec F S2048x128 .f32) (v : Vec F S2048x128 .f32) : FVec F S512x128 .f32 :=
  k3_pay1 (k3_pay2 i) (k3_pay3 (View.ld k r3_k1)) (k3_pay4 (View.ld v r3_k1))
    (k3_pay5 i (View.ld q r3_q0) (View.ld k r3_k0) (View.ld v r3_k0)) (k3_pay6 (View.ld q r3_q1))

def out3_3 (i : grid3.Coords) (q : Vec F S512x128 .f32) (k : Vec F S2048x128 .f32) (v : Vec F S2048x128 .f32) : Vec F S512x128 .f32 :=
  View.canon [⟨r3_o, pay3 i q k v⟩]

theorem hz3 : (![0, 0] : Fin 2 → Nat) = fun _ => 0 := funext fun a => by fin_cases a <;> rfl

theorem cover3_3 (p0 : Vec F S512x128 .f32) (y : S512x128.Idx) :
    ∃ pc ∈ ([⟨r3_o, p0⟩] : List (View.Piece (Elt F) S512x128 .f32)), y ∈ pc.1.set :=
  ⟨_, List.mem_singleton_self _, View.mem_set_unit_zero hz3 inb_S512x128_S512x128_0_0 y⟩

theorem out3_3_eq (i : grid3.Coords) (q : Vec F S512x128 .f32) (k : Vec F S2048x128 .f32) (v : Vec F S2048x128 .f32) :
    out3_3 i q k v = pay3 i q k v := by
  unfold out3_3; exact View.canon_unit_zero hz3 inb_S512x128_S512x128_0_0 _

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (grid3.coords t) (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem q_eq3 (c : Dev nD) (w : Fin cfg3.W) : (dat3 V c).q w = fullShare := by
  dsimp only [dat3]

theorem owed_eq3 (c : Dev nD) (t : Fin (cfg3.N + 1)) : (dat3 V c).owed t = 0 := by
  dsimp only [dat3]

theorem Φ_eq3 (c : Dev nD) (t : Fin (cfg3.N + 1)) : (dat3 V c).Φ t = Pipeline.ΦA spec3 c := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (grid3.coords t) (iblk3 V c 0 t) (iblk3 V c 1 t) (iblk3 V c 2 t) := by dsimp only [dat3]

theorem after3_3_pay (c : Dev nD) (t : Fin cfg3.N) :
    (dat3 V c).after 3 t = pay3 (grid3.coords t) (iblk3 V c 0 t) (iblk3 V c 1 t) (iblk3 V c 2 t) :=
  (after3_3 V c t).trans (out3_3_eq _ _ _ _)

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

theorem before3_3 (c : Dev nD) (t : Fin cfg3.N) (d) : (dat3 V c).before 3 t d = d :=
  (dat3 V c).before_out_reset 3 rfl t
    (by
      by_cases h0 : t.val = 0
      · exact .inl h0
      · exact .inr ⟨h0, flush3_3 _⟩) d

theorem recorded_eq3 (c : Dev nD) (t : Fin (cfg3.N + 1)) : (dat3 V c).recorded t = Set.univ := rfl

end Cert.KernelIdeal.Hand

end
-- ==== Proof.KI.Reg3.lean ====
import proofs.«176467_j34754875359699_1_alg».proof.Proof.KI.Dat3

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

theorem sound_kernel3 (c : Dev nD) (E : Set ℕ) (i : grid3.Coords)
    (arg2 : Memref sig .tc .vmem S512x128 .f32) (harg2 : arg2.IsWhole) (arg3 : Memref sig .tc .vmem S2048x128 .f32) (harg3 : arg3.IsWhole)
    (arg4 : Memref sig .tc .vmem S2048x128 .f32) (harg4 : arg4.IsWhole) (arg5 : Memref sig .tc .vmem S512x128 .f32) (harg5 : arg5.IsWhole)
    (q : Vec F S512x128 .f32) (k : Vec F S2048x128 .f32) (v : Vec F S2048x128 .f32) (K : PUnit → sProp 𝕄) :
    iprop(owns (c : Thread nD τ) arg2 fullShare q ∗ owns (c : Thread nD τ) arg3 fullShare k ∗ owns (c : Thread nD τ) arg4 fullShare v
        ∗ (∃ d, owns (c : Thread nD τ) arg5 fullShare d)
        ∗ (iprop(owns (c : Thread nD τ) arg2 fullShare q ∗ owns (c : Thread nD τ) arg3 fullShare k ∗ owns (c : Thread nD τ) arg4 fullShare v
            ∗ owns (c : Thread nD τ) arg5 fullShare (out3_3 i q k v)) -∗ K ⟨⟩))
      ⊢ wp frame (wpE (defs₀ (F := F)) Variants.none c none) E (cc3__attn_kernel i arg2 harg2 arg3 harg3 arg4 harg4 arg5 harg5) K := by
  unfold out3_3 pay3
  simp only [cc3__attn_kernel_eq_skeleton]; unfold cc3__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [Φ_eq3]

theorem hout3 (c : Dev nD) : (dat3 V c).Φ (Fin.last cfg3.N) ⊢ Pipeline.ΦA spec3 c := by
  rw [Φ_eq3]

end Cert.KernelIdeal.Hand

end
-- ==== Proof.KI.Dat4.lean ====
import proofs.«176467_j34754875359699_1_alg».proof.Proof.KI.Base

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev scM4 : Memref sig .tc .vmem S512x512 .f32 := Memref.whole cc4_scratch0

-- The accumulator after position n: this point's partial product added to zero at an even position, to the previous position's sum at an odd one.
def acc4 (c : Dev nD) : (n : ℕ) → n < cfg4.N → Vec F S512x512 .f32
  | 0, hn => k0_pay2 (iblk4 V c 0 ⟨0, hn⟩) (iblk4 V c 1 ⟨0, hn⟩) k0_pay1
  | n + 1, hn =>
    if (n + 1) % 2 = 0 then
      k0_pay2 (iblk4 V c 0 ⟨n + 1, hn⟩) (iblk4 V c 1 ⟨n + 1, hn⟩) k0_pay1
    else
      k0_pay2 (iblk4 V c 0 ⟨n + 1, hn⟩) (iblk4 V c 1 ⟨n + 1, hn⟩) (acc4 c n (Nat.lt_of_succ_lt hn))

theorem acc4_even (c : Dev nD) (n : ℕ) (hn : n < cfg4.N) (h : n % 2 = 0) :
    acc4 V c n hn = k0_pay2 (iblk4 V c 0 ⟨n, hn⟩) (iblk4 V c 1 ⟨n, hn⟩) k0_pay1 := by
  cases n with
  | zero => rfl
  | succ n => exact if_pos h

theorem acc4_odd (c : Dev nD) (n : ℕ) (hn : n < cfg4.N) (h : n % 2 = 1) :
    acc4 V c n hn = k0_pay2 (iblk4 V c 0 ⟨n, hn⟩) (iblk4 V c 1 ⟨n, hn⟩)
      (acc4 V c (n - 1) (Nat.lt_of_le_of_lt (Nat.sub_le _ _) hn)) := by
  cases n with
  | zero => exact absurd h (by decide)
  | succ n => exact (if_neg (by omega)).trans rfl

theorem acc4_first (c : Dev nD) (t : Fin cfg4.N) (h : t.val % 2 = 0) :
    acc4 V c t.val t.isLt = k0_pay2 (iblk4 V c 0 t) (iblk4 V c 1 t) k0_pay1 :=
  acc4_even V c t.val t.isLt h
theorem acc4_last (c : Dev nD) (t : Fin cfg4.N) (h : t.val % 2 = 1) :
    acc4 V c t.val t.isLt = k0_pay2 (iblk4 V c 0 t) (iblk4 V c 1 t)
      (acc4 V c (t.val - 1) (Nat.lt_of_le_of_lt (Nat.sub_le _ _) t.isLt)) :=
  acc4_odd V c t.val t.isLt h

-- The output block at an odd position: the finished sum with the bias row added.
def out4 (c : Dev nD) (t : Fin cfg4.N) : Vec F S512x512 .f32 :=
  k0_pay3 (acc4 V c t.val t.isLt) (iblk4 V c 2 t)

-- Carried between points: the scratch holds the sum the point before left; before the first point it holds anything.
def Phi4 (c : Dev nD) : (n : ℕ) → n ≤ cfg4.N → sProp 𝕄
  | 0, _ => Pipeline.ΦA spec4 c
  | n + 1, hn => iprop(iprop(owns (c : Thread nD τ) scM4 fullShare (acc4 V c n hn)
      ∗ Pipeline.scopedRestBut (Ix := Unit) (Name := ℕ) (U := UR sig nD τ) (Lvl := ℕ) (Val := Elt F) spec4 c [cc4_scratch0])
      ∗ (∃ r, prngReg c r))

theorem Phi4_zero (c : Dev nD) (n : ℕ) (h : n ≤ cfg4.N) (hz : n = 0) : Phi4 V c n h = Pipeline.ΦA spec4 c := by
  subst hz; rfl

theorem Phi4_succ (c : Dev nD) (n : ℕ) (hn : n < cfg4.N) :
    Phi4 V c (n + 1) hn = iprop(iprop(owns (c : Thread nD τ) scM4 fullShare (acc4 V c n hn)
      ∗ Pipeline.scopedRestBut (Ix := Unit) (Name := ℕ) (U := UR sig nD τ) (Lvl := ℕ) (Val := Elt F) spec4 c [cc4_scratch0])
      ∗ (∃ r, prngReg c r)) := rfl

theorem Phi4_pos (c : Dev nD) (n : ℕ) (h : n ≤ cfg4.N) (hz : n ≠ 0) :
    Phi4 V c n h = iprop(iprop(owns (c : Thread nD τ) scM4 fullShare (acc4 V c (n - 1) (by omega))
      ∗ Pipeline.scopedRestBut (Ix := Unit) (Name := ℕ) (U := UR sig nD τ) (Lvl := ℕ) (Val := Elt F) spec4 c [cc4_scratch0])
      ∗ (∃ r, prngReg c r)) := by
  cases n with
  | zero => exact absurd rfl hz
  | succ n => rfl

theorem PhiA4_eq (c : Dev nD) :
    (Pipeline.ΦA spec4 c : sProp 𝕄)
      = iprop(iprop((∃ d, owns (c : Thread nD τ) scM4 fullShare d)
          ∗ Pipeline.scopedRestBut (Ix := Unit) (Name := ℕ) (U := UR sig nD τ) (Lvl := ℕ) (Val := Elt F) spec4 c [cc4_scratch0])
          ∗ (∃ r, prngReg c r)) := by
  unfold Pipeline.ΦA; rw [scopedRest4_split]; simp only [scM4, owns_whole]; rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4 V c t
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem q_eq4 (c : Dev nD) (w : Fin cfg4.W) : (dat4 V c).q w = fullShare := by
  dsimp only [dat4]

theorem owed_eq4 (c : Dev nD) (t : Fin (cfg4.N + 1)) : (dat4 V c).owed t = 0 := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4 V c t := by dsimp only [dat4]

theorem Phi_eq4 (c : Dev nD) (t : Fin (cfg4.N + 1)) :
    (dat4 V c).Φ t = Phi4 V c t.val (Nat.le_of_lt_succ t.isLt) := by dsimp only [dat4]

theorem recorded_eq4 (c : Dev nD) (t : Fin (cfg4.N + 1)) : (dat4 V c).recorded t = Set.univ := rfl

end Cert.KernelIdeal.Hand

end
-- ==== Proof.KI.Reg4.lean ====
import proofs.«176467_j34754875359699_1_alg».proof.Proof.KI.Dat4
import proofs.«176467_j34754875359699_1_alg».proof.Proof.KI.Reg0
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

abbrev cond4_0 (i : grid4.Coords) : Prop :=
  (Scalar.cmpi .ne (Scalar.extui (Scalar.cmpi .eq (BitVec.ofNat 32 (i 2).val) 0#32)) 0#32) = 1#1

theorem hcond4_0 : ∀ t : Fin cfg4.N, cond4_0 (grid4.coords t) ↔ t.val % 2 = 0 :=
  (by decide +kernel : ∀ t : Fin grid4.N, cond4_0 (grid4.coords t) ↔ t.val % 2 = 0)

abbrev cond4_1 (i : grid4.Coords) : Prop := k4_cond2 i = 1#1

theorem hcond4_1 : ∀ t : Fin cfg4.N, cond4_1 (grid4.coords t) ↔ t.val % 2 = 1 :=
  (by decide +kernel : ∀ t : Fin grid4.N, cond4_1 (grid4.coords t) ↔ t.val % 2 = 1)

theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl

theorem idleAt4_3_first : ∀ t : Fin cfg4.N, t.val % 2 = 0 → cfg4.idle 3 (grid4.coords t) = true :=
  (by decide +kernel : ∀ t : Fin grid4.N, t.val % 2 = 0 → cfg4.idle 3 (grid4.coords t) = true)
theorem noFlush4_3_first (t : Fin cfg4.N) (h : t.val % 2 = 0) : (cfg4.win 3).flush t = false := by
  cases hf : (cfg4.win 3).flush t with
  | false => rfl
  | true => have := (flush4_3 t).mp hf; omega

theorem liveAt4_3_last : ∀ t : Fin cfg4.N, t.val % 2 = 1 → cfg4.idle 3 (grid4.coords t) = false :=
  (by decide +kernel : ∀ t : Fin grid4.N, t.val % 2 = 1 → cfg4.idle 3 (grid4.coords t) = false)

-- Region 4 runs region 0's kernel function on its own buffers, so region 0's two body lemmas serve it.
theorem cc4_eq : cc4__matmul_nt_kernel (F := F) = cc0__matmul_nt_kernel (F := F) := rfl

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 2000000 in

-- One grid point: from the blocks of its inputs to the blocks the proof data names after it, by the parity of the position.
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  rw [cc4_eq]
  simp only [before4_0, before4_1, before4_2]
  rw [show (dat4 V c).owesAt () t.succ = (dat4 V c).owesAt () t.castSucc from rfl]
  rw [show (dat4 V c).Φ t.succ = Phi4 V c (t.val + 1) t.isLt from rfl, Phi4_succ]
  rw [show (dat4 V c).Φ t.castSucc = Phi4 V c t.val (Nat.le_of_lt t.isLt) from rfl]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [show (dat4 V c).leavesExact 2 t = owns (c : Thread nD τ) (st4_2 t) fullShare ((dat4 V c).after 2 t) from by
    unfold Dat.leavesExact; rw [liveAt4_2 t], after4_2]
  by_cases h0 : t.val % 2 = 0
  · have hc0 : cond4_0 (grid4.coords t) := (hcond4_0 t).mpr h0
    have hc1 : ¬cond4_1 (grid4.coords t) := fun h => by have := (hcond4_1 t).mp h; omega
    rw [Dat.leavesExact_idle (dat4 V c) 3 t (idleAt4_3_first t h0) (noFlush4_3_first t h0)]
    rw [acc4_first V c t h0]
    by_cases hz : t.val = 0
    · rw [Phi4_zero V c _ _ hz, PhiA4_eq]
      iintro ⟨⟨⟨HS, Hrest⟩, Hg⟩, Ho, ⟨%d0, H0⟩, ⟨%d1, H1⟩, ⟨%d2, H2⟩, ⟨%d3, H3⟩⟩
      iapply (sound_kernel0_first c Set.univ (grid4.coords t) _ _ _ _ _ _ _ _ _ _ hc0 hc1
        (iblk4 V c 0 t) (iblk4 V c 1 t) (iblk4 V c 2 t) ((dat4 V c).before 3 t d3) _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3
    · rw [Phi4_pos V c _ _ hz]
      iintro ⟨⟨⟨HS, Hrest⟩, Hg⟩, Ho, ⟨%d0, H0⟩, ⟨%d1, H1⟩, ⟨%d2, H2⟩, ⟨%d3, H3⟩⟩
      iapply (sound_kernel0_first c Set.univ (grid4.coords t) _ _ _ _ _ _ _ _ _ _ hc0 hc1
        (iblk4 V c 0 t) (iblk4 V c 1 t) (iblk4 V c 2 t) ((dat4 V c).before 3 t d3) _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3
  · have h1 : t.val % 2 = 1 := by omega
    have hz : t.val ≠ 0 := by omega
    have hc0 : ¬cond4_0 (grid4.coords t) := fun h => h0 ((hcond4_0 t).mp h)
    have hc1 : cond4_1 (grid4.coords t) := (hcond4_1 t).mpr h1
    rw [show (dat4 V c).leavesExact 3 t = owns (c : Thread nD τ) (st4_3 t) fullShare ((dat4 V c).after 3 t) from by
      unfold Dat.leavesExact; rw [liveAt4_3_last t h1], after4_3]
    unfold out4
    rw [acc4_last V c t h1, Phi4_pos V c _ _ hz]
    iintro ⟨⟨⟨HS, Hrest⟩, Hg⟩, Ho, ⟨%d0, H0⟩, ⟨%d1, H1⟩, ⟨%d2, H2⟩, ⟨%d3, H3⟩⟩
    iapply (sound_kernel0_last c Set.univ (grid4.coords t) _ _ _ _ _ _ _ _ _ _ hc0 hc1
      (iblk4 V c 0 t) (iblk4 V c 1 t) (iblk4 V c 2 t) (acc4 V c (t.val - 1) (Nat.lt_of_le_of_lt (Nat.sub_le _ _) t.isLt)) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    iexact H3

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = Phi4 V c 0 (Nat.zero_le _) from rfl, Phi4_zero V c 0 _ rfl]

theorem Phi_out4 (c : Dev nD) (t : Fin (cfg4.N + 1)) (ht : t.val ≠ 0) : (dat4 V c).Φ t ⊢ Pipeline.ΦA spec4 c := by
  rw [Phi_eq4, Phi4_pos V c _ _ ht, PhiA4_eq]
  iintro ⟨⟨HS, Hrest⟩, Hg⟩
  isplitl [HS Hrest]
  · isplitl [HS]; · iexists _; iexact HS
    iexact Hrest
  iexact Hg

theorem hout4 (c : Dev nD) : (dat4 V c).Φ (Fin.last cfg4.N) ⊢ Pipeline.ΦA spec4 c :=
  Phi_out4 V c _ (by rw [Fin.val_last]; have : cfg4.N = 16 := N_4; omega)

end Cert.KernelIdeal.Hand

end
-- ==== Proof.KI.Dat5.lean ====
import proofs.«176467_j34754875359699_1_alg».proof.Proof.KI.Base

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => k5_pay1 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem q_eq5 (c : Dev nD) (w : Fin cfg5.W) : (dat5 V c).q w = fullShare := by
  dsimp only [dat5]

theorem owed_eq5 (c : Dev nD) (t : Fin (cfg5.N + 1)) : (dat5 V c).owed t = 0 := by
  dsimp only [dat5]

theorem Phi_eq5 (c : Dev nD) (t : Fin (cfg5.N + 1)) : (dat5 V c).Φ t = Pipeline.ΦA spec5 c := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) :
    (dat5 V c).after 4 t = k5_pay1 (iblk5 V c 0 t) (iblk5 V c 1 t) (iblk5 V c 2 t) (iblk5 V c 3 t) := by dsimp only [dat5]

theorem recorded_eq5 (c : Dev nD) (t : Fin (cfg5.N + 1)) : (dat5 V c).recorded t = Set.univ := rfl

end Cert.KernelIdeal.Hand

end
-- ==== Proof.KI.Reg5.lean ====
import proofs.«176467_j34754875359699_1_alg».proof.Proof.KI.Dat5
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d
theorem before5_3 (c : Dev nD) (t : Fin cfg5.N) (d) : (dat5 V c).before 3 t d = iblk5 V c 3 t :=
  (dat5 V c).before_in_eq_fetched 3 rfl (fun _ => rfl) (fun _ _ _ => rfl) (fun _ => rfl) t d

theorem cover5_4 (p : Vec F S512x1024 .f32) (y : S512x1024.Idx) :
    ∃ pc ∈ ([⟨Rect.unit (s := S512x1024) ![0, 0] S512x1024.size inb_S512x1024_S512x1024_0_0, p⟩] : List (View.Piece (Elt F) S512x1024 .f32)),
      y ∈ pc.1.set :=
  ⟨_, List.mem_singleton_self _, View.mem_set_unit_zero (funext fun a => by fin_cases a <;> rfl) inb_S512x1024_S512x1024_0_0 y⟩

set_option maxHeartbeats 1000000 in

theorem sound_kernel5 (c : Dev nD) (E : Set ℕ) (i : grid5.Coords)
    (arg1 : Memref sig .tc .vmem S512x1024 .f32) (harg1 : arg1.IsWhole) (arg2 : Memref sig .tc .vmem S512x1024 .f32) (harg2 : arg2.IsWhole)
    (arg3 : Memref sig .tc .vmem S1x1024 .f32) (harg3 : arg3.IsWhole) (arg4 : Memref sig .tc .vmem S1x1024 .f32) (harg4 : arg4.IsWhole)
    (arg5 : Memref sig .tc .vmem S512x1024 .f32) (harg5 : arg5.IsWhole)
    (x0 x1 : Vec F S512x1024 .f32) (x2 x3 : Vec F S1x1024 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k5_pay1 x0 x1 x2 x3)) -∗ K ⟨⟩))
      ⊢ wp frame (wpE (defs₀ (F := F)) Variants.none c none) E (cc5__add_norm_kernel i arg1 harg1 arg2 harg2 arg3 harg3 arg4 harg4 arg5 harg5) K := by
  simp only [cc5__add_norm_kernel_eq_skeleton]; unfold cc5__add_norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  have hz : (![0, 0] : Fin 2 → ℕ) = fun _ => 0 := funext fun a => by fin_cases a <;> rfl
  rw [View.read_writes_eq_canon _ _ _ (cover5_4 _), View.canon_unit_zero hz]
  simp only [View.readAt_eq_ld, View.ld_unit_zero (S := S512x1024) hz, View.ld_unit_zero (S := S1x1024) hz]

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 :=
  Entails.of_eq (Phi_eq5 V c 0).symm

theorem hout5 (c : Dev nD) : (dat5 V c).Φ (Fin.last cfg5.N) ⊢ Pipeline.ΦA spec5 c :=
  Entails.of_eq (Phi_eq5 V c (Fin.last cfg5.N))

end Cert.KernelIdeal.Hand

end
-- ==== Proof.KI.Dat6.lean ====
import proofs.«176467_j34754875359699_1_alg».proof.Proof.KI.Base

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev scM6 : Memref sig .tc .vmem S512x512 .f32 := Memref.whole cc6_scratch0

-- The accumulator after position n: this point's partial product added to zero at an even position, to the previous position's sum at an odd one.
def acc6 (c : Dev nD) : (n : ℕ) → n < cfg6.N → Vec F S512x512 .f32
  | 0, hn => k6_pay2 (iblk6 V c 0 ⟨0, hn⟩) (iblk6 V c 1 ⟨0, hn⟩) k6_pay1
  | n + 1, hn =>
    if (n + 1) % 2 = 0 then
      k6_pay2 (iblk6 V c 0 ⟨n + 1, hn⟩) (iblk6 V c 1 ⟨n + 1, hn⟩) k6_pay1
    else
      k6_pay2 (iblk6 V c 0 ⟨n + 1, hn⟩) (iblk6 V c 1 ⟨n + 1, hn⟩) (acc6 c n (Nat.lt_of_succ_lt hn))

theorem acc6_even (c : Dev nD) (n : ℕ) (hn : n < cfg6.N) (h : n % 2 = 0) :
    acc6 V c n hn = k6_pay2 (iblk6 V c 0 ⟨n, hn⟩) (iblk6 V c 1 ⟨n, hn⟩) k6_pay1 := by
  match n, hn, h with
  | 0, _, _ => rfl
  | n + 1, _, h => exact if_pos h

theorem acc6_odd (c : Dev nD) (n : ℕ) (hn : n < cfg6.N) (h : n % 2 = 1) :
    acc6 V c n hn = k6_pay2 (iblk6 V c 0 ⟨n, hn⟩) (iblk6 V c 1 ⟨n, hn⟩)
      (acc6 V c (n - 1) (Nat.lt_of_le_of_lt (Nat.sub_le _ _) hn)) := by
  match n, hn, h with
  | 0, _, h => exact absurd h (by decide)
  | n + 1, _, h => exact (if_neg (by omega)).trans rfl

theorem acc6_first (c : Dev nD) (t : Fin cfg6.N) (h : t.val % 2 = 0) :
    acc6 V c t.val t.isLt = k6_pay2 (iblk6 V c 0 t) (iblk6 V c 1 t) k6_pay1 :=
  acc6_even V c t.val t.isLt h
theorem acc6_last (c : Dev nD) (t : Fin cfg6.N) (h : t.val % 2 = 1) :
    acc6 V c t.val t.isLt = k6_pay2 (iblk6 V c 0 t) (iblk6 V c 1 t)
      (acc6 V c (t.val - 1) (Nat.lt_of_le_of_lt (Nat.sub_le _ _) t.isLt)) :=
  acc6_odd V c t.val t.isLt h

-- The output block at an odd position: the finished sum with the bias row added, cut below at zero.
def out6 (c : Dev nD) (t : Fin cfg6.N) : Vec F S512x512 .f32 :=
  k6_pay3 (acc6 V c t.val t.isLt) (iblk6 V c 2 t)

-- Carried between points: the scratch holds the sum the point before left; before the first point it holds anything.
def Phi6 (c : Dev nD) : (n : ℕ) → n ≤ cfg6.N → sProp 𝕄
  | 0, _ => Pipeline.ΦA spec6 c
  | n + 1, hn => iprop(iprop(owns (c : Thread nD τ) scM6 fullShare (acc6 V c n hn)
      ∗ Pipeline.scopedRestBut (Ix := Unit) (Name := ℕ) (U := UR sig nD τ) (Lvl := ℕ) (Val := Elt F) spec6 c [cc6_scratch0])
      ∗ (∃ r, prngReg c r))

theorem Phi6_zero (c : Dev nD) (n : ℕ) (h : n ≤ cfg6.N) (hz : n = 0) : Phi6 V c n h = Pipeline.ΦA spec6 c := by
  subst hz; rfl

theorem Phi6_succ (c : Dev nD) (n : ℕ) (hn : n < cfg6.N) :
    Phi6 V c (n + 1) hn = iprop(iprop(owns (c : Thread nD τ) scM6 fullShare (acc6 V c n hn)
      ∗ Pipeline.scopedRestBut (Ix := Unit) (Name := ℕ) (U := UR sig nD τ) (Lvl := ℕ) (Val := Elt F) spec6 c [cc6_scratch0])
      ∗ (∃ r, prngReg c r)) := rfl

theorem Phi6_pos (c : Dev nD) (n : ℕ) (h : n ≤ cfg6.N) (hz : n ≠ 0) :
    Phi6 V c n h = iprop(iprop(owns (c : Thread nD τ) scM6 fullShare (acc6 V c (n - 1) (by omega))
      ∗ Pipeline.scopedRestBut (Ix := Unit) (Name := ℕ) (U := UR sig nD τ) (Lvl := ℕ) (Val := Elt F) spec6 c [cc6_scratch0])
      ∗ (∃ r, prngReg c r)) := by
  match n, h, hz with
  | 0, _, hz => exact absurd rfl hz
  | n + 1, _, _ => rfl

theorem PhiA6_eq (c : Dev nD) :
    (Pipeline.ΦA spec6 c : sProp 𝕄)
      = iprop(iprop((∃ d, owns (c : Thread nD τ) scM6 fullShare d)
          ∗ Pipeline.scopedRestBut (Ix := Unit) (Name := ℕ) (U := UR sig nD τ) (Lvl := ℕ) (Val := Elt F) spec6 c [cc6_scratch0])
          ∗ (∃ r, prngReg c r)) := by
  unfold Pipeline.ΦA; rw [scopedRest6_split]; simp only [scM6, owns_whole]; rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6 V c t
  Φ t := Phi6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem q_eq6 (c : Dev nD) (w : Fin cfg6.W) : (dat6 V c).q w = fullShare := by
  dsimp only [dat6]

theorem owed_eq6 (c : Dev nD) (t : Fin (cfg6.N + 1)) : (dat6 V c).owed t = 0 := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6 V c t := by dsimp only [dat6]

theorem Phi_eq6 (c : Dev nD) (t : Fin (cfg6.N + 1)) :
    (dat6 V c).Φ t = Phi6 V c t.val (Nat.le_of_lt_succ t.isLt) := by dsimp only [dat6]

theorem recorded_eq6 (c : Dev nD) (t : Fin (cfg6.N + 1)) : (dat6 V c).recorded t = Set.univ := rfl

end Cert.KernelIdeal.Hand

end
-- ==== Proof.KI.Reg6.lean ====
import proofs.«176467_j34754875359699_1_alg».proof.Proof.KI.Dat6
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

abbrev cond6_0 (i : grid6.Coords) : Prop :=
  (Scalar.cmpi .ne (Scalar.extui (Scalar.cmpi .eq (BitVec.ofNat 32 (i 2).val) 0#32)) 0#32) = 1#1

theorem hcond6_0 : ∀ t : Fin cfg6.N, cond6_0 (grid6.coords t) ↔ t.val % 2 = 0 :=
  (by decide +kernel : ∀ t : Fin grid6.N, cond6_0 (grid6.coords t) ↔ t.val % 2 = 0)

abbrev cond6_1 (i : grid6.Coords) : Prop := k6_cond2 i = 1#1

theorem hcond6_1 : ∀ t : Fin cfg6.N, cond6_1 (grid6.coords t) ↔ t.val % 2 = 1 :=
  (by decide +kernel : ∀ t : Fin grid6.N, cond6_1 (grid6.coords t) ↔ t.val % 2 = 1)

theorem liveAt6_0 : ∀ t : Fin cfg6.N, cfg6.idle 0 (grid6.coords t) = false := fun _ => rfl
theorem liveAt6_1 : ∀ t : Fin cfg6.N, cfg6.idle 1 (grid6.coords t) = false := fun _ => rfl
theorem liveAt6_2 : ∀ t : Fin cfg6.N, cfg6.idle 2 (grid6.coords t) = false := fun _ => rfl

theorem idleAt6_3_first : ∀ t : Fin cfg6.N, t.val % 2 = 0 → cfg6.idle 3 (grid6.coords t) = true :=
  (by decide +kernel : ∀ t : Fin grid6.N, t.val % 2 = 0 → cfg6.idle 3 (grid6.coords t) = true)
theorem noFlush6_3_first (t : Fin cfg6.N) (h : t.val % 2 = 0) : (cfg6.win 3).flush t = false := by
  cases hf : (cfg6.win 3).flush t with
  | false => rfl
  | true => have := (flush6_3 t).mp hf; omega

theorem liveAt6_3_last : ∀ t : Fin cfg6.N, t.val % 2 = 1 → cfg6.idle 3 (grid6.coords t) = false :=
  (by decide +kernel : ∀ t : Fin grid6.N, t.val % 2 = 1 → cfg6.idle 3 (grid6.coords t) = false)

theorem hz6 : (![0, 0] : Fin 2 → Nat) = fun _ => 0 := funext fun a => by fin_cases a <;> rfl

set_option maxHeartbeats 1000000 in

-- First half of the contracted axis: the body clears the scratch, adds the first partial product and leaves the output block alone.
theorem sound_kernel6_first (c : Dev nD) (E : Set ℕ) (i : grid6.Coords)
    (arg3 : Memref sig .tc .vmem S512x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S512x512 .f32) (harg6 : arg6.IsWhole)
    (arg7 : Memref sig .tc .vmem S512x512 .f32) (harg7 : arg7.IsWhole)
    (hc0 : cond6_0 i) (hc1 : ¬cond6_1 i)
    (a b : Vec F S512x512 .f32) (bias : Vec F S1x512 .f32) (o : Vec F S512x512 .f32) (K : PUnit → sProp 𝕄) :
    iprop(owns (c : Thread nD τ) arg3 fullShare a ∗ owns (c : Thread nD τ) arg4 fullShare b ∗ owns (c : Thread nD τ) arg5 fullShare bias
        ∗ owns (c : Thread nD τ) arg6 fullShare o ∗ (∃ d, owns (c : Thread nD τ) arg7 fullShare d)
        ∗ (iprop(owns (c : Thread nD τ) arg3 fullShare a ∗ owns (c : Thread nD τ) arg4 fullShare b ∗ owns (c : Thread nD τ) arg5 fullShare bias
            ∗ owns (c : Thread nD τ) arg6 fullShare o ∗ owns (c : Thread nD τ) arg7 fullShare (k6_pay2 a b k6_pay1)) -∗ K ⟨⟩))
      ⊢ wp frame (wpE (defs₀ (F := F)) Variants.none c none) E (cc6__matmul_nt_kernel i arg3 harg3 arg4 harg4 arg5 harg5 arg6 harg6 arg7 harg7) K := by
  simp only [cc6__matmul_nt_kernel_eq_skeleton]; unfold cc6__matmul_nt_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  sl_unfold_run_names
  rw [View.read_writes_eq_canon _ _ _ (fun y => ⟨_, List.mem_cons.mpr (Or.inl rfl), View.mem_set_unit_zero hz6 inb_S512x512_S512x512_0_0 y⟩), View.canon_cons_unit_zero hz6]
  simp only [View.readAt_eq_ld, View.ld_unit_zero (S := S512x512) hz6, View.ld_unit_zero (S := S1x512) hz6,
    View.readCov_unit_zero (S := S512x512) _ hz6]

set_option maxHeartbeats 1000000 in

-- Second half: the body adds the second partial product to the carried sum and stores the finished block.
theorem sound_kernel6_last (c : Dev nD) (E : Set ℕ) (i : grid6.Coords)
    (arg3 : Memref sig .tc .vmem S512x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S512x512 .f32) (harg6 : arg6.IsWhole)
    (arg7 : Memref sig .tc .vmem S512x512 .f32) (harg7 : arg7.IsWhole)
    (hc0 : ¬cond6_0 i) (hc1 : cond6_1 i)
    (a b : Vec F S512x512 .f32) (bias : Vec F S1x512 .f32) (s : Vec F S512x512 .f32) (K : PUnit → sProp 𝕄) :
    iprop(owns (c : Thread nD τ) arg3 fullShare a ∗ owns (c : Thread nD τ) arg4 fullShare b ∗ owns (c : Thread nD τ) arg5 fullShare bias
        ∗ (∃ d, owns (c : Thread nD τ) arg6 fullShare d) ∗ owns (c : Thread nD τ) arg7 fullShare s
        ∗ (iprop(owns (c : Thread nD τ) arg3 fullShare a ∗ owns (c : Thread nD τ) arg4 fullShare b ∗ owns (c : Thread nD τ) arg5 fullShare bias
            ∗ owns (c : Thread nD τ) arg6 fullShare (k6_pay3 (k6_pay2 a b s) bias) ∗ owns (c : Thread nD τ) arg7 fullShare (k6_pay2 a b s)) -∗ K ⟨⟩))
      ⊢ wp frame (wpE (defs₀ (F := F)) Variants.none c none) E (cc6__matmul_nt_kernel i arg3 harg3 arg4 harg4 arg5 harg5 arg6 harg6 arg7 harg7) K := by
  simp only [cc6__matmul_nt_kernel_eq_skeleton]; unfold cc6__matmul_nt_kernel_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0; subst hf1; subst hf2; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    rw [View.read_writes_eq_canon _ _ _ (fun y => ⟨_, List.mem_cons.mpr (Or.inl rfl), View.mem_set_unit_zero hz6 inb_S512x512_S512x512_0_0 y⟩), View.canon_cons_unit_zero hz6]
    simp only [View.readAt_eq_ld, View.ld_unit_zero (S := S512x512) hz6, View.ld_unit_zero (S := S1x512) hz6,
      View.readCov_unit_zero (S := S512x512) _ hz6]
  iexists _; isplitr
  swap; · iexact H4
  ipureintro
  sl_unfold_run_names
  rw [View.read_writes_eq_canon _ _ _ (fun y => ⟨_, List.mem_cons.mpr (Or.inl rfl), View.mem_set_unit_zero hz6 inb_S512x512_S512x512_0_0 y⟩), View.canon_cons_unit_zero hz6]
  simp only [View.readAt_eq_ld, View.ld_unit_zero (S := S512x512) hz6, View.ld_unit_zero (S := S1x512) hz6,
    View.readCov_unit_zero (S := S512x512) _ hz6]

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t)

set_option maxHeartbeats 2000000 in

-- One grid point: from the blocks of its inputs to the blocks the proof data names after it, by the parity of the position.
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).owesAt () t.succ = (dat6 V c).owesAt () t.castSucc from rfl]
  rw [show (dat6 V c).Φ t.succ = Phi6 V c (t.val + 1) t.isLt from rfl, Phi6_succ]
  rw [show (dat6 V c).Φ t.castSucc = Phi6 V c t.val (Nat.le_of_lt t.isLt) from rfl]
  rw [show (dat6 V c).leavesExact 0 t = owns (c : Thread nD τ) (st6_0 t) fullShare ((dat6 V c).after 0 t) from by
    unfold Dat.leavesExact; rw [liveAt6_0 t], after6_0]
  rw [show (dat6 V c).leavesExact 1 t = owns (c : Thread nD τ) (st6_1 t) fullShare ((dat6 V c).after 1 t) from by
    unfold Dat.leavesExact; rw [liveAt6_1 t], after6_1]
  rw [show (dat6 V c).leavesExact 2 t = owns (c : Thread nD τ) (st6_2 t) fullShare ((dat6 V c).after 2 t) from by
    unfold Dat.leavesExact; rw [liveAt6_2 t], after6_2]
  by_cases h0 : t.val % 2 = 0
  · have hc0 : cond6_0 (grid6.coords t) := (hcond6_0 t).mpr h0
    have hc1 : ¬cond6_1 (grid6.coords t) := fun h => by have := (hcond6_1 t).mp h; omega
    rw [Dat.leavesExact_idle (dat6 V c) 3 t (idleAt6_3_first t h0) (noFlush6_3_first t h0)]
    rw [acc6_first V c t h0]
    by_cases hz : t.val = 0
    · rw [Phi6_zero V c _ _ hz, PhiA6_eq]
      iintro ⟨⟨⟨HS, Hrest⟩, Hg⟩, Ho, ⟨%d0, H0⟩, ⟨%d1, H1⟩, ⟨%d2, H2⟩, ⟨%d3, H3⟩⟩
      iapply (sound_kernel6_first c Set.univ (grid6.coords t) _ _ _ _ _ _ _ _ _ _ hc0 hc1
        (iblk6 V c 0 t) (iblk6 V c 1 t) (iblk6 V c 2 t) ((dat6 V c).before 3 t d3) _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3
    · rw [Phi6_pos V c _ _ hz]
      iintro ⟨⟨⟨HS, Hrest⟩, Hg⟩, Ho, ⟨%d0, H0⟩, ⟨%d1, H1⟩, ⟨%d2, H2⟩, ⟨%d3, H3⟩⟩
      iapply (sound_kernel6_first c Set.univ (grid6.coords t) _ _ _ _ _ _ _ _ _ _ hc0 hc1
        (iblk6 V c 0 t) (iblk6 V c 1 t) (iblk6 V c 2 t) ((dat6 V c).before 3 t d3) _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3
  · have h1 : t.val % 2 = 1 := by omega
    have hz : t.val ≠ 0 := by omega
    have hc0 : ¬cond6_0 (grid6.coords t) := fun h => h0 ((hcond6_0 t).mp h)
    have hc1 : cond6_1 (grid6.coords t) := (hcond6_1 t).mpr h1
    rw [show (dat6 V c).leavesExact 3 t = owns (c : Thread nD τ) (st6_3 t) fullShare ((dat6 V c).after 3 t) from by
      unfold Dat.leavesExact; rw [liveAt6_3_last t h1], after6_3]
    unfold out6
    rw [acc6_last V c t h1, Phi6_pos V c _ _ hz]
    iintro ⟨⟨⟨HS, Hrest⟩, Hg⟩, Ho, ⟨%d0, H0⟩, ⟨%d1, H1⟩, ⟨%d2, H2⟩, ⟨%d3, H3⟩⟩
    iapply (sound_kernel6_last c Set.univ (grid6.coords t) _ _ _ _ _ _ _ _ _ _ hc0 hc1
      (iblk6 V c 0 t) (iblk6 V c 1 t) (iblk6 V c 2 t) (acc6 V c (t.val - 1) (Nat.lt_of_le_of_lt (Nat.sub_le _ _) t.isLt)) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    iexact H3

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := by
  rw [show (dat6 V c).Φ 0 = Phi6 V c 0 (Nat.zero_le _) from rfl, Phi6_zero V c 0 _ rfl]

theorem Phi_out6 (c : Dev nD) (t : Fin (cfg6.N + 1)) (ht : t.val ≠ 0) : (dat6 V c).Φ t ⊢ Pipeline.ΦA spec6 c := by
  rw [Phi_eq6, Phi6_pos V c _ _ ht, PhiA6_eq]
  iintro ⟨⟨HS, Hrest⟩, Hg⟩
  isplitl [HS Hrest]
  · isplitl [HS]; · iexists _; iexact HS
    iexact Hrest
  iexact Hg

theorem hout6 (c : Dev nD) : (dat6 V c).Φ (Fin.last cfg6.N) ⊢ Pipeline.ΦA spec6 c :=
  Phi_out6 V c _ (by rw [Fin.val_last]; have : cfg6.N = 64 := N_6; omega)

end Cert.KernelIdeal.Hand

end
-- ==== Proof.KI.Dat7.lean ====
import proofs.«176467_j34754875359699_1_alg».proof.Proof.KI.Base

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def acc7 (c : Dev nD) : (n : ℕ) → n < cfg7.N → Vec F S512x512 .f32
  | 0, hn => k7_pay2 (iblk7 V c 0 ⟨0, hn⟩) (iblk7 V c 1 ⟨0, hn⟩) k7_pay1
  | n + 1, hn =>
    if (n + 1) % 8 = 0 then k7_pay2 (iblk7 V c 0 ⟨n + 1, hn⟩) (iblk7 V c 1 ⟨n + 1, hn⟩) k7_pay1
    else k7_pay2 (iblk7 V c 0 ⟨n + 1, hn⟩) (iblk7 V c 1 ⟨n + 1, hn⟩) (acc7 c n (Nat.lt_of_succ_lt hn))

theorem acc7_first (c : Dev nD) (t : Fin cfg7.N) (h : t.val % 8 = 0) :
    acc7 V c t.val t.isLt = k7_pay2 (iblk7 V c 0 t) (iblk7 V c 1 t) k7_pay1 := by
  obtain ⟨n, hn⟩ := t
  cases n with
  | zero => rfl
  | succ n => exact if_pos h

theorem acc7_next (c : Dev nD) (t : Fin cfg7.N) (h : ¬t.val % 8 = 0) :
    acc7 V c t.val t.isLt = k7_pay2 (iblk7 V c 0 t) (iblk7 V c 1 t)
      (acc7 V c (t.val - 1) (Nat.lt_of_le_of_lt (Nat.sub_le _ _) t.isLt)) := by
  obtain ⟨n, hn⟩ := t
  cases n with
  | zero => exact absurd (Nat.zero_mod _) h
  | succ n => exact if_neg h

def out7_3 (c : Dev nD) (t : Fin cfg7.N) : Vec F S512x512 .f32 :=
  k7_pay3 (acc7 V c t.val t.isLt) (iblk7 V c 2 t)

abbrev scM7_0 : Memref sig .tc .vmem S512x512 .f32 := Memref.whole cc7_scratch0

def Phi7 (c : Dev nD) : (n : ℕ) → n ≤ cfg7.N → sProp 𝕄
  | 0, _ => Pipeline.ΦA spec7 c
  | n + 1, hn =>
    iprop(iprop(owns (c : Thread nD τ) scM7_0 fullShare (acc7 V c n hn)
        ∗ Pipeline.scopedRestBut (Ix := Unit) (Name := ℕ) (U := UR sig nD τ) (Lvl := ℕ) (Val := Elt F) spec7 c [cc7_scratch0])
      ∗ (∃ r, prngReg c r))

theorem Phi7_zero (c : Dev nD) (n : ℕ) (h : n ≤ cfg7.N) (hz : n = 0) : Phi7 V c n h = Pipeline.ΦA spec7 c := by
  subst hz; rfl

theorem Phi7_succ (c : Dev nD) (n : ℕ) (hn : n < cfg7.N) :
    Phi7 V c (n + 1) hn
      = iprop(iprop(owns (c : Thread nD τ) scM7_0 fullShare (acc7 V c n hn)
          ∗ Pipeline.scopedRestBut (Ix := Unit) (Name := ℕ) (U := UR sig nD τ) (Lvl := ℕ) (Val := Elt F) spec7 c [cc7_scratch0])
        ∗ (∃ r, prngReg c r)) := rfl

theorem Phi7_pos (c : Dev nD) (n : ℕ) (h : n ≤ cfg7.N) (hz : n ≠ 0) :
    Phi7 V c n h
      = iprop(iprop(owns (c : Thread nD τ) scM7_0 fullShare (acc7 V c (n - 1) (by omega))
          ∗ Pipeline.scopedRestBut (Ix := Unit) (Name := ℕ) (U := UR sig nD τ) (Lvl := ℕ) (Val := Elt F) spec7 c [cc7_scratch0])
        ∗ (∃ r, prngReg c r)) := by
  cases n with
  | zero => exact absurd rfl hz
  | succ n => rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 V c t
  Φ t := Phi7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem q_eq7 (c : Dev nD) (w : Fin cfg7.W) : (dat7 V c).q w = fullShare := by
  dsimp only [dat7]

theorem owed_eq7 (c : Dev nD) (t : Fin (cfg7.N + 1)) : (dat7 V c).owed t = 0 := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 V c t := by dsimp only [dat7]

theorem Phi7_castSucc (c : Dev nD) (t : Fin cfg7.N) :
    (dat7 V c).Φ t.castSucc = Phi7 V c t.val (Nat.le_of_lt t.isLt) := by
  dsimp only [dat7]; simp only [Fin.coe_castSucc]

theorem recorded_eq7 (c : Dev nD) (t : Fin (cfg7.N + 1)) : (dat7 V c).recorded t = Set.univ := rfl

end Cert.KernelIdeal.Hand

end
-- ==== Proof.KI.Reg7.lean ====
import proofs.«176467_j34754875359699_1_alg».proof.Proof.KI.Dat7
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond7_0 (i : grid7.Coords) : Prop :=
  (Scalar.cmpi .ne (Scalar.extui (Scalar.cmpi .eq (BitVec.ofNat 32 (i 2).val) 0#32)) 0#32) = 1#1
theorem hcond7_0 : ∀ t : Fin cfg7.N, cond7_0 (grid7.coords t) ↔ t.val % 8 = 0 :=
  (by decide +kernel : ∀ t : Fin grid7.N, cond7_0 (grid7.coords t) ↔ t.val % 8 = 0)

abbrev cond7_1 (i : grid7.Coords) : Prop := k7_cond2 i = 1#1
theorem hcond7_1 : ∀ t : Fin cfg7.N, cond7_1 (grid7.coords t) ↔ t.val % 8 = 7 :=
  (by decide +kernel : ∀ t : Fin grid7.N, cond7_1 (grid7.coords t) ↔ t.val % 8 = 7)

theorem live7_0 : ∀ t : Fin cfg7.N, cfg7.idle 0 (grid7.coords t) = false := fun _ => rfl
theorem live7_1 : ∀ t : Fin cfg7.N, cfg7.idle 1 (grid7.coords t) = false := fun _ => rfl
theorem live7_2 : ∀ t : Fin cfg7.N, cfg7.idle 2 (grid7.coords t) = false := fun _ => rfl

theorem idle7_3 (t : Fin cfg7.N) (h : ¬cond7_1 (grid7.coords t)) : cfg7.idle 3 (grid7.coords t) = true := by
  show (!(k7_cond2 (grid7.coords t) == 1#1)) = true
  rw [Bool.not_eq_true', beq_eq_false_iff_ne]; exact h
theorem live7_3 (t : Fin cfg7.N) (h : cond7_1 (grid7.coords t)) : cfg7.idle 3 (grid7.coords t) = false := by
  show (!(k7_cond2 (grid7.coords t) == 1#1)) = false
  rw [Bool.not_eq_false', beq_iff_eq]; exact h

theorem noFlush7_3 (t : Fin cfg7.N) (h : ¬t.val % 8 = 7) : (cfg7.win 3).flush t = false :=
  Bool.eq_false_iff.mpr fun hf => h ((flush7_3 t).mp hf)

theorem off00 : (![0, 0] : Fin 2 → ℕ) = fun _ => 0 := funext fun a => by fin_cases a <;> rfl

theorem cover7 (w : Vec F S512x512 .f32) (L : List (View.Piece (Elt F) S512x512 .f32)) (y : S512x512.Idx) :
    ∃ p ∈ ((⟨Rect.unit ![0, 0] S512x512.size inb_S512x512_S512x512_0_0, w⟩ : View.Piece (Elt F) S512x512 .f32) :: L), y ∈ p.1.set :=
  ⟨_, List.mem_cons.mpr (Or.inl rfl), View.mem_set_unit_zero off00 inb_S512x512_S512x512_0_0 y⟩

set_option maxHeartbeats 1000000 in

theorem run7_first (c : Dev nD) (E : Set ℕ) (i : grid7.Coords)
    (arg3 : Memref sig .tc .vmem S512x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S512x512 .f32) (harg6 : arg6.IsWhole)
    (arg7 : Memref sig .tc .vmem S512x512 .f32) (harg7 : arg7.IsWhole)
    (hc0 : cond7_0 i) (hc1 : ¬cond7_1 i)
    (x0 x1 : Vec F S512x512 .f32) (K : PUnit → sProp 𝕄) :
    iprop(owns (c : Thread nD τ) arg3 fullShare x0 ∗ owns (c : Thread nD τ) arg4 fullShare x1 ∗ (∃ d, owns (c : Thread nD τ) arg7 fullShare d)
        ∗ (iprop(owns (c : Thread nD τ) arg3 fullShare x0 ∗ owns (c : Thread nD τ) arg4 fullShare x1 ∗ owns (c : Thread nD τ) arg7 fullShare (k7_pay2 x0 x1 k7_pay1)) -∗ K ⟨⟩))
      ⊢ wp frame (wpE (defs₀ (F := F)) Variants.none c none) E (cc7__matmul_nt_kernel i arg3 harg3 arg4 harg4 arg5 harg5 arg6 harg6 arg7 harg7) K := by
  simp only [cc7__matmul_nt_kernel_eq_skeleton]; unfold cc7__matmul_nt_kernel_skel
  unfold owns
  iintro ⟨⟨%f0, %hf0, H0⟩, ⟨%f1, %hf1, H1⟩, ⟨%ds, %fs, -, HS⟩, Hk⟩
  obtain rfl := harg3.eq_unread hf0; obtain rfl := harg4.eq_unread hf1
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS
  ipureintro
  sl_unfold_run_names
  rw [View.read_writes_eq_canon _ _ _ (cover7 _ _), View.canon_cons_unit_zero off00]
  simp only [View.readAt_eq_ld, harg3.read_unread, harg4.read_unread, View.ld_unit_zero (S := S512x512) off00,
    View.readCov_unit_zero (S := S512x512) _ off00]

set_option maxHeartbeats 1000000 in

theorem run7_mid (c : Dev nD) (E : Set ℕ) (i : grid7.Coords)
    (arg3 : Memref sig .tc .vmem S512x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S512x512 .f32) (harg6 : arg6.IsWhole)
    (arg7 : Memref sig .tc .vmem S512x512 .f32) (harg7 : arg7.IsWhole)
    (hc0 : ¬cond7_0 i) (hc1 : ¬cond7_1 i)
    (x0 x1 xs : Vec F S512x512 .f32) (K : PUnit → sProp 𝕄) :
    iprop(owns (c : Thread nD τ) arg3 fullShare x0 ∗ owns (c : Thread nD τ) arg4 fullShare x1 ∗ owns (c : Thread nD τ) arg7 fullShare xs
        ∗ (iprop(owns (c : Thread nD τ) arg3 fullShare x0 ∗ owns (c : Thread nD τ) arg4 fullShare x1 ∗ owns (c : Thread nD τ) arg7 fullShare (k7_pay2 x0 x1 xs)) -∗ K ⟨⟩))
      ⊢ wp frame (wpE (defs₀ (F := F)) Variants.none c none) E (cc7__matmul_nt_kernel i arg3 harg3 arg4 harg4 arg5 harg5 arg6 harg6 arg7 harg7) K := by
  simp only [cc7__matmul_nt_kernel_eq_skeleton]; unfold cc7__matmul_nt_kernel_skel
  unfold owns
  iintro ⟨⟨%f0, %hf0, H0⟩, ⟨%f1, %hf1, H1⟩, ⟨%fs, %hfs, HS⟩, Hk⟩
  obtain rfl := harg3.eq_unread hf0; obtain rfl := harg4.eq_unread hf1; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS
  ipureintro
  sl_unfold_run_names
  rw [View.read_writes_eq_canon _ _ _ (cover7 _ _), View.canon_cons_unit_zero off00]
  simp only [View.readAt_eq_ld, harg3.read_unread, harg4.read_unread, harg7.read_unread, View.ld_unit_zero (S := S512x512) off00]

set_option maxHeartbeats 1000000 in

theorem run7_last (c : Dev nD) (E : Set ℕ) (i : grid7.Coords)
    (arg3 : Memref sig .tc .vmem S512x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S512x512 .f32) (harg6 : arg6.IsWhole)
    (arg7 : Memref sig .tc .vmem S512x512 .f32) (harg7 : arg7.IsWhole)
    (hc0 : ¬cond7_0 i) (hc1 : cond7_1 i)
    (x0 x1 : Vec F S512x512 .f32) (x2 : Vec F S1x512 .f32) (xs : Vec F S512x512 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k7_pay3 (k7_pay2 x0 x1 xs) x2) ∗ owns (c : Thread nD τ) arg7 fullShare (k7_pay2 x0 x1 xs)) -∗ K ⟨⟩))
      ⊢ wp frame (wpE (defs₀ (F := F)) Variants.none c none) E (cc7__matmul_nt_kernel i arg3 harg3 arg4 harg4 arg5 harg5 arg6 harg6 arg7 harg7) K := by
  simp only [cc7__matmul_nt_kernel_eq_skeleton]; unfold cc7__matmul_nt_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg3.eq_unread hf0; obtain rfl := harg4.eq_unread hf1; obtain rfl := harg5.eq_unread hf2; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_run_names
    rw [View.read_writes_eq_canon _ _ _ (cover7 _ _), View.canon_cons_unit_zero off00]
    simp only [View.readAt_eq_ld, harg3.read_unread, harg4.read_unread, harg5.read_unread, harg7.read_unread,
      View.ld_unit_zero (S := S512x512) off00, View.ld_unit_zero (S := S1x512) off00, View.readCov_unit_zero (S := S512x512) _ off00]
  iexists _; isplitr
  swap; · iexact HS
  ipureintro
  sl_unfold_run_names
  rw [View.read_writes_eq_canon _ _ _ (cover7 _ _), View.canon_cons_unit_zero off00]
  simp only [View.readAt_eq_ld, harg3.read_unread, harg4.read_unread, harg7.read_unread, View.ld_unit_zero (S := S512x512) off00]

theorem before7_0 (c : Dev nD) (t : Fin cfg7.N) (d) : (dat7 V c).before 0 t d = iblk7 V c 0 t :=
  ((dat7 V c).before_in_eq_fetched 0 rfl (fun _ => rfl) (fun _ _ _ => rfl)
      (fun t => by rw [after7_0]; unfold Dat.blockOf iblk7; rw [A_eq7]; try rfl) t d).trans
    (by unfold Dat.fetched Dat.blockOf iblk7; rw [A_eq7]; try rfl)
theorem before7_1 (c : Dev nD) (t : Fin cfg7.N) (d) : (dat7 V c).before 1 t d = iblk7 V c 1 t :=
  ((dat7 V c).before_in_eq_fetched 1 rfl (fun _ => rfl) (fun _ _ _ => rfl)
      (fun t => by rw [after7_1]; unfold Dat.blockOf iblk7; rw [A_eq7]; try rfl) t d).trans
    (by unfold Dat.fetched Dat.blockOf iblk7; rw [A_eq7]; try rfl)
theorem before7_2 (c : Dev nD) (t : Fin cfg7.N) (d) : (dat7 V c).before 2 t d = iblk7 V c 2 t :=
  ((dat7 V c).before_in_eq_fetched 2 rfl (fun _ => rfl) (fun _ _ _ => rfl)
      (fun t => by rw [after7_2]; unfold Dat.blockOf iblk7; rw [A_eq7]; try rfl) t d).trans
    (by unfold Dat.fetched Dat.blockOf iblk7; rw [A_eq7]; try rfl)

theorem PhiA7_eq (c : Dev nD) :
    (Pipeline.ΦA spec7 c : sProp 𝕄)
      = iprop(iprop((∃ d, owns (c : Thread nD τ) scM7_0 fullShare d) ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [scM7_0, owns_whole]; try rfl

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t)

theorem leaves7_0 (c : Dev nD) (t : Fin cfg7.N) :
    (dat7 V c).leavesExact 0 t = owns (c : Thread nD τ) (st7_0 t) fullShare (iblk7 V c 0 t) := by
  unfold Dat.leavesExact; rw [live7_0 t, after7_0]
theorem leaves7_1 (c : Dev nD) (t : Fin cfg7.N) :
    (dat7 V c).leavesExact 1 t = owns (c : Thread nD τ) (st7_1 t) fullShare (iblk7 V c 1 t) := by
  unfold Dat.leavesExact; rw [live7_1 t, after7_1]
theorem leaves7_2 (c : Dev nD) (t : Fin cfg7.N) :
    (dat7 V c).leavesExact 2 t = owns (c : Thread nD τ) (st7_2 t) fullShare (iblk7 V c 2 t) := by
  unfold Dat.leavesExact; rw [live7_2 t, after7_2]
theorem leaves7_3_last (c : Dev nD) (t : Fin cfg7.N) (h : t.val % 8 = 7) :
    (dat7 V c).leavesExact 3 t = owns (c : Thread nD τ) (st7_3 t) fullShare (out7_3 V c t) := by
  unfold Dat.leavesExact; rw [live7_3 t ((hcond7_1 t).mpr h), after7_3]

set_option maxHeartbeats 4000000 in

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).owesAt () t.succ = (dat7 V c).owesAt () t.castSucc from rfl]
  rw [show (dat7 V c).Φ t.succ = Phi7 V c (t.val + 1) t.isLt from rfl, Phi7_succ]
  rw [leaves7_0, leaves7_1, leaves7_2, Phi7_castSucc]
  have hN : t.val < 64 := lt_of_lt_of_eq t.isLt (show cfg7.N = 64 from N_7)
  by_cases h0 : t.val % 8 = 0
  · have h7 : ¬t.val % 8 = 7 := by omega
    have hc1 : ¬cond7_1 (grid7.coords t) := fun h => h7 ((hcond7_1 t).mp h)
    rw [Dat.leavesExact_idle (dat7 V c) 3 t (idle7_3 t hc1) (noFlush7_3 t h7), acc7_first V c t h0]
    by_cases hz : t.val = 0
    · rw [Phi7_zero V c _ _ hz, PhiA7_eq]
      iintro ⟨⟨⟨HS, HR⟩, Hg⟩, Ho, ⟨%d0, H0⟩, ⟨%d1, H1⟩, ⟨%d2, H2⟩, ⟨%d3, H3⟩⟩
      iapply (run7_first c Set.univ (grid7.coords t) _ _ _ _ _ _ _ _ _ _ ((hcond7_0 t).mpr h0) hc1 (iblk7 V c 0 t) (iblk7 V c 1 t) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [Phi7_pos V c _ _ hz]
      iintro ⟨⟨⟨HS, HR⟩, Hg⟩, Ho, ⟨%d0, H0⟩, ⟨%d1, H1⟩, ⟨%d2, H2⟩, ⟨%d3, H3⟩⟩
      iapply (run7_first c Set.univ (grid7.coords t) _ _ _ _ _ _ _ _ _ _ ((hcond7_0 t).mpr h0) hc1 (iblk7 V c 0 t) (iblk7 V c 1 t) _)
      isplitl [H0]; · iexact H0
      isplitl [H1]; · iexact H1
      isplitl [HS]; · iexists _; iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hc0 : ¬cond7_0 (grid7.coords t) := fun h => h0 ((hcond7_0 t).mp h)
    rw [Phi7_pos V c _ _ hz, acc7_next V c t h0]
    by_cases h7 : t.val % 8 = 7
    · rw [leaves7_3_last V c t h7]
      unfold out7_3
      rw [acc7_next V c t h0]
      iintro ⟨⟨⟨HS, HR⟩, Hg⟩, Ho, ⟨%d0, H0⟩, ⟨%d1, H1⟩, ⟨%d2, H2⟩, ⟨%d3, H3⟩⟩
      iapply (run7_last c Set.univ (grid7.coords t) _ _ _ _ _ _ _ _ _ _ hc0 ((hcond7_1 t).mpr h7) (iblk7 V c 0 t) (iblk7 V c 1 t) (iblk7 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · have hc1 : ¬cond7_1 (grid7.coords t) := fun h => h7 ((hcond7_1 t).mp h)
      rw [Dat.leavesExact_idle (dat7 V c) 3 t (idle7_3 t hc1) (noFlush7_3 t h7)]
      iintro ⟨⟨⟨HS, HR⟩, Hg⟩, Ho, ⟨%d0, H0⟩, ⟨%d1, H1⟩, ⟨%d2, H2⟩, ⟨%d3, H3⟩⟩
      iapply (run7_mid c Set.univ (grid7.coords t) _ _ _ _ _ _ _ _ _ _ hc0 hc1 (iblk7 V c 0 t) (iblk7 V c 1 t) _ _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

theorem body_obligation7 (c : Dev nD) : BodyObligation (dat7 (F := F) V c) (defs₀ (F := F)) Variants.none () Set.univ := fun t => by
  rw [bigSep_W7, bigSep_W7]
  exact sound_body7 V c t

theorem hin7 (c : Dev nD) : Pipeline.ΦA spec7 c ⊢ (dat7 V c).Φ 0 := by
  rw [show (dat7 V c).Φ 0 = Phi7 V c 0 (Nat.zero_le _) from rfl, Phi7_zero V c 0 _ rfl]

theorem hout7 (c : Dev nD) : (dat7 V c).Φ (Fin.last cfg7.N) ⊢ Pipeline.ΦA spec7 c := by
  rw [show (dat7 V c).Φ (Fin.last cfg7.N) = Phi7 V c (Fin.last cfg7.N).val (Nat.le_of_lt_succ (Fin.last cfg7.N).isLt) from rfl,
    Phi7_pos V c _ _ (by rw [Fin.val_last]; have : cfg7.N = 64 := N_7; omega), PhiA7_eq]
  iintro ⟨⟨HS, HR⟩, Hg⟩
  isplitl [HS HR]
  · isplitl [HS]; · iexists _; iexact HS
    iexact HR
  iexact Hg

end Cert.KernelIdeal.Hand

end
-- ==== Proof.KI.Dat8.lean ====
import proofs.«176467_j34754875359699_1_alg».proof.Proof.KI.Base

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => k5_pay1 (iblk8 V c 0 t) (iblk8 V c 1 t) (iblk8 V c 2 t) (iblk8 V c 3 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem q_eq8 (c : Dev nD) (w : Fin cfg8.W) : (dat8 V c).q w = fullShare := by
  dsimp only [dat8]

theorem owed_eq8 (c : Dev nD) (t : Fin (cfg8.N + 1)) : (dat8 V c).owed t = 0 := by
  dsimp only [dat8]

theorem Phi_eq8 (c : Dev nD) (t : Fin (cfg8.N + 1)) : (dat8 V c).Φ t = Pipeline.ΦA spec8 c := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) :
    (dat8 V c).after 4 t = k5_pay1 (iblk8 V c 0 t) (iblk8 V c 1 t) (iblk8 V c 2 t) (iblk8 V c 3 t) := by dsimp only [dat8]

theorem recorded_eq8 (c : Dev nD) (t : Fin (cfg8.N + 1)) : (dat8 V c).recorded t = Set.univ := rfl

end Cert.KernelIdeal.Hand

end
-- ==== Proof.KI.Reg8.lean ====
import proofs.«176467_j34754875359699_1_alg».proof.Proof.KI.Dat8
import proofs.«176467_j34754875359699_1_alg».proof.Proof.KI.Reg5
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before8_0 (c : Dev nD) (t : Fin cfg8.N) (d) : (dat8 V c).before 0 t d = iblk8 V c 0 t :=
  (dat8 V c).before_in_eq_fetched 0 rfl (fun _ => rfl) (fun _ _ _ => rfl) (fun _ => rfl) t d
theorem before8_1 (c : Dev nD) (t : Fin cfg8.N) (d) : (dat8 V c).before 1 t d = iblk8 V c 1 t :=
  (dat8 V c).before_in_eq_fetched 1 rfl (fun _ => rfl) (fun _ _ _ => rfl) (fun _ => rfl) t d
theorem before8_2 (c : Dev nD) (t : Fin cfg8.N) (d) : (dat8 V c).before 2 t d = iblk8 V c 2 t :=
  (dat8 V c).before_in_eq_fetched 2 rfl (fun _ => rfl) (fun _ _ _ => rfl) (fun _ => rfl) t d
theorem before8_3 (c : Dev nD) (t : Fin cfg8.N) (d) : (dat8 V c).before 3 t d = iblk8 V c 3 t :=
  (dat8 V c).before_in_eq_fetched 3 rfl (fun _ => rfl) (fun _ _ _ => rfl) (fun _ => rfl) t d

-- Region 8 runs region 5's kernel function on its own buffers, so region 5's body lemma serves it.
theorem cc8_eq : cc8__add_norm_kernel (F := F) = cc5__add_norm_kernel (F := F) := rfl

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  rw [cc8_eq]
  simp only [before8_0, before8_1, before8_2, before8_3]
  rw [show (dat8 V c).Φ t.succ = (dat8 V c).Φ t.castSucc from rfl,
    show (dat8 V c).owesAt () t.succ = (dat8 V c).owesAt () t.castSucc from rfl,
    after8_0, after8_1, after8_2, after8_3, after8_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk8 V c 0 t) (iblk8 V c 1 t) (iblk8 V c 2 t) (iblk8 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation8 (c : Dev nD) : BodyObligation (dat8 (F := F) V c) (defs₀ (F := F)) Variants.none () Set.univ := fun t => by
  rw [bigSep_W8, bigSep_W8]
  exact sound_body8 V c t

theorem hin8 (c : Dev nD) : Pipeline.ΦA spec8 c ⊢ (dat8 V c).Φ 0 :=
  Entails.of_eq (Phi_eq8 V c 0).symm

theorem hout8 (c : Dev nD) : (dat8 V c).Φ (Fin.last cfg8.N) ⊢ Pipeline.ΦA spec8 c :=
  Entails.of_eq (Phi_eq8 V c (Fin.last cfg8.N))

end Cert.KernelIdeal.Hand

end
-- ==== Proof.KI.Fold.lean ====
import proofs.«176467_j34754875359699_1_alg».proof.Proof.KI.Reg0
import proofs.«176467_j34754875359699_1_alg».proof.Proof.KI.Reg1
import proofs.«176467_j34754875359699_1_alg».proof.Proof.KI.Reg2
import proofs.«176467_j34754875359699_1_alg».proof.Proof.KI.Reg3
import proofs.«176467_j34754875359699_1_alg».proof.Proof.KI.Reg4
import proofs.«176467_j34754875359699_1_alg».proof.Proof.KI.Reg5
import proofs.«176467_j34754875359699_1_alg».proof.Proof.KI.Reg6
import proofs.«176467_j34754875359699_1_alg».proof.Proof.KI.Reg7
import proofs.«176467_j34754875359699_1_alg».proof.Proof.KI.Reg8

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

abbrev W8 : Dev nD → Valuation τ sig (Elt F) := fun c => StableHlo.after hostOps4 (W7 m ρ c)
abbrev V8 : (c : Dev nD) → (b : Ref sig .tc) → Buf (Elt F) ((c : Thread nD τ).loc b) := fun c b => W8 m ρ c b

def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
abbrev V9 : (c : Dev nD) → (b : Ref sig .tc) → Buf (Elt F) ((c : Thread nD τ).loc b) := fun c b => W9 m ρ c b
theorem hF4 (c : Dev nD) (w : Fin cfg4.W) : (dat4 (V8 m ρ) c).arrAt w cfg4.N = V9 m ρ c (Pipeline.arrRef spec4 w) :=
  (W9_arr m ρ c w).symm
theorem hrest4 (c : Dev nD) : ∀ b, b ∉ Finset.univ.image (Pipeline.arrRef spec4) → V9 m ρ c b = V8 m ρ c b :=
  fun b hb => W9_of_ne m ρ c b fun w e => hb (Finset.mem_image.mpr ⟨w, Finset.mem_univ _, e⟩)

abbrev W10 : Dev nD → Valuation τ sig (Elt F) := fun c => StableHlo.after hostOps5 (W9 m ρ c)
abbrev V10 : (c : Dev nD) → (b : Ref sig .tc) → Buf (Elt F) ((c : Thread nD τ).loc b) := fun c b => W10 m ρ c b

def W11 (c : Dev nD) : Valuation τ sig (Elt F) :=
  Pipeline.withArrays spec5 c (W10 m ρ c) fun w => (dat5 (V10 m ρ) c).arrAt w cfg5.N
theorem W11_arr (c : Dev nD) (w : Fin cfg5.W) :
    W11 m ρ c (Proc.devRef .tc (Pipeline.arrRef spec5 w)) = (dat5 (V10 m ρ) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m ρ c (Proc.devRef .tc b) = W10 m ρ c (Proc.devRef .tc b) := by
  unfold W11; exact Pipeline.withArrays_of_ne spec5 c _ _ b hb
abbrev V11 : (c : Dev nD) → (b : Ref sig .tc) → Buf (Elt F) ((c : Thread nD τ).loc b) := fun c b => W11 m ρ c b
theorem hF5 (c : Dev nD) (w : Fin cfg5.W) : (dat5 (V10 m ρ) c).arrAt w cfg5.N = V11 m ρ c (Pipeline.arrRef spec5 w) :=
  (W11_arr m ρ c w).symm
theorem hrest5 (c : Dev nD) : ∀ b, b ∉ Finset.univ.image (Pipeline.arrRef spec5) → V11 m ρ c b = V10 m ρ c b :=
  fun b hb => W11_of_ne m ρ c b fun w e => hb (Finset.mem_image.mpr ⟨w, Finset.mem_univ _, e⟩)

abbrev W12 : Dev nD → Valuation τ sig (Elt F) := fun c => StableHlo.after hostOps6 (W11 m ρ c)
abbrev V12 : (c : Dev nD) → (b : Ref sig .tc) → Buf (Elt F) ((c : Thread nD τ).loc b) := fun c b => W12 m ρ c b

def W13 (c : Dev nD) : Valuation τ sig (Elt F) :=
  Pipeline.withArrays spec6 c (W12 m ρ c) fun w => (dat6 (V12 m ρ) c).arrAt w cfg6.N
theorem W13_arr (c : Dev nD) (w : Fin cfg6.W) :
    W13 m ρ c (Proc.devRef .tc (Pipeline.arrRef spec6 w)) = (dat6 (V12 m ρ) c).arrAt w cfg6.N := by
  unfold W13; exact Pipeline.withArrays_arr spec6 launch6.win.arr_inj c _ _ w
theorem W13_of_ne (c : Dev nD) (b : Ref sig .tc) (hb : ∀ w, Pipeline.arrRef spec6 w ≠ b) :
    W13 m ρ c (Proc.devRef .tc b) = W12 m ρ c (Proc.devRef .tc b) := by
  unfold W13; exact Pipeline.withArrays_of_ne spec6 c _ _ b hb
abbrev V13 : (c : Dev nD) → (b : Ref sig .tc) → Buf (Elt F) ((c : Thread nD τ).loc b) := fun c b => W13 m ρ c b
theorem hF6 (c : Dev nD) (w : Fin cfg6.W) : (dat6 (V12 m ρ) c).arrAt w cfg6.N = V13 m ρ c (Pipeline.arrRef spec6 w) :=
  (W13_arr m ρ c w).symm
theorem hrest6 (c : Dev nD) : ∀ b, b ∉ Finset.univ.image (Pipeline.arrRef spec6) → V13 m ρ c b = V12 m ρ c b :=
  fun b hb => W13_of_ne m ρ c b fun w e => hb (Finset.mem_image.mpr ⟨w, Finset.mem_univ _, e⟩)

abbrev W14 : Dev nD → Valuation τ sig (Elt F) := fun c => StableHlo.after hostOps7 (W13 m ρ c)
abbrev V14 : (c : Dev nD) → (b : Ref sig .tc) → Buf (Elt F) ((c : Thread nD τ).loc b) := fun c b => W14 m ρ c b

def W15 (c : Dev nD) : Valuation τ sig (Elt F) :=
  Pipeline.withArrays spec7 c (W14 m ρ c) fun w => (dat7 (V14 m ρ) c).arrAt w cfg7.N
theorem W15_arr (c : Dev nD) (w : Fin cfg7.W) :
    W15 m ρ c (Proc.devRef .tc (Pipeline.arrRef spec7 w)) = (dat7 (V14 m ρ) c).arrAt w cfg7.N := by
  unfold W15; exact Pipeline.withArrays_arr spec7 launch7.win.arr_inj c _ _ w
theorem W15_of_ne (c : Dev nD) (b : Ref sig .tc) (hb : ∀ w, Pipeline.arrRef spec7 w ≠ b) :
    W15 m ρ c (Proc.devRef .tc b) = W14 m ρ c (Proc.devRef .tc b) := by
  unfold W15; exact Pipeline.withArrays_of_ne spec7 c _ _ b hb
abbrev V15 : (c : Dev nD) → (b : Ref sig .tc) → Buf (Elt F) ((c : Thread nD τ).loc b) := fun c b => W15 m ρ c b
theorem hF7 (c : Dev nD) (w : Fin cfg7.W) : (dat7 (V14 m ρ) c).arrAt w cfg7.N = V15 m ρ c (Pipeline.arrRef spec7 w) :=
  (W15_arr m ρ c w).symm
theorem hrest7 (c : Dev nD) : ∀ b, b ∉ Finset.univ.image (Pipeline.arrRef spec7) → V15 m ρ c b = V14 m ρ c b :=
  fun b hb => W15_of_ne m ρ c b fun w e => hb (Finset.mem_image.mpr ⟨w, Finset.mem_univ _, e⟩)

abbrev W16 : Dev nD → Valuation τ sig (Elt F) := fun c => StableHlo.after hostOps8 (W15 m ρ c)
abbrev V16 : (c : Dev nD) → (b : Ref sig .tc) → Buf (Elt F) ((c : Thread nD τ).loc b) := fun c b => W16 m ρ c b

def W17 (c : Dev nD) : Valuation τ sig (Elt F) :=
  Pipeline.withArrays spec8 c (W16 m ρ c) fun w => (dat8 (V16 m ρ) c).arrAt w cfg8.N
theorem W17_arr (c : Dev nD) (w : Fin cfg8.W) :
    W17 m ρ c (Proc.devRef .tc (Pipeline.arrRef spec8 w)) = (dat8 (V16 m ρ) c).arrAt w cfg8.N := by
  unfold W17; exact Pipeline.withArrays_arr spec8 launch8.win.arr_inj c _ _ w
theorem W17_of_ne (c : Dev nD) (b : Ref sig .tc) (hb : ∀ w, Pipeline.arrRef spec8 w ≠ b) :
    W17 m ρ c (Proc.devRef .tc b) = W16 m ρ c (Proc.devRef .tc b) := by
  unfold W17; exact Pipeline.withArrays_of_ne spec8 c _ _ b hb
abbrev V17 : (c : Dev nD) → (b : Ref sig .tc) → Buf (Elt F) ((c : Thread nD τ).loc b) := fun c b => W17 m ρ c b
theorem hF8 (c : Dev nD) (w : Fin cfg8.W) : (dat8 (V16 m ρ) c).arrAt w cfg8.N = V17 m ρ c (Pipeline.arrRef spec8 w) :=
  (W17_arr m ρ c w).symm
theorem hrest8 (c : Dev nD) : ∀ b, b ∉ Finset.univ.image (Pipeline.arrRef spec8) → V17 m ρ c b = V16 m ρ c b :=
  fun b hb => W17_of_ne m ρ c b fun w e => hb (Finset.mem_image.mpr ⟨w, Finset.mem_univ _, e⟩)

abbrev W18 : Dev nD → Valuation τ sig (Elt F) := fun c => StableHlo.after hostOps9 (W17 m ρ c)

abbrev Wlast : Dev nD → Valuation τ sig (Elt F) := W18 m ρ

def pdats : (p : Fin 9) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
  | ⟨4, _⟩ => fun c => dat4 (V8 m ρ) c
  | ⟨5, _⟩ => fun c => dat5 (V10 m ρ) c
  | ⟨6, _⟩ => fun c => dat6 (V12 m ρ) c
  | ⟨7, _⟩ => fun c => dat7 (V14 m ρ) c
  | ⟨8, _⟩ => fun c => dat8 (V16 m ρ) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev T (W : Dev nD → Valuation τ sig (Elt F)) (c : Dev nD) : sProp 𝕄 :=
  iprop(StableHlo.held (c : Thread nD τ) (Pipeline.ucRefs τ sig) (W c) ∗ R (F := F) c)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W18 m ρ c) ∗ ∃ r, prngReg c r)

end Cert.KernelIdeal.Hand

end
-- ==== Proof.KI.SegOf.lean ====
import proofs.«176467_j34754875359699_1_alg».proof.Proof.KI.Fold

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def regOf (p : Fin 9) (kit : Pipeline.LaunchFacts (nD := nD) (τ := τ) cfgs p)
    (Win Wout : Dev nD → Valuation τ sig (Elt F))
    (hq : ∀ c w, (pdats m ρ p c).q w = fullShare)
    (howed : ∀ c t, (pdats m ρ p c).owed t = 0)
    (hrec : ∀ c t, (pdats m ρ p c).recorded t = Set.univ)
    (hA : ∀ c w, (pdats m ρ p c).A w = (fun b : Ref sig .tc => (Win c b : Buf (Elt F) ((c : Thread nD τ).loc b))) (Pipeline.arrRef (cfgs p).spec w))
    (hbody : ∀ c, BodyObligation (pdats (F := F) m ρ p c) (defs₀ (F := F)) Variants.none () Set.univ)
    (hin : ∀ c, Pipeline.ΦA (cfgs p).spec c ⊢ (pdats m ρ p c).Φ 0)
    (hout : ∀ c, (pdats m ρ p c).Φ (Fin.last (cfgs p).N) ⊢ Pipeline.ΦA (cfgs p).spec c)
    (hF : ∀ c w, (pdats m ρ p c).arrAt w (cfgs p).N = (fun b : Ref sig .tc => (Wout c b : Buf (Elt F) ((c : Thread nD τ).loc b))) (Pipeline.arrRef (cfgs p).spec w))
    (hrest : ∀ c (b : Ref sig .tc), b ∉ Finset.univ.image (Pipeline.arrRef (cfgs p).spec) → Wout c b = Win c b) :
    Pipeline.RegionSeg (pcfgs (F := F)) adm (pdats m ρ) () defs₀ 𝒱₀ L lv p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ L lv p howed
  pre := T Win
  post := T Wout
  X c := iprop(∃ r, prngReg c r)
  Y c := iprop(∃ r, prngReg c r)
  Z c := Pipeline.unscopedRest (Ix := Unit) (Name := ℕ) (U := UR sig nD τ) (Lvl := ℕ) (cfgs p).spec c (fun b => Win c b)
  hentry c := by
    rw [Pipeline.ownSems0_none]
    have hsplit := Pipeline.arrays_of_unscopedBufs (p := p) (pcfgs (F := F)) adm (pdats m ρ) kit.win kit.arr_whole c
      ((pdats m ρ p c).share_full (hq c)) (fun b => Win c b) (hA c)
    rw [Pipeline.unscopedBufs_held c (Win c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr
      · ipureintro; exact fun x _ => Or.inl (by rw [hrec c 0]; trivial)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    refine (hout c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      kit.win kit.arr_whole c (pdats m ρ) ((pdats m ρ p c).share_full (hq c))
      (fun b => Win c b) (fun b => Wout c b) ((pdats m ρ p c).arrAt · (cfgs p).N) (hF c) (hrest c)
    rw [Pipeline.unscopedBufs_held c (Wout c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

end Cert.KernelIdeal.Hand

end
-- ==== Proof.KI.Seg0.lean ====
import proofs.«176467_j34754875359699_1_alg».proof.Proof.KI.SegOf

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def reg0 : Pipeline.RegionSeg (pcfgs (F := F)) adm (pdats m ρ) () defs₀ 𝒱₀ L lv 0 :=
  regOf m ρ 0 launch0 (W1 m ρ) (W2 m ρ)
    (fun c w => q_eq0 (V1 m ρ) c w) (fun c t => owed_eq0 (V1 m ρ) c t)
    (fun c t => recorded_eq0 (V1 m ρ) c t) (fun c w => A_eq0 (V1 m ρ) c w)
    (fun c => body_obligation0 (V1 m ρ) c) (fun c => hin0 (V1 m ρ) c) (fun c => hout0 (V1 m ρ) c)
    (fun c w => hF0 m ρ c w) (fun c => hrest0 m ρ c)

end Cert.KernelIdeal.Hand

end
-- ==== Proof.KI.Seg1.lean ====
import proofs.«176467_j34754875359699_1_alg».proof.Proof.KI.SegOf

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def reg1 : Pipeline.RegionSeg (pcfgs (F := F)) adm (pdats m ρ) () defs₀ 𝒱₀ L lv 1 :=
  regOf m ρ 1 launch1 (W3 m ρ) (W4 m ρ)
    (fun c w => q_eq1 (V3 m ρ) c w) (fun c t => owed_eq1 (V3 m ρ) c t)
    (fun c t => recorded_eq1 (V3 m ρ) c t) (fun c w => A_eq1 (V3 m ρ) c w)
    (fun c => body_obligation1 (V3 m ρ) c) (fun c => hin1 (V3 m ρ) c) (fun c => hout1 (V3 m ρ) c)
    (fun c w => hF1 m ρ c w) (fun c => hrest1 m ρ c)

end Cert.KernelIdeal.Hand

end
-- ==== Proof.KI.Seg2.lean ====
import proofs.«176467_j34754875359699_1_alg».proof.Proof.KI.SegOf

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def reg2 : Pipeline.RegionSeg (pcfgs (F := F)) adm (pdats m ρ) () defs₀ 𝒱₀ L lv 2 :=
  regOf m ρ 2 launch2 (W5 m ρ) (W6 m ρ)
    (fun c w => q_eq2 (V5 m ρ) c w) (fun c t => owed_eq2 (V5 m ρ) c t)
    (fun c t => recorded_eq2 (V5 m ρ) c t) (fun c w => A_eq2 (V5 m ρ) c w)
    (fun c => body_obligation2 (V5 m ρ) c) (fun c => hin2 (V5 m ρ) c) (fun c => hout2 (V5 m ρ) c)
    (fun c w => hF2 m ρ c w) (fun c => hrest2 m ρ c)

end Cert.KernelIdeal.Hand

end
-- ==== Proof.KI.Seg3.lean ====
import proofs.«176467_j34754875359699_1_alg».proof.Proof.KI.SegOf

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def reg3 : Pipeline.RegionSeg (pcfgs (F := F)) adm (pdats m ρ) () defs₀ 𝒱₀ L lv 3 :=
  regOf m ρ 3 launch3 (W6 m ρ) (W7 m ρ)
    (fun c w => q_eq3 (V6 m ρ) c w) (fun c t => owed_eq3 (V6 m ρ) c t)
    (fun c t => recorded_eq3 (V6 m ρ) c t) (fun c w => A_eq3 (V6 m ρ) c w)
    (fun c => body_obligation3 (V6 m ρ) c) (fun c => hin3 (V6 m ρ) c) (fun c => hout3 (V6 m ρ) c)
    (fun c w => hF3 m ρ c w) (fun c => hrest3 m ρ c)

end Cert.KernelIdeal.Hand

end
-- ==== Proof.KI.Seg4.lean ====
import proofs.«176467_j34754875359699_1_alg».proof.Proof.KI.SegOf

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def reg4 : Pipeline.RegionSeg (pcfgs (F := F)) adm (pdats m ρ) () defs₀ 𝒱₀ L lv 4 :=
  regOf m ρ 4 launch4 (W8 m ρ) (W9 m ρ)
    (fun c w => q_eq4 (V8 m ρ) c w) (fun c t => owed_eq4 (V8 m ρ) c t)
    (fun c t => recorded_eq4 (V8 m ρ) c t) (fun c w => A_eq4 (V8 m ρ) c w)
    (fun c => body_obligation4 (V8 m ρ) c) (fun c => hin4 (V8 m ρ) c) (fun c => hout4 (V8 m ρ) c)
    (fun c w => hF4 m ρ c w) (fun c => hrest4 m ρ c)

end Cert.KernelIdeal.Hand

end
-- ==== Proof.KI.Seg5.lean ====
import proofs.«176467_j34754875359699_1_alg».proof.Proof.KI.SegOf

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def reg5 : Pipeline.RegionSeg (pcfgs (F := F)) adm (pdats m ρ) () defs₀ 𝒱₀ L lv 5 :=
  regOf m ρ 5 launch5 (W10 m ρ) (W11 m ρ)
    (fun c w => q_eq5 (V10 m ρ) c w) (fun c t => owed_eq5 (V10 m ρ) c t)
    (fun c t => recorded_eq5 (V10 m ρ) c t) (fun c w => A_eq5 (V10 m ρ) c w)
    (fun c => body_obligation5 (V10 m ρ) c) (fun c => hin5 (V10 m ρ) c) (fun c => hout5 (V10 m ρ) c)
    (fun c w => hF5 m ρ c w) (fun c => hrest5 m ρ c)

end Cert.KernelIdeal.Hand

end
-- ==== Proof.KI.Seg6.lean ====
import proofs.«176467_j34754875359699_1_alg».proof.Proof.KI.SegOf

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def reg6 : Pipeline.RegionSeg (pcfgs (F := F)) adm (pdats m ρ) () defs₀ 𝒱₀ L lv 6 :=
  regOf m ρ 6 launch6 (W12 m ρ) (W13 m ρ)
    (fun c w => q_eq6 (V12 m ρ) c w) (fun c t => owed_eq6 (V12 m ρ) c t)
    (fun c t => recorded_eq6 (V12 m ρ) c t) (fun c w => A_eq6 (V12 m ρ) c w)
    (fun c => body_obligation6 (V12 m ρ) c) (fun c => hin6 (V12 m ρ) c) (fun c => hout6 (V12 m ρ) c)
    (fun c w => hF6 m ρ c w) (fun c => hrest6 m ρ c)

end Cert.KernelIdeal.Hand

end
-- ==== Proof.KI.Seg7.lean ====
import proofs.«176467_j34754875359699_1_alg».proof.Proof.KI.SegOf

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def reg7 : Pipeline.RegionSeg (pcfgs (F := F)) adm (pdats m ρ) () defs₀ 𝒱₀ L lv 7 :=
  regOf m ρ 7 launch7 (W14 m ρ) (W15 m ρ)
    (fun c w => q_eq7 (V14 m ρ) c w) (fun c t => owed_eq7 (V14 m ρ) c t)
    (fun c t => recorded_eq7 (V14 m ρ) c t) (fun c w => A_eq7 (V14 m ρ) c w)
    (fun c => body_obligation7 (V14 m ρ) c) (fun c => hin7 (V14 m ρ) c) (fun c => hout7 (V14 m ρ) c)
    (fun c w => hF7 m ρ c w) (fun c => hrest7 m ρ c)

end Cert.KernelIdeal.Hand

end
-- ==== Proof.KI.Seg8.lean ====
import proofs.«176467_j34754875359699_1_alg».proof.Proof.KI.SegOf

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def reg8 : Pipeline.RegionSeg (pcfgs (F := F)) adm (pdats m ρ) () defs₀ 𝒱₀ L lv 8 :=
  regOf m ρ 8 launch8 (W16 m ρ) (W17 m ρ)
    (fun c w => q_eq8 (V16 m ρ) c w) (fun c t => owed_eq8 (V16 m ρ) c t)
    (fun c t => recorded_eq8 (V16 m ρ) c t) (fun c w => A_eq8 (V16 m ρ) c w)
    (fun c => body_obligation8 (V16 m ρ) c) (fun c => hin8 (V16 m ρ) c) (fun c => hout8 (V16 m ρ) c)
    (fun c w => hF8 m ρ c w) (fun c => hrest8 m ρ c)

end Cert.KernelIdeal.Hand

end
-- ==== Proof.KI.Args.lean ====
import proofs.«176467_j34754875359699_1_alg».proof.Proof.KI.Fold

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W2_keep (c : Dev nD) (r : Ref sig .tc) (h : ∀ w, Pipeline.arrRef spec0 w = r → (cfg0.win w).isOut = false) :
    W2 m ρ c (Proc.devRef .tc r) = W1 m ρ c (Proc.devRef .tc r) := by
  by_cases hr : ∃ w, Pipeline.arrRef spec0 w = r
  · obtain ⟨w, rfl⟩ := hr
    exact (W2_arr m ρ c w).trans (((dat0 (V1 m ρ) c).arrAt_in w (h w rfl) _).trans (A_eq0 (V1 m ρ) c w))
  · exact W2_of_ne m ρ c r fun w e => hr ⟨w, e⟩

theorem W4_keep (c : Dev nD) (r : Ref sig .tc) (h : ∀ w, Pipeline.arrRef spec1 w = r → (cfg1.win w).isOut = false) :
    W4 m ρ c (Proc.devRef .tc r) = W3 m ρ c (Proc.devRef .tc r) := by
  by_cases hr : ∃ w, Pipeline.arrRef spec1 w = r
  · obtain ⟨w, rfl⟩ := hr
    exact (W4_arr m ρ c w).trans (((dat1 (V3 m ρ) c).arrAt_in w (h w rfl) _).trans (A_eq1 (V3 m ρ) c w))
  · exact W4_of_ne m ρ c r fun w e => hr ⟨w, e⟩

theorem W6_keep (c : Dev nD) (r : Ref sig .tc) (h : ∀ w, Pipeline.arrRef spec2 w = r → (cfg2.win w).isOut = false) :
    W6 m ρ c (Proc.devRef .tc r) = W5 m ρ c (Proc.devRef .tc r) := by
  by_cases hr : ∃ w, Pipeline.arrRef spec2 w = r
  · obtain ⟨w, rfl⟩ := hr
    exact (W6_arr m ρ c w).trans (((dat2 (V5 m ρ) c).arrAt_in w (h w rfl) _).trans (A_eq2 (V5 m ρ) c w))
  · exact W6_of_ne m ρ c r fun w e => hr ⟨w, e⟩

theorem W7_keep (c : Dev nD) (r : Ref sig .tc) (h : ∀ w, Pipeline.arrRef spec3 w = r → (cfg3.win w).isOut = false) :
    W7 m ρ c (Proc.devRef .tc r) = W6 m ρ c (Proc.devRef .tc r) := by
  by_cases hr : ∃ w, Pipeline.arrRef spec3 w = r
  · obtain ⟨w, rfl⟩ := hr
    exact (W7_arr m ρ c w).trans (((dat3 (V6 m ρ) c).arrAt_in w (h w rfl) _).trans (A_eq3 (V6 m ρ) c w))
  · exact W7_of_ne m ρ c r fun w e => hr ⟨w, e⟩

theorem W9_keep (c : Dev nD) (r : Ref sig .tc) (h : ∀ w, Pipeline.arrRef spec4 w = r → (cfg4.win w).isOut = false) :
    W9 m ρ c (Proc.devRef .tc r) = W8 m ρ c (Proc.devRef .tc r) := by
  by_cases hr : ∃ w, Pipeline.arrRef spec4 w = r
  · obtain ⟨w, rfl⟩ := hr
    exact (W9_arr m ρ c w).trans (((dat4 (V8 m ρ) c).arrAt_in w (h w rfl) _).trans (A_eq4 (V8 m ρ) c w))
  · exact W9_of_ne m ρ c r fun w e => hr ⟨w, e⟩

theorem W11_keep (c : Dev nD) (r : Ref sig .tc) (h : ∀ w, Pipeline.arrRef spec5 w = r → (cfg5.win w).isOut = false) :
    W11 m ρ c (Proc.devRef .tc r) = W10 m ρ c (Proc.devRef .tc r) := by
  by_cases hr : ∃ w, Pipeline.arrRef spec5 w = r
  · obtain ⟨w, rfl⟩ := hr
    exact (W11_arr m ρ c w).trans (((dat5 (V10 m ρ) c).arrAt_in w (h w rfl) _).trans (A_eq5 (V10 m ρ) c w))
  · exact W11_of_ne m ρ c r fun w e => hr ⟨w, e⟩

theorem W13_keep (c : Dev nD) (r : Ref sig .tc) (h : ∀ w, Pipeline.arrRef spec6 w = r → (cfg6.win w).isOut = false) :
    W13 m ρ c (Proc.devRef .tc r) = W12 m ρ c (Proc.devRef .tc r) := by
  by_cases hr : ∃ w, Pipeline.arrRef spec6 w = r
  · obtain ⟨w, rfl⟩ := hr
    exact (W13_arr m ρ c w).trans (((dat6 (V12 m ρ) c).arrAt_in w (h w rfl) _).trans (A_eq6 (V12 m ρ) c w))
  · exact W13_of_ne m ρ c r fun w e => hr ⟨w, e⟩

theorem W15_keep (c : Dev nD) (r : Ref sig .tc) (h : ∀ w, Pipeline.arrRef spec7 w = r → (cfg7.win w).isOut = false) :
    W15 m ρ c (Proc.devRef .tc r) = W14 m ρ c (Proc.devRef .tc r) := by
  by_cases hr : ∃ w, Pipeline.arrRef spec7 w = r
  · obtain ⟨w, rfl⟩ := hr
    exact (W15_arr m ρ c w).trans (((dat7 (V14 m ρ) c).arrAt_in w (h w rfl) _).trans (A_eq7 (V14 m ρ) c w))
  · exact W15_of_ne m ρ c r fun w e => hr ⟨w, e⟩

theorem W17_keep (c : Dev nD) (r : Ref sig .tc) (h : ∀ w, Pipeline.arrRef spec8 w = r → (cfg8.win w).isOut = false) :
    W17 m ρ c (Proc.devRef .tc r) = W16 m ρ c (Proc.devRef .tc r) := by
  by_cases hr : ∃ w, Pipeline.arrRef spec8 w = r
  · obtain ⟨w, rfl⟩ := hr
    exact (W17_arr m ρ c w).trans (((dat8 (V16 m ρ) c).arrAt_in w (h w rfl) _).trans (A_eq8 (V16 m ρ) c w))
  · exact W17_of_ne m ρ c r fun w e => hr ⟨w, e⟩

abbrev Kept (r : Ref sig .tc) : Prop :=
  (r ∉ hostOps0_W ∧ r ∉ hostOps1_W ∧ r ∉ hostOps2_W ∧ r ∉ hostOps4_W ∧ r ∉ hostOps5_W ∧ r ∉ hostOps6_W ∧ r ∉ hostOps7_W
    ∧ r ∉ hostOps8_W ∧ r ∉ hostOps9_W)
  ∧ (∀ w, Pipeline.arrRef spec0 w = r → (cfg0.win w).isOut = false)
  ∧ (∀ w, Pipeline.arrRef spec1 w = r → (cfg1.win w).isOut = false)
  ∧ (∀ w, Pipeline.arrRef spec2 w = r → (cfg2.win w).isOut = false)
  ∧ (∀ w, Pipeline.arrRef spec3 w = r → (cfg3.win w).isOut = false)
  ∧ (∀ w, Pipeline.arrRef spec4 w = r → (cfg4.win w).isOut = false)
  ∧ (∀ w, Pipeline.arrRef spec5 w = r → (cfg5.win w).isOut = false)
  ∧ (∀ w, Pipeline.arrRef spec6 w = r → (cfg6.win w).isOut = false)
  ∧ (∀ w, Pipeline.arrRef spec7 w = r → (cfg7.win w).isOut = false)
  ∧ (∀ w, Pipeline.arrRef spec8 w = r → (cfg8.win w).isOut = false)

theorem Wlast_of_kept (c : Dev nD) (r : Ref sig .tc) (h : Kept r) :
    Wlast m ρ c (Proc.devRef .tc r) = m ((c : Thread nD τ).loc r) := by
  obtain ⟨⟨h0, h1, h2, h4, h5, h6, h7, h8, h9⟩, g0, g1, g2, g3, g4, g5, g6, g7, g8⟩ := h
  calc Wlast m ρ c (Proc.devRef .tc r)
    _ = W17 m ρ c (Proc.devRef .tc r) := StableHlo.after_of_writes_sub hostOps9 _ hostOps9_writes h9
    _ = W16 m ρ c (Proc.devRef .tc r) := W17_keep m ρ c r g8
    _ = W15 m ρ c (Proc.devRef .tc r) := StableHlo.after_of_writes_sub hostOps8 _ hostOps8_writes h8
    _ = W14 m ρ c (Proc.devRef .tc r) := W15_keep m ρ c r g7
    _ = W13 m ρ c (Proc.devRef .tc r) := StableHlo.after_of_writes_sub hostOps7 _ hostOps7_writes h7
    _ = W12 m ρ c (Proc.devRef .tc r) := W13_keep m ρ c r g6
    _ = W11 m ρ c (Proc.devRef .tc r) := StableHlo.after_of_writes_sub hostOps6 _ hostOps6_writes h6
    _ = W10 m ρ c (Proc.devRef .tc r) := W11_keep m ρ c r g5
    _ = W9 m ρ c (Proc.devRef .tc r) := StableHlo.after_of_writes_sub hostOps5 _ hostOps5_writes h5
    _ = W8 m ρ c (Proc.devRef .tc r) := W9_keep m ρ c r g4
    _ = W7 m ρ c (Proc.devRef .tc r) := StableHlo.after_of_writes_sub hostOps4 _ hostOps4_writes h4
    _ = W6 m ρ c (Proc.devRef .tc r) := W7_keep m ρ c r g3
    _ = W5 m ρ c (Proc.devRef .tc r) := W6_keep m ρ c r g2
    _ = W4 m ρ c (Proc.devRef .tc r) := StableHlo.after_of_writes_sub hostOps2 _ hostOps2_writes h2
    _ = W3 m ρ c (Proc.devRef .tc r) := W4_keep m ρ c r g1
    _ = W2 m ρ c (Proc.devRef .tc r) := StableHlo.after_of_writes_sub hostOps1 _ hostOps1_writes h1
    _ = W1 m ρ c (Proc.devRef .tc r) := W2_keep m ρ c r g0
    _ = W0 m ρ c (Proc.devRef .tc r) := StableHlo.after_of_writes_sub hostOps0 _ hostOps0_writes h0
    _ = m ((c : Thread nD τ).loc r) := rfl

theorem Wlast_main_arg0 (c : Dev nD) : Wlast m ρ c (Proc.devRef .tc main_arg0) = m ((c : Thread nD τ).loc main_arg0) :=
  Wlast_of_kept m ρ c main_arg0 (by decide)
theorem Wlast_main_arg1 (c : Dev nD) : Wlast m ρ c (Proc.devRef .tc main_arg1) = m ((c : Thread nD τ).loc main_arg1) :=
  Wlast_of_kept m ρ c main_arg1 (by decide)
theorem Wlast_main_arg2 (c : Dev nD) : Wlast m ρ c (Proc.devRef .tc main_arg2) = m ((c : Thread nD τ).loc main_arg2) :=
  Wlast_of_kept m ρ c main_arg2 (by decide)
theorem Wlast_main_arg3 (c : Dev nD) : Wlast m ρ c (Proc.devRef .tc main_arg3) = m ((c : Thread nD τ).loc main_arg3) :=
  Wlast_of_kept m ρ c main_arg3 (by decide)
theorem Wlast_main_arg4 (c : Dev nD) : Wlast m ρ c (Proc.devRef .tc main_arg4) = m ((c : Thread nD τ).loc main_arg4) :=
  Wlast_of_kept m ρ c main_arg4 (by decide)
theorem Wlast_main_arg5 (c : Dev nD) : Wlast m ρ c (Proc.devRef .tc main_arg5) = m ((c : Thread nD τ).loc main_arg5) :=
  Wlast_of_kept m ρ c main_arg5 (by decide)
theorem Wlast_main_arg6 (c : Dev nD) : Wlast m ρ c (Proc.devRef .tc main_arg6) = m ((c : Thread nD τ).loc main_arg6) :=
  Wlast_of_kept m ρ c main_arg6 (by decide)
theorem Wlast_main_arg7 (c : Dev nD) : Wlast m ρ c (Proc.devRef .tc main_arg7) = m ((c : Thread nD τ).loc main_arg7) :=
  Wlast_of_kept m ρ c main_arg7 (by decide)
theorem Wlast_main_arg8 (c : Dev nD) : Wlast m ρ c (Proc.devRef .tc main_arg8) = m ((c : Thread nD τ).loc main_arg8) :=
  Wlast_of_kept m ρ c main_arg8 (by decide)
theorem Wlast_main_arg9 (c : Dev nD) : Wlast m ρ c (Proc.devRef .tc main_arg9) = m ((c : Thread nD τ).loc main_arg9) :=
  Wlast_of_kept m ρ c main_arg9 (by decide)
theorem Wlast_main_arg10 (c : Dev nD) : Wlast m ρ c (Proc.devRef .tc main_arg10) = m ((c : Thread nD τ).loc main_arg10) :=
  Wlast_of_kept m ρ c main_arg10 (by decide)
theorem Wlast_main_arg11 (c : Dev nD) : Wlast m ρ c (Proc.devRef .tc main_arg11) = m ((c : Thread nD τ).loc main_arg11) :=
  Wlast_of_kept m ρ c main_arg11 (by decide)
theorem Wlast_main_arg12 (c : Dev nD) : Wlast m ρ c (Proc.devRef .tc main_arg12) = m ((c : Thread nD τ).loc main_arg12) :=
  Wlast_of_kept m ρ c main_arg12 (by decide)

end Cert.KernelIdeal.Hand

end
-- ==== Proof.KI.Run.lean ====
import proofs.«176467_j34754875359699_1_alg».proof.Proof.KI.Seg0
import proofs.«176467_j34754875359699_1_alg».proof.Proof.KI.Seg1
import proofs.«176467_j34754875359699_1_alg».proof.Proof.KI.Seg2
import proofs.«176467_j34754875359699_1_alg».proof.Proof.KI.Seg3
import proofs.«176467_j34754875359699_1_alg».proof.Proof.KI.Seg4
import proofs.«176467_j34754875359699_1_alg».proof.Proof.KI.Seg5
import proofs.«176467_j34754875359699_1_alg».proof.Proof.KI.Seg6
import proofs.«176467_j34754875359699_1_alg».proof.Proof.KI.Seg7
import proofs.«176467_j34754875359699_1_alg».proof.Proof.KI.Seg8
import proofs.«176467_j34754875359699_1_alg».proof.Proof.KI.Args

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .host (hseg hostOps4 hostOps4_sub hostOps4_fresh (W7 m ρ)),
    .region (reg4 m ρ),
    .host (hseg hostOps5 hostOps5_sub hostOps5_fresh (W9 m ρ)),
    .region (reg5 m ρ),
    .host (hseg hostOps6 hostOps6_sub hostOps6_fresh (W11 m ρ)),
    .region (reg6 m ρ),
    .host (hseg hostOps7 hostOps7_sub hostOps7_fresh (W13 m ρ)),
    .region (reg7 m ρ),
    .host (hseg hostOps8 hostOps8_sub hostOps8_fresh (W15 m ρ)),
    .region (reg8 m ρ),
    .host (hseg hostOps9 hostOps9_sub hostOps9_fresh (W17 m ρ)) ]

theorem main_run (c : Dev nD) : main (F := F) c = Pipeline.Seg.run (segs m ρ) :=
  main_segs adm (pdats m ρ) () 𝒱₀ L lv
    (hseg hostOps0 hostOps0_sub hostOps0_fresh (W0 m ρ)) (hseg hostOps1 hostOps1_sub hostOps1_fresh (W2 m ρ))
    (hseg hostOps2 hostOps2_sub hostOps2_fresh (W4 m ρ)) (hseg hostOps4 hostOps4_sub hostOps4_fresh (W7 m ρ))
    (hseg hostOps5 hostOps5_sub hostOps5_fresh (W9 m ρ)) (hseg hostOps6 hostOps6_sub hostOps6_fresh (W11 m ρ))
    (hseg hostOps7 hostOps7_sub hostOps7_fresh (W13 m ρ)) (hseg hostOps8 hostOps8_sub hostOps8_fresh (W15 m ρ))
    (hseg hostOps9 hostOps9_sub hostOps9_fresh (W17 m ρ))
    (reg0 m ρ) (reg1 m ρ) (reg2 m ρ) (reg3 m ρ) (reg4 m ρ) (reg5 m ρ) (reg6 m ρ) (reg7 m ρ) (reg8 m ρ)
    rfl rfl rfl rfl rfl rfl rfl rfl rfl c

theorem T_last (c : Dev nD) :
    T (F := F) (W18 m ρ) c ⊢ iprop(Tₙ m ρ c ∗ ∃ W, owes (c : Thread nD τ) (0 : CellTallies nD τ sig Unit) W) := by
  iintro ⟨Hh, Hp, HO⟩
  isplitr [HO]
  · isplitl [Hh]; · iexact Hh
    iexact Hp
  iexact HO

set_option backward.isDefEq.respectTransparency.types false in

theorem run_all : θ_run defs (onTc (τ := τ) (main (F := F))) ⟨m, fun _ => 0, ρ⟩
    (fun r => ∀ c : Dev nD, ∀ b ∈ Pipeline.ucRefs τ sig, r.2.mem (((c : Thread nD τ)).1, b) = Wlast m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m ρ)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => .rfl, fun _ => .rfl, fun _ => .rfl, fun _ => .rfl,
      fun c => T_last m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (Wlast_main_arg0 m ρ c),
     (h c _ (mem_uc main_arg1 (by decide))).trans (Wlast_main_arg1 m ρ c),
     (h c _ (mem_uc main_arg2 (by decide))).trans (Wlast_main_arg2 m ρ c),
     (h c _ (mem_uc main_arg3 (by decide))).trans (Wlast_main_arg3 m ρ c),
     (h c _ (mem_uc main_arg4 (by decide))).trans (Wlast_main_arg4 m ρ c),
     (h c _ (mem_uc main_arg5 (by decide))).trans (Wlast_main_arg5 m ρ c),
     (h c _ (mem_uc main_arg6 (by decide))).trans (Wlast_main_arg6 m ρ c),
     (h c _ (mem_uc main_arg7 (by decide))).trans (Wlast_main_arg7 m ρ c),
     (h c _ (mem_uc main_arg8 (by decide))).trans (Wlast_main_arg8 m ρ c),
     (h c _ (mem_uc main_arg9 (by decide))).trans (Wlast_main_arg9 m ρ c),
     (h c _ (mem_uc main_arg10 (by decide))).trans (Wlast_main_arg10 m ρ c),
     (h c _ (mem_uc main_arg11 (by decide))).trans (Wlast_main_arg11 m ρ c),
     (h c _ (mem_uc main_arg12 (by decide))).trans (Wlast_main_arg12 m ρ c)⟩) (run_all m ρ)

end Cert.KernelIdeal.Hand

end
-- ==== Proof.KI.Keep.lean ====
import proofs.«176467_j34754875359699_1_alg».proof.Proof.KI.Args

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

def Wat : ℕ → Dev nD → Valuation τ sig (Elt F)
  | 0 => W0 m ρ
  | 1 => W1 m ρ
  | 2 => W2 m ρ
  | 3 => W3 m ρ
  | 4 => W4 m ρ
  | 5 => W5 m ρ
  | 6 => W6 m ρ
  | 7 => W7 m ρ
  | 8 => W8 m ρ
  | 9 => W9 m ρ
  | 10 => W10 m ρ
  | 11 => W11 m ρ
  | 12 => W12 m ρ
  | 13 => W13 m ρ
  | 14 => W14 m ρ
  | 15 => W15 m ρ
  | 16 => W16 m ρ
  | 17 => W17 m ρ
  | _ => W18 m ρ

def quiet : ℕ → Ref sig .tc → Bool
  | 0, r => decide (r ∉ hostOps0_W)
  | 1, r => decide (∀ w, Pipeline.arrRef spec0 w = r → (cfg0.win w).isOut = false)
  | 2, r => decide (r ∉ hostOps1_W)
  | 3, r => decide (∀ w, Pipeline.arrRef spec1 w = r → (cfg1.win w).isOut = false)
  | 4, r => decide (r ∉ hostOps2_W)
  | 5, r => decide (∀ w, Pipeline.arrRef spec2 w = r → (cfg2.win w).isOut = false)
  | 6, r => decide (∀ w, Pipeline.arrRef spec3 w = r → (cfg3.win w).isOut = false)
  | 7, r => decide (r ∉ hostOps4_W)
  | 8, r => decide (∀ w, Pipeline.arrRef spec4 w = r → (cfg4.win w).isOut = false)
  | 9, r => decide (r ∉ hostOps5_W)
  | 10, r => decide (∀ w, Pipeline.arrRef spec5 w = r → (cfg5.win w).isOut = false)
  | 11, r => decide (r ∉ hostOps6_W)
  | 12, r => decide (∀ w, Pipeline.arrRef spec6 w = r → (cfg6.win w).isOut = false)
  | 13, r => decide (r ∉ hostOps7_W)
  | 14, r => decide (∀ w, Pipeline.arrRef spec7 w = r → (cfg7.win w).isOut = false)
  | 15, r => decide (r ∉ hostOps8_W)
  | 16, r => decide (∀ w, Pipeline.arrRef spec8 w = r → (cfg8.win w).isOut = false)
  | 17, r => decide (r ∉ hostOps9_W)
  | _, _ => true

theorem step_keep (j : ℕ) (c : Dev nD) (r : Ref sig .tc) (h : quiet j r = true) :
    Wat m ρ (j + 1) c (Proc.devRef .tc r) = Wat m ρ j c (Proc.devRef .tc r) := by
  match j, h with
  | 0, h => exact StableHlo.after_of_writes_sub hostOps0 _ hostOps0_writes (of_decide_eq_true h)
  | 1, h => exact W2_keep m ρ c r (of_decide_eq_true h)
  | 2, h => exact StableHlo.after_of_writes_sub hostOps1 _ hostOps1_writes (of_decide_eq_true h)
  | 3, h => exact W4_keep m ρ c r (of_decide_eq_true h)
  | 4, h => exact StableHlo.after_of_writes_sub hostOps2 _ hostOps2_writes (of_decide_eq_true h)
  | 5, h => exact W6_keep m ρ c r (of_decide_eq_true h)
  | 6, h => exact W7_keep m ρ c r (of_decide_eq_true h)
  | 7, h => exact StableHlo.after_of_writes_sub hostOps4 _ hostOps4_writes (of_decide_eq_true h)
  | 8, h => exact W9_keep m ρ c r (of_decide_eq_true h)
  | 9, h => exact StableHlo.after_of_writes_sub hostOps5 _ hostOps5_writes (of_decide_eq_true h)
  | 10, h => exact W11_keep m ρ c r (of_decide_eq_true h)
  | 11, h => exact StableHlo.after_of_writes_sub hostOps6 _ hostOps6_writes (of_decide_eq_true h)
  | 12, h => exact W13_keep m ρ c r (of_decide_eq_true h)
  | 13, h => exact StableHlo.after_of_writes_sub hostOps7 _ hostOps7_writes (of_decide_eq_true h)
  | 14, h => exact W15_keep m ρ c r (of_decide_eq_true h)
  | 15, h => exact StableHlo.after_of_writes_sub hostOps8 _ hostOps8_writes (of_decide_eq_true h)
  | 16, h => exact W17_keep m ρ c r (of_decide_eq_true h)
  | 17, h => exact StableHlo.after_of_writes_sub hostOps9 _ hostOps9_writes (of_decide_eq_true h)
  | _ + 18, _ => rfl

theorem keep (a n : ℕ) (c : Dev nD) (r : Ref sig .tc) (h : ∀ j, j < n → quiet (a + j) r = true) :
    Wat m ρ (a + n) c (Proc.devRef .tc r) = Wat m ρ a c (Proc.devRef .tc r) := by
  induction n with
  | zero => rfl
  | succ n ih =>
    exact (step_keep m ρ (a + n) c r (h n (Nat.lt_succ_self n))).trans (ih fun j hj => h j (Nat.lt_succ_of_lt hj))

end Cert.KernelIdeal.Hand

end
-- ==== Proof.Spec.lean ====
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev Arr1 (a : Nat) : Type := FVec Ideal (⟨1, ![a]⟩ : Shape) .f32
abbrev Arr2 (a b : Nat) : Type := FVec Ideal (⟨2, ![a, b]⟩ : Shape) .f32
abbrev Arr3 (a b c : Nat) : Type := FVec Ideal (⟨3, ![a, b, c]⟩ : Shape) .f32

def zero : EReal := Ideal.ofBits .f32 0x00000000#32
def negInf : EReal := Ideal.ofBits .f32 0xFF800000#32

def eighth : EReal := Ideal.ofBits .f32 0x3E000000#32

def maskVal : EReal := Ideal.ofBits .f32 0xC7C35000#32
def c1024 : EReal := Ideal.ofBits .f32 0x44800000#32
def c1023 : EReal := Ideal.ofBits .f32 0x447FC000#32

def epsV : EReal := Ideal.ofBits .f32 0x3A83126F#32

def mmNT {M K N : Nat} (A : Arr2 M K) (B : Arr2 N K) (bias : Arr2 1 N) : Arr2 M N :=
  fun i => (∑ k : Fin K, A (ix2 (i 0) k) * B (ix2 (i 1) k)) + bias (ix2 (0 : Fin 1) (i 1))

def mmNTRelu {M K N : Nat} (A : Arr2 M K) (B : Arr2 N K) (bias : Arr2 1 N) : Arr2 M N :=
  fun i => max (mmNT A B bias i) zero

def zeroRow (N : Nat) : Arr2 1 N := fun _ => zero

def headCol (n : Fin 1024) (d : Fin 64) : Fin 1024 := ⟨(n.val / 64) * 64 + d.val, by omega⟩

def logit (q k : Arr2 2048 1024) (s : Fin 2048) (n : Fin 1024) (t : Fin 2048) : EReal :=
  if s.val = t.val then
    (∑ d : Fin 64, q (ix2 s (headCol n d)) * k (ix2 t (headCol n d))) * eighth + maskVal
  else
    (∑ d : Fin 64, q (ix2 s (headCol n d)) * k (ix2 t (headCol n d))) * eighth

def rowMax (q k : Arr2 2048 1024) (s : Fin 2048) (n : Fin 1024) : EReal :=
  (Finset.univ : Finset (Fin 2048)).fold max negInf (logit q k s n)

def expo (q k : Arr2 2048 1024) (s : Fin 2048) (n : Fin 1024) (t : Fin 2048) : EReal :=
  Ideal.exp (logit q k s n t - rowMax q k s n)

def rowSum (q k : Arr2 2048 1024) (s : Fin 2048) (n : Fin 1024) : EReal :=
  ∑ t : Fin 2048, expo q k s n t

def weight (q k : Arr2 2048 1024) (s : Fin 2048) (n : Fin 1024) (t : Fin 2048) : EReal :=
  Ideal.div (expo q k s n t) (rowSum q k s n)

def attn (q k v : Arr2 2048 1024) : Arr2 2048 1024 :=
  fun i => ∑ t : Fin 2048, weight q k (i 0) (i 1) t * v (ix2 t (i 1))

def resid (x y : Arr2 2048 1024) (s : Fin 2048) (j : Fin 1024) : EReal := x (ix2 s j) + y (ix2 s j)

def rowMean (x y : Arr2 2048 1024) (s : Fin 2048) : EReal :=
  Ideal.div (∑ j : Fin 1024, resid x y s j) c1024

def rowVar (x y : Arr2 2048 1024) (s : Fin 2048) : EReal :=
  Ideal.div (∑ j : Fin 1024, (resid x y s j - rowMean x y s) * (resid x y s j - rowMean x y s)) c1023

def addNorm (x y : Arr2 2048 1024) (a b : Arr2 1 1024) : Arr2 2048 1024 :=
  fun i => Ideal.div (resid x y (i 0) (i 1) - rowMean x y (i 0)) (Ideal.sqrt (rowVar x y (i 0)) + epsV)
      * a (ix2 (0 : Fin 1) (i 1)) + b (ix2 (0 : Fin 1) (i 1))

def tr {M N : Nat} (X : Arr2 M N) : Arr2 N M := fun i => X (ix2 (i 1) (i 0))

def flat (w : Arr3 16 64 1024) : Arr2 1024 1024 :=
  fun i => w (ix3 (⟨(i 0).val / 64, by have h : (i 0).val < 1024 := (i 0).isLt; omega⟩ : Fin 16) (⟨(i 0).val % 64, Nat.mod_lt _ (by decide)⟩ : Fin 64) (i 1))

def row {N : Nat} (b : Arr1 N) : Arr2 1 N := fun i => b (ix1 (i 1))

def attnBlock (Q K V : Arr2 1024 2048) (wq wk wv : Arr3 16 64 1024) (Wo : Arr2 1024 1024) (a2 b2 : Arr1 1024) : Arr2 2048 1024 :=
  addNorm (tr V)
    (mmNT (attn (mmNT (tr Q) (flat wq) (zeroRow 1024)) (mmNT (tr K) (flat wk) (zeroRow 1024)) (mmNT (tr V) (flat wv) (zeroRow 1024)))
      (tr Wo) (zeroRow 1024))
    (row a2) (row b2)

def layer (Q K V : Arr2 1024 2048) (wq wk wv : Arr3 16 64 1024) (Wo : Arr2 1024 1024) (W1 : Arr2 4096 1024) (b1 : Arr1 4096)
    (W2 : Arr2 1024 4096) (b2 : Arr1 1024) (a2 bb2 : Arr1 1024) : Arr2 1024 2048 :=
  tr (addNorm (attnBlock Q K V wq wk wv Wo a2 bb2)
    (mmNT (mmNTRelu (attnBlock Q K V wq wk wv Wo a2 bb2) W1 (row b1)) W2 (row b2))
    (row a2) (row bb2))

end Cert.Spec

end
-- ==== Proof.SpecLayout.lean ====
import proofs.«176467_j34754875359699_1_alg».proof.Proof.Spec
import Idealize.ShloMosaic.Lib.Pipeline.Value
import Idealize.ShloMosaic.Lib.ValueLayout

noncomputable section

namespace Cert.Spec

open Idealize.ShloMosaic Idealize.ShloMosaic.ValueIdx

theorem transpose_eq_tr {M N : Nat} (X : Arr2 M N)
    (h : (⟨2, ![M, N]⟩ : Shape).Transposes [1, 0] (⟨2, ![N, M]⟩ : Shape)) :
    transpose (⟨2, ![N, M]⟩ : Shape) [1, 0] X h = tr X := by
  funext j
  refine transpose_apply [1, 0] X h j (ix2 (j 1) (j 0)) ?_
  intro b
  match b with
  | ⟨0, _⟩ => rfl
  | ⟨1, _⟩ => rfl

theorem shapeCast_eq_flat (w : Arr3 16 64 1024)
    (h : (⟨3, ![16, 64, 1024]⟩ : Shape).ShapeCasts (⟨2, ![1024, 1024]⟩ : Shape)) :
    shapeCast (⟨2, ![1024, 1024]⟩ : Shape) w h = flat w := by
  funext j
  unfold flat
  refine shapeCast_apply w h j _ ?_
  rw [Shape.rowMajor_val_three, Shape.rowMajor_val_two]
  have h0 : (j 0).val < 1024 := (j 0).isLt
  show ((j 0).val / 64 * 64 + (j 0).val % 64) * 1024 + (j 1).val = (j 0).val * 1024 + (j 1).val
  have := Nat.div_add_mod (j 0).val 64
  omega

theorem shapeCast_eq_row {N : Nat} (b : Arr1 N)
    (h : (⟨1, ![N]⟩ : Shape).ShapeCasts (⟨2, ![1, N]⟩ : Shape)) :
    shapeCast (⟨2, ![1, N]⟩ : Shape) b h = row b := by
  funext j
  unfold row
  refine shapeCast_apply b h j _ ?_
  rw [Shape.rowMajor_val_one, Shape.rowMajor_val_two]
  have h0 : (j 0).val < 1 := (j 0).isLt
  show (j 1).val = (j 0).val * N + (j 1).val
  have : (j 0).val = 0 := by omega
  rw [this]; omega

end Cert.Spec

end
-- ==== Proof.KI.HostVals.lean ====
import proofs.«176467_j34754875359699_1_alg».proof.Proof.KI.Keep
import proofs.«176467_j34754875359699_1_alg».proof.Proof.SpecLayout

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (ρ : Dev nD → PrngReg)

abbrev aQ (c : Dev nD) : Spec.Arr2 1024 2048 := m ((c : Thread nD τ).loc main_arg0)
abbrev aK (c : Dev nD) : Spec.Arr2 1024 2048 := m ((c : Thread nD τ).loc main_arg1)
abbrev aV (c : Dev nD) : Spec.Arr2 1024 2048 := m ((c : Thread nD τ).loc main_arg2)

abbrev awq (c : Dev nD) : Spec.Arr3 16 64 1024 := m ((c : Thread nD τ).loc main_arg3)
abbrev awk (c : Dev nD) : Spec.Arr3 16 64 1024 := m ((c : Thread nD τ).loc main_arg4)
abbrev awv (c : Dev nD) : Spec.Arr3 16 64 1024 := m ((c : Thread nD τ).loc main_arg5)

abbrev aWo (c : Dev nD) : Spec.Arr2 1024 1024 := m ((c : Thread nD τ).loc main_arg6)

abbrev aW1 (c : Dev nD) : Spec.Arr2 4096 1024 := m ((c : Thread nD τ).loc main_arg7)
abbrev ab1 (c : Dev nD) : Spec.Arr1 4096 := m ((c : Thread nD τ).loc main_arg8)
abbrev aW2 (c : Dev nD) : Spec.Arr2 1024 4096 := m ((c : Thread nD τ).loc main_arg9)
abbrev ab2 (c : Dev nD) : Spec.Arr1 1024 := m ((c : Thread nD τ).loc main_arg10)

abbrev aa2 (c : Dev nD) : Spec.Arr1 1024 := m ((c : Thread nD τ).loc main_arg11)
abbrev abb2 (c : Dev nD) : Spec.Arr1 1024 := m ((c : Thread nD τ).loc main_arg12)

theorem zeroRow_eq (h : S_.BroadcastsInDim S1024 ![]) (h' : S1024.ShapeCasts S1x1024) :
    shapeCast S1x1024 (broadcastInDim S1024 ![] h (constant (F := Ideal) S_ .f32 0x00000000#32)) h' = Spec.zeroRow 1024 := rfl

theorem W1_v0 (c : Dev nD) : (W1 m ρ c (Proc.devRef .tc main_v0) : Spec.Arr2 2048 1024) = Spec.tr (aQ m c) := by
  show StableHlo.after hostOps0 (W0 m ρ c) (Proc.devRef .tc main_v0) = _
  after_results
  exact Spec.transpose_eq_tr _ _

theorem W1_v1 (c : Dev nD) : (W1 m ρ c (Proc.devRef .tc main_v1) : Spec.Arr2 2048 1024) = Spec.tr (aK m c) := by
  show StableHlo.after hostOps0 (W0 m ρ c) (Proc.devRef .tc main_v1) = _
  after_results
  exact Spec.transpose_eq_tr _ _

theorem W1_v2 (c : Dev nD) : (W1 m ρ c (Proc.devRef .tc main_v2) : Spec.Arr2 2048 1024) = Spec.tr (aV m c) := by
  show StableHlo.after hostOps0 (W0 m ρ c) (Proc.devRef .tc main_v2) = _
  after_results
  exact Spec.transpose_eq_tr _ _

theorem W1_v3 (c : Dev nD) : (W1 m ρ c (Proc.devRef .tc main_v3) : Spec.Arr2 1024 1024) = Spec.flat (awq m c) := by
  show StableHlo.after hostOps0 (W0 m ρ c) (Proc.devRef .tc main_v3) = _
  after_results
  exact Spec.shapeCast_eq_flat _ _

theorem W1_v4 (c : Dev nD) : (W1 m ρ c (Proc.devRef .tc main_v4) : Spec.Arr2 1024 1024) = Spec.flat (awk m c) := by
  show StableHlo.after hostOps0 (W0 m ρ c) (Proc.devRef .tc main_v4) = _
  after_results
  exact Spec.shapeCast_eq_flat _ _

theorem W1_v5 (c : Dev nD) : (W1 m ρ c (Proc.devRef .tc main_v5) : Spec.Arr2 1024 1024) = Spec.flat (awv m c) := by
  show StableHlo.after hostOps0 (W0 m ρ c) (Proc.devRef .tc main_v5) = _
  after_results
  exact Spec.shapeCast_eq_flat _ _

theorem W1_v6 (c : Dev nD) : (W1 m ρ c (Proc.devRef .tc main_v6) : Spec.Arr2 1024 1024) = Spec.tr (aWo m c) := by
  show StableHlo.after hostOps0 (W0 m ρ c) (Proc.devRef .tc main_v6) = _
  after_results
  exact Spec.transpose_eq_tr _ _

theorem W1_v8 (c : Dev nD) : (W1 m ρ c (Proc.devRef .tc main_v8) : Spec.Arr2 1 1024) = Spec.zeroRow 1024 := by
  show StableHlo.after hostOps0 (W0 m ρ c) (Proc.devRef .tc main_v8) = _
  after_results
  exact zeroRow_eq _ _

theorem W3_v11 (c : Dev nD) : (W3 m ρ c (Proc.devRef .tc main_v11) : Spec.Arr2 1 1024) = Spec.zeroRow 1024 := by
  show StableHlo.after hostOps1 (W2 m ρ c) (Proc.devRef .tc main_v11) = _
  after_results
  exact zeroRow_eq _ _

theorem W5_v14 (c : Dev nD) : (W5 m ρ c (Proc.devRef .tc main_v14) : Spec.Arr2 1 1024) = Spec.zeroRow 1024 := by
  show StableHlo.after hostOps2 (W4 m ρ c) (Proc.devRef .tc main_v14) = _
  after_results
  exact zeroRow_eq _ _

theorem W8_v18 (c : Dev nD) : (W8 m ρ c (Proc.devRef .tc main_v18) : Spec.Arr2 1 1024) = Spec.zeroRow 1024 := by
  show StableHlo.after hostOps4 (W7 m ρ c) (Proc.devRef .tc main_v18) = _
  after_results
  exact zeroRow_eq _ _

theorem W10_v20 (c : Dev nD) : (W10 m ρ c (Proc.devRef .tc main_v20) : Spec.Arr2 1 1024) = Spec.row (aa2 m c) := by
  have e : W9 m ρ c (Proc.devRef .tc main_arg11) = m ((c : Thread nD τ).loc main_arg11) := keep m ρ 0 9 c main_arg11 (by decide)
  show StableHlo.after hostOps5 (W9 m ρ c) (Proc.devRef .tc main_v20) = _
  after_results
  rw [e]
  exact Spec.shapeCast_eq_row _ _

theorem W10_v21 (c : Dev nD) : (W10 m ρ c (Proc.devRef .tc main_v21) : Spec.Arr2 1 1024) = Spec.row (abb2 m c) := by
  have e : W9 m ρ c (Proc.devRef .tc main_arg12) = m ((c : Thread nD τ).loc main_arg12) := keep m ρ 0 9 c main_arg12 (by decide)
  show StableHlo.after hostOps5 (W9 m ρ c) (Proc.devRef .tc main_v21) = _
  after_results
  rw [e]
  exact Spec.shapeCast_eq_row _ _

theorem W16_v27 (c : Dev nD) : (W16 m ρ c (Proc.devRef .tc main_v27) : Spec.Arr2 1 1024) = Spec.row (aa2 m c) := by
  have e : W15 m ρ c (Proc.devRef .tc main_arg11) = m ((c : Thread nD τ).loc main_arg11) := keep m ρ 0 15 c main_arg11 (by decide)
  show StableHlo.after hostOps8 (W15 m ρ c) (Proc.devRef .tc main_v27) = _
  after_results
  rw [e]
  exact Spec.shapeCast_eq_row _ _

theorem W16_v28 (c : Dev nD) : (W16 m ρ c (Proc.devRef .tc main_v28) : Spec.Arr2 1 1024) = Spec.row (abb2 m c) := by
  have e : W15 m ρ c (Proc.devRef .tc main_arg12) = m ((c : Thread nD τ).loc main_arg12) := keep m ρ 0 15 c main_arg12 (by decide)
  show StableHlo.after hostOps8 (W15 m ρ c) (Proc.devRef .tc main_v28) = _
  after_results
  rw [e]
  exact Spec.shapeCast_eq_row _ _

theorem W12_v23 (c : Dev nD) : (W12 m ρ c (Proc.devRef .tc main_v23) : Spec.Arr2 1 4096) = Spec.row (ab1 m c) := by
  have e : W11 m ρ c (Proc.devRef .tc main_arg8) = m ((c : Thread nD τ).loc main_arg8) := keep m ρ 0 11 c main_arg8 (by decide)
  show StableHlo.after hostOps6 (W11 m ρ c) (Proc.devRef .tc main_v23) = _
  after_results
  rw [e]
  exact Spec.shapeCast_eq_row _ _

theorem W14_v25 (c : Dev nD) : (W14 m ρ c (Proc.devRef .tc main_v25) : Spec.Arr2 1 1024) = Spec.row (ab2 m c) := by
  have e : W13 m ρ c (Proc.devRef .tc main_arg10) = m ((c : Thread nD τ).loc main_arg10) := keep m ρ 0 13 c main_arg10 (by decide)
  show StableHlo.after hostOps7 (W13 m ρ c) (Proc.devRef .tc main_v25) = _
  after_results
  rw [e]
  exact Spec.shapeCast_eq_row _ _

theorem W12_arg7 (c : Dev nD) : (W12 m ρ c (Proc.devRef .tc main_arg7) : Spec.Arr2 4096 1024) = aW1 m c :=
  keep m ρ 0 12 c main_arg7 (by decide)

theorem W14_arg9 (c : Dev nD) : (W14 m ρ c (Proc.devRef .tc main_arg9) : Spec.Arr2 1024 4096) = aW2 m c :=
  keep m ρ 0 14 c main_arg9 (by decide)

end Cert.KernelIdeal.Hand

end
-- ==== Proof.KI.ValueOf.lean ====
import proofs.«176467_j34754875359699_1_alg».proof.Proof.KI.HostVals

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (ρ : Dev nD → PrngReg)

abbrev qS (c : Dev nD) : Spec.Arr2 2048 1024 := Spec.mmNT (Spec.tr (aQ m c)) (Spec.flat (awq m c)) (Spec.zeroRow 1024)
abbrev kS (c : Dev nD) : Spec.Arr2 2048 1024 := Spec.mmNT (Spec.tr (aK m c)) (Spec.flat (awk m c)) (Spec.zeroRow 1024)
abbrev vS (c : Dev nD) : Spec.Arr2 2048 1024 := Spec.mmNT (Spec.tr (aV m c)) (Spec.flat (awv m c)) (Spec.zeroRow 1024)

abbrev atS (c : Dev nD) : Spec.Arr2 2048 1024 := Spec.attn (qS m c) (kS m c) (vS m c)

abbrev oS (c : Dev nD) : Spec.Arr2 2048 1024 := Spec.mmNT (atS m c) (Spec.tr (aWo m c)) (Spec.zeroRow 1024)

abbrev xS (c : Dev nD) : Spec.Arr2 2048 1024 := Spec.addNorm (Spec.tr (aV m c)) (oS m c) (Spec.row (aa2 m c)) (Spec.row (abb2 m c))

abbrev hS (c : Dev nD) : Spec.Arr2 2048 4096 := Spec.mmNTRelu (xS m c) (aW1 m c) (Spec.row (ab1 m c))

abbrev fS (c : Dev nD) : Spec.Arr2 2048 1024 := Spec.mmNT (hS m c) (aW2 m c) (Spec.row (ab2 m c))

abbrev yS (c : Dev nD) : Spec.Arr2 2048 1024 := Spec.addNorm (xS m c) (fS m c) (Spec.row (aa2 m c)) (Spec.row (abb2 m c))

theorem tr_yS (c : Dev nD) :
    Spec.tr (yS m c) = Cert.Spec.layer (aQ m c) (aK m c) (aV m c) (awq m c) (awk m c) (awv m c) (aWo m c) (aW1 m c) (ab1 m c)
      (aW2 m c) (ab2 m c) (aa2 m c) (abb2 m c) := rfl

structure RegVals : Prop where
  r0 : ∀ (V : (c : Dev nD) → (b : Ref sig .tc) → Buf (Elt Ideal) ((c : Thread nD τ).loc b)) (c : Dev nD),
    (dat0 (F := Ideal) V c).arrAt 3 cfg0.N = Cert.Spec.mmNT (V c (Pipeline.arrRef spec0 0)) (V c (Pipeline.arrRef spec0 1)) (V c (Pipeline.arrRef spec0 2))
  r1 : ∀ (V : (c : Dev nD) → (b : Ref sig .tc) → Buf (Elt Ideal) ((c : Thread nD τ).loc b)) (c : Dev nD),
    (dat1 (F := Ideal) V c).arrAt 3 cfg1.N = Cert.Spec.mmNT (V c (Pipeline.arrRef spec1 0)) (V c (Pipeline.arrRef spec1 1)) (V c (Pipeline.arrRef spec1 2))
  r2 : ∀ (V : (c : Dev nD) → (b : Ref sig .tc) → Buf (Elt Ideal) ((c : Thread nD τ).loc b)) (c : Dev nD),
    (dat2 (F := Ideal) V c).arrAt 3 cfg2.N = Cert.Spec.mmNT (V c (Pipeline.arrRef spec2 0)) (V c (Pipeline.arrRef spec2 1)) (V c (Pipeline.arrRef spec2 2))
  r3 : ∀ (V : (c : Dev nD) → (b : Ref sig .tc) → Buf (Elt Ideal) ((c : Thread nD τ).loc b)) (c : Dev nD),
    (dat3 (F := Ideal) V c).arrAt 3 cfg3.N = Cert.Spec.attn (V c (Pipeline.arrRef spec3 0)) (V c (Pipeline.arrRef spec3 1)) (V c (Pipeline.arrRef spec3 2))
  r4 : ∀ (V : (c : Dev nD) → (b : Ref sig .tc) → Buf (Elt Ideal) ((c : Thread nD τ).loc b)) (c : Dev nD),
    (dat4 (F := Ideal) V c).arrAt 3 cfg4.N = Cert.Spec.mmNT (V c (Pipeline.arrRef spec4 0)) (V c (Pipeline.arrRef spec4 1)) (V c (Pipeline.arrRef spec4 2))
  r5 : ∀ (V : (c : Dev nD) → (b : Ref sig .tc) → Buf (Elt Ideal) ((c : Thread nD τ).loc b)) (c : Dev nD),
    (dat5 (F := Ideal) V c).arrAt 4 cfg5.N = Cert.Spec.addNorm (V c (Pipeline.arrRef spec5 0)) (V c (Pipeline.arrRef spec5 1)) (V c (Pipeline.arrRef spec5 2)) (V c (Pipeline.arrRef spec5 3))
  r6 : ∀ (V : (c : Dev nD) → (b : Ref sig .tc) → Buf (Elt Ideal) ((c : Thread nD τ).loc b)) (c : Dev nD),
    (dat6 (F := Ideal) V c).arrAt 3 cfg6.N = Cert.Spec.mmNTRelu (V c (Pipeline.arrRef spec6 0)) (V c (Pipeline.arrRef spec6 1)) (V c (Pipeline.arrRef spec6 2))
  r7 : ∀ (V : (c : Dev nD) → (b : Ref sig .tc) → Buf (Elt Ideal) ((c : Thread nD τ).loc b)) (c : Dev nD),
    (dat7 (F := Ideal) V c).arrAt 3 cfg7.N = Cert.Spec.mmNT (V c (Pipeline.arrRef spec7 0)) (V c (Pipeline.arrRef spec7 1)) (V c (Pipeline.arrRef spec7 2))
  r8 : ∀ (V : (c : Dev nD) → (b : Ref sig .tc) → Buf (Elt Ideal) ((c : Thread nD τ).loc b)) (c : Dev nD),
    (dat8 (F := Ideal) V c).arrAt 4 cfg8.N = Cert.Spec.addNorm (V c (Pipeline.arrRef spec8 0)) (V c (Pipeline.arrRef spec8 1)) (V c (Pipeline.arrRef spec8 2)) (V c (Pipeline.arrRef spec8 3))

theorem W2_v9 (H : RegVals) (c : Dev nD) : (W2 m ρ c (Proc.devRef .tc main_v9) : Spec.Arr2 2048 1024) = qS m c := by
  have h0 : V1 m ρ c (Pipeline.arrRef spec0 0) = Spec.tr (aQ m c) := W1_v0 m ρ c
  have h1 : V1 m ρ c (Pipeline.arrRef spec0 1) = Spec.flat (awq m c) := W1_v3 m ρ c
  have h2 : V1 m ρ c (Pipeline.arrRef spec0 2) = Spec.zeroRow 1024 := W1_v8 m ρ c
  have e := (W2_arr m ρ c 3).trans (H.r0 (V1 m ρ) c)
  rw [h0, h1, h2] at e
  exact e

theorem W4_v12 (H : RegVals) (c : Dev nD) : (W4 m ρ c (Proc.devRef .tc main_v12) : Spec.Arr2 2048 1024) = kS m c := by
  have h0 : V3 m ρ c (Pipeline.arrRef spec1 0) = Spec.tr (aK m c) := (keep m ρ 1 2 c main_v1 (by decide)).trans (W1_v1 m ρ c)
  have h1 : V3 m ρ c (Pipeline.arrRef spec1 1) = Spec.flat (awk m c) := (keep m ρ 1 2 c main_v4 (by decide)).trans (W1_v4 m ρ c)
  have h2 : V3 m ρ c (Pipeline.arrRef spec1 2) = Spec.zeroRow 1024 := W3_v11 m ρ c
  have e := (W4_arr m ρ c 3).trans (H.r1 (V3 m ρ) c)
  rw [h0, h1, h2] at e
  exact e

theorem W6_v15 (H : RegVals) (c : Dev nD) : (W6 m ρ c (Proc.devRef .tc main_v15) : Spec.Arr2 2048 1024) = vS m c := by
  have h0 : V5 m ρ c (Pipeline.arrRef spec2 0) = Spec.tr (aV m c) := (keep m ρ 1 4 c main_v2 (by decide)).trans (W1_v2 m ρ c)
  have h1 : V5 m ρ c (Pipeline.arrRef spec2 1) = Spec.flat (awv m c) := (keep m ρ 1 4 c main_v5 (by decide)).trans (W1_v5 m ρ c)
  have h2 : V5 m ρ c (Pipeline.arrRef spec2 2) = Spec.zeroRow 1024 := W5_v14 m ρ c
  have e := (W6_arr m ρ c 3).trans (H.r2 (V5 m ρ) c)
  rw [h0, h1, h2] at e
  exact e

theorem W7_v16 (H : RegVals) (c : Dev nD) : (W7 m ρ c (Proc.devRef .tc main_v16) : Spec.Arr2 2048 1024) = atS m c := by
  have h0 : V6 m ρ c (Pipeline.arrRef spec3 0) = qS m c := (keep m ρ 2 4 c main_v9 (by decide)).trans (W2_v9 m ρ H c)
  have h1 : V6 m ρ c (Pipeline.arrRef spec3 1) = kS m c := (keep m ρ 4 2 c main_v12 (by decide)).trans (W4_v12 m ρ H c)
  have h2 : V6 m ρ c (Pipeline.arrRef spec3 2) = vS m c := W6_v15 m ρ H c
  have e := (W7_arr m ρ c 3).trans (H.r3 (V6 m ρ) c)
  rw [h0, h1, h2] at e
  exact e

theorem W9_v19 (H : RegVals) (c : Dev nD) : (W9 m ρ c (Proc.devRef .tc main_v19) : Spec.Arr2 2048 1024) = oS m c := by
  have h0 : V8 m ρ c (Pipeline.arrRef spec4 0) = atS m c := (keep m ρ 7 1 c main_v16 (by decide)).trans (W7_v16 m ρ H c)
  have h1 : V8 m ρ c (Pipeline.arrRef spec4 1) = Spec.tr (aWo m c) := (keep m ρ 1 7 c main_v6 (by decide)).trans (W1_v6 m ρ c)
  have h2 : V8 m ρ c (Pipeline.arrRef spec4 2) = Spec.zeroRow 1024 := W8_v18 m ρ c
  have e := (W9_arr m ρ c 3).trans (H.r4 (V8 m ρ) c)
  rw [h0, h1, h2] at e
  exact e

theorem W11_v22 (H : RegVals) (c : Dev nD) : (W11 m ρ c (Proc.devRef .tc main_v22) : Spec.Arr2 2048 1024) = xS m c := by
  have h0 : V10 m ρ c (Pipeline.arrRef spec5 0) = Spec.tr (aV m c) := (keep m ρ 1 9 c main_v2 (by decide)).trans (W1_v2 m ρ c)
  have h1 : V10 m ρ c (Pipeline.arrRef spec5 1) = oS m c := (keep m ρ 9 1 c main_v19 (by decide)).trans (W9_v19 m ρ H c)
  have h2 : V10 m ρ c (Pipeline.arrRef spec5 2) = Spec.row (aa2 m c) := W10_v20 m ρ c
  have h3 : V10 m ρ c (Pipeline.arrRef spec5 3) = Spec.row (abb2 m c) := W10_v21 m ρ c
  have e := (W11_arr m ρ c 4).trans (H.r5 (V10 m ρ) c)
  rw [h0, h1, h2, h3] at e
  exact e

theorem W13_v24 (H : RegVals) (c : Dev nD) : (W13 m ρ c (Proc.devRef .tc main_v24) : Spec.Arr2 2048 4096) = hS m c := by
  have h0 : V12 m ρ c (Pipeline.arrRef spec6 0) = xS m c := (keep m ρ 11 1 c main_v22 (by decide)).trans (W11_v22 m ρ H c)
  have h1 : V12 m ρ c (Pipeline.arrRef spec6 1) = aW1 m c := W12_arg7 m ρ c
  have h2 : V12 m ρ c (Pipeline.arrRef spec6 2) = Spec.row (ab1 m c) := W12_v23 m ρ c
  have e := (W13_arr m ρ c 3).trans (H.r6 (V12 m ρ) c)
  rw [h0, h1, h2] at e
  exact e

theorem W15_v26 (H : RegVals) (c : Dev nD) : (W15 m ρ c (Proc.devRef .tc main_v26) : Spec.Arr2 2048 1024) = fS m c := by
  have h0 : V14 m ρ c (Pipeline.arrRef spec7 0) = hS m c := (keep m ρ 13 1 c main_v24 (by decide)).trans (W13_v24 m ρ H c)
  have h1 : V14 m ρ c (Pipeline.arrRef spec7 1) = aW2 m c := W14_arg9 m ρ c
  have h2 : V14 m ρ c (Pipeline.arrRef spec7 2) = Spec.row (ab2 m c) := W14_v25 m ρ c
  have e := (W15_arr m ρ c 3).trans (H.r7 (V14 m ρ) c)
  rw [h0, h1, h2] at e
  exact e

theorem W17_v29 (H : RegVals) (c : Dev nD) : (W17 m ρ c (Proc.devRef .tc main_v29) : Spec.Arr2 2048 1024) = yS m c := by
  have h0 : V16 m ρ c (Pipeline.arrRef spec8 0) = xS m c := (keep m ρ 11 5 c main_v22 (by decide)).trans (W11_v22 m ρ H c)
  have h1 : V16 m ρ c (Pipeline.arrRef spec8 1) = fS m c := (keep m ρ 15 1 c main_v26 (by decide)).trans (W15_v26 m ρ H c)
  have h2 : V16 m ρ c (Pipeline.arrRef spec8 2) = Spec.row (aa2 m c) := W16_v27 m ρ c
  have h3 : V16 m ρ c (Pipeline.arrRef spec8 3) = Spec.row (abb2 m c) := W16_v28 m ρ c
  have e := (W17_arr m ρ c 4).trans (H.r8 (V16 m ρ) c)
  rw [h0, h1, h2, h3] at e
  exact e

theorem Wlast_result_of (H : RegVals) (c : Dev nD) :
    (Wlast m ρ c (Proc.devRef .tc main_v30) : S1024x2048.Idx → EReal)
      = Cert.Spec.layer (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) := by
  have e : (W17 m ρ c (Proc.devRef .tc main_v29) : Spec.Arr2 2048 1024) = yS m c := W17_v29 m ρ H c
  show StableHlo.after hostOps9 (W17 m ρ c) (Proc.devRef .tc main_v30) = _
  after_results
  rw [e]
  exact (Spec.transpose_eq_tr _ _).trans (tr_yS m c)

end Cert.KernelIdeal.Hand

end
-- ==== Proof.KI.MMDot.lean ====
import proofs.«176467_j34754875359699_1_alg».proof.Proof.Gen.KernelIdeal.Skeleton
import Idealize.ShloMosaic.PureOps.Ideal.Laws
import Idealize.ShloMosaic.Lib.ValueIdx

noncomputable section

namespace Cert.KernelIdeal.Hand.MM

open Cert.KernelIdeal Cert.KernelIdeal.Gen
open Idealize.ShloMosaic Idealize.ShloMosaic.ValueIdx

theorem lhs_dot512_0 (j : S512x512.Idx) (k : dot_S512x512_S512x512_S512x512_1_1_0_0_n_n.contr.Idx) :
    (dot_S512x512_S512x512_S512x512_1_1_0_0_n_n.lhsIdx j k 0).val = (j 0).val := by
  simp [DotDims.lhsIdx, dot_S512x512_S512x512_S512x512_1_1_0_0_n_n]; rfl

theorem lhs_dot512_1 (j : S512x512.Idx) (k : dot_S512x512_S512x512_S512x512_1_1_0_0_n_n.contr.Idx) :
    (dot_S512x512_S512x512_S512x512_1_1_0_0_n_n.lhsIdx j k 1).val = (k ⟨0, by decide⟩).val :=
  dot_S512x512_S512x512_S512x512_1_1_0_0_n_n.lhsIdx_val_of_single rfl j k

theorem rhs_dot512_0 (j : S512x512.Idx) (k : dot_S512x512_S512x512_S512x512_1_1_0_0_n_n.contr.Idx) :
    (dot_S512x512_S512x512_S512x512_1_1_0_0_n_n.rhsIdx j k 0).val = (j 1).val := by
  simp [DotDims.rhsIdx, dot_S512x512_S512x512_S512x512_1_1_0_0_n_n]; rfl

theorem rhs_dot512_1 (j : S512x512.Idx) (k : dot_S512x512_S512x512_S512x512_1_1_0_0_n_n.contr.Idx) :
    (dot_S512x512_S512x512_S512x512_1_1_0_0_n_n.rhsIdx j k 1).val = (k ⟨0, by decide⟩).val :=
  dot_S512x512_S512x512_S512x512_1_1_0_0_n_n.rhsIdx_val_of_single rfl j k

theorem matmul512_apply {φ₁ φ₂ : FTy} (prec : Option ContractPrecision) (a : FVec Ideal S512x512 φ₁) (b : FVec Ideal S512x512 φ₂)
    (p q : Fin 512) :
    matmul dot_S512x512_S512x512_S512x512_1_1_0_0_n_n prec a b (constant (F := Ideal) S512x512 .f32 0x00000000#32) (ix2 p q)
      = ∑ c : Fin 512, a (ix2 p c) * b (ix2 q c) := by
  show FloatOps.matmul _ prec a b _ (ix2 p q) = _
  rw [Ideal.matmul_constant_zero_apply,
    ← Equiv.sum_comp (contrEquiv1 dot_S512x512_S512x512_S512x512_1_1_0_0_n_n 512 rfl rfl).symm]
  refine Finset.sum_congr rfl fun c _ => ?_
  have hc := contrEquiv1_symm_val dot_S512x512_S512x512_S512x512_1_1_0_0_n_n 512 rfl rfl c
  have hl : dot_S512x512_S512x512_S512x512_1_1_0_0_n_n.lhsIdx (ix2 p q)
      ((contrEquiv1 dot_S512x512_S512x512_S512x512_1_1_0_0_n_n 512 rfl rfl).symm c) = ix2 p c := by
    funext ax; apply Fin.ext
    match ax with
    | ⟨0, _⟩ => exact lhs_dot512_0 _ _
    | ⟨1, _⟩ => exact (lhs_dot512_1 _ _).trans hc
  have hr : dot_S512x512_S512x512_S512x512_1_1_0_0_n_n.rhsIdx (ix2 p q)
      ((contrEquiv1 dot_S512x512_S512x512_S512x512_1_1_0_0_n_n 512 rfl rfl).symm c) = ix2 q c := by
    funext ax; apply Fin.ext
    match ax with
    | ⟨0, _⟩ => exact rhs_dot512_0 _ _
    | ⟨1, _⟩ => exact (rhs_dot512_1 _ _).trans hc
  rw [hl, hr]

end Cert.KernelIdeal.Hand.MM

end
-- ==== Proof.KI.Pay0.lean ====
import proofs.«176467_j34754875359699_1_alg».proof.Proof.KI.MMDot
import proofs.«176467_j34754875359699_1_alg».proof.Proof.Spec
import Idealize.ShloMosaic.Lib.Pipeline.Value
import Idealize.ShloMosaic.Lib.ValueLayout

noncomputable section

namespace Cert.KernelIdeal.Hand

open Cert.KernelIdeal Cert.KernelIdeal.Gen
open Idealize.ShloMosaic Idealize.ShloMosaic.ValueIdx

theorem pay1_apply0 (p q : Fin 512) : (k0_pay1 (F := Ideal)) (ix2 p q) = 0 := by
  unfold k0_pay1
  simp only [shapeCast_self]
  exact Ideal.ofBits_zero_f32

theorem pay2_apply0 (a b acc : FVec Ideal S512x512 .f32) (p q : Fin 512) :
    k0_pay2 a b acc (ix2 p q) = acc (ix2 p q) + ∑ c : Fin 512, a (ix2 p c) * b (ix2 q c) := by
  unfold k0_pay2
  simp only [shapeCast_self]
  exact congrArg (acc (ix2 p q) + ·) (MM.matmul512_apply none _ _ p q)

theorem pay3_apply0 (acc : FVec Ideal S512x512 .f32) (bias : FVec Ideal S1x512 .f32) (p q : Fin 512) :
    k0_pay3 acc bias (ix2 p q) = acc (ix2 p q) + bias (ix2 (0 : Fin 1) q) := by
  unfold k0_pay3
  simp only [shapeCast_self]
  exact congrArg (acc (ix2 p q) + ·) (broadcastTo_1b_ab_apply bias _ p q)

end Cert.KernelIdeal.Hand

end
-- ==== Proof.KI.MMSum.lean ====
import proofs.«176467_j34754875359699_1_alg».proof.Proof.Spec

noncomputable section

namespace Cert.KernelIdeal.Hand.MM

open Idealize.ShloMosaic Idealize.ShloMosaic.ValueIdx Cert.Spec

def term {K : Nat} (f : Fin K → EReal) (k : ℕ) : EReal := if h : k < K then f ⟨k, h⟩ else 0

def partialSum {K : Nat} (f : Fin K → EReal) (m : ℕ) : EReal := ∑ k ∈ Finset.range m, term f k

theorem partialSum_zero {K : Nat} (f : Fin K → EReal) : partialSum f 0 = 0 := Finset.sum_range_zero _

theorem partialSum_add {K : Nat} (f : Fin K → EReal) (m w : ℕ) (h : m + w ≤ K) :
    partialSum f (m + w) = partialSum f m + ∑ c : Fin w, f ⟨m + c.val, by have := c.isLt; omega⟩ := by
  unfold partialSum
  rw [Finset.sum_range_add]
  refine congrArg (_ + ·) ?_
  rw [Finset.sum_range fun x => term f (m + x)]
  refine Finset.sum_congr rfl fun c _ => ?_
  unfold term
  rw [dif_pos (by have := c.isLt; omega)]

theorem partialSum_full {K : Nat} (f : Fin K → EReal) : partialSum f K = ∑ k, f k := by
  unfold partialSum
  rw [Finset.sum_range]
  refine Finset.sum_congr rfl fun k _ => ?_
  unfold term
  rw [dif_pos k.isLt]

def dotPart {M K N : Nat} (A : Arr2 M K) (B : Arr2 N K) (r : Fin M) (s : Fin N) (m : ℕ) : EReal :=
  partialSum (fun k : Fin K => A (ix2 r k) * B (ix2 s k)) m

theorem dotPart_zero {M K N : Nat} (A : Arr2 M K) (B : Arr2 N K) (r : Fin M) (s : Fin N) : dotPart A B r s 0 = 0 :=
  partialSum_zero _

theorem dotPart_add {M K N : Nat} (A : Arr2 M K) (B : Arr2 N K) (r : Fin M) (s : Fin N) (m w : ℕ) (h : m + w ≤ K) :
    dotPart A B r s (m + w) = dotPart A B r s m
      + ∑ c : Fin w, A (ix2 r (⟨m + c.val, by have := c.isLt; omega⟩ : Fin K)) * B (ix2 s (⟨m + c.val, by have := c.isLt; omega⟩ : Fin K)) :=
  partialSum_add _ m w h

theorem mmNT_apply {M K N : Nat} (A : Arr2 M K) (B : Arr2 N K) (bias : Arr2 1 N) (r : Fin M) (s : Fin N) :
    mmNT A B bias (ix2 r s) = dotPart A B r s K + bias (ix2 (0 : Fin 1) s) := by
  unfold dotPart
  rw [partialSum_full]
  rfl

theorem mmNTRelu_apply {M K N : Nat} (A : Arr2 M K) (B : Arr2 N K) (bias : Arr2 1 N) (r : Fin M) (s : Fin N) :
    mmNTRelu A B bias (ix2 r s) = max (dotPart A B r s K + bias (ix2 (0 : Fin 1) s)) zero := by
  unfold mmNTRelu
  rw [mmNT_apply]

end Cert.KernelIdeal.Hand.MM

end
-- ==== Proof.KI.Val0.lean ====
import proofs.«176467_j34754875359699_1_alg».proof.Proof.KI.Dat0
import proofs.«176467_j34754875359699_1_alg».proof.Proof.KI.Pay0
import proofs.«176467_j34754875359699_1_alg».proof.Proof.KI.MMSum
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

abbrev lhs0 (c : Dev nD) : Cert.Spec.Arr2 2048 1024 := V c (Pipeline.arrRef spec0 0)
abbrev rhs0 (c : Dev nD) : Cert.Spec.Arr2 1024 1024 := V c (Pipeline.arrRef spec0 1)
abbrev bias0 (c : Dev nD) : Cert.Spec.Arr2 1 1024 := V c (Pipeline.arrRef spec0 2)

abbrev lblk0 (c : Dev nD) (n : ℕ) (hn : n < cfg0.N) : FVec Ideal S512x512 .f32 := iblk0 V c 0 ⟨n, hn⟩
abbrev rblk0 (c : Dev nD) (n : ℕ) (hn : n < cfg0.N) : FVec Ideal S512x512 .f32 := iblk0 V c 1 ⟨n, hn⟩
abbrev bblk0 (c : Dev nD) (n : ℕ) (hn : n < cfg0.N) : FVec Ideal S1x512 .f32 := iblk0 V c 2 ⟨n, hn⟩

def row0 (n : ℕ) (hn : n < cfg0.N) (p : Fin 512) : Fin 2048 :=
  ⟨n / 4 * 512 + p.val, by have hN : cfg0.N = 16 := N_0; have := p.isLt; omega⟩
def col0 (n : ℕ) (hn : n < cfg0.N) (q : Fin 512) : Fin 1024 :=
  ⟨n / 2 % 2 * 512 + q.val, by have := q.isLt; omega⟩
def dep0 (n : ℕ) (hn : n < cfg0.N) (k : Fin 512) : Fin 1024 :=
  ⟨n % 2 * 512 + k.val, by have := k.isLt; omega⟩

theorem idx_facts0 : ∀ t : Fin cfg0.N,
    win0_0.index t (0 : Fin 2) = t.val / 4 ∧ win0_0.index t (1 : Fin 2) = t.val % 2
    ∧ win0_1.index t (0 : Fin 2) = t.val / 2 % 2 ∧ win0_1.index t (1 : Fin 2) = t.val % 2
    ∧ win0_2.index t (0 : Fin 2) = 0 ∧ win0_2.index t (1 : Fin 2) = t.val / 2 % 2
    ∧ win0_3.index t (0 : Fin 2) = t.val / 4 ∧ win0_3.index t (1 : Fin 2) = t.val / 2 % 2 :=
  (by decide +kernel : ∀ t : Fin grid0.N, _)

theorem idx_at0 (n : ℕ) (hn : n < cfg0.N) :
    win0_0.index ⟨n, hn⟩ (0 : Fin 2) = n / 4 ∧ win0_0.index ⟨n, hn⟩ (1 : Fin 2) = n % 2
    ∧ win0_1.index ⟨n, hn⟩ (0 : Fin 2) = n / 2 % 2 ∧ win0_1.index ⟨n, hn⟩ (1 : Fin 2) = n % 2
    ∧ win0_2.index ⟨n, hn⟩ (0 : Fin 2) = 0 ∧ win0_2.index ⟨n, hn⟩ (1 : Fin 2) = n / 2 % 2
    ∧ win0_3.index ⟨n, hn⟩ (0 : Fin 2) = n / 4 ∧ win0_3.index ⟨n, hn⟩ (1 : Fin 2) = n / 2 % 2 :=
  idx_facts0 ⟨n, hn⟩

theorem lblk0_apply (c : Dev nD) (n : ℕ) (hn : n < cfg0.N) (p k : Fin 512) :
    lblk0 V c n hn (ix2 p k) = lhs0 V c (ix2 (row0 n hn p) (dep0 n hn k)) := by
  obtain ⟨e0, e1, -⟩ := idx_at0 n hn
  show V c (Pipeline.arrRef spec0 0) (((cfg0.win 0).blk ⟨n, hn⟩).view.emb (ix2 p k)) = V c (Pipeline.arrRef spec0 0) _
  refine congrArg (V c (Pipeline.arrRef spec0 0)) ?_
  funext a; apply Fin.ext
  match a with
  | ⟨0, _⟩ => show win0_0.index ⟨n, hn⟩ (0 : Fin 2) * 512 + 1 * p.val = n / 4 * 512 + p.val; rw [e0]; omega
  | ⟨1, _⟩ => show win0_0.index ⟨n, hn⟩ (1 : Fin 2) * 512 + 1 * k.val = n % 2 * 512 + k.val; rw [e1]; omega

theorem rblk0_apply (c : Dev nD) (n : ℕ) (hn : n < cfg0.N) (q k : Fin 512) :
    rblk0 V c n hn (ix2 q k) = rhs0 V c (ix2 (col0 n hn q) (dep0 n hn k)) := by
  obtain ⟨-, -, e2, e3, -⟩ := idx_at0 n hn
  show V c (Pipeline.arrRef spec0 1) (((cfg0.win 1).blk ⟨n, hn⟩).view.emb (ix2 q k)) = V c (Pipeline.arrRef spec0 1) _
  refine congrArg (V c (Pipeline.arrRef spec0 1)) ?_
  funext a; apply Fin.ext
  match a with
  | ⟨0, _⟩ => show win0_1.index ⟨n, hn⟩ (0 : Fin 2) * 512 + 1 * q.val = n / 2 % 2 * 512 + q.val; rw [e2]; omega
  | ⟨1, _⟩ => show win0_1.index ⟨n, hn⟩ (1 : Fin 2) * 512 + 1 * k.val = n % 2 * 512 + k.val; rw [e3]; omega

theorem bblk0_apply (c : Dev nD) (n : ℕ) (hn : n < cfg0.N) (q : Fin 512) :
    bblk0 V c n hn (ix2 (0 : Fin 1) q) = bias0 V c (ix2 (0 : Fin 1) (col0 n hn q)) := by
  obtain ⟨-, -, -, -, e4, e5, -⟩ := idx_at0 n hn
  show V c (Pipeline.arrRef spec0 2) (((cfg0.win 2).blk ⟨n, hn⟩).view.emb (ix2 (0 : Fin 1) q)) = V c (Pipeline.arrRef spec0 2) _
  refine congrArg (V c (Pipeline.arrRef spec0 2)) ?_
  funext a; apply Fin.ext
  match a with
  | ⟨0, _⟩ => show win0_2.index ⟨n, hn⟩ (0 : Fin 2) * 1 + 1 * 0 = 0; rw [e4]
  | ⟨1, _⟩ => show win0_2.index ⟨n, hn⟩ (1 : Fin 2) * 512 + 1 * q.val = n / 2 % 2 * 512 + q.val; rw [e5]; omega

theorem blockSum0 (c : Dev nD) (n : ℕ) (hn : n < cfg0.N) (p q : Fin 512) (m : ℕ) (hm : m = n % 2 * 512) (h : m + 512 ≤ 1024) :
    ∑ k : Fin 512, lblk0 V c n hn (ix2 p k) * rblk0 V c n hn (ix2 q k)
      = ∑ k : Fin 512, lhs0 V c (ix2 (row0 n hn p) (⟨m + k.val, by have := k.isLt; omega⟩ : Fin 1024))
          * rhs0 V c (ix2 (col0 n hn q) (⟨m + k.val, by have := k.isLt; omega⟩ : Fin 1024)) := by
  subst hm
  exact Finset.sum_congr rfl fun k _ => by rw [lblk0_apply, rblk0_apply]; rfl

theorem acc0_apply (c : Dev nD) (n : ℕ) (hn : n < cfg0.N) (p q : Fin 512) :
    (acc0 V c n hn : FVec Ideal S512x512 .f32) (ix2 p q)
      = MM.dotPart (lhs0 V c) (rhs0 V c) (row0 n hn p) (col0 n hn q) ((n % 2 + 1) * 512) := by
  rcases Nat.mod_two_eq_zero_or_one n with h | h
  ·
    rw [acc0_even V c n hn h]
    refine (pay2_apply0 (lblk0 V c n hn) (rblk0 V c n hn) (k0_pay1 (F := Ideal)) p q).trans ?_
    rw [pay1_apply0, zero_add, blockSum0 V c n hn p q 0 (by omega) (by omega),
      show (n % 2 + 1) * 512 = 0 + 512 by omega, MM.dotPart_add _ _ _ _ 0 512 (by omega), MM.dotPart_zero, zero_add]
  ·
    have hlt : n - 1 < n := by omega
    have hn' : n - 1 < cfg0.N := Nat.lt_of_le_of_lt (Nat.sub_le _ _) hn
    have hrow : row0 (n - 1) hn' p = row0 n hn p := Fin.ext (by show (n - 1) / 4 * 512 + p.val = n / 4 * 512 + p.val; omega)
    have hcol : col0 (n - 1) hn' q = col0 n hn q := Fin.ext (by show (n - 1) / 2 % 2 * 512 + q.val = n / 2 % 2 * 512 + q.val; omega)
    rw [acc0_odd V c n hn h]
    refine (pay2_apply0 (lblk0 V c n hn) (rblk0 V c n hn) (acc0 V c (n - 1) hn') p q).trans ?_
    rw [acc0_apply c (n - 1) hn' p q, hrow, hcol, blockSum0 V c n hn p q 512 (by omega) (by omega),
      show ((n - 1) % 2 + 1) * 512 = 512 by omega, show (n % 2 + 1) * 512 = 512 + 512 by omega,
      MM.dotPart_add _ _ _ _ 512 512 (by omega)]
termination_by n
decreasing_by omega

theorem out0_apply (c : Dev nD) (t : Fin cfg0.N) (h : t.val % 2 = 1) (p q : Fin 512) :
    (out0 V c t : FVec Ideal S512x512 .f32) (ix2 p q)
      = Cert.Spec.mmNT (lhs0 V c) (rhs0 V c) (bias0 V c) (ix2 (row0 t.val t.isLt p) (col0 t.val t.isLt q)) := by
  unfold out0
  refine (pay3_apply0 (acc0 V c t.val t.isLt) (bblk0 V c t.val t.isLt) p q).trans ?_
  rw [acc0_apply V c t.val t.isLt p q, bblk0_apply, MM.mmNT_apply, show (t.val % 2 + 1) * 512 = 1024 by omega]

theorem flushed_eq0 (c : Dev nD) (t : Fin cfg0.N) (hf : (cfg0.win 3).flush t = true) :
    (dat0 V c).flushed 3 t
      = ((cfg0.win 3).blk t).view.read (Elt Ideal) (Cert.Spec.mmNT (lhs0 V c) (rhs0 V c) (bias0 V c)) := by
  have ht : t.val % 2 = 1 := (flush0_3 t).mp hf
  obtain ⟨-, -, -, -, -, -, e6, e7⟩ := idx_facts0 t
  show (cfg0.win 3).cut (grid0.coords t) ((dat0 V c).after 3 t) = _
  rw [after0_3]
  funext j
  obtain ⟨p, q, rfl⟩ : ∃ (p q : Fin 512), j = ix2 p q := ⟨j 0, j 1, eq_ix2 j⟩
  show (out0 V c t : FVec Ideal S512x512 .f32) (ix2 p q)
    = Cert.Spec.mmNT (lhs0 V c) (rhs0 V c) (bias0 V c) (((cfg0.win 3).blk t).view.emb (ix2 p q))
  rw [out0_apply V c t ht p q]
  refine congrArg (Cert.Spec.mmNT (lhs0 V c) (rhs0 V c) (bias0 V c)) ?_
  funext a; apply Fin.ext
  match a with
  | ⟨0, _⟩ => show t.val / 4 * 512 + p.val = win0_3.index t (0 : Fin 2) * 512 + 1 * p.val; rw [e6]; omega
  | ⟨1, _⟩ => show t.val / 2 % 2 * 512 + q.val = win0_3.index t (1 : Fin 2) * 512 + 1 * q.val; rw [e7]; omega

theorem mem_blk0 (t : Fin cfg0.N) (i : S2048x1024.Idx) :
    i ∈ ((cfg0.win 3).blk t).view.set
      ↔ ∀ a : Fin 2, win0_3.index t a * S512x512.size a ≤ (i a).val ∧ (i a).val < win0_3.index t a * S512x512.size a + S512x512.size a := by
  show i ∈ ((View.whole main_v9).slice (win0_3.rect t)).set ↔ _
  rw [View.set_slice_whole, Rect.mem_set_unit]
  exact Iff.rfl

theorem cover0 (i : S2048x1024.Idx) : ∃ t : Fin cfg0.N, (cfg0.win 3).flush t = true ∧ i ∈ ((cfg0.win 3).blk t).view.set := by
  have hN : cfg0.N = 16 := N_0
  have h0 : (i 0).val < 2048 := (i 0).isLt
  have h1 : (i 1).val < 1024 := (i 1).isLt
  obtain ⟨t, hv⟩ : ∃ t : Fin cfg0.N, t.val = 4 * ((i 0).val / 512) + 2 * ((i 1).val / 512) + 1 :=
    ⟨⟨4 * ((i 0).val / 512) + 2 * ((i 1).val / 512) + 1, by omega⟩, rfl⟩
  obtain ⟨-, -, -, -, -, -, e6, e7⟩ := idx_facts0 t
  refine ⟨t, (flush0_3 t).mpr (by omega), ?_⟩
  rw [mem_blk0]
  intro a
  match a with
  | ⟨0, _⟩ => show win0_3.index t (0 : Fin 2) * 512 ≤ (i 0).val ∧ (i 0).val < win0_3.index t (0 : Fin 2) * 512 + 512; rw [e6]; omega
  | ⟨1, _⟩ => show win0_3.index t (1 : Fin 2) * 512 ≤ (i 1).val ∧ (i 1).val < win0_3.index t (1 : Fin 2) * 512 + 512; rw [e7]; omega

theorem arrAt0 (c : Dev nD) :
    (dat0 (F := Ideal) V c).arrAt 3 cfg0.N
      = Cert.Spec.mmNT (V c (Pipeline.arrRef spec0 0) : Cert.Spec.Arr2 2048 1024) (V c (Pipeline.arrRef spec0 1) : Cert.Spec.Arr2 1024 1024)
          (V c (Pipeline.arrRef spec0 2) : Cert.Spec.Arr2 1 1024) :=
  (dat0 V c).arrAt_eq_of_cover 3 (Cert.Spec.mmNT (lhs0 V c) (rhs0 V c) (bias0 V c)) (flushed_eq0 V c) cover0

end Cert.KernelIdeal.Hand

end
-- ==== Proof.KI.Val1.lean ====
import proofs.«176467_j34754875359699_1_alg».proof.Proof.KI.Dat1
import proofs.«176467_j34754875359699_1_alg».proof.Proof.KI.Pay0
import proofs.«176467_j34754875359699_1_alg».proof.Proof.KI.MMSum
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

abbrev lhs1 (c : Dev nD) : Cert.Spec.Arr2 2048 1024 := V c (Pipeline.arrRef spec1 0)
abbrev rhs1 (c : Dev nD) : Cert.Spec.Arr2 1024 1024 := V c (Pipeline.arrRef spec1 1)
abbrev bias1 (c : Dev nD) : Cert.Spec.Arr2 1 1024 := V c (Pipeline.arrRef spec1 2)

abbrev lblk1 (c : Dev nD) (n : ℕ) (hn : n < cfg1.N) : FVec Ideal S512x512 .f32 := iblk1 V c 0 ⟨n, hn⟩
abbrev rblk1 (c : Dev nD) (n : ℕ) (hn : n < cfg1.N) : FVec Ideal S512x512 .f32 := iblk1 V c 1 ⟨n, hn⟩
abbrev bblk1 (c : Dev nD) (n : ℕ) (hn : n < cfg1.N) : FVec Ideal S1x512 .f32 := iblk1 V c 2 ⟨n, hn⟩

def row1 (n : ℕ) (hn : n < cfg1.N) (p : Fin 512) : Fin 2048 :=
  ⟨n / 4 * 512 + p.val, by have hN : cfg1.N = 16 := N_1; have := p.isLt; omega⟩
def col1 (n : ℕ) (hn : n < cfg1.N) (q : Fin 512) : Fin 1024 :=
  ⟨n / 2 % 2 * 512 + q.val, by have := q.isLt; omega⟩
def dep1 (n : ℕ) (hn : n < cfg1.N) (k : Fin 512) : Fin 1024 :=
  ⟨n % 2 * 512 + k.val, by have := k.isLt; omega⟩

theorem idx_facts1 : ∀ t : Fin cfg1.N,
    win1_0.index t (0 : Fin 2) = t.val / 4 ∧ win1_0.index t (1 : Fin 2) = t.val % 2
    ∧ win1_1.index t (0 : Fin 2) = t.val / 2 % 2 ∧ win1_1.index t (1 : Fin 2) = t.val % 2
    ∧ win1_2.index t (0 : Fin 2) = 0 ∧ win1_2.index t (1 : Fin 2) = t.val / 2 % 2
    ∧ win1_3.index t (0 : Fin 2) = t.val / 4 ∧ win1_3.index t (1 : Fin 2) = t.val / 2 % 2 :=
  (by decide +kernel : ∀ t : Fin grid1.N, _)

theorem idx_at1 (n : ℕ) (hn : n < cfg1.N) :
    win1_0.index ⟨n, hn⟩ (0 : Fin 2) = n / 4 ∧ win1_0.index ⟨n, hn⟩ (1 : Fin 2) = n % 2
    ∧ win1_1.index ⟨n, hn⟩ (0 : Fin 2) = n / 2 % 2 ∧ win1_1.index ⟨n, hn⟩ (1 : Fin 2) = n % 2
    ∧ win1_2.index ⟨n, hn⟩ (0 : Fin 2) = 0 ∧ win1_2.index ⟨n, hn⟩ (1 : Fin 2) = n / 2 % 2
    ∧ win1_3.index ⟨n, hn⟩ (0 : Fin 2) = n / 4 ∧ win1_3.index ⟨n, hn⟩ (1 : Fin 2) = n / 2 % 2 :=
  idx_facts1 ⟨n, hn⟩

theorem lblk1_apply (c : Dev nD) (n : ℕ) (hn : n < cfg1.N) (p k : Fin 512) :
    lblk1 V c n hn (ix2 p k) = lhs1 V c (ix2 (row1 n hn p) (dep1 n hn k)) := by
  obtain ⟨e0, e1, -⟩ := idx_at1 n hn
  show V c (Pipeline.arrRef spec1 0) (((cfg1.win 0).blk ⟨n, hn⟩).view.emb (ix2 p k)) = V c (Pipeline.arrRef spec1 0) _
  refine congrArg (V c (Pipeline.arrRef spec1 0)) ?_
  funext a; apply Fin.ext
  match a with
  | ⟨0, _⟩ => show win1_0.index ⟨n, hn⟩ (0 : Fin 2) * 512 + 1 * p.val = n / 4 * 512 + p.val; rw [e0]; omega
  | ⟨1, _⟩ => show win1_0.index ⟨n, hn⟩ (1 : Fin 2) * 512 + 1 * k.val = n % 2 * 512 + k.val; rw [e1]; omega

theorem rblk1_apply (c : Dev nD) (n : ℕ) (hn : n < cfg1.N) (q k : Fin 512) :
    rblk1 V c n hn (ix2 q k) = rhs1 V c (ix2 (col1 n hn q) (dep1 n hn k)) := by
  obtain ⟨-, -, e2, e3, -⟩ := idx_at1 n hn
  show V c (Pipeline.arrRef spec1 1) (((cfg1.win 1).blk ⟨n, hn⟩).view.emb (ix2 q k)) = V c (Pipeline.arrRef spec1 1) _
  refine congrArg (V c (Pipeline.arrRef spec1 1)) ?_
  funext a; apply Fin.ext
  match a with
  | ⟨0, _⟩ => show win1_1.index ⟨n, hn⟩ (0 : Fin 2) * 512 + 1 * q.val = n / 2 % 2 * 512 + q.val; rw [e2]; omega
  | ⟨1, _⟩ => show win1_1.index ⟨n, hn⟩ (1 : Fin 2) * 512 + 1 * k.val = n % 2 * 512 + k.val; rw [e3]; omega

theorem bblk1_apply (c : Dev nD) (n : ℕ) (hn : n < cfg1.N) (q : Fin 512) :
    bblk1 V c n hn (ix2 (0 : Fin 1) q) = bias1 V c (ix2 (0 : Fin 1) (col1 n hn q)) := by
  obtain ⟨-, -, -, -, e4, e5, -⟩ := idx_at1 n hn
  show V c (Pipeline.arrRef spec1 2) (((cfg1.win 2).blk ⟨n, hn⟩).view.emb (ix2 (0 : Fin 1) q)) = V c (Pipeline.arrRef spec1 2) _
  refine congrArg (V c (Pipeline.arrRef spec1 2)) ?_
  funext a; apply Fin.ext
  match a with
  | ⟨0, _⟩ => show win1_2.index ⟨n, hn⟩ (0 : Fin 2) * 1 + 1 * 0 = 0; rw [e4]
  | ⟨1, _⟩ => show win1_2.index ⟨n, hn⟩ (1 : Fin 2) * 512 + 1 * q.val = n / 2 % 2 * 512 + q.val; rw [e5]; omega

theorem blockSum1 (c : Dev nD) (n : ℕ) (hn : n < cfg1.N) (p q : Fin 512) (m : ℕ) (hm : m = n % 2 * 512) (h : m + 512 ≤ 1024) :
    ∑ k : Fin 512, lblk1 V c n hn (ix2 p k) * rblk1 V c n hn (ix2 q k)
      = ∑ k : Fin 512, lhs1 V c (ix2 (row1 n hn p) (⟨m + k.val, by have := k.isLt; omega⟩ : Fin 1024))
          * rhs1 V c (ix2 (col1 n hn q) (⟨m + k.val, by have := k.isLt; omega⟩ : Fin 1024)) := by
  subst hm
  exact Finset.sum_congr rfl fun k _ => by rw [lblk1_apply, rblk1_apply]; rfl

theorem acc1_apply (c : Dev nD) (n : ℕ) (hn : n < cfg1.N) (p q : Fin 512) :
    (acc1 V c n hn : FVec Ideal S512x512 .f32) (ix2 p q)
      = MM.dotPart (lhs1 V c) (rhs1 V c) (row1 n hn p) (col1 n hn q) ((n % 2 + 1) * 512) := by
  rcases Nat.mod_two_eq_zero_or_one n with h | h
  ·
    rw [acc1_even V c n hn h]
    refine (pay2_apply0 (lblk1 V c n hn) (rblk1 V c n hn) (k0_pay1 (F := Ideal)) p q).trans ?_
    rw [pay1_apply0, zero_add, blockSum1 V c n hn p q 0 (by omega) (by omega),
      show (n % 2 + 1) * 512 = 0 + 512 by omega, MM.dotPart_add _ _ _ _ 0 512 (by omega), MM.dotPart_zero, zero_add]
  ·
    have hlt : n - 1 < n := by omega
    have hn' : n - 1 < cfg1.N := Nat.lt_of_le_of_lt (Nat.sub_le _ _) hn
    have hrow : row1 (n - 1) hn' p = row1 n hn p := Fin.ext (by show (n - 1) / 4 * 512 + p.val = n / 4 * 512 + p.val; omega)
    have hcol : col1 (n - 1) hn' q = col1 n hn q := Fin.ext (by show (n - 1) / 2 % 2 * 512 + q.val = n / 2 % 2 * 512 + q.val; omega)
    rw [acc1_odd V c n hn h]
    refine (pay2_apply0 (lblk1 V c n hn) (rblk1 V c n hn) (acc1 V c (n - 1) hn') p q).trans ?_
    rw [acc1_apply c (n - 1) hn' p q, hrow, hcol, blockSum1 V c n hn p q 512 (by omega) (by omega),
      show ((n - 1) % 2 + 1) * 512 = 512 by omega, show (n % 2 + 1) * 512 = 512 + 512 by omega,
      MM.dotPart_add _ _ _ _ 512 512 (by omega)]
termination_by n
decreasing_by omega

theorem out1_apply (c : Dev nD) (t : Fin cfg1.N) (h : t.val % 2 = 1) (p q : Fin 512) :
    (out1 V c t : FVec Ideal S512x512 .f32) (ix2 p q)
      = Cert.Spec.mmNT (lhs1 V c) (rhs1 V c) (bias1 V c) (ix2 (row1 t.val t.isLt p) (col1 t.val t.isLt q)) := by
  unfold out1
  refine (pay3_apply0 (acc1 V c t.val t.isLt) (bblk1 V c t.val t.isLt) p q).trans ?_
  rw [acc1_apply V c t.val t.isLt p q, bblk1_apply, MM.mmNT_apply, show (t.val % 2 + 1) * 512 = 1024 by omega]

theorem flushed_eq1 (c : Dev nD) (t : Fin cfg1.N) (hf : (cfg1.win 3).flush t = true) :
    (dat1 V c).flushed 3 t
      = ((cfg1.win 3).blk t).view.read (Elt Ideal) (Cert.Spec.mmNT (lhs1 V c) (rhs1 V c) (bias1 V c)) := by
  have ht : t.val % 2 = 1 := (flush1_3 t).mp hf
  obtain ⟨-, -, -, -, -, -, e6, e7⟩ := idx_facts1 t
  show (cfg1.win 3).cut (grid1.coords t) ((dat1 V c).after 3 t) = _
  rw [after1_3]
  funext j
  obtain ⟨p, q, rfl⟩ : ∃ (p q : Fin 512), j = ix2 p q := ⟨j 0, j 1, eq_ix2 j⟩
  show (out1 V c t : FVec Ideal S512x512 .f32) (ix2 p q)
    = Cert.Spec.mmNT (lhs1 V c) (rhs1 V c) (bias1 V c) (((cfg1.win 3).blk t).view.emb (ix2 p q))
  rw [out1_apply V c t ht p q]
  refine congrArg (Cert.Spec.mmNT (lhs1 V c) (rhs1 V c) (bias1 V c)) ?_
  funext a; apply Fin.ext
  match a with
  | ⟨0, _⟩ => show t.val / 4 * 512 + p.val = win1_3.index t (0 : Fin 2) * 512 + 1 * p.val; rw [e6]; omega
  | ⟨1, _⟩ => show t.val / 2 % 2 * 512 + q.val = win1_3.index t (1 : Fin 2) * 512 + 1 * q.val; rw [e7]; omega

theorem mem_blk1 (t : Fin cfg1.N) (i : S2048x1024.Idx) :
    i ∈ ((cfg1.win 3).blk t).view.set
      ↔ ∀ a : Fin 2, win1_3.index t a * S512x512.size a ≤ (i a).val ∧ (i a).val < win1_3.index t a * S512x512.size a + S512x512.size a := by
  show i ∈ ((View.whole main_v12).slice (win1_3.rect t)).set ↔ _
  rw [View.set_slice_whole, Rect.mem_set_unit]
  exact Iff.rfl

theorem cover1 (i : S2048x1024.Idx) : ∃ t : Fin cfg1.N, (cfg1.win 3).flush t = true ∧ i ∈ ((cfg1.win 3).blk t).view.set := by
  have hN : cfg1.N = 16 := N_1
  have h0 : (i 0).val < 2048 := (i 0).isLt
  have h1 : (i 1).val < 1024 := (i 1).isLt
  obtain ⟨t, hv⟩ : ∃ t : Fin cfg1.N, t.val = 4 * ((i 0).val / 512) + 2 * ((i 1).val / 512) + 1 :=
    ⟨⟨4 * ((i 0).val / 512) + 2 * ((i 1).val / 512) + 1, by omega⟩, rfl⟩
  obtain ⟨-, -, -, -, -, -, e6, e7⟩ := idx_facts1 t
  refine ⟨t, (flush1_3 t).mpr (by omega), ?_⟩
  rw [mem_blk1]
  intro a
  match a with
  | ⟨0, _⟩ => show win1_3.index t (0 : Fin 2) * 512 ≤ (i 0).val ∧ (i 0).val < win1_3.index t (0 : Fin 2) * 512 + 512; rw [e6]; omega
  | ⟨1, _⟩ => show win1_3.index t (1 : Fin 2) * 512 ≤ (i 1).val ∧ (i 1).val < win1_3.index t (1 : Fin 2) * 512 + 512; rw [e7]; omega

theorem arrAt1 (c : Dev nD) :
    (dat1 (F := Ideal) V c).arrAt 3 cfg1.N
      = Cert.Spec.mmNT (V c (Pipeline.arrRef spec1 0) : Cert.Spec.Arr2 2048 1024) (V c (Pipeline.arrRef spec1 1) : Cert.Spec.Arr2 1024 1024)
          (V c (Pipeline.arrRef spec1 2) : Cert.Spec.Arr2 1 1024) :=
  (dat1 V c).arrAt_eq_of_cover 3 (Cert.Spec.mmNT (lhs1 V c) (rhs1 V c) (bias1 V c)) (flushed_eq1 V c) cover1

end Cert.KernelIdeal.Hand

end
-- ==== Proof.KI.Val2.lean ====
import proofs.«176467_j34754875359699_1_alg».proof.Proof.KI.Dat2
import proofs.«176467_j34754875359699_1_alg».proof.Proof.KI.Pay0
import proofs.«176467_j34754875359699_1_alg».proof.Proof.KI.MMSum
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

abbrev lhs2 (c : Dev nD) : Cert.Spec.Arr2 2048 1024 := V c (Pipeline.arrRef spec2 0)
abbrev rhs2 (c : Dev nD) : Cert.Spec.Arr2 1024 1024 := V c (Pipeline.arrRef spec2 1)
abbrev bias2 (c : Dev nD) : Cert.Spec.Arr2 1 1024 := V c (Pipeline.arrRef spec2 2)

abbrev lblk2 (c : Dev nD) (n : ℕ) (hn : n < cfg2.N) : FVec Ideal S512x512 .f32 := iblk2 V c 0 ⟨n, hn⟩
abbrev rblk2 (c : Dev nD) (n : ℕ) (hn : n < cfg2.N) : FVec Ideal S512x512 .f32 := iblk2 V c 1 ⟨n, hn⟩
abbrev bblk2 (c : Dev nD) (n : ℕ) (hn : n < cfg2.N) : FVec Ideal S1x512 .f32 := iblk2 V c 2 ⟨n, hn⟩

def row2 (n : ℕ) (hn : n < cfg2.N) (p : Fin 512) : Fin 2048 :=
  ⟨n / 4 * 512 + p.val, by have hN : cfg2.N = 16 := N_2; have := p.isLt; omega⟩
def col2 (n : ℕ) (hn : n < cfg2.N) (q : Fin 512) : Fin 1024 :=
  ⟨n / 2 % 2 * 512 + q.val, by have := q.isLt; omega⟩
def dep2 (n : ℕ) (hn : n < cfg2.N) (k : Fin 512) : Fin 1024 :=
  ⟨n % 2 * 512 + k.val, by have := k.isLt; omega⟩

theorem idx_facts2 : ∀ t : Fin cfg2.N,
    win2_0.index t (0 : Fin 2) = t.val / 4 ∧ win2_0.index t (1 : Fin 2) = t.val % 2
    ∧ win2_1.index t (0 : Fin 2) = t.val / 2 % 2 ∧ win2_1.index t (1 : Fin 2) = t.val % 2
    ∧ win2_2.index t (0 : Fin 2) = 0 ∧ win2_2.index t (1 : Fin 2) = t.val / 2 % 2
    ∧ win2_3.index t (0 : Fin 2) = t.val / 4 ∧ win2_3.index t (1 : Fin 2) = t.val / 2 % 2 :=
  (by decide +kernel : ∀ t : Fin grid2.N, _)

theorem idx_at2 (n : ℕ) (hn : n < cfg2.N) :
    win2_0.index ⟨n, hn⟩ (0 : Fin 2) = n / 4 ∧ win2_0.index ⟨n, hn⟩ (1 : Fin 2) = n % 2
    ∧ win2_1.index ⟨n, hn⟩ (0 : Fin 2) = n / 2 % 2 ∧ win2_1.index ⟨n, hn⟩ (1 : Fin 2) = n % 2
    ∧ win2_2.index ⟨n, hn⟩ (0 : Fin 2) = 0 ∧ win2_2.index ⟨n, hn⟩ (1 : Fin 2) = n / 2 % 2
    ∧ win2_3.index ⟨n, hn⟩ (0 : Fin 2) = n / 4 ∧ win2_3.index ⟨n, hn⟩ (1 : Fin 2) = n / 2 % 2 :=
  idx_facts2 ⟨n, hn⟩

theorem lblk2_apply (c : Dev nD) (n : ℕ) (hn : n < cfg2.N) (p k : Fin 512) :
    lblk2 V c n hn (ix2 p k) = lhs2 V c (ix2 (row2 n hn p) (dep2 n hn k)) := by
  obtain ⟨e0, e1, -⟩ := idx_at2 n hn
  show V c (Pipeline.arrRef spec2 0) (((cfg2.win 0).blk ⟨n, hn⟩).view.emb (ix2 p k)) = V c (Pipeline.arrRef spec2 0) _
  refine congrArg (V c (Pipeline.arrRef spec2 0)) ?_
  funext a; apply Fin.ext
  match a with
  | ⟨0, _⟩ => show win2_0.index ⟨n, hn⟩ (0 : Fin 2) * 512 + 1 * p.val = n / 4 * 512 + p.val; rw [e0]; omega
  | ⟨1, _⟩ => show win2_0.index ⟨n, hn⟩ (1 : Fin 2) * 512 + 1 * k.val = n % 2 * 512 + k.val; rw [e1]; omega

theorem rblk2_apply (c : Dev nD) (n : ℕ) (hn : n < cfg2.N) (q k : Fin 512) :
    rblk2 V c n hn (ix2 q k) = rhs2 V c (ix2 (col2 n hn q) (dep2 n hn k)) := by
  obtain ⟨-, -, e2, e3, -⟩ := idx_at2 n hn
  show V c (Pipeline.arrRef spec2 1) (((cfg2.win 1).blk ⟨n, hn⟩).view.emb (ix2 q k)) = V c (Pipeline.arrRef spec2 1) _
  refine congrArg (V c (Pipeline.arrRef spec2 1)) ?_
  funext a; apply Fin.ext
  match a with
  | ⟨0, _⟩ => show win2_1.index ⟨n, hn⟩ (0 : Fin 2) * 512 + 1 * q.val = n / 2 % 2 * 512 + q.val; rw [e2]; omega
  | ⟨1, _⟩ => show win2_1.index ⟨n, hn⟩ (1 : Fin 2) * 512 + 1 * k.val = n % 2 * 512 + k.val; rw [e3]; omega

theorem bblk2_apply (c : Dev nD) (n : ℕ) (hn : n < cfg2.N) (q : Fin 512) :
    bblk2 V c n hn (ix2 (0 : Fin 1) q) = bias2 V c (ix2 (0 : Fin 1) (col2 n hn q)) := by
  obtain ⟨-, -, -, -, e4, e5, -⟩ := idx_at2 n hn
  show V c (Pipeline.arrRef spec2 2) (((cfg2.win 2).blk ⟨n, hn⟩).view.emb (ix2 (0 : Fin 1) q)) = V c (Pipeline.arrRef spec2 2) _
  refine congrArg (V c (Pipeline.arrRef spec2 2)) ?_
  funext a; apply Fin.ext
  match a with
  | ⟨0, _⟩ => show win2_2.index ⟨n, hn⟩ (0 : Fin 2) * 1 + 1 * 0 = 0; rw [e4]
  | ⟨1, _⟩ => show win2_2.index ⟨n, hn⟩ (1 : Fin 2) * 512 + 1 * q.val = n / 2 % 2 * 512 + q.val; rw [e5]; omega

theorem blockSum2 (c : Dev nD) (n : ℕ) (hn : n < cfg2.N) (p q : Fin 512) (m : ℕ) (hm : m = n % 2 * 512) (h : m + 512 ≤ 1024) :
    ∑ k : Fin 512, lblk2 V c n hn (ix2 p k) * rblk2 V c n hn (ix2 q k)
      = ∑ k : Fin 512, lhs2 V c (ix2 (row2 n hn p) (⟨m + k.val, by have := k.isLt; omega⟩ : Fin 1024))
          * rhs2 V c (ix2 (col2 n hn q) (⟨m + k.val, by have := k.isLt; omega⟩ : Fin 1024)) := by
  subst hm
  exact Finset.sum_congr rfl fun k _ => by rw [lblk2_apply, rblk2_apply]; rfl

theorem acc2_apply (c : Dev nD) (n : ℕ) (hn : n < cfg2.N) (p q : Fin 512) :
    (acc2 V c n hn : FVec Ideal S512x512 .f32) (ix2 p q)
      = MM.dotPart (lhs2 V c) (rhs2 V c) (row2 n hn p) (col2 n hn q) ((n % 2 + 1) * 512) := by
  rcases Nat.mod_two_eq_zero_or_one n with h | h
  ·
    rw [acc2_even V c n hn h]
    refine (pay2_apply0 (lblk2 V c n hn) (rblk2 V c n hn) (k0_pay1 (F := Ideal)) p q).trans ?_
    rw [pay1_apply0, zero_add, blockSum2 V c n hn p q 0 (by omega) (by omega),
      show (n % 2 + 1) * 512 = 0 + 512 by omega, MM.dotPart_add _ _ _ _ 0 512 (by omega), MM.dotPart_zero, zero_add]
  ·
    have hlt : n - 1 < n := by omega
    have hn' : n - 1 < cfg2.N := Nat.lt_of_le_of_lt (Nat.sub_le _ _) hn
    have hrow : row2 (n - 1) hn' p = row2 n hn p := Fin.ext (by show (n - 1) / 4 * 512 + p.val = n / 4 * 512 + p.val; omega)
    have hcol : col2 (n - 1) hn' q = col2 n hn q := Fin.ext (by show (n - 1) / 2 % 2 * 512 + q.val = n / 2 % 2 * 512 + q.val; omega)
    rw [acc2_odd V c n hn h]
    refine (pay2_apply0 (lblk2 V c n hn) (rblk2 V c n hn) (acc2 V c (n - 1) hn') p q).trans ?_
    rw [acc2_apply c (n - 1) hn' p q, hrow, hcol, blockSum2 V c n hn p q 512 (by omega) (by omega),
      show ((n - 1) % 2 + 1) * 512 = 512 by omega, show (n % 2 + 1) * 512 = 512 + 512 by omega,
      MM.dotPart_add _ _ _ _ 512 512 (by omega)]
termination_by n
decreasing_by omega

theorem out2_apply (c : Dev nD) (t : Fin cfg2.N) (h : t.val % 2 = 1) (p q : Fin 512) :
    (out2 V c t : FVec Ideal S512x512 .f32) (ix2 p q)
      = Cert.Spec.mmNT (lhs2 V c) (rhs2 V c) (bias2 V c) (ix2 (row2 t.val t.isLt p) (col2 t.val t.isLt q)) := by
  unfold out2
  refine (pay3_apply0 (acc2 V c t.val t.isLt) (bblk2 V c t.val t.isLt) p q).trans ?_
  rw [acc2_apply V c t.val t.isLt p q, bblk2_apply, MM.mmNT_apply, show (t.val % 2 + 1) * 512 = 1024 by omega]

theorem flushed_eq2 (c : Dev nD) (t : Fin cfg2.N) (hf : (cfg2.win 3).flush t = true) :
    (dat2 V c).flushed 3 t
      = ((cfg2.win 3).blk t).view.read (Elt Ideal) (Cert.Spec.mmNT (lhs2 V c) (rhs2 V c) (bias2 V c)) := by
  have ht : t.val % 2 = 1 := (flush2_3 t).mp hf
  obtain ⟨-, -, -, -, -, -, e6, e7⟩ := idx_facts2 t
  show (cfg2.win 3).cut (grid2.coords t) ((dat2 V c).after 3 t) = _
  rw [after2_3]
  funext j
  obtain ⟨p, q, rfl⟩ : ∃ (p q : Fin 512), j = ix2 p q := ⟨j 0, j 1, eq_ix2 j⟩
  show (out2 V c t : FVec Ideal S512x512 .f32) (ix2 p q)
    = Cert.Spec.mmNT (lhs2 V c) (rhs2 V c) (bias2 V c) (((cfg2.win 3).blk t).view.emb (ix2 p q))
  rw [out2_apply V c t ht p q]
  refine congrArg (Cert.Spec.mmNT (lhs2 V c) (rhs2 V c) (bias2 V c)) ?_
  funext a; apply Fin.ext
  match a with
  | ⟨0, _⟩ => show t.val / 4 * 512 + p.val = win2_3.index t (0 : Fin 2) * 512 + 1 * p.val; rw [e6]; omega
  | ⟨1, _⟩ => show t.val / 2 % 2 * 512 + q.val = win2_3.index t (1 : Fin 2) * 512 + 1 * q.val; rw [e7]; omega

theorem mem_blk2 (t : Fin cfg2.N) (i : S2048x1024.Idx) :
    i ∈ ((cfg2.win 3).blk t).view.set
      ↔ ∀ a : Fin 2, win2_3.index t a * S512x512.size a ≤ (i a).val ∧ (i a).val < win2_3.index t a * S512x512.size a + S512x512.size a := by
  show i ∈ ((View.whole main_v15).slice (win2_3.rect t)).set ↔ _
  rw [View.set_slice_whole, Rect.mem_set_unit]
  exact Iff.rfl

theorem cover2 (i : S2048x1024.Idx) : ∃ t : Fin cfg2.N, (cfg2.win 3).flush t = true ∧ i ∈ ((cfg2.win 3).blk t).view.set := by
  have hN : cfg2.N = 16 := N_2
  have h0 : (i 0).val < 2048 := (i 0).isLt
  have h1 : (i 1).val < 1024 := (i 1).isLt
  obtain ⟨t, hv⟩ : ∃ t : Fin cfg2.N, t.val = 4 * ((i 0).val / 512) + 2 * ((i 1).val / 512) + 1 :=
    ⟨⟨4 * ((i 0).val / 512) + 2 * ((i 1).val / 512) + 1, by omega⟩, rfl⟩
  obtain ⟨-, -, -, -, -, -, e6, e7⟩ := idx_facts2 t
  refine ⟨t, (flush2_3 t).mpr (by omega), ?_⟩
  rw [mem_blk2]
  intro a
  match a with
  | ⟨0, _⟩ => show win2_3.index t (0 : Fin 2) * 512 ≤ (i 0).val ∧ (i 0).val < win2_3.index t (0 : Fin 2) * 512 + 512; rw [e6]; omega
  | ⟨1, _⟩ => show win2_3.index t (1 : Fin 2) * 512 ≤ (i 1).val ∧ (i 1).val < win2_3.index t (1 : Fin 2) * 512 + 512; rw [e7]; omega

theorem arrAt2 (c : Dev nD) :
    (dat2 (F := Ideal) V c).arrAt 3 cfg2.N
      = Cert.Spec.mmNT (V c (Pipeline.arrRef spec2 0) : Cert.Spec.Arr2 2048 1024) (V c (Pipeline.arrRef spec2 1) : Cert.Spec.Arr2 1024 1024)
          (V c (Pipeline.arrRef spec2 2) : Cert.Spec.Arr2 1 1024) :=
  (dat2 V c).arrAt_eq_of_cover 3 (Cert.Spec.mmNT (lhs2 V c) (rhs2 V c) (bias2 V c)) (flushed_eq2 V c) cover2

end Cert.KernelIdeal.Hand

end
-- ==== Proof.KI.Pay3.lean ====
import proofs.«176467_j34754875359699_1_alg».proof.Proof.Gen.KernelIdeal.Skeleton
import proofs.«176467_j34754875359699_1_alg».proof.Proof.Spec
import Idealize.ShloMosaic.PureOps.Ideal.Laws
import Idealize.ShloMosaic.Lib.ValueIdx
import Idealize.ShloMosaic.Lib.Pipeline.Value
import Idealize.ShloMosaic.Lib.StableHlo.Predicate

noncomputable section

namespace Cert.KernelIdeal.Hand

open Cert.KernelIdeal Cert.KernelIdeal.Gen
open Idealize.ShloMosaic Idealize.ShloMosaic.ValueIdx

abbrev dotQK : DotDims S512x64 S2048x64 S512x2048 := dot_S512x64_S2048x64_S512x2048_1_1_0_0_n_n

abbrev dotWV : DotDims S512x2048 S2048x64 S512x64 := dot_S512x2048_S2048x64_S512x64_1_0_0_1_n_n

theorem dotQK_lhsIdx (p : Fin 512) (t : Fin 2048) (d : Fin 64) :
    dotQK.lhsIdx (ix2 p t) ((contrEquiv1 dotQK 64 rfl rfl).symm d) = ix2 p d := by
  have c := contrEquiv1_symm_val dotQK 64 rfl rfl d
  funext ax; apply Fin.ext
  match ax with
  | ⟨0, _⟩ => simp [DotDims.lhsIdx, dot_S512x64_S2048x64_S512x2048_1_1_0_0_n_n]; rfl
  | ⟨1, _⟩ => simp [DotDims.lhsIdx, dot_S512x64_S2048x64_S512x2048_1_1_0_0_n_n]; exact c

theorem dotQK_rhsIdx (p : Fin 512) (t : Fin 2048) (d : Fin 64) :
    dotQK.rhsIdx (ix2 p t) ((contrEquiv1 dotQK 64 rfl rfl).symm d) = ix2 t d := by
  have c := contrEquiv1_symm_val dotQK 64 rfl rfl d
  funext ax; apply Fin.ext
  match ax with
  | ⟨0, _⟩ => simp [DotDims.rhsIdx, dot_S512x64_S2048x64_S512x2048_1_1_0_0_n_n]; rfl
  | ⟨1, _⟩ => simp [DotDims.rhsIdx, dot_S512x64_S2048x64_S512x2048_1_1_0_0_n_n]; exact c

theorem matmulQK_apply {φ₁ φ₂ : FTy} (q : FVec Ideal S512x64 φ₁) (k : FVec Ideal S2048x64 φ₂) (p : Fin 512) (t : Fin 2048) :
    matmul (F := Ideal) dot_S512x64_S2048x64_S512x2048_1_1_0_0_n_n none q k (constant (F := Ideal) S512x2048 .f32 0x00000000#32) (ix2 p t)
      = ∑ d : Fin 64, q (ix2 p d) * k (ix2 t d) := by
  show FloatOps.matmul dotQK none q k (constant (F := Ideal) S512x2048 .f32 0x00000000#32) (ix2 p t) = _
  rw [Ideal.matmul_constant_zero_apply, ← Equiv.sum_comp (contrEquiv1 dotQK 64 rfl rfl).symm]
  refine Finset.sum_congr rfl fun d _ => ?_
  rw [dotQK_lhsIdx, dotQK_rhsIdx]

theorem dotWV_lhsIdx (p : Fin 512) (d : Fin 64) (t : Fin 2048) :
    dotWV.lhsIdx (ix2 p d) ((contrEquiv1 dotWV 2048 rfl rfl).symm t) = ix2 p t := by
  have c := contrEquiv1_symm_val dotWV 2048 rfl rfl t
  funext ax; apply Fin.ext
  match ax with
  | ⟨0, _⟩ => simp [DotDims.lhsIdx, dot_S512x2048_S2048x64_S512x64_1_0_0_1_n_n]; rfl
  | ⟨1, _⟩ => simp [DotDims.lhsIdx, dot_S512x2048_S2048x64_S512x64_1_0_0_1_n_n]; exact c

theorem dotWV_rhsIdx (p : Fin 512) (d : Fin 64) (t : Fin 2048) :
    dotWV.rhsIdx (ix2 p d) ((contrEquiv1 dotWV 2048 rfl rfl).symm t) = ix2 t d := by
  have c := contrEquiv1_symm_val dotWV 2048 rfl rfl t
  funext ax; apply Fin.ext
  match ax with
  | ⟨0, _⟩ => simp [DotDims.rhsIdx, dot_S512x2048_S2048x64_S512x64_1_0_0_1_n_n]; exact c
  | ⟨1, _⟩ => simp [DotDims.rhsIdx, dot_S512x2048_S2048x64_S512x64_1_0_0_1_n_n]; rfl

theorem matmulWV_apply {φ₁ φ₂ : FTy} (w : FVec Ideal S512x2048 φ₁) (v : FVec Ideal S2048x64 φ₂) (p : Fin 512) (d : Fin 64) :
    matmul (F := Ideal) dot_S512x2048_S2048x64_S512x64_1_0_0_1_n_n none w v (constant (F := Ideal) S512x64 .f32 0x00000000#32) (ix2 p d)
      = ∑ t : Fin 2048, w (ix2 p t) * v (ix2 t d) := by
  show FloatOps.matmul dotWV none w v (constant (F := Ideal) S512x64 .f32 0x00000000#32) (ix2 p d) = _
  rw [Ideal.matmul_constant_zero_apply, ← Equiv.sum_comp (contrEquiv1 dotWV 2048 rfl rfl).symm]
  refine Finset.sum_congr rfl fun t _ => ?_
  rw [dotWV_lhsIdx, dotWV_rhsIdx]

theorem mask_apply (i : grid3.Coords) (p : Fin 512) (t : Fin 2048) :
    k3_pay2 i (ix2 p t) = 1#1 ↔ p.val + (i 1).val * 512 = t.val := by
  have hq : (i 1).val < 4 := (i 1).isLt
  have hp : p.val < 512 := p.isLt
  have ht : t.val < 2048 := t.isLt
  unfold k3_pay2
  show IntOp.cmpi .eq (IntOp.addi (iota .tc S512x2048 32 [0] iota_S512x2048_d0_w32 (ix2 p t))
      (Scalar.muli (BitVec.ofNat 32 (i 1).val) 512#32)) (iota .tc S512x2048 32 [1] iota_S512x2048_d1_w32 (ix2 p t)) = 1#1 ↔ _
  rw [iota_single_apply, iota_single_apply, StableHlo.Predicate.cmpi_eq_iff]
  show BitVec.ofNat 32 p.val + BitVec.ofNat 32 (i 1).val * 512#32 = BitVec.ofNat 32 t.val ↔ _
  constructor
  · intro h
    have h' := congrArg BitVec.toNat h
    simp only [BitVec.toNat_add, BitVec.toNat_mul, BitVec.toNat_ofNat] at h'
    omega
  · intro h
    apply BitVec.eq_of_toNat_eq
    simp only [BitVec.toNat_add, BitVec.toNat_mul, BitVec.toNat_ofNat]
    omega

theorem rowsBack_apply {α : Type} (r : S512.Idx → α) (p : Fin 512) (t : Fin 2048) :
    broadcastTo S512x2048 (shapeCast S512x1 r shapeCasts_S512_S512x1) broadcasts_S512x1_S512x2048 (ix2 p t) = r (ix1 p) := by
  refine (broadcastTo_apply _ broadcasts_S512x1_S512x2048 (ix2 p t) (ix2 p (0 : Fin 1)) (fun a => ?_)).trans ?_
  · match a with
    | ⟨0, _⟩ => rfl
    | ⟨1, _⟩ => rfl
  · refine shapeCast_apply r shapeCasts_S512_S512x1 (ix2 p (0 : Fin 1)) (ix1 p) ?_
    rw [Shape.rowMajor_val_one, Shape.rowMajor_val_two]
    show p.val = p.val * 1 + 0
    omega

theorem lift_row (p : Fin 512) (t : Fin 2048) : (reduces_S512x2048_S512).lift (ix1 p) t = ix2 p t := by
  funext a; apply Fin.ext
  match a with
  | ⟨0, _⟩ => rfl
  | ⟨1, _⟩ => rfl

theorem rowMax_apply (x : FVec Ideal S512x2048 .f32) (p : Fin 512) :
    multiReduction (F := Ideal) .maximumf [1] S512 x 0xFF800000#32 reduces_S512x2048_S512 (.inl rfl) rfl (ix1 p)
      = (Finset.univ : Finset (Fin 2048)).fold max Spec.negInf (fun t => x (ix2 p t)) := by
  refine (Ideal.multiReduction_maximumf_single x _ reduces_S512x2048_S512 _ _ (ix1 p)).trans ?_
  have e : (x ∘ (reduces_S512x2048_S512).lift (ix1 p)) = fun t : Fin 2048 => x (ix2 p t) :=
    funext fun t => congrArg x (lift_row p t)
  rw [e]
  rfl

theorem rowSum_apply (x : FVec Ideal S512x2048 .f32) (p : Fin 512) :
    multiReduction (F := Ideal) .add [1] S512 x 0x00000000#32 reduces_S512x2048_S512 (.inl rfl) rfl (ix1 p)
      = ∑ t : Fin 2048, x (ix2 p t) := by
  refine (Ideal.multiReduction_add_single x _ reduces_S512x2048_S512 _ _ (ix1 p)).trans ?_
  exact Finset.sum_congr rfl fun t _ => congrArg x (lift_row p t)

section Named
variable {F : FTy → Type} [FloatOps F]

def logitsOf (m : IVec S512x2048 1) (q : FVec F S512x64 .bf16) (k : FVec F S2048x64 .bf16) : FVec F S512x2048 .f32 :=
  select m
    (addf (mulf (matmul dot_S512x64_S2048x64_S512x2048_1_1_0_0_n_n none q k (constant S512x2048 .f32 0x00000000#32))
        (broadcast S512x2048 (Scalar.ofBits .f32 0x3E000000#32)))
      (broadcast S512x2048 (Scalar.ofBits .f32 0xC7C35000#32)))
    (mulf (matmul dot_S512x64_S2048x64_S512x2048_1_1_0_0_n_n none q k (constant S512x2048 .f32 0x00000000#32))
      (broadcast S512x2048 (Scalar.ofBits .f32 0x3E000000#32)))

def shiftedExp (x : FVec F S512x2048 .f32) : FVec F S512x2048 .f32 :=
  exp (subf x (broadcastTo S512x2048 (shapeCast S512x1
    (multiReduction .maximumf [1] S512 x 0xFF800000#32 reduces_S512x2048_S512 (.inl rfl) rfl) shapeCasts_S512_S512x1)
    broadcasts_S512x1_S512x2048))

def softRows (x : FVec F S512x2048 .f32) : FVec F S512x2048 .f32 :=
  divf (shiftedExp x) (broadcastTo S512x2048 (shapeCast S512x1
    (multiReduction .add [1] S512 (shiftedExp x) 0x00000000#32 reduces_S512x2048_S512 (.inl rfl) rfl) shapeCasts_S512_S512x1)
    broadcasts_S512x1_S512x2048)

def headOf (m : IVec S512x2048 1) (q : FVec F S512x64 .bf16) (k v : FVec F S2048x64 .bf16) : FVec F S512x64 .f32 :=
  matmul dot_S512x2048_S2048x64_S512x64_1_0_0_1_n_n none (truncf .bf16 (softRows (logitsOf m q k)) bitsLt_bf16_f32) v
    (constant S512x64 .f32 0x00000000#32)

theorem k3_pay5_eq (i : grid3.Coords) (v6 : Vec F S512x64 .f32) (v10 v14 : Vec F S2048x64 .f32) :
    k3_pay5 i v6 v10 v14 = headOf (k3_pay2 i)
      (truncf .bf16 (shapeCast S512x64 v6 shapeCasts_S512x64_S512x64) bitsLt_bf16_f32)
      (truncf .bf16 (shapeCast S2048x64 v10 shapeCasts_S2048x64_S2048x64) bitsLt_bf16_f32)
      (truncf .bf16 (shapeCast S2048x64 v14 shapeCasts_S2048x64_S2048x64) bitsLt_bf16_f32) := rfl

theorem k3_pay1_eq (v5 : IVec S512x2048 1) (v13 v17 : FVec F S2048x64 .f32) (v37 : FVec F S512x64 .f32) (v38 : FVec F S512x64 .bf16) :
    k3_pay1 v5 v13 v17 v37 v38 = concatenate S512x128 1
      [⟨S512x64, v37⟩, ⟨S512x64, headOf v5 v38 (truncf .bf16 v13 bitsLt_bf16_f32) (truncf .bf16 v17 bitsLt_bf16_f32)⟩]
      concatenates_S512x64_S512x64_S512x128_d1 := rfl

end Named

def softmaxAt (L : Fin 2048 → EReal) (t : Fin 2048) : EReal :=
  Ideal.div (Ideal.exp (L t - (Finset.univ : Finset (Fin 2048)).fold max Spec.negInf L))
    (∑ t' : Fin 2048, Ideal.exp (L t' - (Finset.univ : Finset (Fin 2048)).fold max Spec.negInf L))

def headLogit (m : IVec S512x2048 1) (q : FVec Ideal S512x64 .f32) (k : FVec Ideal S2048x64 .f32) (p : Fin 512) (t : Fin 2048) : EReal :=
  if m (ix2 p t) = 1#1 then (∑ d : Fin 64, q (ix2 p d) * k (ix2 t d)) * Spec.eighth + Spec.maskVal
  else (∑ d : Fin 64, q (ix2 p d) * k (ix2 t d)) * Spec.eighth

theorem logitsOf_apply (m : IVec S512x2048 1) (q : FVec Ideal S512x64 .bf16) (k : FVec Ideal S2048x64 .bf16) (p : Fin 512) (t : Fin 2048) :
    logitsOf (F := Ideal) m q k (ix2 p t) = headLogit m q k p t := by
  have hA := matmulQK_apply q k p t
  unfold logitsOf headLogit
  simp only [select_apply, addf_apply, mulf_apply, broadcast_apply]
  rw [hA]
  by_cases h : m (ix2 p t) = 1#1
  · rw [if_pos h, h, select_one]; rfl
  · rw [if_neg h, eq_zero_of_ne_one h, select_zero]; rfl

theorem shiftedExp_apply (x : FVec Ideal S512x2048 .f32) (p : Fin 512) (t : Fin 2048) :
    shiftedExp (F := Ideal) x (ix2 p t)
      = Ideal.exp (x (ix2 p t) - (Finset.univ : Finset (Fin 2048)).fold max Spec.negInf (fun t' => x (ix2 p t'))) := by
  unfold shiftedExp
  show Ideal.exp (x (ix2 p t) - broadcastTo S512x2048 (shapeCast S512x1
    (multiReduction (F := Ideal) .maximumf [1] S512 x 0xFF800000#32 reduces_S512x2048_S512 (.inl rfl) rfl) shapeCasts_S512_S512x1)
    broadcasts_S512x1_S512x2048 (ix2 p t)) = _
  rw [rowsBack_apply, rowMax_apply]

theorem softRows_apply (x : FVec Ideal S512x2048 .f32) (p : Fin 512) (t : Fin 2048) :
    softRows (F := Ideal) x (ix2 p t) = softmaxAt (fun t' => x (ix2 p t')) t := by
  unfold softRows softmaxAt
  show Ideal.div (shiftedExp (F := Ideal) x (ix2 p t)) (broadcastTo S512x2048 (shapeCast S512x1
    (multiReduction (F := Ideal) .add [1] S512 (shiftedExp (F := Ideal) x) 0x00000000#32 reduces_S512x2048_S512 (.inl rfl) rfl) shapeCasts_S512_S512x1)
    broadcasts_S512x1_S512x2048 (ix2 p t)) = _
  rw [rowsBack_apply, rowSum_apply, shiftedExp_apply]
  exact congrArg _ (Finset.sum_congr rfl fun t' _ => shiftedExp_apply x p t')

theorem headOf_apply (m : IVec S512x2048 1) (q : FVec Ideal S512x64 .bf16) (k v : FVec Ideal S2048x64 .bf16) (p : Fin 512) (d : Fin 64) :
    headOf (F := Ideal) m q k v (ix2 p d) = ∑ t : Fin 2048, softmaxAt (headLogit m q k p) t * v (ix2 t d) := by
  unfold headOf
  rw [matmulWV_apply]
  refine Finset.sum_congr rfl fun t _ => ?_
  rw [truncf_apply, softRows_apply]
  have e : (fun t' => logitsOf (F := Ideal) m q k (ix2 p t')) = headLogit m q k p := funext fun t' => logitsOf_apply m q k p t'
  rw [e]

theorem pay3_5_apply (i : grid3.Coords) (v6 : Vec Ideal S512x64 .f32) (v10 v14 : Vec Ideal S2048x64 .f32) (p : Fin 512) (d : Fin 64) :
    k3_pay5 (F := Ideal) i v6 v10 v14 (ix2 p d) = ∑ t : Fin 2048, softmaxAt (headLogit (k3_pay2 i) v6 v10 p) t * v14 (ix2 t d) := by
  rw [k3_pay5_eq, headOf_apply, shapeCast_self, shapeCast_self, shapeCast_self]
  rfl

theorem pay1_apply_left (v5 : IVec S512x2048 1) (v13 v17 : FVec Ideal S2048x64 .f32) (v37 : FVec Ideal S512x64 .f32) (v38 : FVec Ideal S512x64 .bf16)
    (p : Fin 512) (c : Fin 128) (hc : c.val < 64) :
    k3_pay1 (F := Ideal) v5 v13 v17 v37 v38 (ix2 p c) = v37 (ix2 p ⟨c.val, hc⟩) := by
  rw [k3_pay1_eq]
  exact concatenate_pair_apply_left _ v37 _ concatenates_S512x64_S512x64_S512x128_d1 (ix2 p c) rfl (ix2 p ⟨c.val, hc⟩)
    (fun b => by match b with | ⟨0, _⟩ => rfl | ⟨1, _⟩ => rfl)

theorem pay1_apply_right (v5 : IVec S512x2048 1) (v13 v17 : FVec Ideal S2048x64 .f32) (v37 : FVec Ideal S512x64 .f32) (v38 : FVec Ideal S512x64 .bf16)
    (p : Fin 512) (c : Fin 128) (hc : 64 ≤ c.val) :
    k3_pay1 (F := Ideal) v5 v13 v17 v37 v38 (ix2 p c)
      = ∑ t : Fin 2048, softmaxAt (headLogit v5 v38 v13 p) t * v17 (ix2 t ⟨c.val - 64, by have := c.isLt; omega⟩) := by
  rw [k3_pay1_eq]
  refine (concatenate_pair_apply_right _ v37 _ concatenates_S512x64_S512x64_S512x128_d1 (ix2 p c) rfl rfl
    (ix2 p (⟨c.val - 64, by have := c.isLt; omega⟩ : Fin 64)) (fun b hb => ?_) ?_).trans ?_
  · match b with
    | ⟨0, _⟩ => rfl
    | ⟨1, _⟩ => exact absurd rfl hb
  · show (c.val - 64) + 64 = c.val
    omega
  · rw [headOf_apply]
    rfl

end Cert.KernelIdeal.Hand

end
-- ==== Proof.KI.Val3.lean ====
import proofs.«176467_j34754875359699_1_alg».proof.Proof.KI.Dat3
import proofs.«176467_j34754875359699_1_alg».proof.Proof.KI.Pay3
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

theorem ld_q0 (q : Vec Ideal S512x128 .f32) (p : Fin 512) (d : Fin 64) :
    View.ld (Val := Elt Ideal) (e' := .f32) q r3_q0 (ix2 p d) = q (ix2 p (⟨d.val, by have := d.isLt; omega⟩ : Fin 128)) := by
  refine congrArg q (funext fun ax => Fin.ext ?_)
  match ax with
  | ⟨0, _⟩ => show 0 + 1 * p.val = p.val; omega
  | ⟨1, _⟩ => show 0 + 1 * d.val = d.val; omega

theorem ld_q1 (q : Vec Ideal S512x128 .f32) (p : Fin 512) (d : Fin 64) :
    View.ld (Val := Elt Ideal) (e' := .f32) q r3_q1 (ix2 p d) = q (ix2 p (⟨64 + d.val, by have := d.isLt; omega⟩ : Fin 128)) := by
  refine congrArg q (funext fun ax => Fin.ext ?_)
  match ax with
  | ⟨0, _⟩ => show 0 + 1 * p.val = p.val; omega
  | ⟨1, _⟩ => show 64 + 1 * d.val = 64 + d.val; omega

theorem ld_k0 (k : Vec Ideal S2048x128 .f32) (t : Fin 2048) (d : Fin 64) :
    View.ld (Val := Elt Ideal) (e' := .f32) k r3_k0 (ix2 t d) = k (ix2 t (⟨d.val, by have := d.isLt; omega⟩ : Fin 128)) := by
  refine congrArg k (funext fun ax => Fin.ext ?_)
  match ax with
  | ⟨0, _⟩ => show 0 + 1 * t.val = t.val; omega
  | ⟨1, _⟩ => show 0 + 1 * d.val = d.val; omega

theorem ld_k1 (k : Vec Ideal S2048x128 .f32) (t : Fin 2048) (d : Fin 64) :
    View.ld (Val := Elt Ideal) (e' := .f32) k r3_k1 (ix2 t d) = k (ix2 t (⟨64 + d.val, by have := d.isLt; omega⟩ : Fin 128)) := by
  refine congrArg k (funext fun ax => Fin.ext ?_)
  match ax with
  | ⟨0, _⟩ => show 0 + 1 * t.val = t.val; omega
  | ⟨1, _⟩ => show 64 + 1 * d.val = 64 + d.val; omega

theorem k3_pay3_id (v12 : FVec Ideal S2048x64 .f32) : k3_pay3 (F := Ideal) v12 = v12 := by
  unfold k3_pay3; exact shapeCast_self _ _
theorem k3_pay4_id (v16 : FVec Ideal S2048x64 .f32) : k3_pay4 (F := Ideal) v16 = v16 := by
  unfold k3_pay4; exact shapeCast_self _ _
theorem k3_pay6_id (v8 : FVec Ideal S512x64 .f32) : k3_pay6 (F := Ideal) v8 = v8 := by
  unfold k3_pay6; rw [shapeCast_self]; rfl

def blkCol (a : Fin 128) (d : Fin 64) : Fin 128 := ⟨(a.val / 64) * 64 + d.val, by have := a.isLt; have := d.isLt; omega⟩

def blkLogit (qi : ℕ) (q : Vec Ideal S512x128 .f32) (k : Vec Ideal S2048x128 .f32) (a : Fin 128) (p : Fin 512) (t : Fin 2048) : EReal :=
  if p.val + qi * 512 = t.val then
    (∑ d : Fin 64, q (ix2 p (blkCol a d)) * k (ix2 t (blkCol a d))) * Spec.eighth + Spec.maskVal
  else
    (∑ d : Fin 64, q (ix2 p (blkCol a d)) * k (ix2 t (blkCol a d))) * Spec.eighth

theorem headLogit_left (i : grid3.Coords) (q : Vec Ideal S512x128 .f32) (k : Vec Ideal S2048x128 .f32) (a : Fin 128) (ha : a.val < 64) (p : Fin 512) :
    headLogit (k3_pay2 i) (View.ld (Val := Elt Ideal) (e' := .f32) q r3_q0) (View.ld (Val := Elt Ideal) (e' := .f32) k r3_k0) p = blkLogit (i 1).val q k a p := by
  funext t
  have hs : (∑ d : Fin 64, View.ld (Val := Elt Ideal) (e' := .f32) q r3_q0 (ix2 p d) * View.ld (Val := Elt Ideal) (e' := .f32) k r3_k0 (ix2 t d)) = ∑ d : Fin 64, q (ix2 p (blkCol a d)) * k (ix2 t (blkCol a d)) := by
    refine Finset.sum_congr rfl fun d _ => ?_
    have hc : (⟨d.val, by have := d.isLt; omega⟩ : Fin 128) = blkCol a d := Fin.ext (by show d.val = a.val / 64 * 64 + d.val; omega)
    rw [ld_q0, ld_k0, hc]
  unfold headLogit blkLogit
  rw [hs]
  exact if_congr (mask_apply i p t) rfl rfl

theorem headLogit_right (i : grid3.Coords) (q : Vec Ideal S512x128 .f32) (k : Vec Ideal S2048x128 .f32) (a : Fin 128) (ha : 64 ≤ a.val) (p : Fin 512) :
    headLogit (k3_pay2 i) (View.ld (Val := Elt Ideal) (e' := .f32) q r3_q1) (View.ld (Val := Elt Ideal) (e' := .f32) k r3_k1) p = blkLogit (i 1).val q k a p := by
  funext t
  have hs : (∑ d : Fin 64, View.ld (Val := Elt Ideal) (e' := .f32) q r3_q1 (ix2 p d) * View.ld (Val := Elt Ideal) (e' := .f32) k r3_k1 (ix2 t d)) = ∑ d : Fin 64, q (ix2 p (blkCol a d)) * k (ix2 t (blkCol a d)) := by
    refine Finset.sum_congr rfl fun d _ => ?_
    have hc : (⟨64 + d.val, by have := d.isLt; omega⟩ : Fin 128) = blkCol a d := Fin.ext (by show 64 + d.val = a.val / 64 * 64 + d.val; have := a.isLt; omega)
    rw [ld_q1, ld_k1, hc]
  unfold headLogit blkLogit
  rw [hs]
  exact if_congr (mask_apply i p t) rfl rfl

theorem pay3_apply (i : grid3.Coords) (q : Vec Ideal S512x128 .f32) (k v : Vec Ideal S2048x128 .f32) (p : Fin 512) (a : Fin 128) :
    pay3 (F := Ideal) i q k v (ix2 p a) = ∑ t : Fin 2048, softmaxAt (blkLogit (i 1).val q k a p) t * v (ix2 t a) := by
  unfold pay3
  by_cases ha : a.val < 64
  · rw [pay1_apply_left _ _ _ _ _ p a ha, pay3_5_apply, headLogit_left i q k a ha p]
    refine Finset.sum_congr rfl fun t _ => ?_
    rw [ld_k0]
  · have ha' : 64 ≤ a.val := Nat.le_of_not_lt ha
    rw [pay1_apply_right _ _ _ _ _ p a ha', k3_pay3_id, k3_pay4_id, k3_pay6_id, headLogit_right i q k a ha' p]
    refine Finset.sum_congr rfl fun t _ => ?_
    rw [ld_k1]
    have hc : (⟨64 + (a.val - 64), by have := a.isLt; omega⟩ : Fin 128) = a := Fin.ext (by show 64 + (a.val - 64) = a.val; omega)
    rw [hc]

theorem blkLogit_eq (qi j : ℕ) (Q K : Spec.Arr2 2048 1024) (q : Vec Ideal S512x128 .f32) (k : Vec Ideal S2048x128 .f32)
    (hq : ∀ (p : Fin 512) (a : Fin 128) (s : Fin 2048) (n : Fin 1024), s.val = qi * 512 + p.val → n.val = j * 128 + a.val → q (ix2 p a) = Q (ix2 s n))
    (hk : ∀ (t : Fin 2048) (a : Fin 128) (n : Fin 1024), n.val = j * 128 + a.val → k (ix2 t a) = K (ix2 t n))
    (p : Fin 512) (a : Fin 128) (s : Fin 2048) (n : Fin 1024) (hs : s.val = qi * 512 + p.val) (hn : n.val = j * 128 + a.val) :
    blkLogit qi q k a p = Spec.logit Q K s n := by
  funext t
  have hsum : (∑ d : Fin 64, q (ix2 p (blkCol a d)) * k (ix2 t (blkCol a d)))
      = ∑ d : Fin 64, Q (ix2 s (Spec.headCol n d)) * K (ix2 t (Spec.headCol n d)) := by
    refine Finset.sum_congr rfl fun d _ => ?_
    have hcol : (Spec.headCol n d).val = j * 128 + (blkCol a d).val := by
      show n.val / 64 * 64 + d.val = j * 128 + (a.val / 64 * 64 + d.val)
      have := a.isLt; omega
    rw [hq p (blkCol a d) s (Spec.headCol n d) hs hcol, hk t (blkCol a d) (Spec.headCol n d) hcol]
  unfold blkLogit Spec.logit
  rw [hsum]
  exact if_congr (by rw [hs]; omega) rfl rfl

theorem block_eq_attn (qi j : ℕ) (Q K W : Spec.Arr2 2048 1024) (q : Vec Ideal S512x128 .f32) (k v : Vec Ideal S2048x128 .f32)
    (hq : ∀ (p : Fin 512) (a : Fin 128) (s : Fin 2048) (n : Fin 1024), s.val = qi * 512 + p.val → n.val = j * 128 + a.val → q (ix2 p a) = Q (ix2 s n))
    (hk : ∀ (t : Fin 2048) (a : Fin 128) (n : Fin 1024), n.val = j * 128 + a.val → k (ix2 t a) = K (ix2 t n))
    (hv : ∀ (t : Fin 2048) (a : Fin 128) (n : Fin 1024), n.val = j * 128 + a.val → v (ix2 t a) = W (ix2 t n))
    (i : grid3.Coords) (hi : (i 1).val = qi)
    (y : S512x128.Idx) (z : S2048x1024.Idx) (hz0 : (z 0).val = qi * 512 + (y 0).val) (hz1 : (z 1).val = j * 128 + (y 1).val) :
    pay3 (F := Ideal) i q k v y = Spec.attn Q K W z := by
  obtain ⟨p, a, rfl⟩ : ∃ (p : Fin 512) (a : Fin 128), y = ix2 p a := ⟨y 0, y 1, eq_ix2 y⟩
  obtain ⟨s, n, rfl⟩ : ∃ (s : Fin 2048) (n : Fin 1024), z = ix2 s n := ⟨z 0, z 1, eq_ix2 z⟩
  have hs : s.val = qi * 512 + p.val := hz0
  have hn : n.val = j * 128 + a.val := hz1
  rw [pay3_apply, hi, blkLogit_eq qi j Q K q k hq hk p a s n hs hn]
  show _ = ∑ t : Fin 2048, Spec.weight Q K s n t * W (ix2 t n)
  refine Finset.sum_congr rfl fun t _ => ?_
  rw [hv t a n hn]
  rfl

theorem idx_facts3 : ∀ t : Fin cfg3.N,
    win3_0.index t (0 : Fin 2) = t.val % 4 ∧ win3_0.index t (1 : Fin 2) = t.val / 4
    ∧ win3_1.index t (0 : Fin 2) = 0 ∧ win3_1.index t (1 : Fin 2) = t.val / 4
    ∧ win3_2.index t (0 : Fin 2) = 0 ∧ win3_2.index t (1 : Fin 2) = t.val / 4
    ∧ win3_3.index t (0 : Fin 2) = t.val % 4 ∧ win3_3.index t (1 : Fin 2) = t.val / 4
    ∧ (grid3.coords t (1 : Fin 2)).val = t.val % 4 :=
  (by decide +kernel : ∀ t : Fin grid3.N, _)

variable (V : (c : Dev nD) → (b : Ref sig .tc) → Buf (Elt Ideal) ((c : Thread nD τ).loc b))

theorem iblk3_0_apply (c : Dev nD) (t : Fin cfg3.N) (p : Fin 512) (a : Fin 128) (s : Fin 2048) (n : Fin 1024)
    (hs : s.val = t.val % 4 * 512 + p.val) (hn : n.val = t.val / 4 * 128 + a.val) :
    (iblk3 V c 0 t : FVec Ideal S512x128 .f32) (ix2 p a) = (V c (Pipeline.arrRef spec3 0) : Spec.Arr2 2048 1024) (ix2 s n) := by
  obtain ⟨e0, e1, -⟩ := idx_facts3 t
  unfold iblk3
  rw [View.read_apply]
  refine congrArg (V c (Pipeline.arrRef spec3 0)) (funext fun ax => Fin.ext ?_)
  match ax with
  | ⟨0, _⟩ => show win3_0.index t (0 : Fin 2) * 512 + 1 * p.val = s.val; rw [e0, hs]; omega
  | ⟨1, _⟩ => show win3_0.index t (1 : Fin 2) * 128 + 1 * a.val = n.val; rw [e1, hn]; omega

theorem iblk3_1_apply (c : Dev nD) (t : Fin cfg3.N) (r : Fin 2048) (a : Fin 128) (n : Fin 1024)
    (hn : n.val = t.val / 4 * 128 + a.val) :
    (iblk3 V c 1 t : FVec Ideal S2048x128 .f32) (ix2 r a) = (V c (Pipeline.arrRef spec3 1) : Spec.Arr2 2048 1024) (ix2 r n) := by
  obtain ⟨-, -, e0, e1, -⟩ := idx_facts3 t
  unfold iblk3
  rw [View.read_apply]
  refine congrArg (V c (Pipeline.arrRef spec3 1)) (funext fun ax => Fin.ext ?_)
  match ax with
  | ⟨0, _⟩ => show win3_1.index t (0 : Fin 2) * 2048 + 1 * r.val = r.val; rw [e0]; omega
  | ⟨1, _⟩ => show win3_1.index t (1 : Fin 2) * 128 + 1 * a.val = n.val; rw [e1, hn]; omega

theorem iblk3_2_apply (c : Dev nD) (t : Fin cfg3.N) (r : Fin 2048) (a : Fin 128) (n : Fin 1024)
    (hn : n.val = t.val / 4 * 128 + a.val) :
    (iblk3 V c 2 t : FVec Ideal S2048x128 .f32) (ix2 r a) = (V c (Pipeline.arrRef spec3 2) : Spec.Arr2 2048 1024) (ix2 r n) := by
  obtain ⟨-, -, -, -, e0, e1, -⟩ := idx_facts3 t
  unfold iblk3
  rw [View.read_apply]
  refine congrArg (V c (Pipeline.arrRef spec3 2)) (funext fun ax => Fin.ext ?_)
  match ax with
  | ⟨0, _⟩ => show win3_2.index t (0 : Fin 2) * 2048 + 1 * r.val = r.val; rw [e0]; omega
  | ⟨1, _⟩ => show win3_2.index t (1 : Fin 2) * 128 + 1 * a.val = n.val; rw [e1, hn]; omega

theorem flushed3_eq (c : Dev nD) (t : Fin cfg3.N) :
    (dat3 V c).flushed 3 t = ((cfg3.win 3).blk t).view.read (Elt Ideal)
      (Spec.attn (V c (Pipeline.arrRef spec3 0)) (V c (Pipeline.arrRef spec3 1)) (V c (Pipeline.arrRef spec3 2))) := by
  obtain ⟨-, -, -, -, -, -, e0, e1, ei⟩ := idx_facts3 t
  show (cfg3.win 3).cut (grid3.coords t) ((dat3 V c).after 3 t) = _
  rw [after3_3_pay]
  funext y
  rw [View.read_apply]
  refine block_eq_attn (t.val % 4) (t.val / 4) _ _ _ (iblk3 V c 0 t) (iblk3 V c 1 t) (iblk3 V c 2 t)
    (fun p a s n hs hn => iblk3_0_apply V c t p a s n hs hn) (fun r a n hn => iblk3_1_apply V c t r a n hn)
    (fun r a n hn => iblk3_2_apply V c t r a n hn) (grid3.coords t) ei y _ ?_ ?_
  · show win3_3.index t (0 : Fin 2) * 512 + 1 * (y 0).val = t.val % 4 * 512 + (y 0).val
    rw [e0]; omega
  · show win3_3.index t (1 : Fin 2) * 128 + 1 * (y 1).val = t.val / 4 * 128 + (y 1).val
    rw [e1]; omega

theorem mem_blk3 (t : Fin cfg3.N) (i : S2048x1024.Idx) :
    i ∈ ((cfg3.win 3).blk t).view.set ↔ ∀ a : Fin 2, win3_3.index t a * S512x128.size a ≤ (i a).val ∧ (i a).val < win3_3.index t a * S512x128.size a + S512x128.size a := by
  show i ∈ ((View.whole main_v16).slice (win3_3.rect t)).set ↔ _
  rw [View.set_slice_whole, Rect.mem_set_unit]
  exact Iff.rfl

theorem cover3 (i : S2048x1024.Idx) : ∃ t : Fin cfg3.N, (cfg3.win 3).flush t = true ∧ i ∈ ((cfg3.win 3).blk t).view.set := by
  have h0 : (i 0).val < 2048 := (i 0).isLt
  have h1 : (i 1).val < 1024 := (i 1).isLt
  have hN : grid3.N = 32 := N_3
  have hlt : (i 1).val / 128 * 4 + (i 0).val / 512 < cfg3.N := by show _ < grid3.N; rw [hN]; omega
  obtain ⟨-, -, -, -, -, -, e0, e1, -⟩ := idx_facts3 ⟨(i 1).val / 128 * 4 + (i 0).val / 512, hlt⟩
  refine ⟨⟨(i 1).val / 128 * 4 + (i 0).val / 512, hlt⟩, flush3_3 _, ?_⟩
  rw [mem_blk3]
  intro a
  match a with
  | ⟨0, _⟩ =>
    show win3_3.index ⟨(i 1).val / 128 * 4 + (i 0).val / 512, hlt⟩ (0 : Fin 2) * 512 ≤ (i 0).val
      ∧ (i 0).val < win3_3.index ⟨(i 1).val / 128 * 4 + (i 0).val / 512, hlt⟩ (0 : Fin 2) * 512 + 512
    rw [e0]; show ((i 1).val / 128 * 4 + (i 0).val / 512) % 4 * 512 ≤ (i 0).val ∧ (i 0).val < ((i 1).val / 128 * 4 + (i 0).val / 512) % 4 * 512 + 512
    omega
  | ⟨1, _⟩ =>
    show win3_3.index ⟨(i 1).val / 128 * 4 + (i 0).val / 512, hlt⟩ (1 : Fin 2) * 128 ≤ (i 1).val
      ∧ (i 1).val < win3_3.index ⟨(i 1).val / 128 * 4 + (i 0).val / 512, hlt⟩ (1 : Fin 2) * 128 + 128
    rw [e1]; show ((i 1).val / 128 * 4 + (i 0).val / 512) / 4 * 128 ≤ (i 1).val ∧ (i 1).val < ((i 1).val / 128 * 4 + (i 0).val / 512) / 4 * 128 + 128
    omega

theorem arrAt3 (c : Dev nD) : (dat3 (F := Ideal) V c).arrAt 3 cfg3.N
    = Cert.Spec.attn (V c (Pipeline.arrRef spec3 0)) (V c (Pipeline.arrRef spec3 1)) (V c (Pipeline.arrRef spec3 2)) :=
  (dat3 V c).arrAt_eq_of_cover 3 _ (fun t _ => flushed3_eq V c t) cover3

end Cert.KernelIdeal.Hand

end
-- ==== Proof.KI.Val4.lean ====
import proofs.«176467_j34754875359699_1_alg».proof.Proof.KI.Dat4
import proofs.«176467_j34754875359699_1_alg».proof.Proof.KI.Pay0
import proofs.«176467_j34754875359699_1_alg».proof.Proof.KI.MMSum
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

abbrev lhs4 (c : Dev nD) : Cert.Spec.Arr2 2048 1024 := V c (Pipeline.arrRef spec4 0)
abbrev rhs4 (c : Dev nD) : Cert.Spec.Arr2 1024 1024 := V c (Pipeline.arrRef spec4 1)
abbrev bias4 (c : Dev nD) : Cert.Spec.Arr2 1 1024 := V c (Pipeline.arrRef spec4 2)

abbrev lblk4 (c : Dev nD) (n : ℕ) (hn : n < cfg4.N) : FVec Ideal S512x512 .f32 := iblk4 V c 0 ⟨n, hn⟩
abbrev rblk4 (c : Dev nD) (n : ℕ) (hn : n < cfg4.N) : FVec Ideal S512x512 .f32 := iblk4 V c 1 ⟨n, hn⟩
abbrev bblk4 (c : Dev nD) (n : ℕ) (hn : n < cfg4.N) : FVec Ideal S1x512 .f32 := iblk4 V c 2 ⟨n, hn⟩

def row4 (n : ℕ) (hn : n < cfg4.N) (p : Fin 512) : Fin 2048 :=
  ⟨n / 4 * 512 + p.val, by have hN : cfg4.N = 16 := N_4; have := p.isLt; omega⟩
def col4 (n : ℕ) (hn : n < cfg4.N) (q : Fin 512) : Fin 1024 :=
  ⟨n / 2 % 2 * 512 + q.val, by have := q.isLt; omega⟩
def dep4 (n : ℕ) (hn : n < cfg4.N) (k : Fin 512) : Fin 1024 :=
  ⟨n % 2 * 512 + k.val, by have := k.isLt; omega⟩

theorem idx_facts4 : ∀ t : Fin cfg4.N,
    win4_0.index t (0 : Fin 2) = t.val / 4 ∧ win4_0.index t (1 : Fin 2) = t.val % 2
    ∧ win4_1.index t (0 : Fin 2) = t.val / 2 % 2 ∧ win4_1.index t (1 : Fin 2) = t.val % 2
    ∧ win4_2.index t (0 : Fin 2) = 0 ∧ win4_2.index t (1 : Fin 2) = t.val / 2 % 2
    ∧ win4_3.index t (0 : Fin 2) = t.val / 4 ∧ win4_3.index t (1 : Fin 2) = t.val / 2 % 2 :=
  (by decide +kernel : ∀ t : Fin grid4.N, _)

theorem idx_at4 (n : ℕ) (hn : n < cfg4.N) :
    win4_0.index ⟨n, hn⟩ (0 : Fin 2) = n / 4 ∧ win4_0.index ⟨n, hn⟩ (1 : Fin 2) = n % 2
    ∧ win4_1.index ⟨n, hn⟩ (0 : Fin 2) = n / 2 % 2 ∧ win4_1.index ⟨n, hn⟩ (1 : Fin 2) = n % 2
    ∧ win4_2.index ⟨n, hn⟩ (0 : Fin 2) = 0 ∧ win4_2.index ⟨n, hn⟩ (1 : Fin 2) = n / 2 % 2
    ∧ win4_3.index ⟨n, hn⟩ (0 : Fin 2) = n / 4 ∧ win4_3.index ⟨n, hn⟩ (1 : Fin 2) = n / 2 % 2 :=
  idx_facts4 ⟨n, hn⟩

theorem lblk4_apply (c : Dev nD) (n : ℕ) (hn : n < cfg4.N) (p k : Fin 512) :
    lblk4 V c n hn (ix2 p k) = lhs4 V c (ix2 (row4 n hn p) (dep4 n hn k)) := by
  obtain ⟨e0, e1, -⟩ := idx_at4 n hn
  show V c (Pipeline.arrRef spec4 0) (((cfg4.win 0).blk ⟨n, hn⟩).view.emb (ix2 p k)) = V c (Pipeline.arrRef spec4 0) _
  refine congrArg (V c (Pipeline.arrRef spec4 0)) ?_
  funext a; apply Fin.ext
  match a with
  | ⟨0, _⟩ => show win4_0.index ⟨n, hn⟩ (0 : Fin 2) * 512 + 1 * p.val = n / 4 * 512 + p.val; rw [e0]; omega
  | ⟨1, _⟩ => show win4_0.index ⟨n, hn⟩ (1 : Fin 2) * 512 + 1 * k.val = n % 2 * 512 + k.val; rw [e1]; omega

theorem rblk4_apply (c : Dev nD) (n : ℕ) (hn : n < cfg4.N) (q k : Fin 512) :
    rblk4 V c n hn (ix2 q k) = rhs4 V c (ix2 (col4 n hn q) (dep4 n hn k)) := by
  obtain ⟨-, -, e2, e3, -⟩ := idx_at4 n hn
  show V c (Pipeline.arrRef spec4 1) (((cfg4.win 1).blk ⟨n, hn⟩).view.emb (ix2 q k)) = V c (Pipeline.arrRef spec4 1) _
  refine congrArg (V c (Pipeline.arrRef spec4 1)) ?_
  funext a; apply Fin.ext
  match a with
  | ⟨0, _⟩ => show win4_1.index ⟨n, hn⟩ (0 : Fin 2) * 512 + 1 * q.val = n / 2 % 2 * 512 + q.val; rw [e2]; omega
  | ⟨1, _⟩ => show win4_1.index ⟨n, hn⟩ (1 : Fin 2) * 512 + 1 * k.val = n % 2 * 512 + k.val; rw [e3]; omega

theorem bblk4_apply (c : Dev nD) (n : ℕ) (hn : n < cfg4.N) (q : Fin 512) :
    bblk4 V c n hn (ix2 (0 : Fin 1) q) = bias4 V c (ix2 (0 : Fin 1) (col4 n hn q)) := by
  obtain ⟨-, -, -, -, e4, e5, -⟩ := idx_at4 n hn
  show V c (Pipeline.arrRef spec4 2) (((cfg4.win 2).blk ⟨n, hn⟩).view.emb (ix2 (0 : Fin 1) q)) = V c (Pipeline.arrRef spec4 2) _
  refine congrArg (V c (Pipeline.arrRef spec4 2)) ?_
  funext a; apply Fin.ext
  match a with
  | ⟨0, _⟩ => show win4_2.index ⟨n, hn⟩ (0 : Fin 2) * 1 + 1 * 0 = 0; rw [e4]
  | ⟨1, _⟩ => show win4_2.index ⟨n, hn⟩ (1 : Fin 2) * 512 + 1 * q.val = n / 2 % 2 * 512 + q.val; rw [e5]; omega

theorem blockSum4 (c : Dev nD) (n : ℕ) (hn : n < cfg4.N) (p q : Fin 512) (m : ℕ) (hm : m = n % 2 * 512) (h : m + 512 ≤ 1024) :
    ∑ k : Fin 512, lblk4 V c n hn (ix2 p k) * rblk4 V c n hn (ix2 q k)
      = ∑ k : Fin 512, lhs4 V c (ix2 (row4 n hn p) (⟨m + k.val, by have := k.isLt; omega⟩ : Fin 1024))
          * rhs4 V c (ix2 (col4 n hn q) (⟨m + k.val, by have := k.isLt; omega⟩ : Fin 1024)) := by
  subst hm
  exact Finset.sum_congr rfl fun k _ => by rw [lblk4_apply, rblk4_apply]; rfl

theorem acc4_apply (c : Dev nD) (n : ℕ) (hn : n < cfg4.N) (p q : Fin 512) :
    (acc4 V c n hn : FVec Ideal S512x512 .f32) (ix2 p q)
      = MM.dotPart (lhs4 V c) (rhs4 V c) (row4 n hn p) (col4 n hn q) ((n % 2 + 1) * 512) := by
  rcases Nat.mod_two_eq_zero_or_one n with h | h
  ·
    rw [acc4_even V c n hn h]
    refine (pay2_apply0 (lblk4 V c n hn) (rblk4 V c n hn) (k0_pay1 (F := Ideal)) p q).trans ?_
    rw [pay1_apply0, zero_add, blockSum4 V c n hn p q 0 (by omega) (by omega),
      show (n % 2 + 1) * 512 = 0 + 512 by omega, MM.dotPart_add _ _ _ _ 0 512 (by omega), MM.dotPart_zero, zero_add]
  ·
    have hlt : n - 1 < n := by omega
    have hn' : n - 1 < cfg4.N := Nat.lt_of_le_of_lt (Nat.sub_le _ _) hn
    have hrow : row4 (n - 1) hn' p = row4 n hn p := Fin.ext (by show (n - 1) / 4 * 512 + p.val = n / 4 * 512 + p.val; omega)
    have hcol : col4 (n - 1) hn' q = col4 n hn q := Fin.ext (by show (n - 1) / 2 % 2 * 512 + q.val = n / 2 % 2 * 512 + q.val; omega)
    rw [acc4_odd V c n hn h]
    refine (pay2_apply0 (lblk4 V c n hn) (rblk4 V c n hn) (acc4 V c (n - 1) hn') p q).trans ?_
    rw [acc4_apply c (n - 1) hn' p q, hrow, hcol, blockSum4 V c n hn p q 512 (by omega) (by omega),
      show ((n - 1) % 2 + 1) * 512 = 512 by omega, show (n % 2 + 1) * 512 = 512 + 512 by omega,
      MM.dotPart_add _ _ _ _ 512 512 (by omega)]
termination_by n
decreasing_by omega

theorem out4_apply (c : Dev nD) (t : Fin cfg4.N) (h : t.val % 2 = 1) (p q : Fin 512) :
    (out4 V c t : FVec Ideal S512x512 .f32) (ix2 p q)
      = Cert.Spec.mmNT (lhs4 V c) (rhs4 V c) (bias4 V c) (ix2 (row4 t.val t.isLt p) (col4 t.val t.isLt q)) := by
  unfold out4
  refine (pay3_apply0 (acc4 V c t.val t.isLt) (bblk4 V c t.val t.isLt) p q).trans ?_
  rw [acc4_apply V c t.val t.isLt p q, bblk4_apply, MM.mmNT_apply, show (t.val % 2 + 1) * 512 = 1024 by omega]

theorem flushed_eq4 (c : Dev nD) (t : Fin cfg4.N) (hf : (cfg4.win 3).flush t = true) :
    (dat4 V c).flushed 3 t
      = ((cfg4.win 3).blk t).view.read (Elt Ideal) (Cert.Spec.mmNT (lhs4 V c) (rhs4 V c) (bias4 V c)) := by
  have ht : t.val % 2 = 1 := (flush4_3 t).mp hf
  obtain ⟨-, -, -, -, -, -, e6, e7⟩ := idx_facts4 t
  show (cfg4.win 3).cut (grid4.coords t) ((dat4 V c).after 3 t) = _
  rw [after4_3]
  funext j
  obtain ⟨p, q, rfl⟩ : ∃ (p q : Fin 512), j = ix2 p q := ⟨j 0, j 1, eq_ix2 j⟩
  show (out4 V c t : FVec Ideal S512x512 .f32) (ix2 p q)
    = Cert.Spec.mmNT (lhs4 V c) (rhs4 V c) (bias4 V c) (((cfg4.win 3).blk t).view.emb (ix2 p q))
  rw [out4_apply V c t ht p q]
  refine congrArg (Cert.Spec.mmNT (lhs4 V c) (rhs4 V c) (bias4 V c)) ?_
  funext a; apply Fin.ext
  match a with
  | ⟨0, _⟩ => show t.val / 4 * 512 + p.val = win4_3.index t (0 : Fin 2) * 512 + 1 * p.val; rw [e6]; omega
  | ⟨1, _⟩ => show t.val / 2 % 2 * 512 + q.val = win4_3.index t (1 : Fin 2) * 512 + 1 * q.val; rw [e7]; omega

theorem mem_blk4 (t : Fin cfg4.N) (i : S2048x1024.Idx) :
    i ∈ ((cfg4.win 3).blk t).view.set
      ↔ ∀ a : Fin 2, win4_3.index t a * S512x512.size a ≤ (i a).val ∧ (i a).val < win4_3.index t a * S512x512.size a + S512x512.size a := by
  show i ∈ ((View.whole main_v19).slice (win4_3.rect t)).set ↔ _
  rw [View.set_slice_whole, Rect.mem_set_unit]
  exact Iff.rfl

theorem cover4 (i : S2048x1024.Idx) : ∃ t : Fin cfg4.N, (cfg4.win 3).flush t = true ∧ i ∈ ((cfg4.win 3).blk t).view.set := by
  have hN : cfg4.N = 16 := N_4
  have h0 : (i 0).val < 2048 := (i 0).isLt
  have h1 : (i 1).val < 1024 := (i 1).isLt
  obtain ⟨t, hv⟩ : ∃ t : Fin cfg4.N, t.val = 4 * ((i 0).val / 512) + 2 * ((i 1).val / 512) + 1 :=
    ⟨⟨4 * ((i 0).val / 512) + 2 * ((i 1).val / 512) + 1, by omega⟩, rfl⟩
  obtain ⟨-, -, -, -, -, -, e6, e7⟩ := idx_facts4 t
  refine ⟨t, (flush4_3 t).mpr (by omega), ?_⟩
  rw [mem_blk4]
  intro a
  match a with
  | ⟨0, _⟩ => show win4_3.index t (0 : Fin 2) * 512 ≤ (i 0).val ∧ (i 0).val < win4_3.index t (0 : Fin 2) * 512 + 512; rw [e6]; omega
  | ⟨1, _⟩ => show win4_3.index t (1 : Fin 2) * 512 ≤ (i 1).val ∧ (i 1).val < win4_3.index t (1 : Fin 2) * 512 + 512; rw [e7]; omega

theorem arrAt4 (c : Dev nD) :
    (dat4 (F := Ideal) V c).arrAt 3 cfg4.N
      = Cert.Spec.mmNT (V c (Pipeline.arrRef spec4 0) : Cert.Spec.Arr2 2048 1024) (V c (Pipeline.arrRef spec4 1) : Cert.Spec.Arr2 1024 1024)
          (V c (Pipeline.arrRef spec4 2) : Cert.Spec.Arr2 1 1024) :=
  (dat4 V c).arrAt_eq_of_cover 3 (Cert.Spec.mmNT (lhs4 V c) (rhs4 V c) (bias4 V c)) (flushed_eq4 V c) cover4

end Cert.KernelIdeal.Hand

end
-- ==== Proof.KI.NormRows.lean ====
import proofs.«176467_j34754875359699_1_alg».proof.Proof.Gen.KernelIdeal.Skeleton
import proofs.«176467_j34754875359699_1_alg».proof.Proof.Spec
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx

section Forms
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Forms

theorem sqrt_apply {s : Shape} {φ : FTy} (a : FVec Ideal s φ) (i : s.Idx) : sqrt a i = Ideal.sqrt (a i) := rfl

theorem laneSum_apply (src : FVec Ideal S512x1024 .f32) (h : S512x1024.Reduces [1] S512) (hφ : FKind.Formats .f32)
    (hacc : (0x00000000#32 : BitVec 32) = 0x00000000#32) (p : Fin 512) :
    multiReduction .add [1] S512 src 0x00000000#32 h hφ hacc (ix1 p) = ∑ k : Fin 1024, src (ix2 p k) := by
  refine (Ideal.multiReduction_add_single src 0x00000000#32 h hφ hacc (ix1 p)).trans ?_
  refine Finset.sum_congr rfl fun k _ => congrArg src ?_
  funext c
  match c with
  | ⟨0, _⟩ => rfl
  | ⟨1, _⟩ => rfl

def bsum (x y : Vec Ideal S512x1024 .f32) (p : Fin 512) (j : Fin 1024) : EReal := x (ix2 p j) + y (ix2 p j)

def bmean (x y : Vec Ideal S512x1024 .f32) (p : Fin 512) : EReal :=
  Ideal.div (∑ j : Fin 1024, bsum x y p j) Spec.c1024

def bvar (x y : Vec Ideal S512x1024 .f32) (p : Fin 512) : EReal :=
  Ideal.div (∑ j : Fin 1024, (bsum x y p j - bmean x y p) * (bsum x y p j - bmean x y p)) Spec.c1023

end Cert.KernelIdeal.Hand

end
-- ==== Proof.KI.Pay5.lean ====
import proofs.«176467_j34754875359699_1_alg».proof.Proof.KI.NormRows

noncomputable section

namespace Cert.KernelIdeal.Hand

open Cert.KernelIdeal Cert.KernelIdeal.Gen
open Idealize.ShloMosaic Idealize.ShloMosaic.ValueIdx

theorem pay5_apply (x y : Vec Ideal S512x1024 .f32) (a b : Vec Ideal S1x1024 .f32) (p : Fin 512) (q : Fin 1024) :
    k5_pay1 (F := Ideal) x y a b (ix2 p q)
      = Ideal.div (bsum x y p q - bmean x y p) (Ideal.sqrt (bvar x y p) + Spec.epsV) * a (ix2 (0 : Fin 1) q)
        + b (ix2 (0 : Fin 1) q) := by
  unfold k5_pay1
  simp only [addf_apply, mulf_apply, subf_apply, divf_apply, sqrt_apply, broadcast_apply,
    broadcastTo_a1_ab_apply, broadcastTo_1b_ab_apply, shapeCast_a_a1_apply, shapeCast_self]
  rw [laneSum_apply, laneSum_apply]
  simp only [addf_apply, mulf_apply, subf_apply, divf_apply, broadcast_apply,
    broadcastTo_a1_ab_apply, shapeCast_a_a1_apply]
  rw [laneSum_apply]
  rfl

theorem pay5_at (X Y : Spec.Arr2 2048 1024) (A B : Spec.Arr2 1 1024)
    (x y : Vec Ideal S512x1024 .f32) (a b : Vec Ideal S1x1024 .f32) (s : Fin 2048) (p : Fin 512)
    (hx : ∀ j : Fin 1024, x (ix2 p j) = X (ix2 s j)) (hy : ∀ j : Fin 1024, y (ix2 p j) = Y (ix2 s j))
    (ha : ∀ j : Fin 1024, a (ix2 (0 : Fin 1) j) = A (ix2 (0 : Fin 1) j))
    (hb : ∀ j : Fin 1024, b (ix2 (0 : Fin 1) j) = B (ix2 (0 : Fin 1) j)) (q : Fin 1024) :
    k5_pay1 (F := Ideal) x y a b (ix2 p q) = Spec.addNorm X Y A B (ix2 s q) := by
  have hs : ∀ j : Fin 1024, bsum x y p j = Spec.resid X Y s j := fun j => by
    unfold bsum Spec.resid; rw [hx, hy]
  have hm : bmean x y p = Spec.rowMean X Y s := by
    unfold bmean Spec.rowMean; rw [Finset.sum_congr rfl fun j _ => hs j]
  have hv : bvar x y p = Spec.rowVar X Y s := by
    unfold bvar Spec.rowVar; rw [hm, Finset.sum_congr rfl fun j _ => by rw [hs j]]
  rw [pay5_apply, hs, hm, hv, ha, hb]
  rfl

end Cert.KernelIdeal.Hand

end
-- ==== Proof.KI.Val5.lean ====
import proofs.«176467_j34754875359699_1_alg».proof.Proof.KI.Dat5
import proofs.«176467_j34754875359699_1_alg».proof.Proof.KI.Pay5
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

abbrev xarr5 (c : Dev nD) : Spec.Arr2 2048 1024 := V c (Pipeline.arrRef spec5 0)
abbrev yarr5 (c : Dev nD) : Spec.Arr2 2048 1024 := V c (Pipeline.arrRef spec5 1)
abbrev aarr5 (c : Dev nD) : Spec.Arr2 1 1024 := V c (Pipeline.arrRef spec5 2)
abbrev barr5 (c : Dev nD) : Spec.Arr2 1 1024 := V c (Pipeline.arrRef spec5 3)

abbrev xblk5 (c : Dev nD) (t : Fin cfg5.N) : Vec Ideal S512x1024 .f32 := iblk5 V c 0 t
abbrev yblk5 (c : Dev nD) (t : Fin cfg5.N) : Vec Ideal S512x1024 .f32 := iblk5 V c 1 t
abbrev ablk5 (c : Dev nD) (t : Fin cfg5.N) : Vec Ideal S1x1024 .f32 := iblk5 V c 2 t
abbrev bblk5 (c : Dev nD) (t : Fin cfg5.N) : Vec Ideal S1x1024 .f32 := iblk5 V c 3 t

theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

def row5 (t : Fin cfg5.N) (p : Fin 512) : Fin 2048 :=
  ⟨512 * t.val + p.val, by
    have h : t.val < 4 := lt_of_lt_of_eq t.isLt N_5
    have := p.isLt; omega⟩

theorem xblk5_apply (c : Dev nD) (t : Fin cfg5.N) (p : Fin 512) (j : Fin 1024) :
    xblk5 V c t (ix2 p j) = xarr5 V c (ix2 (row5 t p) j) := by
  obtain ⟨e0, e1, -⟩ := idx_facts5 t
  show V c (Pipeline.arrRef spec5 0) (((cfg5.win 0).blk t).view.emb (ix2 p j)) = V c (Pipeline.arrRef spec5 0) (ix2 (row5 t p) j)
  refine congrArg (V c (Pipeline.arrRef spec5 0)) (funext fun a => Fin.ext ?_)
  match a with
  | ⟨0, _⟩ => show win5_0.index t (0 : Fin 2) * 512 + 1 * p.val = 512 * t.val + p.val; omega
  | ⟨1, _⟩ => show win5_0.index t (1 : Fin 2) * 1024 + 1 * j.val = j.val; omega

theorem yblk5_apply (c : Dev nD) (t : Fin cfg5.N) (p : Fin 512) (j : Fin 1024) :
    yblk5 V c t (ix2 p j) = yarr5 V c (ix2 (row5 t p) j) := by
  obtain ⟨-, -, e0, e1, -⟩ := idx_facts5 t
  show V c (Pipeline.arrRef spec5 1) (((cfg5.win 1).blk t).view.emb (ix2 p j)) = V c (Pipeline.arrRef spec5 1) (ix2 (row5 t p) j)
  refine congrArg (V c (Pipeline.arrRef spec5 1)) (funext fun a => Fin.ext ?_)
  match a with
  | ⟨0, _⟩ => show win5_1.index t (0 : Fin 2) * 512 + 1 * p.val = 512 * t.val + p.val; omega
  | ⟨1, _⟩ => show win5_1.index t (1 : Fin 2) * 1024 + 1 * j.val = j.val; omega

theorem ablk5_apply (c : Dev nD) (t : Fin cfg5.N) (j : Fin 1024) :
    ablk5 V c t (ix2 (0 : Fin 1) j) = aarr5 V c (ix2 (0 : Fin 1) j) := by
  obtain ⟨-, -, -, -, e0, e1, -⟩ := idx_facts5 t
  show V c (Pipeline.arrRef spec5 2) (((cfg5.win 2).blk t).view.emb (ix2 (0 : Fin 1) j)) = V c (Pipeline.arrRef spec5 2) (ix2 (0 : Fin 1) j)
  refine congrArg (V c (Pipeline.arrRef spec5 2)) (funext fun a => Fin.ext ?_)
  match a with
  | ⟨0, _⟩ => show win5_2.index t (0 : Fin 2) * 1 + 1 * 0 = 0; omega
  | ⟨1, _⟩ => show win5_2.index t (1 : Fin 2) * 1024 + 1 * j.val = j.val; omega

theorem bblk5_apply (c : Dev nD) (t : Fin cfg5.N) (j : Fin 1024) :
    bblk5 V c t (ix2 (0 : Fin 1) j) = barr5 V c (ix2 (0 : Fin 1) j) := by
  obtain ⟨-, -, -, -, -, -, e0, e1, -⟩ := idx_facts5 t
  show V c (Pipeline.arrRef spec5 3) (((cfg5.win 3).blk t).view.emb (ix2 (0 : Fin 1) j)) = V c (Pipeline.arrRef spec5 3) (ix2 (0 : Fin 1) j)
  refine congrArg (V c (Pipeline.arrRef spec5 3)) (funext fun a => Fin.ext ?_)
  match a with
  | ⟨0, _⟩ => show win5_3.index t (0 : Fin 2) * 1 + 1 * 0 = 0; omega
  | ⟨1, _⟩ => show win5_3.index t (1 : Fin 2) * 1024 + 1 * j.val = j.val; omega

theorem flushed5_eq (c : Dev nD) (t : Fin cfg5.N) :
    (dat5 (F := Ideal) V c).flushed 4 t
      = ((cfg5.win 4).blk t).view.read (Elt Ideal) (Spec.addNorm (xarr5 V c) (yarr5 V c) (aarr5 V c) (barr5 V c)) := by
  show (cfg5.win 4).cut (grid5.coords t) ((dat5 (F := Ideal) V c).after 4 t) = _
  rw [after5_4]
  obtain ⟨-, -, -, -, -, -, -, -, e0, e1⟩ := idx_facts5 t
  funext y
  obtain ⟨p, q, rfl⟩ : ∃ (p : Fin 512) (q : Fin 1024), y = ix2 p q := ⟨y 0, y 1, eq_ix2 y⟩
  show k5_pay1 (F := Ideal) (xblk5 V c t) (yblk5 V c t) (ablk5 V c t) (bblk5 V c t) (ix2 p q)
    = Spec.addNorm (xarr5 V c) (yarr5 V c) (aarr5 V c) (barr5 V c) (((cfg5.win 4).blk t).view.emb (ix2 p q))
  have he : ((cfg5.win 4).blk t).view.emb (ix2 p q) = ix2 (row5 t p) q := by
    funext a; apply Fin.ext
    match a with
    | ⟨0, _⟩ => show win5_4.index t (0 : Fin 2) * 512 + 1 * p.val = 512 * t.val + p.val; omega
    | ⟨1, _⟩ => show win5_4.index t (1 : Fin 2) * 1024 + 1 * q.val = q.val; omega
  rw [he]
  exact pay5_at (xarr5 V c) (yarr5 V c) (aarr5 V c) (barr5 V c) (xblk5 V c t) (yblk5 V c t) (ablk5 V c t) (bblk5 V c t)
    (row5 t p) p (xblk5_apply V c t p) (yblk5_apply V c t p) (ablk5_apply V c t) (bblk5_apply V c t) q

theorem mem_blk5 (t : Fin cfg5.N) (i : S2048x1024.Idx) :
    i ∈ ((cfg5.win 4).blk t).view.set ↔ ∀ a : Fin 2, win5_4.index t a * S512x1024.size a ≤ (i a).val ∧ (i a).val < win5_4.index t a * S512x1024.size a + S512x1024.size a := by
  show i ∈ ((View.whole main_v22).slice (win5_4.rect t)).set ↔ _
  rw [View.set_slice_whole, Rect.mem_set_unit]
  exact Iff.rfl

theorem cover5 (i : S2048x1024.Idx) : ∃ t : Fin cfg5.N, (cfg5.win 4).flush t = true ∧ i ∈ ((cfg5.win 4).blk t).view.set := by
  have hi0 : (i 0).val < 2048 := (i 0).isLt
  have hi1 : (i 1).val < 1024 := (i 1).isLt
  have ht : (i 0).val / 512 < cfg5.N := by rw [show cfg5.N = 4 from N_5]; omega
  obtain ⟨-, -, -, -, -, -, -, -, e0, e1⟩ := idx_facts5 ⟨(i 0).val / 512, ht⟩
  have e0' : win5_4.index ⟨(i 0).val / 512, ht⟩ (0 : Fin 2) = (i 0).val / 512 := e0
  refine ⟨⟨(i 0).val / 512, ht⟩, flush5_4 _, ?_⟩
  rw [mem_blk5]
  intro a
  match a with
  | ⟨0, _⟩ => show win5_4.index ⟨(i 0).val / 512, ht⟩ (0 : Fin 2) * 512 ≤ (i 0).val ∧ (i 0).val < win5_4.index ⟨(i 0).val / 512, ht⟩ (0 : Fin 2) * 512 + 512; omega
  | ⟨1, _⟩ => show win5_4.index ⟨(i 0).val / 512, ht⟩ (1 : Fin 2) * 1024 ≤ (i 1).val ∧ (i 1).val < win5_4.index ⟨(i 0).val / 512, ht⟩ (1 : Fin 2) * 1024 + 1024; omega

theorem arrAt5 (c : Dev nD) :
    (dat5 (F := Ideal) V c).arrAt 4 cfg5.N
      = Cert.Spec.addNorm (V c (Pipeline.arrRef spec5 0)) (V c (Pipeline.arrRef spec5 1)) (V c (Pipeline.arrRef spec5 2)) (V c (Pipeline.arrRef spec5 3)) :=
  (dat5 (F := Ideal) V c).arrAt_eq_of_cover 4 (Spec.addNorm (xarr5 V c) (yarr5 V c) (aarr5 V c) (barr5 V c))
    (fun t _ => flushed5_eq V c t) cover5

end Cert.KernelIdeal.Hand

end
-- ==== Proof.KI.Pay6.lean ====
import proofs.«176467_j34754875359699_1_alg».proof.Proof.KI.MMDot
import proofs.«176467_j34754875359699_1_alg».proof.Proof.Spec
import Idealize.ShloMosaic.Lib.Pipeline.Value
import Idealize.ShloMosaic.Lib.ValueLayout

noncomputable section

namespace Cert.KernelIdeal.Hand

open Cert.KernelIdeal Cert.KernelIdeal.Gen
open Idealize.ShloMosaic Idealize.ShloMosaic.ValueIdx

theorem pay1_apply6 (p q : Fin 512) : (k6_pay1 (F := Ideal)) (ix2 p q) = 0 := by
  unfold k6_pay1
  simp only [shapeCast_self]
  exact Ideal.ofBits_zero_f32

theorem pay2_apply6 (a b acc : FVec Ideal S512x512 .f32) (p q : Fin 512) :
    k6_pay2 a b acc (ix2 p q) = acc (ix2 p q) + ∑ c : Fin 512, a (ix2 p c) * b (ix2 q c) := by
  unfold k6_pay2
  simp only [shapeCast_self]
  exact congrArg (acc (ix2 p q) + ·) (MM.matmul512_apply none _ _ p q)

theorem pay3_apply6 (acc : FVec Ideal S512x512 .f32) (bias : FVec Ideal S1x512 .f32) (p q : Fin 512) :
    k6_pay3 acc bias (ix2 p q) = max (acc (ix2 p q) + bias (ix2 (0 : Fin 1) q)) Cert.Spec.zero := by
  unfold k6_pay3
  simp only [shapeCast_self]
  exact congrArg (max · Cert.Spec.zero) (congrArg (acc (ix2 p q) + ·) (broadcastTo_1b_ab_apply bias _ p q))

end Cert.KernelIdeal.Hand

end
-- ==== Proof.KI.Val6.lean ====
import proofs.«176467_j34754875359699_1_alg».proof.Proof.KI.Dat6
import proofs.«176467_j34754875359699_1_alg».proof.Proof.KI.Pay6
import proofs.«176467_j34754875359699_1_alg».proof.Proof.KI.MMSum
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

abbrev lhs6 (c : Dev nD) : Cert.Spec.Arr2 2048 1024 := V c (Pipeline.arrRef spec6 0)
abbrev rhs6 (c : Dev nD) : Cert.Spec.Arr2 4096 1024 := V c (Pipeline.arrRef spec6 1)
abbrev bias6 (c : Dev nD) : Cert.Spec.Arr2 1 4096 := V c (Pipeline.arrRef spec6 2)

abbrev lblk6 (c : Dev nD) (n : ℕ) (hn : n < cfg6.N) : FVec Ideal S512x512 .f32 := iblk6 V c 0 ⟨n, hn⟩
abbrev rblk6 (c : Dev nD) (n : ℕ) (hn : n < cfg6.N) : FVec Ideal S512x512 .f32 := iblk6 V c 1 ⟨n, hn⟩
abbrev bblk6 (c : Dev nD) (n : ℕ) (hn : n < cfg6.N) : FVec Ideal S1x512 .f32 := iblk6 V c 2 ⟨n, hn⟩

def row6 (n : ℕ) (hn : n < cfg6.N) (p : Fin 512) : Fin 2048 :=
  ⟨n / 16 * 512 + p.val, by have hN : cfg6.N = 64 := N_6; have := p.isLt; omega⟩
def col6 (n : ℕ) (hn : n < cfg6.N) (q : Fin 512) : Fin 4096 :=
  ⟨n / 2 % 8 * 512 + q.val, by have := q.isLt; omega⟩
def dep6 (n : ℕ) (hn : n < cfg6.N) (k : Fin 512) : Fin 1024 :=
  ⟨n % 2 * 512 + k.val, by have := k.isLt; omega⟩

theorem idx_facts6 : ∀ t : Fin cfg6.N,
    win6_0.index t (0 : Fin 2) = t.val / 16 ∧ win6_0.index t (1 : Fin 2) = t.val % 2
    ∧ win6_1.index t (0 : Fin 2) = t.val / 2 % 8 ∧ win6_1.index t (1 : Fin 2) = t.val % 2
    ∧ win6_2.index t (0 : Fin 2) = 0 ∧ win6_2.index t (1 : Fin 2) = t.val / 2 % 8
    ∧ win6_3.index t (0 : Fin 2) = t.val / 16 ∧ win6_3.index t (1 : Fin 2) = t.val / 2 % 8 :=
  (by decide +kernel : ∀ t : Fin grid6.N, _)

theorem idx_at6 (n : ℕ) (hn : n < cfg6.N) :
    win6_0.index ⟨n, hn⟩ (0 : Fin 2) = n / 16 ∧ win6_0.index ⟨n, hn⟩ (1 : Fin 2) = n % 2
    ∧ win6_1.index ⟨n, hn⟩ (0 : Fin 2) = n / 2 % 8 ∧ win6_1.index ⟨n, hn⟩ (1 : Fin 2) = n % 2
    ∧ win6_2.index ⟨n, hn⟩ (0 : Fin 2) = 0 ∧ win6_2.index ⟨n, hn⟩ (1 : Fin 2) = n / 2 % 8
    ∧ win6_3.index ⟨n, hn⟩ (0 : Fin 2) = n / 16 ∧ win6_3.index ⟨n, hn⟩ (1 : Fin 2) = n / 2 % 8 :=
  idx_facts6 ⟨n, hn⟩

theorem lblk6_apply (c : Dev nD) (n : ℕ) (hn : n < cfg6.N) (p k : Fin 512) :
    lblk6 V c n hn (ix2 p k) = lhs6 V c (ix2 (row6 n hn p) (dep6 n hn k)) := by
  obtain ⟨e0, e1, -⟩ := idx_at6 n hn
  show V c (Pipeline.arrRef spec6 0) (((cfg6.win 0).blk ⟨n, hn⟩).view.emb (ix2 p k)) = V c (Pipeline.arrRef spec6 0) _
  refine congrArg (V c (Pipeline.arrRef spec6 0)) ?_
  funext a; apply Fin.ext
  match a with
  | ⟨0, _⟩ => show win6_0.index ⟨n, hn⟩ (0 : Fin 2) * 512 + 1 * p.val = n / 16 * 512 + p.val; rw [e0]; omega
  | ⟨1, _⟩ => show win6_0.index ⟨n, hn⟩ (1 : Fin 2) * 512 + 1 * k.val = n % 2 * 512 + k.val; rw [e1]; omega

theorem rblk6_apply (c : Dev nD) (n : ℕ) (hn : n < cfg6.N) (q k : Fin 512) :
    rblk6 V c n hn (ix2 q k) = rhs6 V c (ix2 (col6 n hn q) (dep6 n hn k)) := by
  obtain ⟨-, -, e2, e3, -⟩ := idx_at6 n hn
  show V c (Pipeline.arrRef spec6 1) (((cfg6.win 1).blk ⟨n, hn⟩).view.emb (ix2 q k)) = V c (Pipeline.arrRef spec6 1) _
  refine congrArg (V c (Pipeline.arrRef spec6 1)) ?_
  funext a; apply Fin.ext
  match a with
  | ⟨0, _⟩ => show win6_1.index ⟨n, hn⟩ (0 : Fin 2) * 512 + 1 * q.val = n / 2 % 8 * 512 + q.val; rw [e2]; omega
  | ⟨1, _⟩ => show win6_1.index ⟨n, hn⟩ (1 : Fin 2) * 512 + 1 * k.val = n % 2 * 512 + k.val; rw [e3]; omega

theorem bblk6_apply (c : Dev nD) (n : ℕ) (hn : n < cfg6.N) (q : Fin 512) :
    bblk6 V c n hn (ix2 (0 : Fin 1) q) = bias6 V c (ix2 (0 : Fin 1) (col6 n hn q)) := by
  obtain ⟨-, -, -, -, e4, e5, -⟩ := idx_at6 n hn
  show V c (Pipeline.arrRef spec6 2) (((cfg6.win 2).blk ⟨n, hn⟩).view.emb (ix2 (0 : Fin 1) q)) = V c (Pipeline.arrRef spec6 2) _
  refine congrArg (V c (Pipeline.arrRef spec6 2)) ?_
  funext a; apply Fin.ext
  match a with
  | ⟨0, _⟩ => show win6_2.index ⟨n, hn⟩ (0 : Fin 2) * 1 + 1 * 0 = 0; rw [e4]
  | ⟨1, _⟩ => show win6_2.index ⟨n, hn⟩ (1 : Fin 2) * 512 + 1 * q.val = n / 2 % 8 * 512 + q.val; rw [e5]; omega

theorem blockSum6 (c : Dev nD) (n : ℕ) (hn : n < cfg6.N) (p q : Fin 512) (m : ℕ) (hm : m = n % 2 * 512) (h : m + 512 ≤ 1024) :
    ∑ k : Fin 512, lblk6 V c n hn (ix2 p k) * rblk6 V c n hn (ix2 q k)
      = ∑ k : Fin 512, lhs6 V c (ix2 (row6 n hn p) (⟨m + k.val, by have := k.isLt; omega⟩ : Fin 1024))
          * rhs6 V c (ix2 (col6 n hn q) (⟨m + k.val, by have := k.isLt; omega⟩ : Fin 1024)) := by
  subst hm
  exact Finset.sum_congr rfl fun k _ => by rw [lblk6_apply, rblk6_apply]; rfl

theorem acc6_apply (c : Dev nD) (n : ℕ) (hn : n < cfg6.N) (p q : Fin 512) :
    (acc6 V c n hn : FVec Ideal S512x512 .f32) (ix2 p q)
      = MM.dotPart (lhs6 V c) (rhs6 V c) (row6 n hn p) (col6 n hn q) ((n % 2 + 1) * 512) := by
  rcases Nat.mod_two_eq_zero_or_one n with h | h
  ·
    rw [acc6_even V c n hn h]
    refine (pay2_apply6 (lblk6 V c n hn) (rblk6 V c n hn) (k6_pay1 (F := Ideal)) p q).trans ?_
    rw [pay1_apply6, zero_add, blockSum6 V c n hn p q 0 (by omega) (by omega),
      show (n % 2 + 1) * 512 = 0 + 512 by omega, MM.dotPart_add _ _ _ _ 0 512 (by omega), MM.dotPart_zero, zero_add]
  ·
    have hlt : n - 1 < n := by omega
    have hn' : n - 1 < cfg6.N := Nat.lt_of_le_of_lt (Nat.sub_le _ _) hn
    have hrow : row6 (n - 1) hn' p = row6 n hn p := Fin.ext (by show (n - 1) / 16 * 512 + p.val = n / 16 * 512 + p.val; omega)
    have hcol : col6 (n - 1) hn' q = col6 n hn q := Fin.ext (by show (n - 1) / 2 % 8 * 512 + q.val = n / 2 % 8 * 512 + q.val; omega)
    rw [acc6_odd V c n hn h]
    refine (pay2_apply6 (lblk6 V c n hn) (rblk6 V c n hn) (acc6 V c (n - 1) hn') p q).trans ?_
    rw [acc6_apply c (n - 1) hn' p q, hrow, hcol, blockSum6 V c n hn p q 512 (by omega) (by omega),
      show ((n - 1) % 2 + 1) * 512 = 512 by omega, show (n % 2 + 1) * 512 = 512 + 512 by omega,
      MM.dotPart_add _ _ _ _ 512 512 (by omega)]
termination_by n
decreasing_by omega

theorem out6_apply (c : Dev nD) (t : Fin cfg6.N) (h : t.val % 2 = 1) (p q : Fin 512) :
    (out6 V c t : FVec Ideal S512x512 .f32) (ix2 p q)
      = Cert.Spec.mmNTRelu (lhs6 V c) (rhs6 V c) (bias6 V c) (ix2 (row6 t.val t.isLt p) (col6 t.val t.isLt q)) := by
  unfold out6
  refine (pay3_apply6 (acc6 V c t.val t.isLt) (bblk6 V c t.val t.isLt) p q).trans ?_
  rw [acc6_apply V c t.val t.isLt p q, bblk6_apply, MM.mmNTRelu_apply, show (t.val % 2 + 1) * 512 = 1024 by omega]

theorem flushed_eq6 (c : Dev nD) (t : Fin cfg6.N) (hf : (cfg6.win 3).flush t = true) :
    (dat6 V c).flushed 3 t
      = ((cfg6.win 3).blk t).view.read (Elt Ideal) (Cert.Spec.mmNTRelu (lhs6 V c) (rhs6 V c) (bias6 V c)) := by
  have ht : t.val % 2 = 1 := (flush6_3 t).mp hf
  obtain ⟨-, -, -, -, -, -, e6, e7⟩ := idx_facts6 t
  show (cfg6.win 3).cut (grid6.coords t) ((dat6 V c).after 3 t) = _
  rw [after6_3]
  funext j
  obtain ⟨p, q, rfl⟩ : ∃ (p q : Fin 512), j = ix2 p q := ⟨j 0, j 1, eq_ix2 j⟩
  show (out6 V c t : FVec Ideal S512x512 .f32) (ix2 p q)
    = Cert.Spec.mmNTRelu (lhs6 V c) (rhs6 V c) (bias6 V c) (((cfg6.win 3).blk t).view.emb (ix2 p q))
  rw [out6_apply V c t ht p q]
  refine congrArg (Cert.Spec.mmNTRelu (lhs6 V c) (rhs6 V c) (bias6 V c)) ?_
  funext a; apply Fin.ext
  match a with
  | ⟨0, _⟩ => show t.val / 16 * 512 + p.val = win6_3.index t (0 : Fin 2) * 512 + 1 * p.val; rw [e6]; omega
  | ⟨1, _⟩ => show t.val / 2 % 8 * 512 + q.val = win6_3.index t (1 : Fin 2) * 512 + 1 * q.val; rw [e7]; omega

theorem mem_blk6 (t : Fin cfg6.N) (i : S2048x4096.Idx) :
    i ∈ ((cfg6.win 3).blk t).view.set
      ↔ ∀ a : Fin 2, win6_3.index t a * S512x512.size a ≤ (i a).val ∧ (i a).val < win6_3.index t a * S512x512.size a + S512x512.size a := by
  show i ∈ ((View.whole main_v24).slice (win6_3.rect t)).set ↔ _
  rw [View.set_slice_whole, Rect.mem_set_unit]
  exact Iff.rfl

theorem cover6 (i : S2048x4096.Idx) : ∃ t : Fin cfg6.N, (cfg6.win 3).flush t = true ∧ i ∈ ((cfg6.win 3).blk t).view.set := by
  have hN : cfg6.N = 64 := N_6
  have h0 : (i 0).val < 2048 := (i 0).isLt
  have h1 : (i 1).val < 4096 := (i 1).isLt
  obtain ⟨t, hv⟩ : ∃ t : Fin cfg6.N, t.val = 16 * ((i 0).val / 512) + 2 * ((i 1).val / 512) + 1 :=
    ⟨⟨16 * ((i 0).val / 512) + 2 * ((i 1).val / 512) + 1, by omega⟩, rfl⟩
  obtain ⟨-, -, -, -, -, -, e6, e7⟩ := idx_facts6 t
  refine ⟨t, (flush6_3 t).mpr (by omega), ?_⟩
  rw [mem_blk6]
  intro a
  match a with
  | ⟨0, _⟩ => show win6_3.index t (0 : Fin 2) * 512 ≤ (i 0).val ∧ (i 0).val < win6_3.index t (0 : Fin 2) * 512 + 512; rw [e6]; omega
  | ⟨1, _⟩ => show win6_3.index t (1 : Fin 2) * 512 ≤ (i 1).val ∧ (i 1).val < win6_3.index t (1 : Fin 2) * 512 + 512; rw [e7]; omega

theorem arrAt6 (c : Dev nD) :
    (dat6 (F := Ideal) V c).arrAt 3 cfg6.N
      = Cert.Spec.mmNTRelu (V c (Pipeline.arrRef spec6 0) : Cert.Spec.Arr2 2048 1024) (V c (Pipeline.arrRef spec6 1) : Cert.Spec.Arr2 4096 1024)
          (V c (Pipeline.arrRef spec6 2) : Cert.Spec.Arr2 1 4096) :=
  (dat6 V c).arrAt_eq_of_cover 3 (Cert.Spec.mmNTRelu (lhs6 V c) (rhs6 V c) (bias6 V c)) (flushed_eq6 V c) cover6

end Cert.KernelIdeal.Hand

end
-- ==== Proof.KI.Pay7.lean ====
import proofs.«176467_j34754875359699_1_alg».proof.Proof.KI.MMDot
import proofs.«176467_j34754875359699_1_alg».proof.Proof.Spec
import Idealize.ShloMosaic.Lib.Pipeline.Value
import Idealize.ShloMosaic.Lib.ValueLayout

noncomputable section

namespace Cert.KernelIdeal.Hand

open Cert.KernelIdeal Cert.KernelIdeal.Gen
open Idealize.ShloMosaic Idealize.ShloMosaic.ValueIdx

theorem pay1_apply7 (p q : Fin 512) : (k7_pay1 (F := Ideal)) (ix2 p q) = 0 := by
  unfold k7_pay1
  simp only [shapeCast_self]
  exact Ideal.ofBits_zero_f32

theorem pay2_apply7 (a b acc : FVec Ideal S512x512 .f32) (p q : Fin 512) :
    k7_pay2 a b acc (ix2 p q) = acc (ix2 p q) + ∑ c : Fin 512, a (ix2 p c) * b (ix2 q c) := by
  unfold k7_pay2
  simp only [shapeCast_self]
  exact congrArg (acc (ix2 p q) + ·) (MM.matmul512_apply none _ _ p q)

theorem pay3_apply7 (acc : FVec Ideal S512x512 .f32) (bias : FVec Ideal S1x512 .f32) (p q : Fin 512) :
    k7_pay3 acc bias (ix2 p q) = acc (ix2 p q) + bias (ix2 (0 : Fin 1) q) := by
  unfold k7_pay3
  simp only [shapeCast_self]
  exact congrArg (acc (ix2 p q) + ·) (broadcastTo_1b_ab_apply bias _ p q)

end Cert.KernelIdeal.Hand

end
-- ==== Proof.KI.Val7.lean ====
import proofs.«176467_j34754875359699_1_alg».proof.Proof.KI.Dat7
import proofs.«176467_j34754875359699_1_alg».proof.Proof.KI.Pay7
import proofs.«176467_j34754875359699_1_alg».proof.Proof.KI.MMSum
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

theorem step7_apply (A : Spec.Arr2 2048 4096) (B : Spec.Arr2 1024 4096) (a b acc : FVec Ideal S512x512 .f32)
    (r : Fin 2048) (s : Fin 1024) (p q : Fin 512) (m : ℕ) (hm : m + 512 ≤ 4096)
    (ha : ∀ (x : Fin 512) (k : Fin 4096), k.val = m + x.val → a (ix2 p x) = A (ix2 r k))
    (hb : ∀ (x : Fin 512) (k : Fin 4096), k.val = m + x.val → b (ix2 q x) = B (ix2 s k))
    (hacc : acc (ix2 p q) = MM.dotPart A B r s m) :
    k7_pay2 (F := Ideal) a b acc (ix2 p q) = MM.dotPart A B r s (m + 512) := by
  rw [pay2_apply7, hacc, MM.dotPart_add A B r s m 512 hm]
  refine congrArg (_ + ·) (Finset.sum_congr rfl fun x _ => ?_)
  rw [ha x ⟨m + x.val, by have := x.isLt; omega⟩ rfl, hb x ⟨m + x.val, by have := x.isLt; omega⟩ rfl]

theorem last7_apply (A : Spec.Arr2 2048 4096) (B : Spec.Arr2 1024 4096) (bias : Spec.Arr2 1 1024)
    (acc : FVec Ideal S512x512 .f32) (bb : FVec Ideal S1x512 .f32) (i j : ℕ)
    (hacc : ∀ (p q : Fin 512) (r : Fin 2048) (s : Fin 1024), r.val = i * 512 + p.val → s.val = j * 512 + q.val →
      acc (ix2 p q) = MM.dotPart A B r s 4096)
    (hbias : ∀ (q : Fin 512) (s : Fin 1024), s.val = j * 512 + q.val → bb (ix2 (0 : Fin 1) q) = bias (ix2 (0 : Fin 1) s))
    (y : S512x512.Idx) (z : S2048x1024.Idx) (hz0 : (z 0).val = i * 512 + (y 0).val) (hz1 : (z 1).val = j * 512 + (y 1).val) :
    k7_pay3 (F := Ideal) acc bb y = Spec.mmNT A B bias z := by
  obtain ⟨p, q, rfl⟩ : ∃ (p q : Fin 512), y = ix2 p q := ⟨y 0, y 1, eq_ix2 y⟩
  obtain ⟨r, s, rfl⟩ : ∃ (r : Fin 2048) (s : Fin 1024), z = ix2 r s := ⟨z 0, z 1, eq_ix2 z⟩
  rw [pay3_apply7, hacc p q r s hz0 hz1, hbias q s hz1, MM.mmNT_apply]

theorem idx_facts7 : ∀ t : Fin cfg7.N,
    win7_0.index t (0 : Fin 2) = t.val / 16 ∧ win7_0.index t (1 : Fin 2) = t.val % 8
    ∧ win7_1.index t (0 : Fin 2) = t.val / 8 % 2 ∧ win7_1.index t (1 : Fin 2) = t.val % 8
    ∧ win7_2.index t (0 : Fin 2) = 0 ∧ win7_2.index t (1 : Fin 2) = t.val / 8 % 2
    ∧ win7_3.index t (0 : Fin 2) = t.val / 16 ∧ win7_3.index t (1 : Fin 2) = t.val / 8 % 2 :=
  (by decide +kernel : ∀ t : Fin grid7.N, _)

variable (V : (c : Dev nD) → (b : Ref sig .tc) → Buf (Elt Ideal) ((c : Thread nD τ).loc b))

theorem iblk7_0_apply (c : Dev nD) (t : Fin cfg7.N) (p x : Fin 512) (r : Fin 2048) (k : Fin 4096)
    (hr : r.val = t.val / 16 * 512 + p.val) (hk : k.val = t.val % 8 * 512 + x.val) :
    (iblk7 V c 0 t : FVec Ideal S512x512 .f32) (ix2 p x) = (V c (Pipeline.arrRef spec7 0) : Spec.Arr2 2048 4096) (ix2 r k) := by
  obtain ⟨e0, e1, -⟩ := idx_facts7 t
  unfold iblk7
  rw [View.read_apply]
  refine congrArg (V c (Pipeline.arrRef spec7 0)) (funext fun ax => Fin.ext ?_)
  match ax with
  | ⟨0, _⟩ => show win7_0.index t (0 : Fin 2) * 512 + 1 * p.val = r.val; rw [e0, hr]; omega
  | ⟨1, _⟩ => show win7_0.index t (1 : Fin 2) * 512 + 1 * x.val = k.val; rw [e1, hk]; omega

theorem iblk7_1_apply (c : Dev nD) (t : Fin cfg7.N) (q x : Fin 512) (s : Fin 1024) (k : Fin 4096)
    (hs : s.val = t.val / 8 % 2 * 512 + q.val) (hk : k.val = t.val % 8 * 512 + x.val) :
    (iblk7 V c 1 t : FVec Ideal S512x512 .f32) (ix2 q x) = (V c (Pipeline.arrRef spec7 1) : Spec.Arr2 1024 4096) (ix2 s k) := by
  obtain ⟨-, -, e0, e1, -⟩ := idx_facts7 t
  unfold iblk7
  rw [View.read_apply]
  refine congrArg (V c (Pipeline.arrRef spec7 1)) (funext fun ax => Fin.ext ?_)
  match ax with
  | ⟨0, _⟩ => show win7_1.index t (0 : Fin 2) * 512 + 1 * q.val = s.val; rw [e0, hs]; omega
  | ⟨1, _⟩ => show win7_1.index t (1 : Fin 2) * 512 + 1 * x.val = k.val; rw [e1, hk]; omega

theorem iblk7_2_apply (c : Dev nD) (t : Fin cfg7.N) (q : Fin 512) (s : Fin 1024)
    (hs : s.val = t.val / 8 % 2 * 512 + q.val) :
    (iblk7 V c 2 t : FVec Ideal S1x512 .f32) (ix2 (0 : Fin 1) q) = (V c (Pipeline.arrRef spec7 2) : Spec.Arr2 1 1024) (ix2 (0 : Fin 1) s) := by
  obtain ⟨-, -, -, -, e0, e1, -⟩ := idx_facts7 t
  unfold iblk7
  rw [View.read_apply]
  refine congrArg (V c (Pipeline.arrRef spec7 2)) (funext fun ax => Fin.ext ?_)
  match ax with
  | ⟨0, _⟩ => show win7_2.index t (0 : Fin 2) * 1 + 1 * 0 = 0; rw [e0]
  | ⟨1, _⟩ => show win7_2.index t (1 : Fin 2) * 512 + 1 * q.val = s.val; rw [e1, hs]; omega

theorem acc7_apply (c : Dev nD) : ∀ (n : ℕ) (hn : n < cfg7.N) (p q : Fin 512) (r : Fin 2048) (s : Fin 1024),
    r.val = n / 16 * 512 + p.val → s.val = n / 8 % 2 * 512 + q.val →
    (acc7 V c n hn : FVec Ideal S512x512 .f32) (ix2 p q)
      = MM.dotPart (V c (Pipeline.arrRef spec7 0) : Spec.Arr2 2048 4096) (V c (Pipeline.arrRef spec7 1) : Spec.Arr2 1024 4096) r s (n % 8 * 512 + 512) := by
  intro n
  induction n using Nat.strong_induction_on with
  | _ n ih =>
    intro hn p q r s hr hs
    have hN : grid7.N = 64 := N_7
    have hn64 : n < 64 := by have : n < grid7.N := hn; omega
    have ha : ∀ (x : Fin 512) (k : Fin 4096), k.val = n % 8 * 512 + x.val →
        (iblk7 V c 0 ⟨n, hn⟩ : FVec Ideal S512x512 .f32) (ix2 p x) = (V c (Pipeline.arrRef spec7 0) : Spec.Arr2 2048 4096) (ix2 r k) :=
      fun x k hk => iblk7_0_apply V c ⟨n, hn⟩ p x r k hr hk
    have hb : ∀ (x : Fin 512) (k : Fin 4096), k.val = n % 8 * 512 + x.val →
        (iblk7 V c 1 ⟨n, hn⟩ : FVec Ideal S512x512 .f32) (ix2 q x) = (V c (Pipeline.arrRef spec7 1) : Spec.Arr2 1024 4096) (ix2 s k) :=
      fun x k hk => iblk7_1_apply V c ⟨n, hn⟩ q x s k hs hk
    by_cases h : n % 8 = 0
    · refine (congrFun (acc7_first V c ⟨n, hn⟩ h) (ix2 p q)).trans ?_
      refine step7_apply _ _ (iblk7 V c 0 ⟨n, hn⟩) (iblk7 V c 1 ⟨n, hn⟩) (k7_pay1 (F := Ideal)) r s p q (n % 8 * 512) (by omega) ha hb ?_
      have hm0 : n % 8 * 512 = 0 := by omega
      rw [hm0, MM.dotPart_zero]
      exact pay1_apply7 p q
    · refine (congrFun (acc7_next V c ⟨n, hn⟩ h) (ix2 p q)).trans ?_
      refine step7_apply _ _ (iblk7 V c 0 ⟨n, hn⟩) (iblk7 V c 1 ⟨n, hn⟩) (acc7 V c (n - 1) (Nat.lt_of_le_of_lt (Nat.sub_le _ _) hn)) r s p q (n % 8 * 512) (by omega) ha hb ?_
      have e : (n - 1) % 8 * 512 + 512 = n % 8 * 512 := by omega
      exact (ih (n - 1) (by omega) (Nat.lt_of_le_of_lt (Nat.sub_le _ _) hn) p q r s (by rw [hr]; omega) (by rw [hs]; omega)).trans (congrArg (MM.dotPart _ _ r s) e)

theorem flushed7_eq (c : Dev nD) (t : Fin cfg7.N) (hf : (cfg7.win 3).flush t = true) :
    (dat7 V c).flushed 3 t = ((cfg7.win 3).blk t).view.read (Elt Ideal)
      (Spec.mmNT (V c (Pipeline.arrRef spec7 0)) (V c (Pipeline.arrRef spec7 1)) (V c (Pipeline.arrRef spec7 2))) := by
  have h7 : t.val % 8 = 7 := (flush7_3 t).mp hf
  obtain ⟨-, -, -, -, -, -, e0, e1⟩ := idx_facts7 t
  show (cfg7.win 3).cut (grid7.coords t) ((dat7 V c).after 3 t) = _
  rw [after7_3]
  funext y
  rw [View.read_apply]
  refine last7_apply _ _ _ (acc7 V c t.val t.isLt) (iblk7 V c 2 t) (t.val / 16) (t.val / 8 % 2)
    (fun p q r s hr hs => (acc7_apply V c t.val t.isLt p q r s hr hs).trans (congrArg (MM.dotPart _ _ r s) (show t.val % 8 * 512 + 512 = 4096 by omega)))
    (fun q s hs => iblk7_2_apply V c t q s hs) y _ ?_ ?_
  · show win7_3.index t (0 : Fin 2) * 512 + 1 * (y 0).val = t.val / 16 * 512 + (y 0).val
    rw [e0]; omega
  · show win7_3.index t (1 : Fin 2) * 512 + 1 * (y 1).val = t.val / 8 % 2 * 512 + (y 1).val
    rw [e1]; omega

theorem mem_blk7 (t : Fin cfg7.N) (i : S2048x1024.Idx) :
    i ∈ ((cfg7.win 3).blk t).view.set ↔ ∀ a : Fin 2, win7_3.index t a * S512x512.size a ≤ (i a).val ∧ (i a).val < win7_3.index t a * S512x512.size a + S512x512.size a := by
  show i ∈ ((View.whole main_v26).slice (win7_3.rect t)).set ↔ _
  rw [View.set_slice_whole, Rect.mem_set_unit]
  exact Iff.rfl

theorem cover7_arr (i : S2048x1024.Idx) : ∃ t : Fin cfg7.N, (cfg7.win 3).flush t = true ∧ i ∈ ((cfg7.win 3).blk t).view.set := by
  have h0 : (i 0).val < 2048 := (i 0).isLt
  have h1 : (i 1).val < 1024 := (i 1).isLt
  have hN : grid7.N = 64 := N_7
  have hlt : (i 0).val / 512 * 16 + (i 1).val / 512 * 8 + 7 < cfg7.N := by show _ < grid7.N; rw [hN]; omega
  obtain ⟨-, -, -, -, -, -, e0, e1⟩ := idx_facts7 ⟨(i 0).val / 512 * 16 + (i 1).val / 512 * 8 + 7, hlt⟩
  refine ⟨⟨(i 0).val / 512 * 16 + (i 1).val / 512 * 8 + 7, hlt⟩, (flush7_3 _).mpr (by show ((i 0).val / 512 * 16 + (i 1).val / 512 * 8 + 7) % 8 = 7; omega), ?_⟩
  rw [mem_blk7]
  intro a
  match a with
  | ⟨0, _⟩ =>
    show win7_3.index ⟨(i 0).val / 512 * 16 + (i 1).val / 512 * 8 + 7, hlt⟩ (0 : Fin 2) * 512 ≤ (i 0).val
      ∧ (i 0).val < win7_3.index ⟨(i 0).val / 512 * 16 + (i 1).val / 512 * 8 + 7, hlt⟩ (0 : Fin 2) * 512 + 512
    rw [e0]
    show ((i 0).val / 512 * 16 + (i 1).val / 512 * 8 + 7) / 16 * 512 ≤ (i 0).val ∧ (i 0).val < ((i 0).val / 512 * 16 + (i 1).val / 512 * 8 + 7) / 16 * 512 + 512
    omega
  | ⟨1, _⟩ =>
    show win7_3.index ⟨(i 0).val / 512 * 16 + (i 1).val / 512 * 8 + 7, hlt⟩ (1 : Fin 2) * 512 ≤ (i 1).val
      ∧ (i 1).val < win7_3.index ⟨(i 0).val / 512 * 16 + (i 1).val / 512 * 8 + 7, hlt⟩ (1 : Fin 2) * 512 + 512
    rw [e1]
    show ((i 0).val / 512 * 16 + (i 1).val / 512 * 8 + 7) / 8 % 2 * 512 ≤ (i 1).val ∧ (i 1).val < ((i 0).val / 512 * 16 + (i 1).val / 512 * 8 + 7) / 8 % 2 * 512 + 512
    omega

theorem arrAt7 (c : Dev nD) : (dat7 (F := Ideal) V c).arrAt 3 cfg7.N
    = Cert.Spec.mmNT (V c (Pipeline.arrRef spec7 0)) (V c (Pipeline.arrRef spec7 1)) (V c (Pipeline.arrRef spec7 2)) :=
  (dat7 V c).arrAt_eq_of_cover 3 _ (fun t hf => flushed7_eq V c t hf) cover7_arr

end Cert.KernelIdeal.Hand

end
-- ==== Proof.KI.Val8.lean ====
import proofs.«176467_j34754875359699_1_alg».proof.Proof.KI.Dat8
import proofs.«176467_j34754875359699_1_alg».proof.Proof.KI.Pay5
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

abbrev xarr8 (c : Dev nD) : Spec.Arr2 2048 1024 := V c (Pipeline.arrRef spec8 0)
abbrev yarr8 (c : Dev nD) : Spec.Arr2 2048 1024 := V c (Pipeline.arrRef spec8 1)
abbrev aarr8 (c : Dev nD) : Spec.Arr2 1 1024 := V c (Pipeline.arrRef spec8 2)
abbrev barr8 (c : Dev nD) : Spec.Arr2 1 1024 := V c (Pipeline.arrRef spec8 3)

abbrev xblk8 (c : Dev nD) (t : Fin cfg8.N) : Vec Ideal S512x1024 .f32 := iblk8 V c 0 t
abbrev yblk8 (c : Dev nD) (t : Fin cfg8.N) : Vec Ideal S512x1024 .f32 := iblk8 V c 1 t
abbrev ablk8 (c : Dev nD) (t : Fin cfg8.N) : Vec Ideal S1x1024 .f32 := iblk8 V c 2 t
abbrev bblk8 (c : Dev nD) (t : Fin cfg8.N) : Vec Ideal S1x1024 .f32 := iblk8 V c 3 t

theorem idx_facts8 : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = t.val ∧ win8_4.index t (1 : Fin 2) = 0 :=
  (by decide +kernel : ∀ t : Fin grid8.N, _)

def row8 (t : Fin cfg8.N) (p : Fin 512) : Fin 2048 :=
  ⟨512 * t.val + p.val, by
    have h : t.val < 4 := lt_of_lt_of_eq t.isLt N_8
    have := p.isLt; omega⟩

theorem xblk8_apply (c : Dev nD) (t : Fin cfg8.N) (p : Fin 512) (j : Fin 1024) :
    xblk8 V c t (ix2 p j) = xarr8 V c (ix2 (row8 t p) j) := by
  obtain ⟨e0, e1, -⟩ := idx_facts8 t
  show V c (Pipeline.arrRef spec8 0) (((cfg8.win 0).blk t).view.emb (ix2 p j)) = V c (Pipeline.arrRef spec8 0) (ix2 (row8 t p) j)
  refine congrArg (V c (Pipeline.arrRef spec8 0)) (funext fun a => Fin.ext ?_)
  match a with
  | ⟨0, _⟩ => show win8_0.index t (0 : Fin 2) * 512 + 1 * p.val = 512 * t.val + p.val; omega
  | ⟨1, _⟩ => show win8_0.index t (1 : Fin 2) * 1024 + 1 * j.val = j.val; omega

theorem yblk8_apply (c : Dev nD) (t : Fin cfg8.N) (p : Fin 512) (j : Fin 1024) :
    yblk8 V c t (ix2 p j) = yarr8 V c (ix2 (row8 t p) j) := by
  obtain ⟨-, -, e0, e1, -⟩ := idx_facts8 t
  show V c (Pipeline.arrRef spec8 1) (((cfg8.win 1).blk t).view.emb (ix2 p j)) = V c (Pipeline.arrRef spec8 1) (ix2 (row8 t p) j)
  refine congrArg (V c (Pipeline.arrRef spec8 1)) (funext fun a => Fin.ext ?_)
  match a with
  | ⟨0, _⟩ => show win8_1.index t (0 : Fin 2) * 512 + 1 * p.val = 512 * t.val + p.val; omega
  | ⟨1, _⟩ => show win8_1.index t (1 : Fin 2) * 1024 + 1 * j.val = j.val; omega

theorem ablk8_apply (c : Dev nD) (t : Fin cfg8.N) (j : Fin 1024) :
    ablk8 V c t (ix2 (0 : Fin 1) j) = aarr8 V c (ix2 (0 : Fin 1) j) := by
  obtain ⟨-, -, -, -, e0, e1, -⟩ := idx_facts8 t
  show V c (Pipeline.arrRef spec8 2) (((cfg8.win 2).blk t).view.emb (ix2 (0 : Fin 1) j)) = V c (Pipeline.arrRef spec8 2) (ix2 (0 : Fin 1) j)
  refine congrArg (V c (Pipeline.arrRef spec8 2)) (funext fun a => Fin.ext ?_)
  match a with
  | ⟨0, _⟩ => show win8_2.index t (0 : Fin 2) * 1 + 1 * 0 = 0; omega
  | ⟨1, _⟩ => show win8_2.index t (1 : Fin 2) * 1024 + 1 * j.val = j.val; omega

theorem bblk8_apply (c : Dev nD) (t : Fin cfg8.N) (j : Fin 1024) :
    bblk8 V c t (ix2 (0 : Fin 1) j) = barr8 V c (ix2 (0 : Fin 1) j) := by
  obtain ⟨-, -, -, -, -, -, e0, e1, -⟩ := idx_facts8 t
  show V c (Pipeline.arrRef spec8 3) (((cfg8.win 3).blk t).view.emb (ix2 (0 : Fin 1) j)) = V c (Pipeline.arrRef spec8 3) (ix2 (0 : Fin 1) j)
  refine congrArg (V c (Pipeline.arrRef spec8 3)) (funext fun a => Fin.ext ?_)
  match a with
  | ⟨0, _⟩ => show win8_3.index t (0 : Fin 2) * 1 + 1 * 0 = 0; omega
  | ⟨1, _⟩ => show win8_3.index t (1 : Fin 2) * 1024 + 1 * j.val = j.val; omega

theorem flushed8_eq (c : Dev nD) (t : Fin cfg8.N) :
    (dat8 (F := Ideal) V c).flushed 4 t
      = ((cfg8.win 4).blk t).view.read (Elt Ideal) (Spec.addNorm (xarr8 V c) (yarr8 V c) (aarr8 V c) (barr8 V c)) := by
  show (cfg8.win 4).cut (grid8.coords t) ((dat8 (F := Ideal) V c).after 4 t) = _
  rw [after8_4]
  obtain ⟨-, -, -, -, -, -, -, -, e0, e1⟩ := idx_facts8 t
  funext y
  obtain ⟨p, q, rfl⟩ : ∃ (p : Fin 512) (q : Fin 1024), y = ix2 p q := ⟨y 0, y 1, eq_ix2 y⟩
  show k5_pay1 (F := Ideal) (xblk8 V c t) (yblk8 V c t) (ablk8 V c t) (bblk8 V c t) (ix2 p q)
    = Spec.addNorm (xarr8 V c) (yarr8 V c) (aarr8 V c) (barr8 V c) (((cfg8.win 4).blk t).view.emb (ix2 p q))
  have he : ((cfg8.win 4).blk t).view.emb (ix2 p q) = ix2 (row8 t p) q := by
    funext a; apply Fin.ext
    match a with
    | ⟨0, _⟩ => show win8_4.index t (0 : Fin 2) * 512 + 1 * p.val = 512 * t.val + p.val; omega
    | ⟨1, _⟩ => show win8_4.index t (1 : Fin 2) * 1024 + 1 * q.val = q.val; omega
  rw [he]
  exact pay5_at (xarr8 V c) (yarr8 V c) (aarr8 V c) (barr8 V c) (xblk8 V c t) (yblk8 V c t) (ablk8 V c t) (bblk8 V c t)
    (row8 t p) p (xblk8_apply V c t p) (yblk8_apply V c t p) (ablk8_apply V c t) (bblk8_apply V c t) q

theorem mem_blk8 (t : Fin cfg8.N) (i : S2048x1024.Idx) :
    i ∈ ((cfg8.win 4).blk t).view.set ↔ ∀ a : Fin 2, win8_4.index t a * S512x1024.size a ≤ (i a).val ∧ (i a).val < win8_4.index t a * S512x1024.size a + S512x1024.size a := by
  show i ∈ ((View.whole main_v29).slice (win8_4.rect t)).set ↔ _
  rw [View.set_slice_whole, Rect.mem_set_unit]
  exact Iff.rfl

theorem cover8 (i : S2048x1024.Idx) : ∃ t : Fin cfg8.N, (cfg8.win 4).flush t = true ∧ i ∈ ((cfg8.win 4).blk t).view.set := by
  have hi0 : (i 0).val < 2048 := (i 0).isLt
  have hi1 : (i 1).val < 1024 := (i 1).isLt
  have ht : (i 0).val / 512 < cfg8.N := by rw [show cfg8.N = 4 from N_8]; omega
  obtain ⟨-, -, -, -, -, -, -, -, e0, e1⟩ := idx_facts8 ⟨(i 0).val / 512, ht⟩
  have e0' : win8_4.index ⟨(i 0).val / 512, ht⟩ (0 : Fin 2) = (i 0).val / 512 := e0
  refine ⟨⟨(i 0).val / 512, ht⟩, flush8_4 _, ?_⟩
  rw [mem_blk8]
  intro a
  match a with
  | ⟨0, _⟩ => show win8_4.index ⟨(i 0).val / 512, ht⟩ (0 : Fin 2) * 512 ≤ (i 0).val ∧ (i 0).val < win8_4.index ⟨(i 0).val / 512, ht⟩ (0 : Fin 2) * 512 + 512; omega
  | ⟨1, _⟩ => show win8_4.index ⟨(i 0).val / 512, ht⟩ (1 : Fin 2) * 1024 ≤ (i 1).val ∧ (i 1).val < win8_4.index ⟨(i 0).val / 512, ht⟩ (1 : Fin 2) * 1024 + 1024; omega

theorem arrAt8 (c : Dev nD) :
    (dat8 (F := Ideal) V c).arrAt 4 cfg8.N
      = Cert.Spec.addNorm (V c (Pipeline.arrRef spec8 0)) (V c (Pipeline.arrRef spec8 1)) (V c (Pipeline.arrRef spec8 2)) (V c (Pipeline.arrRef spec8 3)) :=
  (dat8 (F := Ideal) V c).arrAt_eq_of_cover 4 (Spec.addNorm (xarr8 V c) (yarr8 V c) (aarr8 V c) (barr8 V c))
    (fun t _ => flushed8_eq V c t) cover8

end Cert.KernelIdeal.Hand

end
-- ==== Proof.KI.Value.lean ====
import proofs.«176467_j34754875359699_1_alg».proof.Proof.KI.ValueOf
import proofs.«176467_j34754875359699_1_alg».proof.Proof.KI.Val0
import proofs.«176467_j34754875359699_1_alg».proof.Proof.KI.Val1
import proofs.«176467_j34754875359699_1_alg».proof.Proof.KI.Val2
import proofs.«176467_j34754875359699_1_alg».proof.Proof.KI.Val3
import proofs.«176467_j34754875359699_1_alg».proof.Proof.KI.Val4
import proofs.«176467_j34754875359699_1_alg».proof.Proof.KI.Val5
import proofs.«176467_j34754875359699_1_alg».proof.Proof.KI.Val6
import proofs.«176467_j34754875359699_1_alg».proof.Proof.KI.Val7
import proofs.«176467_j34754875359699_1_alg».proof.Proof.KI.Val8

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

theorem regVals : RegVals := ⟨arrAt0, arrAt1, arrAt2, arrAt3, arrAt4, arrAt5, arrAt6, arrAt7, arrAt8⟩

theorem Wlast_result (c : Dev nD) :
    (Wlast m ρ c (Proc.devRef .tc main_v30) : S1024x2048.Idx → EReal)
      = Cert.Spec.layer (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) :=
  Wlast_result_of m ρ regVals c

end Cert.KernelIdeal.Hand

end
-- ==== Proof.Ref.Ssa.lean ====
import Idealize.ShloMosaic.Lib.StableHlo.Run

noncomputable section

namespace Cert.ReferenceIdeal.Hand.Ssa

open Idealize.ShloMosaic Idealize.ShloMosaic.StableHlo

variable {τ : Topo} {sig : RefSig} {Val : EltTy → Type}

theorem after_app : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

def Writes (ops : List (HloOp τ sig Val)) (wr : List (Ref sig .tc)) : Prop :=
  ops.map HloOp.writes = wr.map fun r => ({Proc.devRef (τ := τ) .tc r} : Finset (DevRef τ sig))

theorem after_keep {ops : List (HloOp τ sig Val)} {wr : List (Ref sig .tc)} (h : Writes ops wr) (k : Nat)
    {x : Ref sig .tc} (hx : x ∉ wr.drop k) (V : Valuation τ sig Val) :
    after ops V (Proc.devRef .tc x) = after (ops.take k) V (Proc.devRef .tc x) := by
  conv_lhs => rw [← List.take_append_drop k ops]
  rw [after_app]
  refine after_of_forall_not_mem _ _ fun o ho hm => hx ?_
  have h1 : o.writes ∈ (ops.drop k).map HloOp.writes := List.mem_map_of_mem ho
  unfold Writes at h
  rw [List.map_drop, h, ← List.map_drop] at h1
  obtain ⟨r, hr, he⟩ := List.mem_map.mp h1
  rw [← he, Finset.mem_singleton] at hm
  rw [Proc.devRef_injective _ hm]
  exact hr

theorem after_at {ops : List (HloOp τ sig Val)} {wr : List (Ref sig .tc)} (h : Writes ops wr) (k : Nat)
    {op : HloOp τ sig Val} (hop : ops[k]? = some op) {y : Ref sig .tc} (hy : y ∉ wr.drop (k + 1))
    (V : Valuation τ sig Val) :
    after ops V (Proc.devRef .tc y) = op.result (after (ops.take k) V) (Proc.devRef .tc y) := by
  rw [after_keep h (k + 1) hy, List.take_succ, hop, after_app]
  rfl

variable {ops : List (HloOp τ sig Val)} {wr : List (Ref sig .tc)} {V : Valuation τ sig Val}

theorem untouched (h : Writes ops wr) {x : Ref sig .tc} (hx : x ∉ wr) (V : Valuation τ sig Val) :
    after ops V (Proc.devRef .tc x) = V (Proc.devRef .tc x) := by
  rw [after_keep h 0 (by rwa [List.drop_zero]) V]
  rfl

theorem nullaryV (h : Writes ops wr) (k : Nat) {y : Ref sig .tc} {v : y.ty.Contents Val} {hy}
    (hop : ops[k]? = some (StableHlo.nullary (τ := τ) y v hy)) (h0 : y ∉ wr.drop (k + 1)) :
    after ops V (Proc.devRef .tc y) = v := by
  rw [after_at h k hop h0, nullary_result]

theorem unaryV (h : Writes ops wr) (k : Nat) {x y : Ref sig .tc} {f : x.ty.Contents Val → y.ty.Contents Val} {hx hy}
    (hop : ops[k]? = some (StableHlo.unary (τ := τ) x y f hx hy)) (h0 : y ∉ wr.drop (k + 1)) (h1 : x ∉ wr.drop k)
    {vx : x.ty.Contents Val} (ex : after ops V (Proc.devRef .tc x) = vx) :
    after ops V (Proc.devRef .tc y) = f vx := by
  rw [after_at h k hop h0, unary_result, ← ex]
  exact congrArg f (after_keep h k h1 V).symm

theorem binaryV (h : Writes ops wr) (k : Nat) {a b y : Ref sig .tc}
    {f : a.ty.Contents Val → b.ty.Contents Val → y.ty.Contents Val} {ha hb hy}
    (hop : ops[k]? = some (StableHlo.binary (τ := τ) a b y f ha hb hy)) (h0 : y ∉ wr.drop (k + 1))
    (h1 : a ∉ wr.drop k) (h2 : b ∉ wr.drop k)
    {va : a.ty.Contents Val} {vb : b.ty.Contents Val}
    (ea : after ops V (Proc.devRef .tc a) = va) (eb : after ops V (Proc.devRef .tc b) = vb) :
    after ops V (Proc.devRef .tc y) = f va vb := by
  rw [after_at h k hop h0, binary_result, ← ea, ← eb]
  exact congr (congrArg f (after_keep h k h1 V).symm) (after_keep h k h2 V).symm

theorem ternaryV (h : Writes ops wr) (k : Nat) {c a b y : Ref sig .tc}
    {f : c.ty.Contents Val → a.ty.Contents Val → b.ty.Contents Val → y.ty.Contents Val} {hc ha hb hy}
    (hop : ops[k]? = some (StableHlo.ternary (τ := τ) c a b y f hc ha hb hy)) (h0 : y ∉ wr.drop (k + 1))
    (h1 : c ∉ wr.drop k) (h2 : a ∉ wr.drop k) (h3 : b ∉ wr.drop k)
    {vc : c.ty.Contents Val} {va : a.ty.Contents Val} {vb : b.ty.Contents Val}
    (ec : after ops V (Proc.devRef .tc c) = vc) (ea : after ops V (Proc.devRef .tc a) = va)
    (eb : after ops V (Proc.devRef .tc b) = vb) :
    after ops V (Proc.devRef .tc y) = f vc va vb := by
  rw [after_at h k hop h0, ternary_result, ← ec, ← ea, ← eb]
  exact congr (congr (congrArg f (after_keep h k h1 V).symm) (after_keep h k h2 V).symm) (after_keep h k h3 V).symm

theorem reshapeV (h : Writes ops wr) (k : Nat) {x y : Ref sig .tc} {he hn hx hy}
    (hop : ops[k]? = some (StableHlo.reshape (τ := τ) (Val := Val) x y he hn hx hy)) (h0 : y ∉ wr.drop (k + 1))
    (h1 : x ∉ wr.drop k) {vx : x.ty.Contents Val} (ex : after ops V (Proc.devRef .tc x) = vx) :
    after ops V (Proc.devRef .tc y) = fun i => he ▸ shapeCast y.ty.shape vx hn i := by
  rw [after_at h k hop h0, reshape_result, ← ex, after_keep h k h1 V]

end Cert.ReferenceIdeal.Hand.Ssa

end
-- ==== Proof.Ref.Ops.lean ====
import proofs.«176467_j34754875359699_1_alg».proof.Proof.Gen.ReferenceIdeal
import proofs.«176467_j34754875359699_1_alg».proof.Proof.Ref.Ssa
import Idealize.ShloMosaic.Lib.StableHlo.Run

noncomputable section

namespace Cert.ReferenceIdeal.Hand

open Cert.ReferenceIdeal Cert.ReferenceIdeal.Facts₀ Idealize.ShloMosaic Idealize.ShloMosaic.TcCoe Idealize.SL.Sem
open Idealize.ShloMosaic.StableHlo

variable {F : FTy → Type} [FloatOps F]

def ops0 : List (HloOp τ sig (Elt F)) :=
  [ binary main_arg3 main_arg0 main_v0 (fun l r => Host.dotGeneral dot_S16x64x1024_S1024x2048_S16x64x2048_2_0_01_1_n_n none l r),
    binary main_arg4 main_arg1 main_v1 (fun l r => Host.dotGeneral dot_S16x64x1024_S1024x2048_S16x64x2048_2_0_01_1_n_n none l r),
    binary main_arg5 main_arg2 main_v2 (fun l r => Host.dotGeneral dot_S16x64x1024_S1024x2048_S16x64x2048_2_0_01_1_n_n none l r),
    binary main_v0 main_v1 main_v3 (fun l r => Host.dotGeneral dot_S16x64x2048_S16x64x2048_S16x2048x2048_1_1_2_2_0_0 none l r),
    nullary main_cst (constant S_ .f32 0x41000000#32),
    unary main_cst main_v4 (broadcastInDim S16x2048x2048 ![] bcast_S_S16x2048x2048),
    binary main_v3 main_v4 main_v5 Host.divf,
    nullary main_v6 (iotaInDim S2048x2048 32 0),
    nullary main_v7 (iotaInDim S2048x2048 32 1),
    nullary main_c (constantI S_ 32 0#32),
    unary main_c main_v8 (broadcastInDim S2048x2048 ![] bcast_S_S2048x2048),
    binary main_v6 main_v8 main_v9 addi,
    binary main_v9 main_v7 main_v10 (cmpi .eq),
    unary main_v10 main_v11 (uitofp .f32),
    nullary main_cst_0 (constant S_ .f32 0xC7C35000#32),
    unary main_cst_0 main_v12 (broadcastInDim S2048x2048 ![] bcast_S_S2048x2048),
    binary main_v12 main_v11 main_v13 mulf,
    unary main_v13 main_v14 (broadcastInDim S1x2048x2048 ![1, 2] bcast_S2048x2048_S1x2048x2048_1_2),
    unary main_v14 main_v15 (broadcastInDim S16x2048x2048 ![0, 1, 2] bcast_S1x2048x2048_S16x2048x2048_0_1_2),
    binary main_v5 main_v15 main_v16 addf,
    nullary main_cst_1 (constant S_ .f32 0xFF800000#32),
    binary main_v16 main_cst_1 main_v17 (fun x v => Host.reduce FloatOps.maximumf x v reducesTo_S16x2048x2048_S16x2048_d2 h_S_),
    nullary main_cst_2 (constant S_ .f32 0xFF800000#32),
    unary main_cst_2 main_v18 (broadcastInDim S16x2048 ![] bcast_S_S16x2048),
    binary main_v18 main_v17 main_v19 maximumf,
    unary main_v19 main_v20 (broadcastInDim S16x2048x1 ![0, 1] bcast_S16x2048_S16x2048x1_0_1),
    unary main_v20 main_v21 (broadcastInDim S16x2048x2048 ![0, 1, 2] bcast_S16x2048x1_S16x2048x2048_0_1_2),
    binary main_v16 main_v21 main_v22 subf,
    unary main_v22 main_v23 Host.exp,
    nullary main_cst_3 (constant S_ .f32 0x00000000#32),
    binary main_v23 main_cst_3 main_v24 (fun x v => Host.reduceAdd x v reducesTo_S16x2048x2048_S16x2048_d2 h_S_),
    unary main_v24 main_v25 (broadcastInDim S16x2048x1 ![0, 1] bcast_S16x2048_S16x2048x1_0_1),
    unary main_v25 main_v26 (broadcastInDim S16x2048x2048 ![0, 1, 2] bcast_S16x2048x1_S16x2048x2048_0_1_2),
    binary main_v23 main_v26 main_v27 Host.divf,
    binary main_v27 main_v2 main_v28 (fun l r => Host.dotGeneral dot_S16x2048x2048_S16x64x2048_S16x2048x64_2_2_1_1_0_0 none l r),
    unary main_v28 main_v29 (transpose S2048x16x64 [1, 0, 2] · transposes_S16x2048x64_S2048x16x64_1_0_2),
    reshape main_v29 main_v30 rfl shapeCasts_S2048x16x64_S2048x1024,
    binary main_v30 main_arg6 main_v31 (fun l r => Host.dotGeneral dot_S2048x1024_S1024x1024_S2048x1024_1_0_0_1_n_n none l r),
    unary main_arg2 main_v32 (transpose S2048x1024 [1, 0] · transposes_S1024x2048_S2048x1024_1_0),
    binary main_v32 main_v31 main_v33 addf,
    nullary main_cst_4 (constant S_ .f32 0x00000000#32),
    binary main_v33 main_cst_4 main_v34 (fun x v => Host.reduceAdd x v reducesTo_S2048x1024_S2048_d1 h_S_),
    unary main_v34 main_v35 (broadcastInDim S2048x1 ![0] bcast_S2048_S2048x1_0),
    nullary main_cst_5 (constant S_ .f32 0x44800000#32),
    unary main_cst_5 main_v36 (broadcastInDim S2048x1 ![] bcast_S_S2048x1),
    binary main_v35 main_v36 main_v37 Host.divf,
    nullary main_c_6 (constantI S_ 32 1#32),
    TRef.nullary main_call0.call0.cst (constant S_ .f32 0x00000000#32),
    TRef.binary (.of main_v33 : TRef sig ⟨S2048x1024, .f32⟩) main_call0.call0.cst main_call0.call0.v0 (fun x v => Host.reduceAdd x v reducesTo_S2048x1024_S2048_d1 h_S_),
    TRef.unary main_call0.call0.v0 main_call0.call0.v1 (broadcastInDim S2048x1 ![0] bcast_S2048_S2048x1_0),
    TRef.nullary main_call0.call0.cst_0 (constant S_ .f32 0x44800000#32),
    TRef.unary main_call0.call0.cst_0 main_call0.call0.v2 (broadcastInDim S2048x1 ![] bcast_S_S2048x1),
    TRef.binary main_call0.call0.v1 main_call0.call0.v2 main_call0.call0.v3 Host.divf,
    TRef.unary main_call0.call0.v3 main_call0.call0.v4 (broadcastInDim S2048x1024 ![0, 1] bcast_S2048x1_S2048x1024_0_1),
    TRef.binary (.of main_v33 : TRef sig ⟨S2048x1024, .f32⟩) main_call0.call0.v4 main_call0.call0.v5 subf,
    TRef.binary main_call0.call0.v5 main_call0.call0.v5 main_call0.call0.v6 mulf,
    TRef.unary (.of main_c_6 : TRef sig ⟨S_, .i32⟩) main_call0.call0.v7 (sitofp .f32),
    TRef.nullary main_call0.call0.cst_1 (constant S_ .f32 0x44800000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S2048x1024_S2048_d1 h_S_),
    TRef.unary main_call0.call0.v9 main_call0.call0.v10 (broadcastInDim S2048x1 ![0] bcast_S2048_S2048x1_0),
    TRef.unary main_call0.call0.v8 main_call0.call0.v11 (broadcastInDim S2048x1 ![] bcast_S_S2048x1),
    TRef.binary main_call0.call0.v10 main_call0.call0.v11 main_call0.call0.v12 Host.divf,
    TRef.nullary main_call0.call0.cst_3 (constant S_ .f32 0x00000000#32),
    TRef.binary main_call0.call0.v8 main_call0.call0.cst_3 main_call0.call0.v13 (cmpf .ogt),
    TRef.nullary main_call0.call0.cst_4 (constant S_ .f32 0x7FC00000#32),
    TRef.unary main_call0.call0.cst_4 main_call0.call0.call0.v0 id,
    TRef.unary main_call0.call0.call0.v0 main_call0.call0.call0.v1 (broadcastInDim S2048x1 ![] bcast_S_S2048x1),
    TRef.ternary main_call0.call0.v13 main_call0.call0.v12 main_call0.call0.call0.v1 main_call0.call0.call0.v2 (fun p a b => select (broadcastInDim S2048x1 ![] bcast_S_S2048x1 p) a b),
    TRef.unary main_call0.call0.call0.v2 main_call0.v1 Host.sqrt,
    unary main_v37 main_v39 (broadcastInDim S2048x1024 ![0, 1] bcast_S2048x1_S2048x1024_0_1),
    binary main_v33 main_v39 main_v40 subf,
    nullary main_cst_7 (constant S_ .f32 0x3A83126F#32),
    unary main_cst_7 main_v41 (broadcastInDim S2048x1 ![] bcast_S_S2048x1),
    binary main_v38 main_v41 main_v42 addf,
    unary main_v42 main_v43 (broadcastInDim S2048x1024 ![0, 1] bcast_S2048x1_S2048x1024_0_1),
    binary main_v40 main_v43 main_v44 Host.divf,
    unary main_arg11 main_v45 (broadcastInDim S1x1024 ![1] bcast_S1024_S1x1024_1),
    unary main_v45 main_v46 (broadcastInDim S2048x1024 ![0, 1] bcast_S1x1024_S2048x1024_0_1),
    binary main_v44 main_v46 main_v47 mulf,
    unary main_arg12 main_v48 (broadcastInDim S1x1024 ![1] bcast_S1024_S1x1024_1),
    unary main_v48 main_v49 (broadcastInDim S2048x1024 ![0, 1] bcast_S1x1024_S2048x1024_0_1) ]

def ops1 : List (HloOp τ sig (Elt F)) :=
  [ binary main_v47 main_v49 main_v50 addf,
    unary main_v50 main_v51 (transpose S1024x2048 [1, 0] · transposes_S2048x1024_S1024x2048_1_0),
    binary main_arg7 main_v51 main_v52 (fun l r => Host.dotGeneral dot_S4096x1024_S1024x2048_S4096x2048_1_0_0_1_n_n none l r),
    unary main_arg8 main_v53 (broadcastInDim S4096x1 ![0] bcast_S4096_S4096x1_0),
    unary main_v53 main_v54 (broadcastInDim S4096x2048 ![0, 1] bcast_S4096x1_S4096x2048_0_1),
    binary main_v52 main_v54 main_v55 addf,
    TRef.nullary main_call1.cst (constant S_ .f32 0x00000000#32),
    TRef.unary main_call1.cst main_call1.v0 (broadcastInDim S4096x2048 ![] bcast_S_S4096x2048),
    TRef.binary (.of main_v55 : TRef sig ⟨S4096x2048, .f32⟩) main_call1.v0 main_call1.v1 maximumf,
    binary main_arg9 main_v56 main_v57 (fun l r => Host.dotGeneral dot_S1024x4096_S4096x2048_S1024x2048_1_0_0_1_n_n none l r),
    unary main_arg10 main_v58 (broadcastInDim S1024x1 ![0] bcast_S1024_S1024x1_0),
    unary main_v58 main_v59 (broadcastInDim S1024x2048 ![0, 1] bcast_S1024x1_S1024x2048_0_1),
    binary main_v57 main_v59 main_v60 addf,
    unary main_v51 main_v61 (transpose S2048x1024 [1, 0] · transposes_S1024x2048_S2048x1024_1_0),
    unary main_v60 main_v62 (transpose S2048x1024 [1, 0] · transposes_S1024x2048_S2048x1024_1_0),
    binary main_v61 main_v62 main_v63 addf,
    nullary main_cst_8 (constant S_ .f32 0x00000000#32),
    binary main_v63 main_cst_8 main_v64 (fun x v => Host.reduceAdd x v reducesTo_S2048x1024_S2048_d1 h_S_),
    unary main_v64 main_v65 (broadcastInDim S2048x1 ![0] bcast_S2048_S2048x1_0),
    nullary main_cst_9 (constant S_ .f32 0x44800000#32),
    unary main_cst_9 main_v66 (broadcastInDim S2048x1 ![] bcast_S_S2048x1),
    binary main_v65 main_v66 main_v67 Host.divf,
    nullary main_c_10 (constantI S_ 32 1#32),
    TRef.nullary main_call2.call0.cst (constant S_ .f32 0x00000000#32),
    TRef.binary (.of main_v63 : TRef sig ⟨S2048x1024, .f32⟩) main_call2.call0.cst main_call2.call0.v0 (fun x v => Host.reduceAdd x v reducesTo_S2048x1024_S2048_d1 h_S_),
    TRef.unary main_call2.call0.v0 main_call2.call0.v1 (broadcastInDim S2048x1 ![0] bcast_S2048_S2048x1_0),
    TRef.nullary main_call2.call0.cst_0 (constant S_ .f32 0x44800000#32),
    TRef.unary main_call2.call0.cst_0 main_call2.call0.v2 (broadcastInDim S2048x1 ![] bcast_S_S2048x1),
    TRef.binary main_call2.call0.v1 main_call2.call0.v2 main_call2.call0.v3 Host.divf,
    TRef.unary main_call2.call0.v3 main_call2.call0.v4 (broadcastInDim S2048x1024 ![0, 1] bcast_S2048x1_S2048x1024_0_1),
    TRef.binary (.of main_v63 : TRef sig ⟨S2048x1024, .f32⟩) main_call2.call0.v4 main_call2.call0.v5 subf,
    TRef.binary main_call2.call0.v5 main_call2.call0.v5 main_call2.call0.v6 mulf,
    TRef.unary (.of main_c_10 : TRef sig ⟨S_, .i32⟩) main_call2.call0.v7 (sitofp .f32),
    TRef.nullary main_call2.call0.cst_1 (constant S_ .f32 0x44800000#32),
    TRef.binary main_call2.call0.cst_1 main_call2.call0.v7 main_call2.call0.v8 subf,
    TRef.nullary main_call2.call0.cst_2 (constant S_ .f32 0x00000000#32),
    TRef.binary main_call2.call0.v6 main_call2.call0.cst_2 main_call2.call0.v9 (fun x v => Host.reduceAdd x v reducesTo_S2048x1024_S2048_d1 h_S_),
    TRef.unary main_call2.call0.v9 main_call2.call0.v10 (broadcastInDim S2048x1 ![0] bcast_S2048_S2048x1_0),
    TRef.unary main_call2.call0.v8 main_call2.call0.v11 (broadcastInDim S2048x1 ![] bcast_S_S2048x1),
    TRef.binary main_call2.call0.v10 main_call2.call0.v11 main_call2.call0.v12 Host.divf,
    TRef.nullary main_call2.call0.cst_3 (constant S_ .f32 0x00000000#32),
    TRef.binary main_call2.call0.v8 main_call2.call0.cst_3 main_call2.call0.v13 (cmpf .ogt),
    TRef.nullary main_call2.call0.cst_4 (constant S_ .f32 0x7FC00000#32),
    TRef.unary main_call2.call0.cst_4 main_call2.call0.call0.v0 id,
    TRef.unary main_call2.call0.call0.v0 main_call2.call0.call0.v1 (broadcastInDim S2048x1 ![] bcast_S_S2048x1),
    TRef.ternary main_call2.call0.v13 main_call2.call0.v12 main_call2.call0.call0.v1 main_call2.call0.call0.v2 (fun p a b => select (broadcastInDim S2048x1 ![] bcast_S_S2048x1 p) a b),
    TRef.unary main_call2.call0.call0.v2 main_call2.v1 Host.sqrt,
    unary main_v67 main_v69 (broadcastInDim S2048x1024 ![0, 1] bcast_S2048x1_S2048x1024_0_1),
    binary main_v63 main_v69 main_v70 subf,
    nullary main_cst_11 (constant S_ .f32 0x3A83126F#32),
    unary main_cst_11 main_v71 (broadcastInDim S2048x1 ![] bcast_S_S2048x1),
    binary main_v68 main_v71 main_v72 addf,
    unary main_v72 main_v73 (broadcastInDim S2048x1024 ![0, 1] bcast_S2048x1_S2048x1024_0_1),
    binary main_v70 main_v73 main_v74 Host.divf,
    unary main_arg11 main_v75 (broadcastInDim S1x1024 ![1] bcast_S1024_S1x1024_1),
    unary main_v75 main_v76 (broadcastInDim S2048x1024 ![0, 1] bcast_S1x1024_S2048x1024_0_1),
    binary main_v74 main_v76 main_v77 mulf,
    unary main_arg12 main_v78 (broadcastInDim S1x1024 ![1] bcast_S1024_S1x1024_1),
    unary main_v78 main_v79 (broadcastInDim S2048x1024 ![0, 1] bcast_S1x1024_S2048x1024_0_1),
    binary main_v77 main_v79 main_v80 addf,
    unary main_v80 main_v81 (transpose S1024x2048 [1, 0] · transposes_S2048x1024_S1024x2048_1_0) ]

def ops : List (HloOp τ sig (Elt F)) := ops0 ++ ops1

def wr : List (Ref sig .tc) :=
  [ main_v0, main_v1, main_v2, main_v3, main_cst, main_v4, main_v5, main_v6, main_v7, main_c, main_v8, main_v9,
    main_v10, main_v11, main_cst_0, main_v12, main_v13, main_v14, main_v15, main_v16, main_cst_1, main_v17,
    main_cst_2, main_v18, main_v19, main_v20, main_v21, main_v22, main_v23, main_cst_3, main_v24, main_v25,
    main_v26, main_v27, main_v28, main_v29, main_v30, main_v31, main_v32, main_v33, main_cst_4, main_v34,
    main_v35, main_cst_5, main_v36, main_v37, main_c_6,
    main_call0_call0_cst, main_call0_call0_v0, main_call0_call0_v1, main_call0_call0_cst_0, main_call0_call0_v2,
    main_call0_call0_v3, main_call0_call0_v4, main_call0_call0_v5, main_call0_call0_v6, main_call0_call0_v7,
    main_call0_call0_cst_1, main_call0_call0_v8, main_call0_call0_cst_2, main_call0_call0_v9, main_call0_call0_v10,
    main_call0_call0_v11, main_call0_call0_v12, main_call0_call0_cst_3, main_call0_call0_v13, main_call0_call0_cst_4,
    main_call0_call0_call0_v0, main_call0_call0_call0_v1, main_call0_v0, main_v38,
    main_v39, main_v40, main_cst_7, main_v41, main_v42, main_v43, main_v44, main_v45, main_v46, main_v47,
    main_v48, main_v49,
    main_v50, main_v51, main_v52, main_v53, main_v54, main_v55, main_call1_cst, main_call1_v0, main_v56,
    main_v57, main_v58, main_v59, main_v60, main_v61, main_v62, main_v63, main_cst_8, main_v64, main_v65,
    main_cst_9, main_v66, main_v67, main_c_10,
    main_call2_call0_cst, main_call2_call0_v0, main_call2_call0_v1, main_call2_call0_cst_0, main_call2_call0_v2,
    main_call2_call0_v3, main_call2_call0_v4, main_call2_call0_v5, main_call2_call0_v6, main_call2_call0_v7,
    main_call2_call0_cst_1, main_call2_call0_v8, main_call2_call0_cst_2, main_call2_call0_v9, main_call2_call0_v10,
    main_call2_call0_v11, main_call2_call0_v12, main_call2_call0_cst_3, main_call2_call0_v13, main_call2_call0_cst_4,
    main_call2_call0_call0_v0, main_call2_call0_call0_v1, main_call2_v0, main_v68,
    main_v69, main_v70, main_cst_11, main_v71, main_v72, main_v73, main_v74, main_v75, main_v76, main_v77,
    main_v78, main_v79, main_v80, main_v81 ]

theorem writes_ops : Ssa.Writes (τ := τ) (ops (F := F)) wr := rfl

theorem main_part0_eq (c : Dev nD) : main_part0 (F := F) c = seq ops0 := rfl
theorem main_part1_eq (c : Dev nD) : main_part1 (F := F) c = seq ops1 := rfl

theorem main_eq (c : Dev nD) : main (F := F) c = seq ops := by
  rw [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨binary_bufs_sub .., binary_bufs_sub .., binary_bufs_sub .., binary_bufs_sub .., nullary_bufs_sub .., unary_bufs_sub ..,
    binary_bufs_sub .., nullary_bufs_sub .., nullary_bufs_sub .., nullary_bufs_sub .., unary_bufs_sub .., binary_bufs_sub ..,
    binary_bufs_sub .., unary_bufs_sub .., nullary_bufs_sub .., unary_bufs_sub .., binary_bufs_sub .., unary_bufs_sub ..,
    unary_bufs_sub .., binary_bufs_sub .., nullary_bufs_sub .., binary_bufs_sub .., nullary_bufs_sub .., unary_bufs_sub ..,
    binary_bufs_sub .., unary_bufs_sub .., unary_bufs_sub .., binary_bufs_sub .., unary_bufs_sub .., nullary_bufs_sub ..,
    binary_bufs_sub .., unary_bufs_sub .., unary_bufs_sub .., binary_bufs_sub .., binary_bufs_sub .., unary_bufs_sub ..,
    reshape_bufs_sub .., binary_bufs_sub .., unary_bufs_sub .., binary_bufs_sub .., nullary_bufs_sub .., binary_bufs_sub ..,
    unary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., unary_bufs_sub ..,
    binary_bufs_sub .., unary_bufs_sub .., unary_bufs_sub .., binary_bufs_sub .., unary_bufs_sub .., unary_bufs_sub ..⟩

theorem ops1_sub : (ops1 : List (HloOp τ sig (Elt F))).Forall fun op => op.bufs ⊆ tcRefs τ sig :=
  ⟨binary_bufs_sub .., unary_bufs_sub .., binary_bufs_sub .., unary_bufs_sub .., unary_bufs_sub .., binary_bufs_sub ..,
    nullary_bufs_sub .., unary_bufs_sub .., binary_bufs_sub ..,
    binary_bufs_sub .., unary_bufs_sub .., unary_bufs_sub .., binary_bufs_sub .., unary_bufs_sub .., unary_bufs_sub ..,
    binary_bufs_sub .., nullary_bufs_sub .., binary_bufs_sub .., unary_bufs_sub .., nullary_bufs_sub .., unary_bufs_sub ..,
    binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., unary_bufs_sub ..,
    binary_bufs_sub .., unary_bufs_sub .., unary_bufs_sub .., binary_bufs_sub .., unary_bufs_sub .., unary_bufs_sub ..,
    binary_bufs_sub .., unary_bufs_sub ..⟩

theorem ops_sub : (ops : List (HloOp τ sig (Elt F))).Forall fun op => op.bufs ⊆ tcRefs τ sig :=
  List.forall_iff_forall_mem.mpr fun op h => by
    rw [ops, List.mem_append] at h
    rcases h with h | h
    exacts [List.forall_iff_forall_mem.mp ops0_sub op h, List.forall_iff_forall_mem.mp ops1_sub op h]

theorem ops_fresh : ∀ op ∈ (ops : List (HloOp τ sig (Elt F))), op.fresh = ∅ := by
  have h0 : ∀ op ∈ (ops0 : List (HloOp τ sig (Elt F))), op.fresh = ∅ := by
    intro _ h; (repeat (cases h with | head => rfl | tail _ h => ?_)); exact nomatch h
  have h1 : ∀ op ∈ (ops1 : List (HloOp τ sig (Elt F))), op.fresh = ∅ := by
    intro _ h; (repeat (cases h with | head => rfl | tail _ h => ?_)); exact nomatch h
  intro op h
  rw [ops, List.mem_append] at h
  rcases h with h | h
  exacts [h0 op h, h1 op h]

end Cert.ReferenceIdeal.Hand

end
-- ==== Proof.Ref.Stages.lean ====
import proofs.«176467_j34754875359699_1_alg».proof.ReferenceIdeal
import Idealize.ShloMosaic.PureOps.Ideal

noncomputable section

namespace Cert.ReferenceIdeal.Hand

open Idealize.ShloMosaic Idealize.SL.Sem Cert.ReferenceIdeal Cert.ReferenceIdeal.Facts₀

structure Args where
  a0 : (⟨S1024x2048, .f32⟩ : BufTy).Contents (Elt Ideal)
  a1 : (⟨S1024x2048, .f32⟩ : BufTy).Contents (Elt Ideal)
  a2 : (⟨S1024x2048, .f32⟩ : BufTy).Contents (Elt Ideal)
  a3 : (⟨S16x64x1024, .f32⟩ : BufTy).Contents (Elt Ideal)
  a4 : (⟨S16x64x1024, .f32⟩ : BufTy).Contents (Elt Ideal)
  a5 : (⟨S16x64x1024, .f32⟩ : BufTy).Contents (Elt Ideal)
  a6 : (⟨S1024x1024, .f32⟩ : BufTy).Contents (Elt Ideal)
  a7 : (⟨S4096x1024, .f32⟩ : BufTy).Contents (Elt Ideal)
  a8 : (⟨S4096, .f32⟩ : BufTy).Contents (Elt Ideal)
  a9 : (⟨S1024x4096, .f32⟩ : BufTy).Contents (Elt Ideal)
  a10 : (⟨S1024, .f32⟩ : BufTy).Contents (Elt Ideal)
  a11 : (⟨S1024, .f32⟩ : BufTy).Contents (Elt Ideal)
  a12 : (⟨S1024, .f32⟩ : BufTy).Contents (Elt Ideal)

variable [Facts₀]

def st_v0 (A : Args) : (⟨S16x64x2048, .f32⟩ : BufTy).Contents (Elt Ideal) :=
  ((fun l r => Host.dotGeneral (F := Ideal) (φ₁ := .f32) (φ₂ := .f32) dot_S16x64x1024_S1024x2048_S16x64x2048_2_0_01_1_n_n none l r)) A.a3 A.a0

def st_v1 (A : Args) : (⟨S16x64x2048, .f32⟩ : BufTy).Contents (Elt Ideal) :=
  ((fun l r => Host.dotGeneral (F := Ideal) (φ₁ := .f32) (φ₂ := .f32) dot_S16x64x1024_S1024x2048_S16x64x2048_2_0_01_1_n_n none l r)) A.a4 A.a1

def st_v2 (A : Args) : (⟨S16x64x2048, .f32⟩ : BufTy).Contents (Elt Ideal) :=
  ((fun l r => Host.dotGeneral (F := Ideal) (φ₁ := .f32) (φ₂ := .f32) dot_S16x64x1024_S1024x2048_S16x64x2048_2_0_01_1_n_n none l r)) A.a5 A.a2

def st_v3 (A : Args) : (⟨S16x2048x2048, .f32⟩ : BufTy).Contents (Elt Ideal) :=
  ((fun l r => Host.dotGeneral (F := Ideal) (φ₁ := .f32) (φ₂ := .f32) dot_S16x64x2048_S16x64x2048_S16x2048x2048_1_1_2_2_0_0 none l r)) (st_v0 A) (st_v1 A)

def st_cst (A : Args) : (⟨S_, .f32⟩ : BufTy).Contents (Elt Ideal) :=
  constant (F := Ideal) S_ .f32 0x41000000#32

def st_v4 (A : Args) : (⟨S16x2048x2048, .f32⟩ : BufTy).Contents (Elt Ideal) :=
  (broadcastInDim S16x2048x2048 ![] bcast_S_S16x2048x2048) (st_cst A)

def st_v5 (A : Args) : (⟨S16x2048x2048, .f32⟩ : BufTy).Contents (Elt Ideal) :=
  (Host.divf (F := Ideal) (φ := .f32)) (st_v3 A) (st_v4 A)

def st_v6 (A : Args) : (⟨S2048x2048, .i32⟩ : BufTy).Contents (Elt Ideal) :=
  iotaInDim S2048x2048 32 0

def st_v7 (A : Args) : (⟨S2048x2048, .i32⟩ : BufTy).Contents (Elt Ideal) :=
  iotaInDim S2048x2048 32 1

def st_c (A : Args) : (⟨S_, .i32⟩ : BufTy).Contents (Elt Ideal) :=
  constantI S_ 32 0#32

def st_v8 (A : Args) : (⟨S2048x2048, .i32⟩ : BufTy).Contents (Elt Ideal) :=
  (broadcastInDim S2048x2048 ![] bcast_S_S2048x2048) (st_c A)

def st_v9 (A : Args) : (⟨S2048x2048, .i32⟩ : BufTy).Contents (Elt Ideal) :=
  (addi) (st_v6 A) (st_v8 A)

def st_v10 (A : Args) : (⟨S2048x2048, .i1⟩ : BufTy).Contents (Elt Ideal) :=
  (cmpi .eq) (st_v9 A) (st_v7 A)

def st_v11 (A : Args) : (⟨S2048x2048, .f32⟩ : BufTy).Contents (Elt Ideal) :=
  (uitofp (F := Ideal) .f32) (st_v10 A)

def st_cst_0 (A : Args) : (⟨S_, .f32⟩ : BufTy).Contents (Elt Ideal) :=
  constant (F := Ideal) S_ .f32 0xC7C35000#32

def st_v12 (A : Args) : (⟨S2048x2048, .f32⟩ : BufTy).Contents (Elt Ideal) :=
  (broadcastInDim S2048x2048 ![] bcast_S_S2048x2048) (st_cst_0 A)

def st_v13 (A : Args) : (⟨S2048x2048, .f32⟩ : BufTy).Contents (Elt Ideal) :=
  (mulf (F := Ideal) (φ := .f32)) (st_v12 A) (st_v11 A)

def st_v14 (A : Args) : (⟨S1x2048x2048, .f32⟩ : BufTy).Contents (Elt Ideal) :=
  (broadcastInDim S1x2048x2048 ![1, 2] bcast_S2048x2048_S1x2048x2048_1_2) (st_v13 A)

def st_v15 (A : Args) : (⟨S16x2048x2048, .f32⟩ : BufTy).Contents (Elt Ideal) :=
  (broadcastInDim S16x2048x2048 ![0, 1, 2] bcast_S1x2048x2048_S16x2048x2048_0_1_2) (st_v14 A)

def st_v16 (A : Args) : (⟨S16x2048x2048, .f32⟩ : BufTy).Contents (Elt Ideal) :=
  (addf (F := Ideal) (φ := .f32)) (st_v5 A) (st_v15 A)

def st_cst_1 (A : Args) : (⟨S_, .f32⟩ : BufTy).Contents (Elt Ideal) :=
  constant (F := Ideal) S_ .f32 0xFF800000#32

def st_v17 (A : Args) : (⟨S16x2048, .f32⟩ : BufTy).Contents (Elt Ideal) :=
  ((fun x v => Host.reduce (FloatOps.maximumf (F := Ideal) (φ := .f32)) x v reducesTo_S16x2048x2048_S16x2048_d2 h_S_)) (st_v16 A) (st_cst_1 A)

def st_cst_2 (A : Args) : (⟨S_, .f32⟩ : BufTy).Contents (Elt Ideal) :=
  constant (F := Ideal) S_ .f32 0xFF800000#32

def st_v18 (A : Args) : (⟨S16x2048, .f32⟩ : BufTy).Contents (Elt Ideal) :=
  (broadcastInDim S16x2048 ![] bcast_S_S16x2048) (st_cst_2 A)

def st_v19 (A : Args) : (⟨S16x2048, .f32⟩ : BufTy).Contents (Elt Ideal) :=
  (maximumf (F := Ideal) (φ := .f32)) (st_v18 A) (st_v17 A)

def st_v20 (A : Args) : (⟨S16x2048x1, .f32⟩ : BufTy).Contents (Elt Ideal) :=
  (broadcastInDim S16x2048x1 ![0, 1] bcast_S16x2048_S16x2048x1_0_1) (st_v19 A)

def st_v21 (A : Args) : (⟨S16x2048x2048, .f32⟩ : BufTy).Contents (Elt Ideal) :=
  (broadcastInDim S16x2048x2048 ![0, 1, 2] bcast_S16x2048x1_S16x2048x2048_0_1_2) (st_v20 A)

def st_v22 (A : Args) : (⟨S16x2048x2048, .f32⟩ : BufTy).Contents (Elt Ideal) :=
  (subf (F := Ideal) (φ := .f32)) (st_v16 A) (st_v21 A)

def st_v23 (A : Args) : (⟨S16x2048x2048, .f32⟩ : BufTy).Contents (Elt Ideal) :=
  (Host.exp (F := Ideal) (φ := .f32)) (st_v22 A)

def st_cst_3 (A : Args) : (⟨S_, .f32⟩ : BufTy).Contents (Elt Ideal) :=
  constant (F := Ideal) S_ .f32 0x00000000#32

def st_v24 (A : Args) : (⟨S16x2048, .f32⟩ : BufTy).Contents (Elt Ideal) :=
  ((fun x v => Host.reduceAdd (F := Ideal) (φ := .f32) x v reducesTo_S16x2048x2048_S16x2048_d2 h_S_)) (st_v23 A) (st_cst_3 A)

def st_v25 (A : Args) : (⟨S16x2048x1, .f32⟩ : BufTy).Contents (Elt Ideal) :=
  (broadcastInDim S16x2048x1 ![0, 1] bcast_S16x2048_S16x2048x1_0_1) (st_v24 A)

def st_v26 (A : Args) : (⟨S16x2048x2048, .f32⟩ : BufTy).Contents (Elt Ideal) :=
  (broadcastInDim S16x2048x2048 ![0, 1, 2] bcast_S16x2048x1_S16x2048x2048_0_1_2) (st_v25 A)

def st_v27 (A : Args) : (⟨S16x2048x2048, .f32⟩ : BufTy).Contents (Elt Ideal) :=
  (Host.divf (F := Ideal) (φ := .f32)) (st_v23 A) (st_v26 A)

def st_v28 (A : Args) : (⟨S16x2048x64, .f32⟩ : BufTy).Contents (Elt Ideal) :=
  ((fun l r => Host.dotGeneral (F := Ideal) (φ₁ := .f32) (φ₂ := .f32) dot_S16x2048x2048_S16x64x2048_S16x2048x64_2_2_1_1_0_0 none l r)) (st_v27 A) (st_v2 A)

def st_v29 (A : Args) : (⟨S2048x16x64, .f32⟩ : BufTy).Contents (Elt Ideal) :=
  ((transpose S2048x16x64 [1, 0, 2] · transposes_S16x2048x64_S2048x16x64_1_0_2)) (st_v28 A)

def st_v30 (A : Args) : (⟨S2048x1024, .f32⟩ : BufTy).Contents (Elt Ideal) :=
  shapeCast S2048x1024 (st_v29 A) shapeCasts_S2048x16x64_S2048x1024

def st_v31 (A : Args) : (⟨S2048x1024, .f32⟩ : BufTy).Contents (Elt Ideal) :=
  ((fun l r => Host.dotGeneral (F := Ideal) (φ₁ := .f32) (φ₂ := .f32) dot_S2048x1024_S1024x1024_S2048x1024_1_0_0_1_n_n none l r)) (st_v30 A) A.a6

def st_v32 (A : Args) : (⟨S2048x1024, .f32⟩ : BufTy).Contents (Elt Ideal) :=
  ((transpose S2048x1024 [1, 0] · transposes_S1024x2048_S2048x1024_1_0)) A.a2

def st_v33 (A : Args) : (⟨S2048x1024, .f32⟩ : BufTy).Contents (Elt Ideal) :=
  (addf (F := Ideal) (φ := .f32)) (st_v32 A) (st_v31 A)

def st_cst_4 (A : Args) : (⟨S_, .f32⟩ : BufTy).Contents (Elt Ideal) :=
  constant (F := Ideal) S_ .f32 0x00000000#32

def st_v34 (A : Args) : (⟨S2048, .f32⟩ : BufTy).Contents (Elt Ideal) :=
  ((fun x v => Host.reduceAdd (F := Ideal) (φ := .f32) x v reducesTo_S2048x1024_S2048_d1 h_S_)) (st_v33 A) (st_cst_4 A)

def st_v35 (A : Args) : (⟨S2048x1, .f32⟩ : BufTy).Contents (Elt Ideal) :=
  (broadcastInDim S2048x1 ![0] bcast_S2048_S2048x1_0) (st_v34 A)

def st_cst_5 (A : Args) : (⟨S_, .f32⟩ : BufTy).Contents (Elt Ideal) :=
  constant (F := Ideal) S_ .f32 0x44800000#32

def st_v36 (A : Args) : (⟨S2048x1, .f32⟩ : BufTy).Contents (Elt Ideal) :=
  (broadcastInDim S2048x1 ![] bcast_S_S2048x1) (st_cst_5 A)

def st_v37 (A : Args) : (⟨S2048x1, .f32⟩ : BufTy).Contents (Elt Ideal) :=
  (Host.divf (F := Ideal) (φ := .f32)) (st_v35 A) (st_v36 A)

def st_c_6 (A : Args) : (⟨S_, .i32⟩ : BufTy).Contents (Elt Ideal) :=
  constantI S_ 32 1#32

def st_call0_call0_cst (A : Args) : (⟨S_, .f32⟩ : BufTy).Contents (Elt Ideal) :=
  constant (F := Ideal) S_ .f32 0x00000000#32

def st_call0_call0_v0 (A : Args) : (⟨S2048, .f32⟩ : BufTy).Contents (Elt Ideal) :=
  ((fun x v => Host.reduceAdd (F := Ideal) (φ := .f32) x v reducesTo_S2048x1024_S2048_d1 h_S_)) (st_v33 A) (st_call0_call0_cst A)

def st_call0_call0_v1 (A : Args) : (⟨S2048x1, .f32⟩ : BufTy).Contents (Elt Ideal) :=
  ((broadcastInDim S2048x1 ![0] bcast_S2048_S2048x1_0)) (st_call0_call0_v0 A)

def st_call0_call0_cst_0 (A : Args) : (⟨S_, .f32⟩ : BufTy).Contents (Elt Ideal) :=
  constant (F := Ideal) S_ .f32 0x44800000#32

def st_call0_call0_v2 (A : Args) : (⟨S2048x1, .f32⟩ : BufTy).Contents (Elt Ideal) :=
  ((broadcastInDim S2048x1 ![] bcast_S_S2048x1)) (st_call0_call0_cst_0 A)

def st_call0_call0_v3 (A : Args) : (⟨S2048x1, .f32⟩ : BufTy).Contents (Elt Ideal) :=
  (Host.divf (F := Ideal) (φ := .f32)) (st_call0_call0_v1 A) (st_call0_call0_v2 A)

def st_call0_call0_v4 (A : Args) : (⟨S2048x1024, .f32⟩ : BufTy).Contents (Elt Ideal) :=
  ((broadcastInDim S2048x1024 ![0, 1] bcast_S2048x1_S2048x1024_0_1)) (st_call0_call0_v3 A)

def st_call0_call0_v5 (A : Args) : (⟨S2048x1024, .f32⟩ : BufTy).Contents (Elt Ideal) :=
  (subf (F := Ideal) (φ := .f32)) (st_v33 A) (st_call0_call0_v4 A)

def st_call0_call0_v6 (A : Args) : (⟨S2048x1024, .f32⟩ : BufTy).Contents (Elt Ideal) :=
  (mulf (F := Ideal) (φ := .f32)) (st_call0_call0_v5 A) (st_call0_call0_v5 A)

def st_call0_call0_v7 (A : Args) : (⟨S_, .f32⟩ : BufTy).Contents (Elt Ideal) :=
  ((sitofp (F := Ideal) .f32)) (st_c_6 A)

def st_call0_call0_cst_1 (A : Args) : (⟨S_, .f32⟩ : BufTy).Contents (Elt Ideal) :=
  constant (F := Ideal) S_ .f32 0x44800000#32

def st_call0_call0_v8 (A : Args) : (⟨S_, .f32⟩ : BufTy).Contents (Elt Ideal) :=
  (subf (F := Ideal) (φ := .f32)) (st_call0_call0_cst_1 A) (st_call0_call0_v7 A)

def st_call0_call0_cst_2 (A : Args) : (⟨S_, .f32⟩ : BufTy).Contents (Elt Ideal) :=
  constant (F := Ideal) S_ .f32 0x00000000#32

def st_call0_call0_v9 (A : Args) : (⟨S2048, .f32⟩ : BufTy).Contents (Elt Ideal) :=
  ((fun x v => Host.reduceAdd (F := Ideal) (φ := .f32) x v reducesTo_S2048x1024_S2048_d1 h_S_)) (st_call0_call0_v6 A) (st_call0_call0_cst_2 A)

def st_call0_call0_v10 (A : Args) : (⟨S2048x1, .f32⟩ : BufTy).Contents (Elt Ideal) :=
  ((broadcastInDim S2048x1 ![0] bcast_S2048_S2048x1_0)) (st_call0_call0_v9 A)

def st_call0_call0_v11 (A : Args) : (⟨S2048x1, .f32⟩ : BufTy).Contents (Elt Ideal) :=
  ((broadcastInDim S2048x1 ![] bcast_S_S2048x1)) (st_call0_call0_v8 A)

def st_call0_call0_v12 (A : Args) : (⟨S2048x1, .f32⟩ : BufTy).Contents (Elt Ideal) :=
  (Host.divf (F := Ideal) (φ := .f32)) (st_call0_call0_v10 A) (st_call0_call0_v11 A)

def st_call0_call0_cst_3 (A : Args) : (⟨S_, .f32⟩ : BufTy).Contents (Elt Ideal) :=
  constant (F := Ideal) S_ .f32 0x00000000#32

def st_call0_call0_v13 (A : Args) : (⟨S_, .i1⟩ : BufTy).Contents (Elt Ideal) :=
  ((cmpf (F := Ideal) (φ := .f32) .ogt)) (st_call0_call0_v8 A) (st_call0_call0_cst_3 A)

def st_call0_call0_cst_4 (A : Args) : (⟨S_, .f32⟩ : BufTy).Contents (Elt Ideal) :=
  constant (F := Ideal) S_ .f32 0x7FC00000#32

def st_call0_call0_call0_v0 (A : Args) : (⟨S_, .f32⟩ : BufTy).Contents (Elt Ideal) :=
  (id) (st_call0_call0_cst_4 A)

def st_call0_call0_call0_v1 (A : Args) : (⟨S2048x1, .f32⟩ : BufTy).Contents (Elt Ideal) :=
  ((broadcastInDim S2048x1 ![] bcast_S_S2048x1)) (st_call0_call0_call0_v0 A)

def st_call0_v0 (A : Args) : (⟨S2048x1, .f32⟩ : BufTy).Contents (Elt Ideal) :=
  ((fun p a b => select (broadcastInDim S2048x1 ![] bcast_S_S2048x1 p) a b)) (st_call0_call0_v13 A) (st_call0_call0_v12 A) (st_call0_call0_call0_v1 A)

def st_v38 (A : Args) : (⟨S2048x1, .f32⟩ : BufTy).Contents (Elt Ideal) :=
  (Host.sqrt (F := Ideal) (φ := .f32)) (st_call0_v0 A)

def st_v39 (A : Args) : (⟨S2048x1024, .f32⟩ : BufTy).Contents (Elt Ideal) :=
  (broadcastInDim S2048x1024 ![0, 1] bcast_S2048x1_S2048x1024_0_1) (st_v37 A)

def st_v40 (A : Args) : (⟨S2048x1024, .f32⟩ : BufTy).Contents (Elt Ideal) :=
  (subf (F := Ideal) (φ := .f32)) (st_v33 A) (st_v39 A)

def st_cst_7 (A : Args) : (⟨S_, .f32⟩ : BufTy).Contents (Elt Ideal) :=
  constant (F := Ideal) S_ .f32 0x3A83126F#32

def st_v41 (A : Args) : (⟨S2048x1, .f32⟩ : BufTy).Contents (Elt Ideal) :=
  (broadcastInDim S2048x1 ![] bcast_S_S2048x1) (st_cst_7 A)

def st_v42 (A : Args) : (⟨S2048x1, .f32⟩ : BufTy).Contents (Elt Ideal) :=
  (addf (F := Ideal) (φ := .f32)) (st_v38 A) (st_v41 A)

def st_v43 (A : Args) : (⟨S2048x1024, .f32⟩ : BufTy).Contents (Elt Ideal) :=
  (broadcastInDim S2048x1024 ![0, 1] bcast_S2048x1_S2048x1024_0_1) (st_v42 A)

def st_v44 (A : Args) : (⟨S2048x1024, .f32⟩ : BufTy).Contents (Elt Ideal) :=
  (Host.divf (F := Ideal) (φ := .f32)) (st_v40 A) (st_v43 A)

def st_v45 (A : Args) : (⟨S1x1024, .f32⟩ : BufTy).Contents (Elt Ideal) :=
  (broadcastInDim S1x1024 ![1] bcast_S1024_S1x1024_1) A.a11

def st_v46 (A : Args) : (⟨S2048x1024, .f32⟩ : BufTy).Contents (Elt Ideal) :=
  (broadcastInDim S2048x1024 ![0, 1] bcast_S1x1024_S2048x1024_0_1) (st_v45 A)

def st_v47 (A : Args) : (⟨S2048x1024, .f32⟩ : BufTy).Contents (Elt Ideal) :=
  (mulf (F := Ideal) (φ := .f32)) (st_v44 A) (st_v46 A)

def st_v48 (A : Args) : (⟨S1x1024, .f32⟩ : BufTy).Contents (Elt Ideal) :=
  (broadcastInDim S1x1024 ![1] bcast_S1024_S1x1024_1) A.a12

def st_v49 (A : Args) : (⟨S2048x1024, .f32⟩ : BufTy).Contents (Elt Ideal) :=
  (broadcastInDim S2048x1024 ![0, 1] bcast_S1x1024_S2048x1024_0_1) (st_v48 A)

def st_v50 (A : Args) : (⟨S2048x1024, .f32⟩ : BufTy).Contents (Elt Ideal) :=
  (addf (F := Ideal) (φ := .f32)) (st_v47 A) (st_v49 A)

def st_v51 (A : Args) : (⟨S1024x2048, .f32⟩ : BufTy).Contents (Elt Ideal) :=
  ((transpose S1024x2048 [1, 0] · transposes_S2048x1024_S1024x2048_1_0)) (st_v50 A)

def st_v52 (A : Args) : (⟨S4096x2048, .f32⟩ : BufTy).Contents (Elt Ideal) :=
  ((fun l r => Host.dotGeneral (F := Ideal) (φ₁ := .f32) (φ₂ := .f32) dot_S4096x1024_S1024x2048_S4096x2048_1_0_0_1_n_n none l r)) A.a7 (st_v51 A)

def st_v53 (A : Args) : (⟨S4096x1, .f32⟩ : BufTy).Contents (Elt Ideal) :=
  (broadcastInDim S4096x1 ![0] bcast_S4096_S4096x1_0) A.a8

def st_v54 (A : Args) : (⟨S4096x2048, .f32⟩ : BufTy).Contents (Elt Ideal) :=
  (broadcastInDim S4096x2048 ![0, 1] bcast_S4096x1_S4096x2048_0_1) (st_v53 A)

def st_v55 (A : Args) : (⟨S4096x2048, .f32⟩ : BufTy).Contents (Elt Ideal) :=
  (addf (F := Ideal) (φ := .f32)) (st_v52 A) (st_v54 A)

def st_call1_cst (A : Args) : (⟨S_, .f32⟩ : BufTy).Contents (Elt Ideal) :=
  constant (F := Ideal) S_ .f32 0x00000000#32

def st_call1_v0 (A : Args) : (⟨S4096x2048, .f32⟩ : BufTy).Contents (Elt Ideal) :=
  ((broadcastInDim S4096x2048 ![] bcast_S_S4096x2048)) (st_call1_cst A)

def st_v56 (A : Args) : (⟨S4096x2048, .f32⟩ : BufTy).Contents (Elt Ideal) :=
  (maximumf (F := Ideal) (φ := .f32)) (st_v55 A) (st_call1_v0 A)

def st_v57 (A : Args) : (⟨S1024x2048, .f32⟩ : BufTy).Contents (Elt Ideal) :=
  ((fun l r => Host.dotGeneral (F := Ideal) (φ₁ := .f32) (φ₂ := .f32) dot_S1024x4096_S4096x2048_S1024x2048_1_0_0_1_n_n none l r)) A.a9 (st_v56 A)

def st_v58 (A : Args) : (⟨S1024x1, .f32⟩ : BufTy).Contents (Elt Ideal) :=
  (broadcastInDim S1024x1 ![0] bcast_S1024_S1024x1_0) A.a10

def st_v59 (A : Args) : (⟨S1024x2048, .f32⟩ : BufTy).Contents (Elt Ideal) :=
  (broadcastInDim S1024x2048 ![0, 1] bcast_S1024x1_S1024x2048_0_1) (st_v58 A)

def st_v60 (A : Args) : (⟨S1024x2048, .f32⟩ : BufTy).Contents (Elt Ideal) :=
  (addf (F := Ideal) (φ := .f32)) (st_v57 A) (st_v59 A)

def st_v61 (A : Args) : (⟨S2048x1024, .f32⟩ : BufTy).Contents (Elt Ideal) :=
  ((transpose S2048x1024 [1, 0] · transposes_S1024x2048_S2048x1024_1_0)) (st_v51 A)

def st_v62 (A : Args) : (⟨S2048x1024, .f32⟩ : BufTy).Contents (Elt Ideal) :=
  ((transpose S2048x1024 [1, 0] · transposes_S1024x2048_S2048x1024_1_0)) (st_v60 A)

def st_v63 (A : Args) : (⟨S2048x1024, .f32⟩ : BufTy).Contents (Elt Ideal) :=
  (addf (F := Ideal) (φ := .f32)) (st_v61 A) (st_v62 A)

def st_cst_8 (A : Args) : (⟨S_, .f32⟩ : BufTy).Contents (Elt Ideal) :=
  constant (F := Ideal) S_ .f32 0x00000000#32

def st_v64 (A : Args) : (⟨S2048, .f32⟩ : BufTy).Contents (Elt Ideal) :=
  ((fun x v => Host.reduceAdd (F := Ideal) (φ := .f32) x v reducesTo_S2048x1024_S2048_d1 h_S_)) (st_v63 A) (st_cst_8 A)

def st_v65 (A : Args) : (⟨S2048x1, .f32⟩ : BufTy).Contents (Elt Ideal) :=
  (broadcastInDim S2048x1 ![0] bcast_S2048_S2048x1_0) (st_v64 A)

def st_cst_9 (A : Args) : (⟨S_, .f32⟩ : BufTy).Contents (Elt Ideal) :=
  constant (F := Ideal) S_ .f32 0x44800000#32

def st_v66 (A : Args) : (⟨S2048x1, .f32⟩ : BufTy).Contents (Elt Ideal) :=
  (broadcastInDim S2048x1 ![] bcast_S_S2048x1) (st_cst_9 A)

def st_v67 (A : Args) : (⟨S2048x1, .f32⟩ : BufTy).Contents (Elt Ideal) :=
  (Host.divf (F := Ideal) (φ := .f32)) (st_v65 A) (st_v66 A)

def st_c_10 (A : Args) : (⟨S_, .i32⟩ : BufTy).Contents (Elt Ideal) :=
  constantI S_ 32 1#32

def st_call2_call0_cst (A : Args) : (⟨S_, .f32⟩ : BufTy).Contents (Elt Ideal) :=
  constant (F := Ideal) S_ .f32 0x00000000#32

def st_call2_call0_v0 (A : Args) : (⟨S2048, .f32⟩ : BufTy).Contents (Elt Ideal) :=
  ((fun x v => Host.reduceAdd (F := Ideal) (φ := .f32) x v reducesTo_S2048x1024_S2048_d1 h_S_)) (st_v63 A) (st_call2_call0_cst A)

def st_call2_call0_v1 (A : Args) : (⟨S2048x1, .f32⟩ : BufTy).Contents (Elt Ideal) :=
  ((broadcastInDim S2048x1 ![0] bcast_S2048_S2048x1_0)) (st_call2_call0_v0 A)

def st_call2_call0_cst_0 (A : Args) : (⟨S_, .f32⟩ : BufTy).Contents (Elt Ideal) :=
  constant (F := Ideal) S_ .f32 0x44800000#32

def st_call2_call0_v2 (A : Args) : (⟨S2048x1, .f32⟩ : BufTy).Contents (Elt Ideal) :=
  ((broadcastInDim S2048x1 ![] bcast_S_S2048x1)) (st_call2_call0_cst_0 A)

def st_call2_call0_v3 (A : Args) : (⟨S2048x1, .f32⟩ : BufTy).Contents (Elt Ideal) :=
  (Host.divf (F := Ideal) (φ := .f32)) (st_call2_call0_v1 A) (st_call2_call0_v2 A)

def st_call2_call0_v4 (A : Args) : (⟨S2048x1024, .f32⟩ : BufTy).Contents (Elt Ideal) :=
  ((broadcastInDim S2048x1024 ![0, 1] bcast_S2048x1_S2048x1024_0_1)) (st_call2_call0_v3 A)

def st_call2_call0_v5 (A : Args) : (⟨S2048x1024, .f32⟩ : BufTy).Contents (Elt Ideal) :=
  (subf (F := Ideal) (φ := .f32)) (st_v63 A) (st_call2_call0_v4 A)

def st_call2_call0_v6 (A : Args) : (⟨S2048x1024, .f32⟩ : BufTy).Contents (Elt Ideal) :=
  (mulf (F := Ideal) (φ := .f32)) (st_call2_call0_v5 A) (st_call2_call0_v5 A)

def st_call2_call0_v7 (A : Args) : (⟨S_, .f32⟩ : BufTy).Contents (Elt Ideal) :=
  ((sitofp (F := Ideal) .f32)) (st_c_10 A)

def st_call2_call0_cst_1 (A : Args) : (⟨S_, .f32⟩ : BufTy).Contents (Elt Ideal) :=
  constant (F := Ideal) S_ .f32 0x44800000#32

def st_call2_call0_v8 (A : Args) : (⟨S_, .f32⟩ : BufTy).Contents (Elt Ideal) :=
  (subf (F := Ideal) (φ := .f32)) (st_call2_call0_cst_1 A) (st_call2_call0_v7 A)

def st_call2_call0_cst_2 (A : Args) : (⟨S_, .f32⟩ : BufTy).Contents (Elt Ideal) :=
  constant (F := Ideal) S_ .f32 0x00000000#32

def st_call2_call0_v9 (A : Args) : (⟨S2048, .f32⟩ : BufTy).Contents (Elt Ideal) :=
  ((fun x v => Host.reduceAdd (F := Ideal) (φ := .f32) x v reducesTo_S2048x1024_S2048_d1 h_S_)) (st_call2_call0_v6 A) (st_call2_call0_cst_2 A)

def st_call2_call0_v10 (A : Args) : (⟨S2048x1, .f32⟩ : BufTy).Contents (Elt Ideal) :=
  ((broadcastInDim S2048x1 ![0] bcast_S2048_S2048x1_0)) (st_call2_call0_v9 A)

def st_call2_call0_v11 (A : Args) : (⟨S2048x1, .f32⟩ : BufTy).Contents (Elt Ideal) :=
  ((broadcastInDim S2048x1 ![] bcast_S_S2048x1)) (st_call2_call0_v8 A)

def st_call2_call0_v12 (A : Args) : (⟨S2048x1, .f32⟩ : BufTy).Contents (Elt Ideal) :=
  (Host.divf (F := Ideal) (φ := .f32)) (st_call2_call0_v10 A) (st_call2_call0_v11 A)

def st_call2_call0_cst_3 (A : Args) : (⟨S_, .f32⟩ : BufTy).Contents (Elt Ideal) :=
  constant (F := Ideal) S_ .f32 0x00000000#32

def st_call2_call0_v13 (A : Args) : (⟨S_, .i1⟩ : BufTy).Contents (Elt Ideal) :=
  ((cmpf (F := Ideal) (φ := .f32) .ogt)) (st_call2_call0_v8 A) (st_call2_call0_cst_3 A)

def st_call2_call0_cst_4 (A : Args) : (⟨S_, .f32⟩ : BufTy).Contents (Elt Ideal) :=
  constant (F := Ideal) S_ .f32 0x7FC00000#32

def st_call2_call0_call0_v0 (A : Args) : (⟨S_, .f32⟩ : BufTy).Contents (Elt Ideal) :=
  (id) (st_call2_call0_cst_4 A)

def st_call2_call0_call0_v1 (A : Args) : (⟨S2048x1, .f32⟩ : BufTy).Contents (Elt Ideal) :=
  ((broadcastInDim S2048x1 ![] bcast_S_S2048x1)) (st_call2_call0_call0_v0 A)

def st_call2_v0 (A : Args) : (⟨S2048x1, .f32⟩ : BufTy).Contents (Elt Ideal) :=
  ((fun p a b => select (broadcastInDim S2048x1 ![] bcast_S_S2048x1 p) a b)) (st_call2_call0_v13 A) (st_call2_call0_v12 A) (st_call2_call0_call0_v1 A)

def st_v68 (A : Args) : (⟨S2048x1, .f32⟩ : BufTy).Contents (Elt Ideal) :=
  (Host.sqrt (F := Ideal) (φ := .f32)) (st_call2_v0 A)

def st_v69 (A : Args) : (⟨S2048x1024, .f32⟩ : BufTy).Contents (Elt Ideal) :=
  (broadcastInDim S2048x1024 ![0, 1] bcast_S2048x1_S2048x1024_0_1) (st_v67 A)

def st_v70 (A : Args) : (⟨S2048x1024, .f32⟩ : BufTy).Contents (Elt Ideal) :=
  (subf (F := Ideal) (φ := .f32)) (st_v63 A) (st_v69 A)

def st_cst_11 (A : Args) : (⟨S_, .f32⟩ : BufTy).Contents (Elt Ideal) :=
  constant (F := Ideal) S_ .f32 0x3A83126F#32

def st_v71 (A : Args) : (⟨S2048x1, .f32⟩ : BufTy).Contents (Elt Ideal) :=
  (broadcastInDim S2048x1 ![] bcast_S_S2048x1) (st_cst_11 A)

def st_v72 (A : Args) : (⟨S2048x1, .f32⟩ : BufTy).Contents (Elt Ideal) :=
  (addf (F := Ideal) (φ := .f32)) (st_v68 A) (st_v71 A)

def st_v73 (A : Args) : (⟨S2048x1024, .f32⟩ : BufTy).Contents (Elt Ideal) :=
  (broadcastInDim S2048x1024 ![0, 1] bcast_S2048x1_S2048x1024_0_1) (st_v72 A)

def st_v74 (A : Args) : (⟨S2048x1024, .f32⟩ : BufTy).Contents (Elt Ideal) :=
  (Host.divf (F := Ideal) (φ := .f32)) (st_v70 A) (st_v73 A)

def st_v75 (A : Args) : (⟨S1x1024, .f32⟩ : BufTy).Contents (Elt Ideal) :=
  (broadcastInDim S1x1024 ![1] bcast_S1024_S1x1024_1) A.a11

def st_v76 (A : Args) : (⟨S2048x1024, .f32⟩ : BufTy).Contents (Elt Ideal) :=
  (broadcastInDim S2048x1024 ![0, 1] bcast_S1x1024_S2048x1024_0_1) (st_v75 A)

def st_v77 (A : Args) : (⟨S2048x1024, .f32⟩ : BufTy).Contents (Elt Ideal) :=
  (mulf (F := Ideal) (φ := .f32)) (st_v74 A) (st_v76 A)

def st_v78 (A : Args) : (⟨S1x1024, .f32⟩ : BufTy).Contents (Elt Ideal) :=
  (broadcastInDim S1x1024 ![1] bcast_S1024_S1x1024_1) A.a12

def st_v79 (A : Args) : (⟨S2048x1024, .f32⟩ : BufTy).Contents (Elt Ideal) :=
  (broadcastInDim S2048x1024 ![0, 1] bcast_S1x1024_S2048x1024_0_1) (st_v78 A)

def st_v80 (A : Args) : (⟨S2048x1024, .f32⟩ : BufTy).Contents (Elt Ideal) :=
  (addf (F := Ideal) (φ := .f32)) (st_v77 A) (st_v79 A)

def st_v81 (A : Args) : (⟨S1024x2048, .f32⟩ : BufTy).Contents (Elt Ideal) :=
  ((transpose S1024x2048 [1, 0] · transposes_S2048x1024_S1024x2048_1_0)) (st_v80 A)

end Cert.ReferenceIdeal.Hand

end
-- ==== Proof.Ref.ValA.lean ====
import proofs.«176467_j34754875359699_1_alg».proof.Proof.Ref.Ops
import proofs.«176467_j34754875359699_1_alg».proof.Proof.Ref.Stages

noncomputable section

namespace Cert.ReferenceIdeal.Hand

open Cert.ReferenceIdeal Idealize.ShloMosaic Idealize.ShloMosaic.TcCoe Idealize.SL.Sem
open Idealize.ShloMosaic.StableHlo

local macro "fin(" V:term "," r:term ")" : term =>
  `(after (ops (F := Ideal)) $V (Proc.devRef (τ := τ) .tc $r))

def argsOf (V : Valuation τ sig (Elt Ideal)) : Args :=
  ⟨V (Proc.devRef .tc main_arg0), V (Proc.devRef .tc main_arg1), V (Proc.devRef .tc main_arg2), V (Proc.devRef .tc main_arg3),
    V (Proc.devRef .tc main_arg4), V (Proc.devRef .tc main_arg5), V (Proc.devRef .tc main_arg6), V (Proc.devRef .tc main_arg7),
    V (Proc.devRef .tc main_arg8), V (Proc.devRef .tc main_arg9), V (Proc.devRef .tc main_arg10), V (Proc.devRef .tc main_arg11),
    V (Proc.devRef .tc main_arg12)⟩

variable (V : Valuation τ sig (Elt Ideal))

theorem val_arg0 : fin(V, main_arg0) = (argsOf V).a0 := Ssa.untouched writes_ops (by decide) V
theorem val_arg1 : fin(V, main_arg1) = (argsOf V).a1 := Ssa.untouched writes_ops (by decide) V
theorem val_arg2 : fin(V, main_arg2) = (argsOf V).a2 := Ssa.untouched writes_ops (by decide) V
theorem val_arg3 : fin(V, main_arg3) = (argsOf V).a3 := Ssa.untouched writes_ops (by decide) V
theorem val_arg4 : fin(V, main_arg4) = (argsOf V).a4 := Ssa.untouched writes_ops (by decide) V
theorem val_arg5 : fin(V, main_arg5) = (argsOf V).a5 := Ssa.untouched writes_ops (by decide) V
theorem val_arg6 : fin(V, main_arg6) = (argsOf V).a6 := Ssa.untouched writes_ops (by decide) V
theorem val_arg7 : fin(V, main_arg7) = (argsOf V).a7 := Ssa.untouched writes_ops (by decide) V
theorem val_arg8 : fin(V, main_arg8) = (argsOf V).a8 := Ssa.untouched writes_ops (by decide) V
theorem val_arg9 : fin(V, main_arg9) = (argsOf V).a9 := Ssa.untouched writes_ops (by decide) V
theorem val_arg10 : fin(V, main_arg10) = (argsOf V).a10 := Ssa.untouched writes_ops (by decide) V
theorem val_arg11 : fin(V, main_arg11) = (argsOf V).a11 := Ssa.untouched writes_ops (by decide) V
theorem val_arg12 : fin(V, main_arg12) = (argsOf V).a12 := Ssa.untouched writes_ops (by decide) V

theorem val_v0 : fin(V, main_v0) = st_v0 (argsOf V) := (Ssa.binaryV writes_ops 0 rfl (by decide) (by decide) (by decide) (val_arg3 V) (val_arg0 V)).trans rfl
theorem val_v1 : fin(V, main_v1) = st_v1 (argsOf V) := (Ssa.binaryV writes_ops 1 rfl (by decide) (by decide) (by decide) (val_arg4 V) (val_arg1 V)).trans rfl
theorem val_v2 : fin(V, main_v2) = st_v2 (argsOf V) := (Ssa.binaryV writes_ops 2 rfl (by decide) (by decide) (by decide) (val_arg5 V) (val_arg2 V)).trans rfl
theorem val_v3 : fin(V, main_v3) = st_v3 (argsOf V) := (Ssa.binaryV writes_ops 3 rfl (by decide) (by decide) (by decide) (val_v0 V) (val_v1 V)).trans rfl
theorem val_cst : fin(V, main_cst) = st_cst (argsOf V) := (Ssa.nullaryV writes_ops 4 rfl (by decide)).trans rfl
theorem val_v4 : fin(V, main_v4) = st_v4 (argsOf V) := (Ssa.unaryV writes_ops 5 rfl (by decide) (by decide) (val_cst V)).trans rfl
theorem val_v5 : fin(V, main_v5) = st_v5 (argsOf V) := (Ssa.binaryV writes_ops 6 rfl (by decide) (by decide) (by decide) (val_v3 V) (val_v4 V)).trans rfl
theorem val_v6 : fin(V, main_v6) = st_v6 (argsOf V) := (Ssa.nullaryV writes_ops 7 rfl (by decide)).trans rfl
theorem val_v7 : fin(V, main_v7) = st_v7 (argsOf V) := (Ssa.nullaryV writes_ops 8 rfl (by decide)).trans rfl
theorem val_c : fin(V, main_c) = st_c (argsOf V) := (Ssa.nullaryV writes_ops 9 rfl (by decide)).trans rfl
theorem val_v8 : fin(V, main_v8) = st_v8 (argsOf V) := (Ssa.unaryV writes_ops 10 rfl (by decide) (by decide) (val_c V)).trans rfl
theorem val_v9 : fin(V, main_v9) = st_v9 (argsOf V) := (Ssa.binaryV writes_ops 11 rfl (by decide) (by decide) (by decide) (val_v6 V) (val_v8 V)).trans rfl
theorem val_v10 : fin(V, main_v10) = st_v10 (argsOf V) := (Ssa.binaryV writes_ops 12 rfl (by decide) (by decide) (by decide) (val_v9 V) (val_v7 V)).trans rfl
theorem val_v11 : fin(V, main_v11) = st_v11 (argsOf V) := (Ssa.unaryV writes_ops 13 rfl (by decide) (by decide) (val_v10 V)).trans rfl
theorem val_cst_0 : fin(V, main_cst_0) = st_cst_0 (argsOf V) := (Ssa.nullaryV writes_ops 14 rfl (by decide)).trans rfl
theorem val_v12 : fin(V, main_v12) = st_v12 (argsOf V) := (Ssa.unaryV writes_ops 15 rfl (by decide) (by decide) (val_cst_0 V)).trans rfl
theorem val_v13 : fin(V, main_v13) = st_v13 (argsOf V) := (Ssa.binaryV writes_ops 16 rfl (by decide) (by decide) (by decide) (val_v12 V) (val_v11 V)).trans rfl
theorem val_v14 : fin(V, main_v14) = st_v14 (argsOf V) := (Ssa.unaryV writes_ops 17 rfl (by decide) (by decide) (val_v13 V)).trans rfl
theorem val_v15 : fin(V, main_v15) = st_v15 (argsOf V) := (Ssa.unaryV writes_ops 18 rfl (by decide) (by decide) (val_v14 V)).trans rfl
theorem val_v16 : fin(V, main_v16) = st_v16 (argsOf V) := (Ssa.binaryV writes_ops 19 rfl (by decide) (by decide) (by decide) (val_v5 V) (val_v15 V)).trans rfl

theorem val_cst_1 : fin(V, main_cst_1) = st_cst_1 (argsOf V) := (Ssa.nullaryV writes_ops 20 rfl (by decide)).trans rfl
theorem val_v17 : fin(V, main_v17) = st_v17 (argsOf V) := (Ssa.binaryV writes_ops 21 rfl (by decide) (by decide) (by decide) (val_v16 V) (val_cst_1 V)).trans rfl
theorem val_cst_2 : fin(V, main_cst_2) = st_cst_2 (argsOf V) := (Ssa.nullaryV writes_ops 22 rfl (by decide)).trans rfl
theorem val_v18 : fin(V, main_v18) = st_v18 (argsOf V) := (Ssa.unaryV writes_ops 23 rfl (by decide) (by decide) (val_cst_2 V)).trans rfl
theorem val_v19 : fin(V, main_v19) = st_v19 (argsOf V) := (Ssa.binaryV writes_ops 24 rfl (by decide) (by decide) (by decide) (val_v18 V) (val_v17 V)).trans rfl
theorem val_v20 : fin(V, main_v20) = st_v20 (argsOf V) := (Ssa.unaryV writes_ops 25 rfl (by decide) (by decide) (val_v19 V)).trans rfl
theorem val_v21 : fin(V, main_v21) = st_v21 (argsOf V) := (Ssa.unaryV writes_ops 26 rfl (by decide) (by decide) (val_v20 V)).trans rfl
theorem val_v22 : fin(V, main_v22) = st_v22 (argsOf V) := (Ssa.binaryV writes_ops 27 rfl (by decide) (by decide) (by decide) (val_v16 V) (val_v21 V)).trans rfl
theorem val_v23 : fin(V, main_v23) = st_v23 (argsOf V) := (Ssa.unaryV writes_ops 28 rfl (by decide) (by decide) (val_v22 V)).trans rfl
theorem val_cst_3 : fin(V, main_cst_3) = st_cst_3 (argsOf V) := (Ssa.nullaryV writes_ops 29 rfl (by decide)).trans rfl
theorem val_v24 : fin(V, main_v24) = st_v24 (argsOf V) := (Ssa.binaryV writes_ops 30 rfl (by decide) (by decide) (by decide) (val_v23 V) (val_cst_3 V)).trans rfl
theorem val_v25 : fin(V, main_v25) = st_v25 (argsOf V) := (Ssa.unaryV writes_ops 31 rfl (by decide) (by decide) (val_v24 V)).trans rfl
theorem val_v26 : fin(V, main_v26) = st_v26 (argsOf V) := (Ssa.unaryV writes_ops 32 rfl (by decide) (by decide) (val_v25 V)).trans rfl
theorem val_v27 : fin(V, main_v27) = st_v27 (argsOf V) := (Ssa.binaryV writes_ops 33 rfl (by decide) (by decide) (by decide) (val_v23 V) (val_v26 V)).trans rfl
theorem val_v28 : fin(V, main_v28) = st_v28 (argsOf V) := (Ssa.binaryV writes_ops 34 rfl (by decide) (by decide) (by decide) (val_v27 V) (val_v2 V)).trans rfl
theorem val_v29 : fin(V, main_v29) = st_v29 (argsOf V) := (Ssa.unaryV writes_ops 35 rfl (by decide) (by decide) (val_v28 V)).trans rfl
theorem val_v30 : fin(V, main_v30) = st_v30 (argsOf V) := (Ssa.reshapeV writes_ops 36 rfl (by decide) (by decide) (val_v29 V)).trans rfl

theorem val_v31 : fin(V, main_v31) = st_v31 (argsOf V) := (Ssa.binaryV writes_ops 37 rfl (by decide) (by decide) (by decide) (val_v30 V) (val_arg6 V)).trans rfl
theorem val_v32 : fin(V, main_v32) = st_v32 (argsOf V) := (Ssa.unaryV writes_ops 38 rfl (by decide) (by decide) (val_arg2 V)).trans rfl
theorem val_v33 : fin(V, main_v33) = st_v33 (argsOf V) := (Ssa.binaryV writes_ops 39 rfl (by decide) (by decide) (by decide) (val_v32 V) (val_v31 V)).trans rfl
theorem val_cst_4 : fin(V, main_cst_4) = st_cst_4 (argsOf V) := (Ssa.nullaryV writes_ops 40 rfl (by decide)).trans rfl
theorem val_v34 : fin(V, main_v34) = st_v34 (argsOf V) := (Ssa.binaryV writes_ops 41 rfl (by decide) (by decide) (by decide) (val_v33 V) (val_cst_4 V)).trans rfl
theorem val_v35 : fin(V, main_v35) = st_v35 (argsOf V) := (Ssa.unaryV writes_ops 42 rfl (by decide) (by decide) (val_v34 V)).trans rfl
theorem val_cst_5 : fin(V, main_cst_5) = st_cst_5 (argsOf V) := (Ssa.nullaryV writes_ops 43 rfl (by decide)).trans rfl
theorem val_v36 : fin(V, main_v36) = st_v36 (argsOf V) := (Ssa.unaryV writes_ops 44 rfl (by decide) (by decide) (val_cst_5 V)).trans rfl
theorem val_v37 : fin(V, main_v37) = st_v37 (argsOf V) := (Ssa.binaryV writes_ops 45 rfl (by decide) (by decide) (by decide) (val_v35 V) (val_v36 V)).trans rfl
theorem val_c_6 : fin(V, main_c_6) = st_c_6 (argsOf V) := (Ssa.nullaryV writes_ops 46 rfl (by decide)).trans rfl

end Cert.ReferenceIdeal.Hand

end
-- ==== Proof.Ref.ValB.lean ====
import proofs.«176467_j34754875359699_1_alg».proof.Proof.Ref.ValA

noncomputable section

namespace Cert.ReferenceIdeal.Hand

open Cert.ReferenceIdeal Idealize.ShloMosaic Idealize.ShloMosaic.TcCoe Idealize.SL.Sem
open Idealize.ShloMosaic.StableHlo

local macro "fin(" V:term "," r:term ")" : term =>
  `(after (ops (F := Ideal)) $V (Proc.devRef (τ := τ) .tc $r))

variable (V : Valuation τ sig (Elt Ideal))

theorem val_call0_call0_cst : fin(V, main_call0_call0_cst) = st_call0_call0_cst (argsOf V) := (Ssa.nullaryV writes_ops 47 rfl (by decide)).trans rfl
theorem val_call0_call0_v0 : fin(V, main_call0_call0_v0) = st_call0_call0_v0 (argsOf V) := (Ssa.binaryV writes_ops 48 rfl (by decide) (by decide) (by decide) (val_v33 V) (val_call0_call0_cst V)).trans rfl
theorem val_call0_call0_v1 : fin(V, main_call0_call0_v1) = st_call0_call0_v1 (argsOf V) := (Ssa.unaryV writes_ops 49 rfl (by decide) (by decide) (val_call0_call0_v0 V)).trans rfl
theorem val_call0_call0_cst_0 : fin(V, main_call0_call0_cst_0) = st_call0_call0_cst_0 (argsOf V) := (Ssa.nullaryV writes_ops 50 rfl (by decide)).trans rfl
theorem val_call0_call0_v2 : fin(V, main_call0_call0_v2) = st_call0_call0_v2 (argsOf V) := (Ssa.unaryV writes_ops 51 rfl (by decide) (by decide) (val_call0_call0_cst_0 V)).trans rfl
theorem val_call0_call0_v3 : fin(V, main_call0_call0_v3) = st_call0_call0_v3 (argsOf V) := (Ssa.binaryV writes_ops 52 rfl (by decide) (by decide) (by decide) (val_call0_call0_v1 V) (val_call0_call0_v2 V)).trans rfl
theorem val_call0_call0_v4 : fin(V, main_call0_call0_v4) = st_call0_call0_v4 (argsOf V) := (Ssa.unaryV writes_ops 53 rfl (by decide) (by decide) (val_call0_call0_v3 V)).trans rfl
theorem val_call0_call0_v5 : fin(V, main_call0_call0_v5) = st_call0_call0_v5 (argsOf V) := (Ssa.binaryV writes_ops 54 rfl (by decide) (by decide) (by decide) (val_v33 V) (val_call0_call0_v4 V)).trans rfl
theorem val_call0_call0_v6 : fin(V, main_call0_call0_v6) = st_call0_call0_v6 (argsOf V) := (Ssa.binaryV writes_ops 55 rfl (by decide) (by decide) (by decide) (val_call0_call0_v5 V) (val_call0_call0_v5 V)).trans rfl
theorem val_call0_call0_v7 : fin(V, main_call0_call0_v7) = st_call0_call0_v7 (argsOf V) := (Ssa.unaryV writes_ops 56 rfl (by decide) (by decide) (val_c_6 V)).trans rfl
theorem val_call0_call0_cst_1 : fin(V, main_call0_call0_cst_1) = st_call0_call0_cst_1 (argsOf V) := (Ssa.nullaryV writes_ops 57 rfl (by decide)).trans rfl
theorem val_call0_call0_v8 : fin(V, main_call0_call0_v8) = st_call0_call0_v8 (argsOf V) := (Ssa.binaryV writes_ops 58 rfl (by decide) (by decide) (by decide) (val_call0_call0_cst_1 V) (val_call0_call0_v7 V)).trans rfl
theorem val_call0_call0_cst_2 : fin(V, main_call0_call0_cst_2) = st_call0_call0_cst_2 (argsOf V) := (Ssa.nullaryV writes_ops 59 rfl (by decide)).trans rfl
theorem val_call0_call0_v9 : fin(V, main_call0_call0_v9) = st_call0_call0_v9 (argsOf V) := (Ssa.binaryV writes_ops 60 rfl (by decide) (by decide) (by decide) (val_call0_call0_v6 V) (val_call0_call0_cst_2 V)).trans rfl
theorem val_call0_call0_v10 : fin(V, main_call0_call0_v10) = st_call0_call0_v10 (argsOf V) := (Ssa.unaryV writes_ops 61 rfl (by decide) (by decide) (val_call0_call0_v9 V)).trans rfl
theorem val_call0_call0_v11 : fin(V, main_call0_call0_v11) = st_call0_call0_v11 (argsOf V) := (Ssa.unaryV writes_ops 62 rfl (by decide) (by decide) (val_call0_call0_v8 V)).trans rfl
theorem val_call0_call0_v12 : fin(V, main_call0_call0_v12) = st_call0_call0_v12 (argsOf V) := (Ssa.binaryV writes_ops 63 rfl (by decide) (by decide) (by decide) (val_call0_call0_v10 V) (val_call0_call0_v11 V)).trans rfl
theorem val_call0_call0_cst_3 : fin(V, main_call0_call0_cst_3) = st_call0_call0_cst_3 (argsOf V) := (Ssa.nullaryV writes_ops 64 rfl (by decide)).trans rfl
theorem val_call0_call0_v13 : fin(V, main_call0_call0_v13) = st_call0_call0_v13 (argsOf V) := (Ssa.binaryV writes_ops 65 rfl (by decide) (by decide) (by decide) (val_call0_call0_v8 V) (val_call0_call0_cst_3 V)).trans rfl
theorem val_call0_call0_cst_4 : fin(V, main_call0_call0_cst_4) = st_call0_call0_cst_4 (argsOf V) := (Ssa.nullaryV writes_ops 66 rfl (by decide)).trans rfl
theorem val_call0_call0_call0_v0 : fin(V, main_call0_call0_call0_v0) = st_call0_call0_call0_v0 (argsOf V) := (Ssa.unaryV writes_ops 67 rfl (by decide) (by decide) (val_call0_call0_cst_4 V)).trans rfl
theorem val_call0_call0_call0_v1 : fin(V, main_call0_call0_call0_v1) = st_call0_call0_call0_v1 (argsOf V) := (Ssa.unaryV writes_ops 68 rfl (by decide) (by decide) (val_call0_call0_call0_v0 V)).trans rfl
theorem val_call0_v0 : fin(V, main_call0_v0) = st_call0_v0 (argsOf V) := (Ssa.ternaryV writes_ops 69 rfl (by decide) (by decide) (by decide) (by decide) (val_call0_call0_v13 V) (val_call0_call0_v12 V) (val_call0_call0_call0_v1 V)).trans rfl
theorem val_v38 : fin(V, main_v38) = st_v38 (argsOf V) := (Ssa.unaryV writes_ops 70 rfl (by decide) (by decide) (val_call0_v0 V)).trans rfl

theorem val_v39 : fin(V, main_v39) = st_v39 (argsOf V) := (Ssa.unaryV writes_ops 71 rfl (by decide) (by decide) (val_v37 V)).trans rfl
theorem val_v40 : fin(V, main_v40) = st_v40 (argsOf V) := (Ssa.binaryV writes_ops 72 rfl (by decide) (by decide) (by decide) (val_v33 V) (val_v39 V)).trans rfl
theorem val_cst_7 : fin(V, main_cst_7) = st_cst_7 (argsOf V) := (Ssa.nullaryV writes_ops 73 rfl (by decide)).trans rfl
theorem val_v41 : fin(V, main_v41) = st_v41 (argsOf V) := (Ssa.unaryV writes_ops 74 rfl (by decide) (by decide) (val_cst_7 V)).trans rfl
theorem val_v42 : fin(V, main_v42) = st_v42 (argsOf V) := (Ssa.binaryV writes_ops 75 rfl (by decide) (by decide) (by decide) (val_v38 V) (val_v41 V)).trans rfl
theorem val_v43 : fin(V, main_v43) = st_v43 (argsOf V) := (Ssa.unaryV writes_ops 76 rfl (by decide) (by decide) (val_v42 V)).trans rfl
theorem val_v44 : fin(V, main_v44) = st_v44 (argsOf V) := (Ssa.binaryV writes_ops 77 rfl (by decide) (by decide) (by decide) (val_v40 V) (val_v43 V)).trans rfl
theorem val_v45 : fin(V, main_v45) = st_v45 (argsOf V) := (Ssa.unaryV writes_ops 78 rfl (by decide) (by decide) (val_arg11 V)).trans rfl
theorem val_v46 : fin(V, main_v46) = st_v46 (argsOf V) := (Ssa.unaryV writes_ops 79 rfl (by decide) (by decide) (val_v45 V)).trans rfl
theorem val_v47 : fin(V, main_v47) = st_v47 (argsOf V) := (Ssa.binaryV writes_ops 80 rfl (by decide) (by decide) (by decide) (val_v44 V) (val_v46 V)).trans rfl
theorem val_v48 : fin(V, main_v48) = st_v48 (argsOf V) := (Ssa.unaryV writes_ops 81 rfl (by decide) (by decide) (val_arg12 V)).trans rfl
theorem val_v49 : fin(V, main_v49) = st_v49 (argsOf V) := (Ssa.unaryV writes_ops 82 rfl (by decide) (by decide) (val_v48 V)).trans rfl

end Cert.ReferenceIdeal.Hand

end
-- ==== Proof.Ref.ValC.lean ====
import proofs.«176467_j34754875359699_1_alg».proof.Proof.Ref.ValB

noncomputable section

namespace Cert.ReferenceIdeal.Hand

open Cert.ReferenceIdeal Idealize.ShloMosaic Idealize.ShloMosaic.TcCoe Idealize.SL.Sem
open Idealize.ShloMosaic.StableHlo

local macro "fin(" V:term "," r:term ")" : term =>
  `(after (ops (F := Ideal)) $V (Proc.devRef (τ := τ) .tc $r))

variable (V : Valuation τ sig (Elt Ideal))

theorem val_v50 : fin(V, main_v50) = st_v50 (argsOf V) := (Ssa.binaryV writes_ops 83 rfl (by decide) (by decide) (by decide) (val_v47 V) (val_v49 V)).trans rfl
theorem val_v51 : fin(V, main_v51) = st_v51 (argsOf V) := (Ssa.unaryV writes_ops 84 rfl (by decide) (by decide) (val_v50 V)).trans rfl
theorem val_v52 : fin(V, main_v52) = st_v52 (argsOf V) := (Ssa.binaryV writes_ops 85 rfl (by decide) (by decide) (by decide) (val_arg7 V) (val_v51 V)).trans rfl
theorem val_v53 : fin(V, main_v53) = st_v53 (argsOf V) := (Ssa.unaryV writes_ops 86 rfl (by decide) (by decide) (val_arg8 V)).trans rfl
theorem val_v54 : fin(V, main_v54) = st_v54 (argsOf V) := (Ssa.unaryV writes_ops 87 rfl (by decide) (by decide) (val_v53 V)).trans rfl
theorem val_v55 : fin(V, main_v55) = st_v55 (argsOf V) := (Ssa.binaryV writes_ops 88 rfl (by decide) (by decide) (by decide) (val_v52 V) (val_v54 V)).trans rfl
theorem val_call1_cst : fin(V, main_call1_cst) = st_call1_cst (argsOf V) := (Ssa.nullaryV writes_ops 89 rfl (by decide)).trans rfl
theorem val_call1_v0 : fin(V, main_call1_v0) = st_call1_v0 (argsOf V) := (Ssa.unaryV writes_ops 90 rfl (by decide) (by decide) (val_call1_cst V)).trans rfl
theorem val_v56 : fin(V, main_v56) = st_v56 (argsOf V) := (Ssa.binaryV writes_ops 91 rfl (by decide) (by decide) (by decide) (val_v55 V) (val_call1_v0 V)).trans rfl
theorem val_v57 : fin(V, main_v57) = st_v57 (argsOf V) := (Ssa.binaryV writes_ops 92 rfl (by decide) (by decide) (by decide) (val_arg9 V) (val_v56 V)).trans rfl
theorem val_v58 : fin(V, main_v58) = st_v58 (argsOf V) := (Ssa.unaryV writes_ops 93 rfl (by decide) (by decide) (val_arg10 V)).trans rfl
theorem val_v59 : fin(V, main_v59) = st_v59 (argsOf V) := (Ssa.unaryV writes_ops 94 rfl (by decide) (by decide) (val_v58 V)).trans rfl
theorem val_v60 : fin(V, main_v60) = st_v60 (argsOf V) := (Ssa.binaryV writes_ops 95 rfl (by decide) (by decide) (by decide) (val_v57 V) (val_v59 V)).trans rfl
theorem val_v61 : fin(V, main_v61) = st_v61 (argsOf V) := (Ssa.unaryV writes_ops 96 rfl (by decide) (by decide) (val_v51 V)).trans rfl
theorem val_v62 : fin(V, main_v62) = st_v62 (argsOf V) := (Ssa.unaryV writes_ops 97 rfl (by decide) (by decide) (val_v60 V)).trans rfl
theorem val_v63 : fin(V, main_v63) = st_v63 (argsOf V) := (Ssa.binaryV writes_ops 98 rfl (by decide) (by decide) (by decide) (val_v61 V) (val_v62 V)).trans rfl
theorem val_cst_8 : fin(V, main_cst_8) = st_cst_8 (argsOf V) := (Ssa.nullaryV writes_ops 99 rfl (by decide)).trans rfl
theorem val_v64 : fin(V, main_v64) = st_v64 (argsOf V) := (Ssa.binaryV writes_ops 100 rfl (by decide) (by decide) (by decide) (val_v63 V) (val_cst_8 V)).trans rfl
theorem val_v65 : fin(V, main_v65) = st_v65 (argsOf V) := (Ssa.unaryV writes_ops 101 rfl (by decide) (by decide) (val_v64 V)).trans rfl
theorem val_cst_9 : fin(V, main_cst_9) = st_cst_9 (argsOf V) := (Ssa.nullaryV writes_ops 102 rfl (by decide)).trans rfl
theorem val_v66 : fin(V, main_v66) = st_v66 (argsOf V) := (Ssa.unaryV writes_ops 103 rfl (by decide) (by decide) (val_cst_9 V)).trans rfl
theorem val_v67 : fin(V, main_v67) = st_v67 (argsOf V) := (Ssa.binaryV writes_ops 104 rfl (by decide) (by decide) (by decide) (val_v65 V) (val_v66 V)).trans rfl
theorem val_c_10 : fin(V, main_c_10) = st_c_10 (argsOf V) := (Ssa.nullaryV writes_ops 105 rfl (by decide)).trans rfl

end Cert.ReferenceIdeal.Hand

end
-- ==== Proof.Ref.ValD.lean ====
import proofs.«176467_j34754875359699_1_alg».proof.Proof.Ref.ValC

noncomputable section

namespace Cert.ReferenceIdeal.Hand

open Cert.ReferenceIdeal Idealize.ShloMosaic Idealize.ShloMosaic.TcCoe Idealize.SL.Sem
open Idealize.ShloMosaic.StableHlo

local macro "fin(" V:term "," r:term ")" : term =>
  `(after (ops (F := Ideal)) $V (Proc.devRef (τ := τ) .tc $r))

variable (V : Valuation τ sig (Elt Ideal))

theorem val_call2_call0_cst : fin(V, main_call2_call0_cst) = st_call2_call0_cst (argsOf V) := (Ssa.nullaryV writes_ops 106 rfl (by decide)).trans rfl
theorem val_call2_call0_v0 : fin(V, main_call2_call0_v0) = st_call2_call0_v0 (argsOf V) := (Ssa.binaryV writes_ops 107 rfl (by decide) (by decide) (by decide) (val_v63 V) (val_call2_call0_cst V)).trans rfl
theorem val_call2_call0_v1 : fin(V, main_call2_call0_v1) = st_call2_call0_v1 (argsOf V) := (Ssa.unaryV writes_ops 108 rfl (by decide) (by decide) (val_call2_call0_v0 V)).trans rfl
theorem val_call2_call0_cst_0 : fin(V, main_call2_call0_cst_0) = st_call2_call0_cst_0 (argsOf V) := (Ssa.nullaryV writes_ops 109 rfl (by decide)).trans rfl
theorem val_call2_call0_v2 : fin(V, main_call2_call0_v2) = st_call2_call0_v2 (argsOf V) := (Ssa.unaryV writes_ops 110 rfl (by decide) (by decide) (val_call2_call0_cst_0 V)).trans rfl
theorem val_call2_call0_v3 : fin(V, main_call2_call0_v3) = st_call2_call0_v3 (argsOf V) := (Ssa.binaryV writes_ops 111 rfl (by decide) (by decide) (by decide) (val_call2_call0_v1 V) (val_call2_call0_v2 V)).trans rfl
theorem val_call2_call0_v4 : fin(V, main_call2_call0_v4) = st_call2_call0_v4 (argsOf V) := (Ssa.unaryV writes_ops 112 rfl (by decide) (by decide) (val_call2_call0_v3 V)).trans rfl
theorem val_call2_call0_v5 : fin(V, main_call2_call0_v5) = st_call2_call0_v5 (argsOf V) := (Ssa.binaryV writes_ops 113 rfl (by decide) (by decide) (by decide) (val_v63 V) (val_call2_call0_v4 V)).trans rfl
theorem val_call2_call0_v6 : fin(V, main_call2_call0_v6) = st_call2_call0_v6 (argsOf V) := (Ssa.binaryV writes_ops 114 rfl (by decide) (by decide) (by decide) (val_call2_call0_v5 V) (val_call2_call0_v5 V)).trans rfl
theorem val_call2_call0_v7 : fin(V, main_call2_call0_v7) = st_call2_call0_v7 (argsOf V) := (Ssa.unaryV writes_ops 115 rfl (by decide) (by decide) (val_c_10 V)).trans rfl
theorem val_call2_call0_cst_1 : fin(V, main_call2_call0_cst_1) = st_call2_call0_cst_1 (argsOf V) := (Ssa.nullaryV writes_ops 116 rfl (by decide)).trans rfl
theorem val_call2_call0_v8 : fin(V, main_call2_call0_v8) = st_call2_call0_v8 (argsOf V) := (Ssa.binaryV writes_ops 117 rfl (by decide) (by decide) (by decide) (val_call2_call0_cst_1 V) (val_call2_call0_v7 V)).trans rfl
theorem val_call2_call0_cst_2 : fin(V, main_call2_call0_cst_2) = st_call2_call0_cst_2 (argsOf V) := (Ssa.nullaryV writes_ops 118 rfl (by decide)).trans rfl
theorem val_call2_call0_v9 : fin(V, main_call2_call0_v9) = st_call2_call0_v9 (argsOf V) := (Ssa.binaryV writes_ops 119 rfl (by decide) (by decide) (by decide) (val_call2_call0_v6 V) (val_call2_call0_cst_2 V)).trans rfl
theorem val_call2_call0_v10 : fin(V, main_call2_call0_v10) = st_call2_call0_v10 (argsOf V) := (Ssa.unaryV writes_ops 120 rfl (by decide) (by decide) (val_call2_call0_v9 V)).trans rfl
theorem val_call2_call0_v11 : fin(V, main_call2_call0_v11) = st_call2_call0_v11 (argsOf V) := (Ssa.unaryV writes_ops 121 rfl (by decide) (by decide) (val_call2_call0_v8 V)).trans rfl
theorem val_call2_call0_v12 : fin(V, main_call2_call0_v12) = st_call2_call0_v12 (argsOf V) := (Ssa.binaryV writes_ops 122 rfl (by decide) (by decide) (by decide) (val_call2_call0_v10 V) (val_call2_call0_v11 V)).trans rfl
theorem val_call2_call0_cst_3 : fin(V, main_call2_call0_cst_3) = st_call2_call0_cst_3 (argsOf V) := (Ssa.nullaryV writes_ops 123 rfl (by decide)).trans rfl
theorem val_call2_call0_v13 : fin(V, main_call2_call0_v13) = st_call2_call0_v13 (argsOf V) := (Ssa.binaryV writes_ops 124 rfl (by decide) (by decide) (by decide) (val_call2_call0_v8 V) (val_call2_call0_cst_3 V)).trans rfl
theorem val_call2_call0_cst_4 : fin(V, main_call2_call0_cst_4) = st_call2_call0_cst_4 (argsOf V) := (Ssa.nullaryV writes_ops 125 rfl (by decide)).trans rfl
theorem val_call2_call0_call0_v0 : fin(V, main_call2_call0_call0_v0) = st_call2_call0_call0_v0 (argsOf V) := (Ssa.unaryV writes_ops 126 rfl (by decide) (by decide) (val_call2_call0_cst_4 V)).trans rfl
theorem val_call2_call0_call0_v1 : fin(V, main_call2_call0_call0_v1) = st_call2_call0_call0_v1 (argsOf V) := (Ssa.unaryV writes_ops 127 rfl (by decide) (by decide) (val_call2_call0_call0_v0 V)).trans rfl
theorem val_call2_v0 : fin(V, main_call2_v0) = st_call2_v0 (argsOf V) := (Ssa.ternaryV writes_ops 128 rfl (by decide) (by decide) (by decide) (by decide) (val_call2_call0_v13 V) (val_call2_call0_v12 V) (val_call2_call0_call0_v1 V)).trans rfl
theorem val_v68 : fin(V, main_v68) = st_v68 (argsOf V) := (Ssa.unaryV writes_ops 129 rfl (by decide) (by decide) (val_call2_v0 V)).trans rfl

theorem val_v69 : fin(V, main_v69) = st_v69 (argsOf V) := (Ssa.unaryV writes_ops 130 rfl (by decide) (by decide) (val_v67 V)).trans rfl
theorem val_v70 : fin(V, main_v70) = st_v70 (argsOf V) := (Ssa.binaryV writes_ops 131 rfl (by decide) (by decide) (by decide) (val_v63 V) (val_v69 V)).trans rfl
theorem val_cst_11 : fin(V, main_cst_11) = st_cst_11 (argsOf V) := (Ssa.nullaryV writes_ops 132 rfl (by decide)).trans rfl
theorem val_v71 : fin(V, main_v71) = st_v71 (argsOf V) := (Ssa.unaryV writes_ops 133 rfl (by decide) (by decide) (val_cst_11 V)).trans rfl
theorem val_v72 : fin(V, main_v72) = st_v72 (argsOf V) := (Ssa.binaryV writes_ops 134 rfl (by decide) (by decide) (by decide) (val_v68 V) (val_v71 V)).trans rfl
theorem val_v73 : fin(V, main_v73) = st_v73 (argsOf V) := (Ssa.unaryV writes_ops 135 rfl (by decide) (by decide) (val_v72 V)).trans rfl
theorem val_v74 : fin(V, main_v74) = st_v74 (argsOf V) := (Ssa.binaryV writes_ops 136 rfl (by decide) (by decide) (by decide) (val_v70 V) (val_v73 V)).trans rfl
theorem val_v75 : fin(V, main_v75) = st_v75 (argsOf V) := (Ssa.unaryV writes_ops 137 rfl (by decide) (by decide) (val_arg11 V)).trans rfl
theorem val_v76 : fin(V, main_v76) = st_v76 (argsOf V) := (Ssa.unaryV writes_ops 138 rfl (by decide) (by decide) (val_v75 V)).trans rfl
theorem val_v77 : fin(V, main_v77) = st_v77 (argsOf V) := (Ssa.binaryV writes_ops 139 rfl (by decide) (by decide) (by decide) (val_v74 V) (val_v76 V)).trans rfl
theorem val_v78 : fin(V, main_v78) = st_v78 (argsOf V) := (Ssa.unaryV writes_ops 140 rfl (by decide) (by decide) (val_arg12 V)).trans rfl
theorem val_v79 : fin(V, main_v79) = st_v79 (argsOf V) := (Ssa.unaryV writes_ops 141 rfl (by decide) (by decide) (val_v78 V)).trans rfl
theorem val_v80 : fin(V, main_v80) = st_v80 (argsOf V) := (Ssa.binaryV writes_ops 142 rfl (by decide) (by decide) (by decide) (val_v77 V) (val_v79 V)).trans rfl
theorem val_v81 : fin(V, main_v81) = st_v81 (argsOf V) := (Ssa.unaryV writes_ops 143 rfl (by decide) (by decide) (val_v80 V)).trans rfl

end Cert.ReferenceIdeal.Hand

end
-- ==== Proof.Ref.Run.lean ====
import proofs.«176467_j34754875359699_1_alg».proof.Proof.Ref.ValD

noncomputable section

namespace Cert.ReferenceIdeal.Hand

open Cert.ReferenceIdeal Idealize.ShloMosaic Idealize.ShloMosaic.TcCoe Idealize.SL.Sem
open Idealize.ShloMosaic.StableHlo

def argsAt (m : (ℓ : Loc nD τ sig) → Buf (Elt Ideal) ℓ) (c : Dev nD) : Args :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5),
    m ((c.tc : Thread nD τ).loc main_arg6), m ((c.tc : Thread nD τ).loc main_arg7), m ((c.tc : Thread nD τ).loc main_arg8),
    m ((c.tc : Thread nD τ).loc main_arg9), m ((c.tc : Thread nD τ).loc main_arg10), m ((c.tc : Thread nD τ).loc main_arg11),
    m ((c.tc : Thread nD τ).loc main_arg12)⟩

theorem argsOf_launch (m : (ℓ : Loc nD τ sig) → Buf (Elt Ideal) ℓ) (c : Dev nD) :
    argsOf (launchContents m c) = argsAt m c := rfl

theorem result_eq (m : (ℓ : Loc nD τ sig) → Buf (Elt Ideal) ℓ) (c : Dev nD) :
    after (ops (F := Ideal)) (launchContents m c) (Proc.devRef .tc main_v81) = st_v81 (argsAt m c) :=
  (val_v81 (launchContents m c)).trans (congrArg st_v81 (argsOf_launch m c))

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v81) = st_v81 (argsAt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c main_v81).trans (result_eq m c),
      (h c main_arg0).trans (Ssa.untouched writes_ops (by decide) _),
      (h c main_arg1).trans (Ssa.untouched writes_ops (by decide) _),
      (h c main_arg2).trans (Ssa.untouched writes_ops (by decide) _),
      (h c main_arg3).trans (Ssa.untouched writes_ops (by decide) _),
      (h c main_arg4).trans (Ssa.untouched writes_ops (by decide) _),
      (h c main_arg5).trans (Ssa.untouched writes_ops (by decide) _),
      (h c main_arg6).trans (Ssa.untouched writes_ops (by decide) _),
      (h c main_arg7).trans (Ssa.untouched writes_ops (by decide) _),
      (h c main_arg8).trans (Ssa.untouched writes_ops (by decide) _),
      (h c main_arg9).trans (Ssa.untouched writes_ops (by decide) _),
      (h c main_arg10).trans (Ssa.untouched writes_ops (by decide) _),
      (h c main_arg11).trans (Ssa.untouched writes_ops (by decide) _),
      (h c main_arg12).trans (Ssa.untouched writes_ops (by decide) _)⟩)
    (run_seq scopedRefs_eq scopedSems_eq defs main (fun _ => ops) main_eq (fun _ => ops_sub) m ρ (fun _ => ops_fresh))

end Cert.ReferenceIdeal.Hand

end
-- ==== Proof.Ref.DotA.lean ====
import proofs.«176467_j34754875359699_1_alg».proof.ReferenceIdeal
import Idealize.ShloMosaic.PureOps.Ideal.Laws
import Idealize.ShloMosaic.Lib.ValueIdx

noncomputable section

namespace Cert.ReferenceIdeal.Hand

open Idealize.ShloMosaic Idealize.ShloMosaic.ValueIdx Cert.ReferenceIdeal Cert.ReferenceIdeal.Facts₀
open scoped BigOperators

variable [Facts₀]

theorem proj_lhs_0 (i : S16x64x2048.Idx) (q : dot_S16x64x1024_S1024x2048_S16x64x2048_2_0_01_1_n_n.contr.Idx) :
    (dot_S16x64x1024_S1024x2048_S16x64x2048_2_0_01_1_n_n.lhsIdx i q 0).val = (i 0).val := by
  unfold DotDims.lhsIdx
  rw [dif_neg (show ¬(0 : Fin S16x64x1024.rank) ∈ dot_S16x64x1024_S1024x2048_S16x64x2048_2_0_01_1_n_n.lhsBatch from (by decide : ¬(0 : Fin 3) ∈ ([] : List (Fin 3)))),
    dif_pos (show (0 : Fin S16x64x1024.rank) ∈ dot_S16x64x1024_S1024x2048_S16x64x2048_2_0_01_1_n_n.lhsNonContracting from (by decide : (0 : Fin 3) ∈ ([0, 1] : List (Fin 3))))]
  rfl

theorem proj_lhs_1 (i : S16x64x2048.Idx) (q : dot_S16x64x1024_S1024x2048_S16x64x2048_2_0_01_1_n_n.contr.Idx) :
    (dot_S16x64x1024_S1024x2048_S16x64x2048_2_0_01_1_n_n.lhsIdx i q 1).val = (i 1).val := by
  unfold DotDims.lhsIdx
  rw [dif_neg (show ¬(1 : Fin S16x64x1024.rank) ∈ dot_S16x64x1024_S1024x2048_S16x64x2048_2_0_01_1_n_n.lhsBatch from (by decide : ¬(1 : Fin 3) ∈ ([] : List (Fin 3)))),
    dif_pos (show (1 : Fin S16x64x1024.rank) ∈ dot_S16x64x1024_S1024x2048_S16x64x2048_2_0_01_1_n_n.lhsNonContracting from (by decide : (1 : Fin 3) ∈ ([0, 1] : List (Fin 3))))]
  rfl

theorem proj_lhs_2 (i : S16x64x2048.Idx) (q : dot_S16x64x1024_S1024x2048_S16x64x2048_2_0_01_1_n_n.contr.Idx) :
    (dot_S16x64x1024_S1024x2048_S16x64x2048_2_0_01_1_n_n.lhsIdx i q 2).val = (q ⟨0, Nat.one_pos⟩).val :=
  dot_S16x64x1024_S1024x2048_S16x64x2048_2_0_01_1_n_n.lhsIdx_val_of_single rfl i q

theorem proj_rhs_0 (i : S16x64x2048.Idx) (q : dot_S16x64x1024_S1024x2048_S16x64x2048_2_0_01_1_n_n.contr.Idx) :
    (dot_S16x64x1024_S1024x2048_S16x64x2048_2_0_01_1_n_n.rhsIdx i q 0).val = (q ⟨0, Nat.one_pos⟩).val :=
  dot_S16x64x1024_S1024x2048_S16x64x2048_2_0_01_1_n_n.rhsIdx_val_of_single rfl i q

theorem proj_rhs_1 (i : S16x64x2048.Idx) (q : dot_S16x64x1024_S1024x2048_S16x64x2048_2_0_01_1_n_n.contr.Idx) :
    (dot_S16x64x1024_S1024x2048_S16x64x2048_2_0_01_1_n_n.rhsIdx i q 1).val = (i 2).val := by
  unfold DotDims.rhsIdx
  rw [dif_neg (show ¬(1 : Fin S1024x2048.rank) ∈ dot_S16x64x1024_S1024x2048_S16x64x2048_2_0_01_1_n_n.rhsBatch from (by decide : ¬(1 : Fin 2) ∈ ([] : List (Fin 2)))),
    dif_pos (show (1 : Fin S1024x2048.rank) ∈ dot_S16x64x1024_S1024x2048_S16x64x2048_2_0_01_1_n_n.rhsNonContracting from (by decide : (1 : Fin 2) ∈ ([1] : List (Fin 2))))]
  rfl

theorem proj_apply (w : FVec Ideal S16x64x1024 .f32) (X : FVec Ideal S1024x2048 .f32) (h : Fin 16) (d : Fin 64) (s : Fin 2048) :
    Host.dotGeneral (F := Ideal) dot_S16x64x1024_S1024x2048_S16x64x2048_2_0_01_1_n_n none w X (ix3 h d s)
      = ∑ x : Fin 1024, w (ix3 h d x) * X (ix2 x s) := by
  simp only [Host.dotGeneral]
  rw [Ideal.dotGeneral_apply,
    ← Equiv.sum_comp (contrEquiv1 dot_S16x64x1024_S1024x2048_S16x64x2048_2_0_01_1_n_n 1024 rfl rfl).symm]
  refine Finset.sum_congr rfl fun k _ => ?_
  have hk := contrEquiv1_symm_val dot_S16x64x1024_S1024x2048_S16x64x2048_2_0_01_1_n_n 1024 rfl rfl k
  have el : dot_S16x64x1024_S1024x2048_S16x64x2048_2_0_01_1_n_n.lhsIdx (ix3 h d s)
      ((contrEquiv1 dot_S16x64x1024_S1024x2048_S16x64x2048_2_0_01_1_n_n 1024 rfl rfl).symm k) = ix3 h d k :=
    funext fun a => Fin.ext (by
      match a with
      | ⟨0, _⟩ => exact proj_lhs_0 _ _
      | ⟨1, _⟩ => exact proj_lhs_1 _ _
      | ⟨2, _⟩ => exact (proj_lhs_2 _ _).trans hk)
  have er : dot_S16x64x1024_S1024x2048_S16x64x2048_2_0_01_1_n_n.rhsIdx (ix3 h d s)
      ((contrEquiv1 dot_S16x64x1024_S1024x2048_S16x64x2048_2_0_01_1_n_n 1024 rfl rfl).symm k) = ix2 k s :=
    funext fun a => Fin.ext (by
      match a with
      | ⟨0, _⟩ => exact (proj_rhs_0 _ _).trans hk
      | ⟨1, _⟩ => exact proj_rhs_1 _ _)
  rw [el, er]

theorem logit_lhs_0 (i : S16x2048x2048.Idx) (q : dot_S16x64x2048_S16x64x2048_S16x2048x2048_1_1_2_2_0_0.contr.Idx) :
    (dot_S16x64x2048_S16x64x2048_S16x2048x2048_1_1_2_2_0_0.lhsIdx i q 0).val = (i 0).val := by
  unfold DotDims.lhsIdx
  rw [dif_pos (show (0 : Fin S16x64x2048.rank) ∈ dot_S16x64x2048_S16x64x2048_S16x2048x2048_1_1_2_2_0_0.lhsBatch from (by decide : (0 : Fin 3) ∈ ([0] : List (Fin 3))))]
  rfl

theorem logit_lhs_1 (i : S16x2048x2048.Idx) (q : dot_S16x64x2048_S16x64x2048_S16x2048x2048_1_1_2_2_0_0.contr.Idx) :
    (dot_S16x64x2048_S16x64x2048_S16x2048x2048_1_1_2_2_0_0.lhsIdx i q 1).val = (q ⟨0, Nat.one_pos⟩).val :=
  dot_S16x64x2048_S16x64x2048_S16x2048x2048_1_1_2_2_0_0.lhsIdx_val_of_single rfl i q

theorem logit_lhs_2 (i : S16x2048x2048.Idx) (q : dot_S16x64x2048_S16x64x2048_S16x2048x2048_1_1_2_2_0_0.contr.Idx) :
    (dot_S16x64x2048_S16x64x2048_S16x2048x2048_1_1_2_2_0_0.lhsIdx i q 2).val = (i 1).val := by
  unfold DotDims.lhsIdx
  rw [dif_neg (show ¬(2 : Fin S16x64x2048.rank) ∈ dot_S16x64x2048_S16x64x2048_S16x2048x2048_1_1_2_2_0_0.lhsBatch from (by decide : ¬(2 : Fin 3) ∈ ([0] : List (Fin 3)))),
    dif_pos (show (2 : Fin S16x64x2048.rank) ∈ dot_S16x64x2048_S16x64x2048_S16x2048x2048_1_1_2_2_0_0.lhsNonContracting from (by decide : (2 : Fin 3) ∈ ([2] : List (Fin 3))))]
  rfl

theorem logit_rhs_0 (i : S16x2048x2048.Idx) (q : dot_S16x64x2048_S16x64x2048_S16x2048x2048_1_1_2_2_0_0.contr.Idx) :
    (dot_S16x64x2048_S16x64x2048_S16x2048x2048_1_1_2_2_0_0.rhsIdx i q 0).val = (i 0).val := by
  unfold DotDims.rhsIdx
  rw [dif_pos (show (0 : Fin S16x64x2048.rank) ∈ dot_S16x64x2048_S16x64x2048_S16x2048x2048_1_1_2_2_0_0.rhsBatch from (by decide : (0 : Fin 3) ∈ ([0] : List (Fin 3))))]
  rfl

theorem logit_rhs_1 (i : S16x2048x2048.Idx) (q : dot_S16x64x2048_S16x64x2048_S16x2048x2048_1_1_2_2_0_0.contr.Idx) :
    (dot_S16x64x2048_S16x64x2048_S16x2048x2048_1_1_2_2_0_0.rhsIdx i q 1).val = (q ⟨0, Nat.one_pos⟩).val :=
  dot_S16x64x2048_S16x64x2048_S16x2048x2048_1_1_2_2_0_0.rhsIdx_val_of_single rfl i q

theorem logit_rhs_2 (i : S16x2048x2048.Idx) (q : dot_S16x64x2048_S16x64x2048_S16x2048x2048_1_1_2_2_0_0.contr.Idx) :
    (dot_S16x64x2048_S16x64x2048_S16x2048x2048_1_1_2_2_0_0.rhsIdx i q 2).val = (i 2).val := by
  unfold DotDims.rhsIdx
  rw [dif_neg (show ¬(2 : Fin S16x64x2048.rank) ∈ dot_S16x64x2048_S16x64x2048_S16x2048x2048_1_1_2_2_0_0.rhsBatch from (by decide : ¬(2 : Fin 3) ∈ ([0] : List (Fin 3)))),
    dif_pos (show (2 : Fin S16x64x2048.rank) ∈ dot_S16x64x2048_S16x64x2048_S16x2048x2048_1_1_2_2_0_0.rhsNonContracting from (by decide : (2 : Fin 3) ∈ ([2] : List (Fin 3))))]
  rfl

theorem logit_apply (a b : FVec Ideal S16x64x2048 .f32) (h : Fin 16) (s t : Fin 2048) :
    Host.dotGeneral (F := Ideal) dot_S16x64x2048_S16x64x2048_S16x2048x2048_1_1_2_2_0_0 none a b (ix3 h s t)
      = ∑ d : Fin 64, a (ix3 h d s) * b (ix3 h d t) := by
  simp only [Host.dotGeneral]
  rw [Ideal.dotGeneral_apply, ← Equiv.sum_comp (contrEquiv1 dot_S16x64x2048_S16x64x2048_S16x2048x2048_1_1_2_2_0_0 64 rfl rfl).symm]
  refine Finset.sum_congr rfl fun k _ => ?_
  have hk := contrEquiv1_symm_val dot_S16x64x2048_S16x64x2048_S16x2048x2048_1_1_2_2_0_0 64 rfl rfl k
  have el : dot_S16x64x2048_S16x64x2048_S16x2048x2048_1_1_2_2_0_0.lhsIdx (ix3 h s t) ((contrEquiv1 dot_S16x64x2048_S16x64x2048_S16x2048x2048_1_1_2_2_0_0 64 rfl rfl).symm k) = ix3 h k s :=
    funext fun a => Fin.ext (by
      match a with
      | ⟨0, _⟩ => exact logit_lhs_0 _ _
      | ⟨1, _⟩ => exact (logit_lhs_1 _ _).trans hk
      | ⟨2, _⟩ => exact logit_lhs_2 _ _)
  have er : dot_S16x64x2048_S16x64x2048_S16x2048x2048_1_1_2_2_0_0.rhsIdx (ix3 h s t) ((contrEquiv1 dot_S16x64x2048_S16x64x2048_S16x2048x2048_1_1_2_2_0_0 64 rfl rfl).symm k) = ix3 h k t :=
    funext fun a => Fin.ext (by
      match a with
      | ⟨0, _⟩ => exact logit_rhs_0 _ _
      | ⟨1, _⟩ => exact (logit_rhs_1 _ _).trans hk
      | ⟨2, _⟩ => exact logit_rhs_2 _ _)
  rw [el, er]

theorem heads_lhs_0 (i : S16x2048x64.Idx) (q : dot_S16x2048x2048_S16x64x2048_S16x2048x64_2_2_1_1_0_0.contr.Idx) :
    (dot_S16x2048x2048_S16x64x2048_S16x2048x64_2_2_1_1_0_0.lhsIdx i q 0).val = (i 0).val := by
  unfold DotDims.lhsIdx
  rw [dif_pos (show (0 : Fin S16x2048x2048.rank) ∈ dot_S16x2048x2048_S16x64x2048_S16x2048x64_2_2_1_1_0_0.lhsBatch from (by decide : (0 : Fin 3) ∈ ([0] : List (Fin 3))))]
  rfl

theorem heads_lhs_1 (i : S16x2048x64.Idx) (q : dot_S16x2048x2048_S16x64x2048_S16x2048x64_2_2_1_1_0_0.contr.Idx) :
    (dot_S16x2048x2048_S16x64x2048_S16x2048x64_2_2_1_1_0_0.lhsIdx i q 1).val = (i 1).val := by
  unfold DotDims.lhsIdx
  rw [dif_neg (show ¬(1 : Fin S16x2048x2048.rank) ∈ dot_S16x2048x2048_S16x64x2048_S16x2048x64_2_2_1_1_0_0.lhsBatch from (by decide : ¬(1 : Fin 3) ∈ ([0] : List (Fin 3)))),
    dif_pos (show (1 : Fin S16x2048x2048.rank) ∈ dot_S16x2048x2048_S16x64x2048_S16x2048x64_2_2_1_1_0_0.lhsNonContracting from (by decide : (1 : Fin 3) ∈ ([1] : List (Fin 3))))]
  rfl

theorem heads_lhs_2 (i : S16x2048x64.Idx) (q : dot_S16x2048x2048_S16x64x2048_S16x2048x64_2_2_1_1_0_0.contr.Idx) :
    (dot_S16x2048x2048_S16x64x2048_S16x2048x64_2_2_1_1_0_0.lhsIdx i q 2).val = (q ⟨0, Nat.one_pos⟩).val :=
  dot_S16x2048x2048_S16x64x2048_S16x2048x64_2_2_1_1_0_0.lhsIdx_val_of_single rfl i q

theorem heads_rhs_0 (i : S16x2048x64.Idx) (q : dot_S16x2048x2048_S16x64x2048_S16x2048x64_2_2_1_1_0_0.contr.Idx) :
    (dot_S16x2048x2048_S16x64x2048_S16x2048x64_2_2_1_1_0_0.rhsIdx i q 0).val = (i 0).val := by
  unfold DotDims.rhsIdx
  rw [dif_pos (show (0 : Fin S16x64x2048.rank) ∈ dot_S16x2048x2048_S16x64x2048_S16x2048x64_2_2_1_1_0_0.rhsBatch from (by decide : (0 : Fin 3) ∈ ([0] : List (Fin 3))))]
  rfl

theorem heads_rhs_1 (i : S16x2048x64.Idx) (q : dot_S16x2048x2048_S16x64x2048_S16x2048x64_2_2_1_1_0_0.contr.Idx) :
    (dot_S16x2048x2048_S16x64x2048_S16x2048x64_2_2_1_1_0_0.rhsIdx i q 1).val = (i 2).val := by
  unfold DotDims.rhsIdx
  rw [dif_neg (show ¬(1 : Fin S16x64x2048.rank) ∈ dot_S16x2048x2048_S16x64x2048_S16x2048x64_2_2_1_1_0_0.rhsBatch from (by decide : ¬(1 : Fin 3) ∈ ([0] : List (Fin 3)))),
    dif_pos (show (1 : Fin S16x64x2048.rank) ∈ dot_S16x2048x2048_S16x64x2048_S16x2048x64_2_2_1_1_0_0.rhsNonContracting from (by decide : (1 : Fin 3) ∈ ([1] : List (Fin 3))))]
  rfl

theorem heads_rhs_2 (i : S16x2048x64.Idx) (q : dot_S16x2048x2048_S16x64x2048_S16x2048x64_2_2_1_1_0_0.contr.Idx) :
    (dot_S16x2048x2048_S16x64x2048_S16x2048x64_2_2_1_1_0_0.rhsIdx i q 2).val = (q ⟨0, Nat.one_pos⟩).val :=
  dot_S16x2048x2048_S16x64x2048_S16x2048x64_2_2_1_1_0_0.rhsIdx_val_of_single rfl i q

theorem heads_apply (p : FVec Ideal S16x2048x2048 .f32) (v : FVec Ideal S16x64x2048 .f32) (h : Fin 16) (s : Fin 2048) (d : Fin 64) :
    Host.dotGeneral (F := Ideal) dot_S16x2048x2048_S16x64x2048_S16x2048x64_2_2_1_1_0_0 none p v (ix3 h s d)
      = ∑ t : Fin 2048, p (ix3 h s t) * v (ix3 h d t) := by
  simp only [Host.dotGeneral]
  rw [Ideal.dotGeneral_apply, ← Equiv.sum_comp (contrEquiv1 dot_S16x2048x2048_S16x64x2048_S16x2048x64_2_2_1_1_0_0 2048 rfl rfl).symm]
  refine Finset.sum_congr rfl fun k _ => ?_
  have hk := contrEquiv1_symm_val dot_S16x2048x2048_S16x64x2048_S16x2048x64_2_2_1_1_0_0 2048 rfl rfl k
  have el : dot_S16x2048x2048_S16x64x2048_S16x2048x64_2_2_1_1_0_0.lhsIdx (ix3 h s d) ((contrEquiv1 dot_S16x2048x2048_S16x64x2048_S16x2048x64_2_2_1_1_0_0 2048 rfl rfl).symm k) = ix3 h s k :=
    funext fun a => Fin.ext (by
      match a with
      | ⟨0, _⟩ => exact heads_lhs_0 _ _
      | ⟨1, _⟩ => exact heads_lhs_1 _ _
      | ⟨2, _⟩ => exact (heads_lhs_2 _ _).trans hk)
  have er : dot_S16x2048x2048_S16x64x2048_S16x2048x64_2_2_1_1_0_0.rhsIdx (ix3 h s d) ((contrEquiv1 dot_S16x2048x2048_S16x64x2048_S16x2048x64_2_2_1_1_0_0 2048 rfl rfl).symm k) = ix3 h d k :=
    funext fun a => Fin.ext (by
      match a with
      | ⟨0, _⟩ => exact heads_rhs_0 _ _
      | ⟨1, _⟩ => exact heads_rhs_1 _ _
      | ⟨2, _⟩ => exact (heads_rhs_2 _ _).trans hk)
  rw [el, er]

theorem out_lhs_0 (i : S2048x1024.Idx) (q : dot_S2048x1024_S1024x1024_S2048x1024_1_0_0_1_n_n.contr.Idx) :
    (dot_S2048x1024_S1024x1024_S2048x1024_1_0_0_1_n_n.lhsIdx i q 0).val = (i 0).val := by
  unfold DotDims.lhsIdx
  rw [dif_neg (show ¬(0 : Fin S2048x1024.rank) ∈ dot_S2048x1024_S1024x1024_S2048x1024_1_0_0_1_n_n.lhsBatch from (by decide : ¬(0 : Fin 2) ∈ ([] : List (Fin 2)))),
    dif_pos (show (0 : Fin S2048x1024.rank) ∈ dot_S2048x1024_S1024x1024_S2048x1024_1_0_0_1_n_n.lhsNonContracting from (by decide : (0 : Fin 2) ∈ ([0] : List (Fin 2))))]
  rfl

theorem out_lhs_1 (i : S2048x1024.Idx) (q : dot_S2048x1024_S1024x1024_S2048x1024_1_0_0_1_n_n.contr.Idx) :
    (dot_S2048x1024_S1024x1024_S2048x1024_1_0_0_1_n_n.lhsIdx i q 1).val = (q ⟨0, Nat.one_pos⟩).val :=
  dot_S2048x1024_S1024x1024_S2048x1024_1_0_0_1_n_n.lhsIdx_val_of_single rfl i q

theorem out_rhs_0 (i : S2048x1024.Idx) (q : dot_S2048x1024_S1024x1024_S2048x1024_1_0_0_1_n_n.contr.Idx) :
    (dot_S2048x1024_S1024x1024_S2048x1024_1_0_0_1_n_n.rhsIdx i q 0).val = (q ⟨0, Nat.one_pos⟩).val :=
  dot_S2048x1024_S1024x1024_S2048x1024_1_0_0_1_n_n.rhsIdx_val_of_single rfl i q

theorem out_rhs_1 (i : S2048x1024.Idx) (q : dot_S2048x1024_S1024x1024_S2048x1024_1_0_0_1_n_n.contr.Idx) :
    (dot_S2048x1024_S1024x1024_S2048x1024_1_0_0_1_n_n.rhsIdx i q 1).val = (i 1).val := by
  unfold DotDims.rhsIdx
  rw [dif_neg (show ¬(1 : Fin S1024x1024.rank) ∈ dot_S2048x1024_S1024x1024_S2048x1024_1_0_0_1_n_n.rhsBatch from (by decide : ¬(1 : Fin 2) ∈ ([] : List (Fin 2)))),
    dif_pos (show (1 : Fin S1024x1024.rank) ∈ dot_S2048x1024_S1024x1024_S2048x1024_1_0_0_1_n_n.rhsNonContracting from (by decide : (1 : Fin 2) ∈ ([1] : List (Fin 2))))]
  rfl

theorem out_apply (x : FVec Ideal S2048x1024 .f32) (W : FVec Ideal S1024x1024 .f32) (s : Fin 2048) (j : Fin 1024) :
    Host.dotGeneral (F := Ideal) dot_S2048x1024_S1024x1024_S2048x1024_1_0_0_1_n_n none x W (ix2 s j)
      = ∑ n : Fin 1024, x (ix2 s n) * W (ix2 n j) := by
  simp only [Host.dotGeneral]
  rw [Ideal.dotGeneral_apply, ← Equiv.sum_comp (contrEquiv1 dot_S2048x1024_S1024x1024_S2048x1024_1_0_0_1_n_n 1024 rfl rfl).symm]
  refine Finset.sum_congr rfl fun k _ => ?_
  have hk := contrEquiv1_symm_val dot_S2048x1024_S1024x1024_S2048x1024_1_0_0_1_n_n 1024 rfl rfl k
  have el : dot_S2048x1024_S1024x1024_S2048x1024_1_0_0_1_n_n.lhsIdx (ix2 s j) ((contrEquiv1 dot_S2048x1024_S1024x1024_S2048x1024_1_0_0_1_n_n 1024 rfl rfl).symm k) = ix2 s k :=
    funext fun a => Fin.ext (by
      match a with
      | ⟨0, _⟩ => exact out_lhs_0 _ _
      | ⟨1, _⟩ => exact (out_lhs_1 _ _).trans hk)
  have er : dot_S2048x1024_S1024x1024_S2048x1024_1_0_0_1_n_n.rhsIdx (ix2 s j) ((contrEquiv1 dot_S2048x1024_S1024x1024_S2048x1024_1_0_0_1_n_n 1024 rfl rfl).symm k) = ix2 k j :=
    funext fun a => Fin.ext (by
      match a with
      | ⟨0, _⟩ => exact (out_rhs_0 _ _).trans hk
      | ⟨1, _⟩ => exact out_rhs_1 _ _)
  rw [el, er]

end Cert.ReferenceIdeal.Hand

end
-- ==== Proof.Consts.lean ====
import Idealize.ShloMosaic.PureOps.Ideal
import Idealize.ShloMosaic.PureOps.Ideal.Laws

noncomputable section

namespace Cert.Consts

open Idealize.ShloMosaic

theorem ofBits_1024 : Ideal.ofBits .f32 0x44800000#32 = ((1024 : ℝ) : EReal) := by
  simp [Ideal.ofBits, Ideal.ieee, -EReal.coe_mul]; norm_num

theorem ofBits_1023 : Ideal.ofBits .f32 0x447FC000#32 = ((1023 : ℝ) : EReal) := by
  simp [Ideal.ofBits, Ideal.ieee, -EReal.coe_mul]; norm_num

theorem ofBits_8 : Ideal.ofBits .f32 0x41000000#32 = ((8 : ℝ) : EReal) := by
  simp [Ideal.ofBits, Ideal.ieee, -EReal.coe_mul]; norm_num

theorem ofBits_eighth : Ideal.ofBits .f32 0x3E000000#32 = (((1 : ℝ) / 8 : ℝ) : EReal) := by
  simp [Ideal.ofBits, Ideal.ieee, -EReal.coe_mul]; norm_num

end Cert.Consts

end
-- ==== Proof.Ref.ValueB.lean ====
import proofs.«176467_j34754875359699_1_alg».proof.Proof.Ref.Stages
import proofs.«176467_j34754875359699_1_alg».proof.Proof.Spec
import Idealize.ShloMosaic.Lib.ValueIdx
import Idealize.ShloMosaic.Lib.ValueLayout
import Idealize.ShloMosaic.Lib.IdealHost
import Idealize.ShloMosaic.Lib.StackMember
import Idealize.ShloMosaic.PureOps.Ideal.Laws

noncomputable section

namespace Cert.ReferenceIdeal.Hand

open Cert.ReferenceIdeal
open Idealize.ShloMosaic Idealize.ShloMosaic.ValueIdx
open scoped BigOperators

namespace AtEntry

section Ops

theorem dot_plain_apply {m k n : Nat} (D : DotDims ⟨2, ![m, k]⟩ ⟨2, ![k, n]⟩ ⟨2, ![m, n]⟩) (hD : D = DotDims.plain m k n)
    (X : FVec Ideal ⟨2, ![m, k]⟩ .f32) (Y : FVec Ideal ⟨2, ![k, n]⟩ .f32) (a : Fin m) (b : Fin n) :
    Host.dotGeneral D none X Y (ix2 a b) = ∑ c : Fin k, X (ix2 a c) * Y (ix2 c b) := by
  subst hD
  exact StackMember.dotGeneral_plain_apply none X Y a b

theorem reduceAdd_row {a b : Nat} (x : FVec Ideal ⟨2, ![a, b]⟩ .f32) (init : FVec Ideal ⟨0, ![]⟩ .f32)
    (h' : (⟨2, ![a, b]⟩ : Shape).ReducesTo [1] ⟨1, ![a]⟩) (hu : 0 < (⟨0, ![]⟩ : Shape).numel) (s : Fin a) :
    Host.reduceAdd x init h' hu (ix1 s) = init ix0 + ∑ j : Fin b, x (ix2 s j) := by
  have h : (⟨2, ![a, b]⟩ : Shape).Reduces [1] ⟨1, ![a]⟩ := by
    obtain ⟨h1, h2⟩ := h'
    exact ⟨h1, Nat.one_pos, h2⟩
  rw [hostReduceAdd_apply, Ideal.hostReduceAdd_single h' h, eq_ix0 (Shape.Idx.first hu)]
  refine congrArg (init ix0 + ·) ?_
  show ∑ k : Fin b, x (h.lift (ix1 s) k) = _
  refine Finset.sum_congr rfl fun k _ => congrArg x ?_
  funext c
  refine Fin.ext ?_
  match c with
  | ⟨0, _⟩ => rfl
  | ⟨1, _⟩ => rfl

theorem bcast_col_apply {α : Type} {a : Nat} (v : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h v (ix2 i u) = v (ix1 i) := by
  refine broadcastInDim_apply ![0] h v (ix2 i u) (ix1 i) fun ax => ?_
  match ax with
  | ⟨0, _⟩ =>
    show i.val = if a = 1 then 0 else i.val
    split
    · have := i.isLt; omega
    · rfl

theorem bcast_cols_apply {α : Type} {a b : Nat} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply ![0, 1] h v (ix2 i j) (ix2 i (0 : Fin 1)) fun ax => ?_
  match ax with
  | ⟨0, _⟩ =>
    show i.val = if a = 1 then 0 else i.val
    split
    · have := i.isLt; omega
    · rfl
  | ⟨1, _⟩ => rfl

theorem bcast_row_apply {α : Type} {b : Nat} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) := by
  refine broadcastInDim_apply ![1] h v (ix2 u j) (ix1 j) fun ax => ?_
  match ax with
  | ⟨0, _⟩ =>
    show j.val = if b = 1 then 0 else j.val
    split
    · have := j.isLt; omega
    · rfl

end Ops

section Consts

theorem ofBits_1024 : Ideal.ofBits .f32 0x44800000#32 = ((1024 : ℝ) : EReal) := by
  simp [Ideal.ofBits, Ideal.ieee, -EReal.coe_mul]; norm_num

theorem ofBits_1023 : Ideal.ofBits .f32 0x447FC000#32 = ((1023 : ℝ) : EReal) := by
  simp [Ideal.ofBits, Ideal.ieee, -EReal.coe_mul]; norm_num

theorem c1024_sub_one :
    Ideal.ofBits .f32 0x44800000#32 - (FloatOps.sitofp (F := Ideal) .f32 (1#32 : BitVec 32)) = Cert.Spec.c1023 := by
  show Ideal.ofBits .f32 0x44800000#32 - (((1#32 : BitVec 32).toInt : ℝ) : EReal) = Ideal.ofBits .f32 0x447FC000#32
  rw [ofBits_1024, ofBits_1023, show ((1#32 : BitVec 32).toInt : ℝ) = 1 by norm_num, ← EReal.coe_sub]
  norm_num

theorem c1023_gt_zero : Ideal.cmp .ogt Cert.Spec.c1023 (Ideal.ofBits .f32 0x00000000#32) = 1#1 := by
  show Ideal.cmp .ogt (Ideal.ofBits .f32 0x447FC000#32) (Ideal.ofBits .f32 0x00000000#32) = 1#1
  rw [ofBits_1023, Ideal.ofBits_zero_f32]
  simp [Ideal.cmp]

end Consts

end AtEntry

open AtEntry

section FeedForward
variable [Facts₀] (A : Args)

theorem st_v51_at (d : Fin 1024) (s : Fin 2048) : st_v51 A (ix2 d s) = st_v50 A (ix2 s d) := by
  unfold st_v51
  exact transpose_ix2_apply (st_v50 A) _ d s

theorem st_v52_at (f : Fin 4096) (s : Fin 2048) :
    st_v52 A (ix2 f s) = ∑ d : Fin 1024, A.a7 (ix2 f d) * st_v50 A (ix2 s d) := by
  unfold st_v52
  refine (dot_plain_apply _ rfl A.a7 (st_v51 A) f s).trans ?_
  exact Finset.sum_congr rfl fun d _ => by rw [st_v51_at]

theorem st_v54_at (f : Fin 4096) (s : Fin 2048) : st_v54 A (ix2 f s) = A.a8 (ix1 f) := by
  unfold st_v54 st_v53
  exact (bcast_cols_apply _ _ f s).trans (bcast_col_apply A.a8 _ f 0)

theorem st_call1_v0_at (i : S4096x2048.Idx) : st_call1_v0 A i = Cert.Spec.zero := by
  unfold st_call1_v0 st_call1_cst
  exact broadcastInDim_scalar_apply _ _ i

theorem st_v56_at (f : Fin 4096) (s : Fin 2048) :
    st_v56 A (ix2 f s) = Cert.Spec.mmNTRelu (st_v50 A) A.a7 (Cert.Spec.row A.a8) (ix2 s f) := by
  unfold st_v56 st_v55
  rw [maximumf_apply, addf_apply, st_v52_at, st_v54_at, st_call1_v0_at]
  show _ = max ((∑ k : Fin 1024, st_v50 A (ix2 s k) * A.a7 (ix2 f k)) + A.a8 (ix1 f)) Cert.Spec.zero
  exact congrArg (fun t => max (t + A.a8 (ix1 f)) Cert.Spec.zero) (Finset.sum_congr rfl fun d _ => mul_comm _ _)

theorem st_v57_at (j : Fin 1024) (s : Fin 2048) :
    st_v57 A (ix2 j s)
      = ∑ f : Fin 4096, A.a9 (ix2 j f) * Cert.Spec.mmNTRelu (st_v50 A) A.a7 (Cert.Spec.row A.a8) (ix2 s f) := by
  unfold st_v57
  refine (dot_plain_apply _ rfl A.a9 (st_v56 A) j s).trans ?_
  exact Finset.sum_congr rfl fun f _ => by rw [st_v56_at]

theorem st_v59_at (j : Fin 1024) (s : Fin 2048) : st_v59 A (ix2 j s) = A.a10 (ix1 j) := by
  unfold st_v59 st_v58
  exact (bcast_cols_apply _ _ j s).trans (bcast_col_apply A.a10 _ j 0)

theorem st_v60_at (j : Fin 1024) (s : Fin 2048) :
    st_v60 A (ix2 j s)
      = Cert.Spec.mmNT (Cert.Spec.mmNTRelu (st_v50 A) A.a7 (Cert.Spec.row A.a8)) A.a9 (Cert.Spec.row A.a10) (ix2 s j) := by
  unfold st_v60
  rw [addf_apply, st_v57_at, st_v59_at]
  show _ = (∑ k : Fin 4096, Cert.Spec.mmNTRelu (st_v50 A) A.a7 (Cert.Spec.row A.a8) (ix2 s k) * A.a9 (ix2 j k)) + A.a10 (ix1 j)
  exact congrArg (· + A.a10 (ix1 j)) (Finset.sum_congr rfl fun f _ => mul_comm _ _)

end FeedForward

def ffOut [Facts₀] (A : Args) : Cert.Spec.Arr2 2048 1024 :=
  Cert.Spec.mmNT (Cert.Spec.mmNTRelu (st_v50 A) A.a7 (Cert.Spec.row A.a8)) A.a9 (Cert.Spec.row A.a10)

section Norm
variable [Facts₀] (A : Args)

theorem st_v61_at (s : Fin 2048) (d : Fin 1024) : st_v61 A (ix2 s d) = st_v50 A (ix2 s d) := by
  unfold st_v61
  exact (transpose_ix2_apply (st_v51 A) _ s d).trans (st_v51_at A d s)

theorem st_v62_at (s : Fin 2048) (j : Fin 1024) : st_v62 A (ix2 s j) = ffOut A (ix2 s j) := by
  unfold st_v62
  exact (transpose_ix2_apply (st_v60 A) _ s j).trans (st_v60_at A j s)

theorem st_v63_at (s : Fin 2048) (j : Fin 1024) : st_v63 A (ix2 s j) = Cert.Spec.resid (st_v50 A) (ffOut A) s j := by
  unfold st_v63
  rw [addf_apply, st_v61_at, st_v62_at]
  rfl

theorem st_v64_at (s : Fin 2048) : st_v64 A (ix1 s) = ∑ j : Fin 1024, Cert.Spec.resid (st_v50 A) (ffOut A) s j := by
  unfold st_v64 st_cst_8
  refine (reduceAdd_row (st_v63 A) _ _ _ s).trans ?_
  rw [constant_apply, Ideal.ofBits_zero_f32, zero_add]
  exact Finset.sum_congr rfl fun j _ => st_v63_at A s j

theorem st_v67_at (s : Fin 2048) (u : Fin 1) : st_v67 A (ix2 s u) = Cert.Spec.rowMean (st_v50 A) (ffOut A) s := by
  unfold st_v67 st_v65 st_v66 st_cst_9
  rw [hostDivf_apply, bcast_col_apply, st_v64_at, broadcastInDim_scalar_apply, constant_apply]
  rfl

theorem st_call2_call0_v0_at (s : Fin 2048) :
    st_call2_call0_v0 A (ix1 s) = ∑ j : Fin 1024, Cert.Spec.resid (st_v50 A) (ffOut A) s j := by
  unfold st_call2_call0_v0 st_call2_call0_cst
  refine (reduceAdd_row (st_v63 A) _ _ _ s).trans ?_
  rw [constant_apply, Ideal.ofBits_zero_f32, zero_add]
  exact Finset.sum_congr rfl fun j _ => st_v63_at A s j

theorem st_call2_call0_v3_at (s : Fin 2048) (u : Fin 1) :
    st_call2_call0_v3 A (ix2 s u) = Cert.Spec.rowMean (st_v50 A) (ffOut A) s := by
  unfold st_call2_call0_v3 st_call2_call0_v1 st_call2_call0_v2 st_call2_call0_cst_0
  rw [hostDivf_apply, bcast_col_apply, st_call2_call0_v0_at, broadcastInDim_scalar_apply, constant_apply]
  rfl

theorem st_call2_call0_v5_at (s : Fin 2048) (j : Fin 1024) :
    st_call2_call0_v5 A (ix2 s j)
      = Cert.Spec.resid (st_v50 A) (ffOut A) s j - Cert.Spec.rowMean (st_v50 A) (ffOut A) s := by
  unfold st_call2_call0_v5 st_call2_call0_v4
  rw [subf_apply, st_v63_at, bcast_cols_apply, st_call2_call0_v3_at]

theorem st_call2_call0_v8_at (i : S_.Idx) : st_call2_call0_v8 A i = Cert.Spec.c1023 := by
  unfold st_call2_call0_v8 st_call2_call0_cst_1 st_call2_call0_v7 st_c_10
  exact c1024_sub_one

theorem st_call2_call0_v9_at (s : Fin 2048) :
    st_call2_call0_v9 A (ix1 s)
      = ∑ j : Fin 1024, (Cert.Spec.resid (st_v50 A) (ffOut A) s j - Cert.Spec.rowMean (st_v50 A) (ffOut A) s)
          * (Cert.Spec.resid (st_v50 A) (ffOut A) s j - Cert.Spec.rowMean (st_v50 A) (ffOut A) s) := by
  unfold st_call2_call0_v9 st_call2_call0_cst_2
  refine (reduceAdd_row (st_call2_call0_v6 A) _ _ _ s).trans ?_
  rw [constant_apply, Ideal.ofBits_zero_f32, zero_add]
  refine Finset.sum_congr rfl fun j _ => ?_
  unfold st_call2_call0_v6
  rw [mulf_apply, st_call2_call0_v5_at]

theorem st_call2_call0_v12_at (s : Fin 2048) (u : Fin 1) :
    st_call2_call0_v12 A (ix2 s u) = Cert.Spec.rowVar (st_v50 A) (ffOut A) s := by
  unfold st_call2_call0_v12 st_call2_call0_v10 st_call2_call0_v11
  rw [hostDivf_apply, bcast_col_apply, st_call2_call0_v9_at, broadcastInDim_scalar_apply, st_call2_call0_v8_at]
  rfl

theorem st_call2_call0_v13_at (i : S_.Idx) : st_call2_call0_v13 A i = 1#1 := by
  unfold st_call2_call0_v13 st_call2_call0_cst_3
  rw [cmpf_apply, st_call2_call0_v8_at, constant_apply]
  exact c1023_gt_zero

theorem st_call2_v0_at (s : Fin 2048) (u : Fin 1) :
    st_call2_v0 A (ix2 s u) = Cert.Spec.rowVar (st_v50 A) (ffOut A) s := by
  unfold st_call2_v0
  beta_reduce
  rw [select_apply, broadcastInDim_scalar_apply, st_call2_call0_v13_at, select_one, st_call2_call0_v12_at]

theorem st_v68_at (s : Fin 2048) (u : Fin 1) :
    st_v68 A (ix2 s u) = Ideal.sqrt (Cert.Spec.rowVar (st_v50 A) (ffOut A) s) := by
  unfold st_v68
  show FloatOps.hostUnary (F := Ideal) (φ := .f32) .sqrt (st_call2_v0 A (ix2 s u)) = _
  rw [st_call2_v0_at]
  rfl

theorem st_v70_at (s : Fin 2048) (j : Fin 1024) :
    st_v70 A (ix2 s j) = Cert.Spec.resid (st_v50 A) (ffOut A) s j - Cert.Spec.rowMean (st_v50 A) (ffOut A) s := by
  unfold st_v70 st_v69
  rw [subf_apply, st_v63_at, bcast_cols_apply, st_v67_at]

theorem st_v73_at (s : Fin 2048) (j : Fin 1024) :
    st_v73 A (ix2 s j) = Ideal.sqrt (Cert.Spec.rowVar (st_v50 A) (ffOut A) s) + Cert.Spec.epsV := by
  unfold st_v73 st_v72 st_v71 st_cst_11
  rw [bcast_cols_apply, addf_apply, st_v68_at, broadcastInDim_scalar_apply, constant_apply]
  rfl

theorem st_v76_at (s : Fin 2048) (j : Fin 1024) : st_v76 A (ix2 s j) = A.a11 (ix1 j) := by
  unfold st_v76 st_v75
  exact (broadcastInDim_oneRow_apply _ _ s j).trans (bcast_row_apply A.a11 _ 0 j)

theorem st_v79_at (s : Fin 2048) (j : Fin 1024) : st_v79 A (ix2 s j) = A.a12 (ix1 j) := by
  unfold st_v79 st_v78
  exact (broadcastInDim_oneRow_apply _ _ s j).trans (bcast_row_apply A.a12 _ 0 j)

theorem st_v80_at (s : Fin 2048) (j : Fin 1024) :
    st_v80 A (ix2 s j)
      = Cert.Spec.addNorm (st_v50 A) (ffOut A) (Cert.Spec.row A.a11) (Cert.Spec.row A.a12) (ix2 s j) := by
  unfold st_v80 st_v77 st_v74
  rw [addf_apply, mulf_apply, hostDivf_apply, st_v70_at, st_v73_at, st_v76_at, st_v79_at]
  rfl

theorem st_v81_eq :
    st_v81 A = Cert.Spec.tr (Cert.Spec.addNorm (st_v50 A)
      (Cert.Spec.mmNT (Cert.Spec.mmNTRelu (st_v50 A) A.a7 (Cert.Spec.row A.a8)) A.a9 (Cert.Spec.row A.a10))
      (Cert.Spec.row A.a11) (Cert.Spec.row A.a12)) := by
  funext i
  obtain ⟨j, s, rfl⟩ : ∃ (j : Fin 1024) (s : Fin 2048), i = ix2 j s := ⟨i 0, i 1, eq_ix2 i⟩
  unfold st_v81
  exact (transpose_ix2_apply (st_v80 A) _ j s).trans (st_v80_at A s j)

theorem st_v81_layer
    (h50 : st_v50 A = Cert.Spec.attnBlock A.a0 A.a1 A.a2 A.a3 A.a4 A.a5 A.a6 A.a11 A.a12) :
    st_v81 A = Cert.Spec.layer A.a0 A.a1 A.a2 A.a3 A.a4 A.a5 A.a6 A.a7 A.a8 A.a9 A.a10 A.a11 A.a12 := by
  rw [st_v81_eq, h50]
  rfl

end Norm

end Cert.ReferenceIdeal.Hand

end
-- ==== Proof.Ref.ValueA0.lean ====
import proofs.«176467_j34754875359699_1_alg».proof.Proof.Ref.ValueB

noncomputable section

namespace Cert.ReferenceIdeal.Hand

open Cert.ReferenceIdeal
open Idealize.ShloMosaic Idealize.ShloMosaic.ValueIdx
open scoped BigOperators
open AtEntry

namespace AtEntry

theorem dot_stack_mat_apply {G m k n : Nat}
    (D : DotDims ⟨3, ![G, m, k]⟩ ⟨2, ![k, n]⟩ ⟨3, ![G, m, n]⟩)
    (w : DotDims.WF ⟨3, ![G, m, k]⟩ ⟨2, ![k, n]⟩ ⟨3, ![G, m, n]⟩ [2] [0] [0, 1] [1] [] [])
    (hD : D = ⟨[2], [0], [0, 1], [1], [], [], w⟩)
    (X : FVec Ideal ⟨3, ![G, m, k]⟩ .f32) (Y : FVec Ideal ⟨2, ![k, n]⟩ .f32) (g : Fin G) (a : Fin m) (b : Fin n) :
    Host.dotGeneral D none X Y (ix3 g a b) = ∑ c : Fin k, X (ix3 g a c) * Y (ix2 c b) := by
  subst hD
  show FloatOps.dotGeneral _ none _ X Y (ix3 g a b) = _
  rw [Ideal.dotGeneral_apply,
    ← Equiv.sum_comp (contrEquiv1 (⟨[2], [0], [0, 1], [1], [], [], w⟩ : DotDims _ _ _) k rfl rfl).symm]
  refine Finset.sum_congr rfl fun c _ => ?_
  have c3 := contrEquiv1_symm_val
    (⟨[2], [0], [0, 1], [1], [], [], w⟩ : DotDims ⟨3, ![G, m, k]⟩ ⟨2, ![k, n]⟩ ⟨3, ![G, m, n]⟩) k rfl rfl c
  have l3 : (⟨[2], [0], [0, 1], [1], [], [], w⟩ : DotDims ⟨3, ![G, m, k]⟩ ⟨2, ![k, n]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [0], [0, 1], [1], [], [], w⟩ : DotDims ⟨3, ![G, m, k]⟩ ⟨2, ![k, n]⟩ ⟨3, ![G, m, n]⟩).rhsIdx (ix3 g a b)
      ((contrEquiv1 _ k rfl rfl).symm c) = ix2 c b := by
    funext ax; apply Fin.ext
    match ax with
    | ⟨0, _⟩ => simp [DotDims.rhsIdx]; exact c3
    | ⟨1, _⟩ => simp [DotDims.rhsIdx]; rfl
  rw [l3, r3]

theorem flat_at (w : Cert.Spec.Arr3 16 64 1024) (h : Fin 16) (d : Fin 64) (c k : Fin 1024)
    (hc : c.val = h.val * 64 + d.val) : Cert.Spec.flat w (ix2 c k) = w (ix3 h d k) := by
  have hd := d.isLt
  show w (ix3 (⟨c.val / 64, _⟩ : Fin 16) (⟨c.val % 64, _⟩ : Fin 64) k) = w (ix3 h d k)
  refine congrArg w ?_
  funext ax
  match ax with
  | ⟨0, _⟩ => exact Fin.ext (by show c.val / 64 = h.val; omega)
  | ⟨1, _⟩ => exact Fin.ext (by show c.val % 64 = d.val; omega)
  | ⟨2, _⟩ => rfl

theorem spec_zero : Cert.Spec.zero = 0 := Ideal.ofBits_zero_f32

theorem proj_at (W : Cert.Spec.Arr3 16 64 1024) (X : Cert.Spec.Arr2 1024 2048) (h : Fin 16) (d : Fin 64) (s : Fin 2048)
    (c : Fin 1024) (hc : c.val = h.val * 64 + d.val) :
    Cert.Spec.mmNT (Cert.Spec.tr X) (Cert.Spec.flat W) (Cert.Spec.zeroRow 1024) (ix2 s c)
      = ∑ x : Fin 1024, W (ix3 h d x) * X (ix2 x s) := by
  show (∑ k : Fin 1024, X (ix2 k s) * Cert.Spec.flat W (ix2 c k)) + Cert.Spec.zero = _
  rw [spec_zero, add_zero]
  exact Finset.sum_congr rfl fun k _ => by rw [flat_at W h d c k hc, mul_comm]

end AtEntry

section Projections
variable [Facts₀] (A : Args)

theorem st_v0_at (h : Fin 16) (d : Fin 64) (s : Fin 2048) (c : Fin 1024) (hc : c.val = h.val * 64 + d.val) :
    st_v0 A (ix3 h d s)
      = Cert.Spec.mmNT (Cert.Spec.tr A.a0) (Cert.Spec.flat A.a3) (Cert.Spec.zeroRow 1024) (ix2 s c) := by
  unfold st_v0
  exact (dot_stack_mat_apply _ _ rfl A.a3 A.a0 h d s).trans (proj_at A.a3 A.a0 h d s c hc).symm

theorem st_v1_at (h : Fin 16) (d : Fin 64) (s : Fin 2048) (c : Fin 1024) (hc : c.val = h.val * 64 + d.val) :
    st_v1 A (ix3 h d s)
      = Cert.Spec.mmNT (Cert.Spec.tr A.a1) (Cert.Spec.flat A.a4) (Cert.Spec.zeroRow 1024) (ix2 s c) := by
  unfold st_v1
  exact (dot_stack_mat_apply _ _ rfl A.a4 A.a1 h d s).trans (proj_at A.a4 A.a1 h d s c hc).symm

theorem st_v2_at (h : Fin 16) (d : Fin 64) (s : Fin 2048) (c : Fin 1024) (hc : c.val = h.val * 64 + d.val) :
    st_v2 A (ix3 h d s)
      = Cert.Spec.mmNT (Cert.Spec.tr A.a2) (Cert.Spec.flat A.a5) (Cert.Spec.zeroRow 1024) (ix2 s c) := by
  unfold st_v2
  exact (dot_stack_mat_apply _ _ rfl A.a5 A.a2 h d s).trans (proj_at A.a5 A.a2 h d s c hc).symm

end Projections

section OutputProjection
variable [Facts₀] (A : Args)

theorem st_v31_eq :
    st_v31 A = Cert.Spec.mmNT (st_v30 A) (Cert.Spec.tr A.a6) (Cert.Spec.zeroRow 1024) := by
  funext i
  obtain ⟨s, j, rfl⟩ : ∃ (s : Fin 2048) (j : Fin 1024), i = ix2 s j := ⟨i 0, i 1, eq_ix2 i⟩
  unfold st_v31
  refine (dot_plain_apply _ rfl (st_v30 A) A.a6 s j).trans ?_
  show _ = (∑ k : Fin 1024, st_v30 A (ix2 s k) * A.a6 (ix2 k j)) + Cert.Spec.zero
  rw [spec_zero, add_zero]

theorem st_v32_eq : st_v32 A = Cert.Spec.tr A.a2 := by
  funext i
  obtain ⟨s, d, rfl⟩ : ∃ (s : Fin 2048) (d : Fin 1024), i = ix2 s d := ⟨i 0, i 1, eq_ix2 i⟩
  unfold st_v32
  exact transpose_ix2_apply A.a2 _ s d

end OutputProjection

section Norm
variable [Facts₀] (A : Args)

theorem st_v33_at (s : Fin 2048) (j : Fin 1024) : st_v33 A (ix2 s j) = Cert.Spec.resid (st_v32 A) (st_v31 A) s j := by
  unfold st_v33
  rw [addf_apply]
  rfl

theorem st_v34_at (s : Fin 2048) : st_v34 A (ix1 s) = ∑ j : Fin 1024, Cert.Spec.resid (st_v32 A) (st_v31 A) s j := by
  unfold st_v34 st_cst_4
  refine (reduceAdd_row (st_v33 A) _ _ _ s).trans ?_
  rw [constant_apply, Ideal.ofBits_zero_f32, zero_add]
  exact Finset.sum_congr rfl fun j _ => st_v33_at A s j

theorem st_v37_at (s : Fin 2048) (u : Fin 1) : st_v37 A (ix2 s u) = Cert.Spec.rowMean (st_v32 A) (st_v31 A) s := by
  unfold st_v37 st_v35 st_v36 st_cst_5
  rw [hostDivf_apply, bcast_col_apply, st_v34_at, broadcastInDim_scalar_apply, constant_apply]
  rfl

theorem st_call0_call0_v0_at (s : Fin 2048) :
    st_call0_call0_v0 A (ix1 s) = ∑ j : Fin 1024, Cert.Spec.resid (st_v32 A) (st_v31 A) s j := by
  unfold st_call0_call0_v0 st_call0_call0_cst
  refine (reduceAdd_row (st_v33 A) _ _ _ s).trans ?_
  rw [constant_apply, Ideal.ofBits_zero_f32, zero_add]
  exact Finset.sum_congr rfl fun j _ => st_v33_at A s j

theorem st_call0_call0_v3_at (s : Fin 2048) (u : Fin 1) :
    st_call0_call0_v3 A (ix2 s u) = Cert.Spec.rowMean (st_v32 A) (st_v31 A) s := by
  unfold st_call0_call0_v3 st_call0_call0_v1 st_call0_call0_v2 st_call0_call0_cst_0
  rw [hostDivf_apply, bcast_col_apply, st_call0_call0_v0_at, broadcastInDim_scalar_apply, constant_apply]
  rfl

theorem st_call0_call0_v5_at (s : Fin 2048) (j : Fin 1024) :
    st_call0_call0_v5 A (ix2 s j)
      = Cert.Spec.resid (st_v32 A) (st_v31 A) s j - Cert.Spec.rowMean (st_v32 A) (st_v31 A) s := by
  unfold st_call0_call0_v5 st_call0_call0_v4
  rw [subf_apply, st_v33_at, bcast_cols_apply, st_call0_call0_v3_at]

theorem st_call0_call0_v8_at (i : S_.Idx) : st_call0_call0_v8 A i = Cert.Spec.c1023 := by
  unfold st_call0_call0_v8 st_call0_call0_cst_1 st_call0_call0_v7 st_c_6
  exact c1024_sub_one

theorem st_call0_call0_v9_at (s : Fin 2048) :
    st_call0_call0_v9 A (ix1 s)
      = ∑ j : Fin 1024, (Cert.Spec.resid (st_v32 A) (st_v31 A) s j - Cert.Spec.rowMean (st_v32 A) (st_v31 A) s)
          * (Cert.Spec.resid (st_v32 A) (st_v31 A) s j - Cert.Spec.rowMean (st_v32 A) (st_v31 A) s) := by
  unfold st_call0_call0_v9 st_call0_call0_cst_2
  refine (reduceAdd_row (st_call0_call0_v6 A) _ _ _ s).trans ?_
  rw [constant_apply, Ideal.ofBits_zero_f32, zero_add]
  refine Finset.sum_congr rfl fun j _ => ?_
  unfold st_call0_call0_v6
  rw [mulf_apply, st_call0_call0_v5_at]

theorem st_call0_call0_v12_at (s : Fin 2048) (u : Fin 1) :
    st_call0_call0_v12 A (ix2 s u) = Cert.Spec.rowVar (st_v32 A) (st_v31 A) s := by
  unfold st_call0_call0_v12 st_call0_call0_v10 st_call0_call0_v11
  rw [hostDivf_apply, bcast_col_apply, st_call0_call0_v9_at, broadcastInDim_scalar_apply, st_call0_call0_v8_at]
  rfl

theorem st_call0_call0_v13_at (i : S_.Idx) : st_call0_call0_v13 A i = 1#1 := by
  unfold st_call0_call0_v13 st_call0_call0_cst_3
  rw [cmpf_apply, st_call0_call0_v8_at, constant_apply]
  exact c1023_gt_zero

theorem st_call0_v0_at (s : Fin 2048) (u : Fin 1) :
    st_call0_v0 A (ix2 s u) = Cert.Spec.rowVar (st_v32 A) (st_v31 A) s := by
  unfold st_call0_v0
  beta_reduce
  rw [select_apply, broadcastInDim_scalar_apply, st_call0_call0_v13_at, select_one, st_call0_call0_v12_at]

theorem st_v38_at (s : Fin 2048) (u : Fin 1) :
    st_v38 A (ix2 s u) = Ideal.sqrt (Cert.Spec.rowVar (st_v32 A) (st_v31 A) s) := by
  unfold st_v38
  show FloatOps.hostUnary (F := Ideal) (φ := .f32) .sqrt (st_call0_v0 A (ix2 s u)) = _
  rw [st_call0_v0_at]
  rfl

theorem st_v40_at (s : Fin 2048) (j : Fin 1024) :
    st_v40 A (ix2 s j) = Cert.Spec.resid (st_v32 A) (st_v31 A) s j - Cert.Spec.rowMean (st_v32 A) (st_v31 A) s := by
  unfold st_v40 st_v39
  rw [subf_apply, st_v33_at, bcast_cols_apply, st_v37_at]

theorem st_v43_at (s : Fin 2048) (j : Fin 1024) :
    st_v43 A (ix2 s j) = Ideal.sqrt (Cert.Spec.rowVar (st_v32 A) (st_v31 A) s) + Cert.Spec.epsV := by
  unfold st_v43 st_v42 st_v41 st_cst_7
  rw [bcast_cols_apply, addf_apply, st_v38_at, broadcastInDim_scalar_apply, constant_apply]
  rfl

theorem st_v46_at (s : Fin 2048) (j : Fin 1024) : st_v46 A (ix2 s j) = A.a11 (ix1 j) := by
  unfold st_v46 st_v45
  exact (broadcastInDim_oneRow_apply _ _ s j).trans (bcast_row_apply A.a11 _ 0 j)

theorem st_v49_at (s : Fin 2048) (j : Fin 1024) : st_v49 A (ix2 s j) = A.a12 (ix1 j) := by
  unfold st_v49 st_v48
  exact (broadcastInDim_oneRow_apply _ _ s j).trans (bcast_row_apply A.a12 _ 0 j)

theorem st_v50_at (s : Fin 2048) (j : Fin 1024) :
    st_v50 A (ix2 s j)
      = Cert.Spec.addNorm (st_v32 A) (st_v31 A) (Cert.Spec.row A.a11) (Cert.Spec.row A.a12) (ix2 s j) := by
  unfold st_v50 st_v47 st_v44
  rw [addf_apply, mulf_apply, hostDivf_apply, st_v40_at, st_v43_at, st_v46_at, st_v49_at]
  rfl

theorem st_v50_norm :
    st_v50 A = Cert.Spec.addNorm (st_v32 A) (st_v31 A) (Cert.Spec.row A.a11) (Cert.Spec.row A.a12) := by
  funext i
  obtain ⟨s, j, rfl⟩ : ∃ (s : Fin 2048) (j : Fin 1024), i = ix2 s j := ⟨i 0, i 1, eq_ix2 i⟩
  exact st_v50_at A s j

end Norm

end Cert.ReferenceIdeal.Hand

end
-- ==== Proof.Ref.ValueA1.lean ====
import proofs.«176467_j34754875359699_1_alg».proof.Proof.Ref.Stages
import proofs.«176467_j34754875359699_1_alg».proof.Proof.Ref.DotA
import proofs.«176467_j34754875359699_1_alg».proof.Proof.Consts
import proofs.«176467_j34754875359699_1_alg».proof.Proof.Ref.ValueA0
import Idealize.ShloMosaic.Lib.IdealHost
import Idealize.ShloMosaic.Lib.ValueLayout

noncomputable section

namespace Cert.ReferenceIdeal.Hand

open Idealize.ShloMosaic Idealize.ShloMosaic.ValueIdx Cert.ReferenceIdeal Cert.ReferenceIdeal.Facts₀
open scoped BigOperators

variable [Facts₀]

theorem st_v3_apply (A : Args) (h : Fin 16) (s t : Fin 2048) :
    st_v3 A (ix3 h s t) = ∑ d : Fin 64, st_v0 A (ix3 h d s) * st_v1 A (ix3 h d t) := by
  unfold st_v3
  exact logit_apply (st_v0 A) (st_v1 A) h s t

theorem st_v4_apply (A : Args) (j : S16x2048x2048.Idx) : st_v4 A j = Ideal.ofBits .f32 0x41000000#32 := by
  unfold st_v4 st_cst
  exact broadcastInDim_scalar_apply _ _ j

theorem st_v5_apply (A : Args) (h : Fin 16) (s t : Fin 2048) :
    st_v5 A (ix3 h s t) = st_v3 A (ix3 h s t) * Ideal.ofBits .f32 0x3E000000#32 := by
  unfold st_v5
  show Ideal.div (st_v3 A (ix3 h s t)) (st_v4 A (ix3 h s t)) = _
  rw [st_v4_apply, Cert.Consts.ofBits_8, Cert.Consts.ofBits_eighth, Ideal.div_coe (by norm_num)]

theorem ofNat32_beq (a b : Nat) (ha : a < 2048) (hb : b < 2048) :
    (BitVec.ofNat 32 a == BitVec.ofNat 32 b) = decide (a = b) := by
  by_cases h : a = b
  · subst h; simp
  · have hne : BitVec.ofNat 32 a ≠ BitVec.ofNat 32 b := fun he => h (by
      have e := congrArg BitVec.toNat he
      simp only [BitVec.toNat_ofNat] at e
      have p : (2 : Nat) ^ 32 = 4294967296 := by norm_num
      rw [p] at e
      omega)
    simp [h, hne]

theorem st_v9_apply (A : Args) (s t : Fin 2048) : st_v9 A (ix2 s t) = BitVec.ofNat 32 s.val := by
  unfold st_v9
  show IntOp.addi (st_v6 A (ix2 s t)) (st_v8 A (ix2 s t)) = _
  have e8 : st_v8 A (ix2 s t) = 0#32 := by
    unfold st_v8 st_c
    exact broadcastInDim_scalar_apply _ _ _
  rw [e8]
  show BitVec.ofNat 32 s.val + 0#32 = _
  exact BitVec.add_zero _

theorem st_v10_apply (A : Args) (s t : Fin 2048) :
    st_v10 A (ix2 s t) = BitVec.ofBool (decide (s.val = t.val)) := by
  unfold st_v10
  show BitVec.ofBool (st_v9 A (ix2 s t) == st_v7 A (ix2 s t)) = _
  rw [st_v9_apply]
  show BitVec.ofBool (BitVec.ofNat 32 s.val == BitVec.ofNat 32 t.val) = _
  rw [ofNat32_beq _ _ s.isLt t.isLt]

theorem st_v11_apply (A : Args) (s t : Fin 2048) :
    st_v11 A (ix2 s t) = if s.val = t.val then (1 : EReal) else 0 := by
  unfold st_v11
  show (((st_v10 A (ix2 s t)).toNat : ℝ) : EReal) = _
  rw [st_v10_apply]
  by_cases h : s.val = t.val
  · rw [if_pos h]; simp [h]
  · rw [if_neg h]; simp [h]

theorem st_v13_apply (A : Args) (s t : Fin 2048) :
    st_v13 A (ix2 s t) = if s.val = t.val then Ideal.ofBits .f32 0xC7C35000#32 else 0 := by
  unfold st_v13
  show st_v12 A (ix2 s t) * st_v11 A (ix2 s t) = _
  have e12 : st_v12 A (ix2 s t) = Ideal.ofBits .f32 0xC7C35000#32 := by
    unfold st_v12 st_cst_0
    exact broadcastInDim_scalar_apply _ _ _
  rw [e12, st_v11_apply]
  by_cases h : s.val = t.val
  · rw [if_pos h, if_pos h, mul_one]
  · rw [if_neg h, if_neg h, mul_zero]

theorem st_v14_apply (A : Args) (z : Fin 1) (s t : Fin 2048) : st_v14 A (ix3 z s t) = st_v13 A (ix2 s t) := by
  unfold st_v14
  exact broadcastInDim_apply _ _ _ _ (ix2 s t) (fun a => by
    match a with
    | ⟨0, _⟩ => exact (if_neg (show ¬(2048 : Nat) = 1 by decide)).symm
    | ⟨1, _⟩ => exact (if_neg (show ¬(2048 : Nat) = 1 by decide)).symm)

theorem st_v15_apply (A : Args) (h : Fin 16) (s t : Fin 2048) : st_v15 A (ix3 h s t) = st_v13 A (ix2 s t) := by
  unfold st_v15
  rw [← st_v14_apply A 0 s t]
  exact broadcastInDim_apply _ _ _ _ (ix3 (0 : Fin 1) s t) (fun a => by
    match a with
    | ⟨0, _⟩ => exact (if_pos rfl).symm
    | ⟨1, _⟩ => exact (if_neg (show ¬(2048 : Nat) = 1 by decide)).symm
    | ⟨2, _⟩ => exact (if_neg (show ¬(2048 : Nat) = 1 by decide)).symm)

theorem st_v16_apply (A : Args) (h : Fin 16) (s t : Fin 2048) :
    st_v16 A (ix3 h s t)
      = if s.val = t.val then
          (∑ d : Fin 64, st_v0 A (ix3 h d s) * st_v1 A (ix3 h d t)) * Ideal.ofBits .f32 0x3E000000#32
            + Ideal.ofBits .f32 0xC7C35000#32
        else (∑ d : Fin 64, st_v0 A (ix3 h d s) * st_v1 A (ix3 h d t)) * Ideal.ofBits .f32 0x3E000000#32 := by
  unfold st_v16
  show st_v5 A (ix3 h s t) + st_v15 A (ix3 h s t) = _
  rw [st_v5_apply, st_v15_apply, st_v13_apply, st_v3_apply]
  by_cases e : s.val = t.val
  · rw [if_pos e, if_pos e]
  · rw [if_neg e, if_neg e, add_zero]

theorem st_v16_at (A : Args) (h : Fin 16) (s t : Fin 2048) (n : Fin 1024) (hn : n.val / 64 = h.val) :
    st_v16 A (ix3 h s t)
      = Cert.Spec.logit (Cert.Spec.mmNT (Cert.Spec.tr A.a0) (Cert.Spec.flat A.a3) (Cert.Spec.zeroRow 1024))
          (Cert.Spec.mmNT (Cert.Spec.tr A.a1) (Cert.Spec.flat A.a4) (Cert.Spec.zeroRow 1024)) s n t := by
  rw [st_v16_apply]
  have hsum : (∑ d : Fin 64, st_v0 A (ix3 h d s) * st_v1 A (ix3 h d t))
      = ∑ d : Fin 64,
          Cert.Spec.mmNT (Cert.Spec.tr A.a0) (Cert.Spec.flat A.a3) (Cert.Spec.zeroRow 1024) (ix2 s (Cert.Spec.headCol n d))
            * Cert.Spec.mmNT (Cert.Spec.tr A.a1) (Cert.Spec.flat A.a4) (Cert.Spec.zeroRow 1024) (ix2 t (Cert.Spec.headCol n d)) :=
    Finset.sum_congr rfl fun d _ => by
      rw [st_v0_at A h d s (Cert.Spec.headCol n d) (by show n.val / 64 * 64 + d.val = _; omega),
        st_v1_at A h d t (Cert.Spec.headCol n d) (by show n.val / 64 * 64 + d.val = _; omega)]
  rw [hsum]
  rfl

end Cert.ReferenceIdeal.Hand

end
-- ==== Proof.Ref.ValueA2.lean ====
import proofs.«176467_j34754875359699_1_alg».proof.Proof.Ref.ValueB

noncomputable section

namespace Cert.ReferenceIdeal.Hand

open Cert.ReferenceIdeal
open Idealize.ShloMosaic Idealize.ShloMosaic.ValueIdx
open scoped BigOperators
open AtEntry

namespace AtEntry

theorem reduce_max_last3 {a b c : Nat} (x : FVec Ideal ⟨3, ![a, b, c]⟩ .f32) (init : FVec Ideal ⟨0, ![]⟩ .f32)
    (h' : (⟨3, ![a, b, c]⟩ : Shape).ReducesTo [2] ⟨2, ![a, b]⟩) (hu : 0 < (⟨0, ![]⟩ : Shape).numel) (i : Fin a) (j : Fin b) :
    Host.reduce (FloatOps.maximumf (F := Ideal) (φ := .f32)) x init h' hu (ix2 i j)
      = (Finset.univ : Finset (Fin c)).fold max (init ix0) (fun k => x (ix3 i j k)) := by
  have h : (⟨3, ![a, b, c]⟩ : Shape).Reduces [2] ⟨2, ![a, b]⟩ := by
    obtain ⟨h1, h2⟩ := h'
    exact ⟨h1, Nat.two_pos, h2⟩
  rw [Host.reduce_eq_fold_single _ x init h' h hu, eq_ix0 (Shape.Idx.first hu)]
  have e : x ∘ h.lift (ix2 i j) = fun k : Fin c => x (ix3 i j k) := by
    funext k
    refine congrArg x ?_
    funext ax
    refine Fin.ext ?_
    match ax with
    | ⟨0, _⟩ => rfl
    | ⟨1, _⟩ => rfl
    | ⟨2, _⟩ => rfl
  show (Finset.univ : Finset (Fin c)).fold max (init ix0) (x ∘ h.lift (ix2 i j)) = _
  rw [e]
  rfl

theorem reduceAdd_last3 {a b c : Nat} (x : FVec Ideal ⟨3, ![a, b, c]⟩ .f32) (init : FVec Ideal ⟨0, ![]⟩ .f32)
    (h' : (⟨3, ![a, b, c]⟩ : Shape).ReducesTo [2] ⟨2, ![a, b]⟩) (hu : 0 < (⟨0, ![]⟩ : Shape).numel) (i : Fin a) (j : Fin b) :
    Host.reduceAdd x init h' hu (ix2 i j) = init ix0 + ∑ k : Fin c, x (ix3 i j k) := by
  have h : (⟨3, ![a, b, c]⟩ : Shape).Reduces [2] ⟨2, ![a, b]⟩ := by
    obtain ⟨h1, h2⟩ := h'
    exact ⟨h1, Nat.two_pos, h2⟩
  rw [hostReduceAdd_apply, Ideal.hostReduceAdd_single h' h, eq_ix0 (Shape.Idx.first hu)]
  refine congrArg (init ix0 + ·) ?_
  show ∑ k : Fin c, x (h.lift (ix2 i j) k) = _
  refine Finset.sum_congr rfl fun k _ => congrArg x ?_
  funext ax
  refine Fin.ext ?_
  match ax with
  | ⟨0, _⟩ => rfl
  | ⟨1, _⟩ => rfl
  | ⟨2, _⟩ => rfl

theorem bcast_last_apply {α : Type} {a b : Nat} (v : (⟨2, ![a, b]⟩ : Shape).Idx → α)
    (h : (⟨2, ![a, b]⟩ : Shape).BroadcastsInDim ⟨3, ![a, b, 1]⟩ ![0, 1]) (i : Fin a) (j : Fin b) (u : Fin 1) :
    broadcastInDim ⟨3, ![a, b, 1]⟩ ![0, 1] h v (ix3 i j u) = v (ix2 i j) := by
  refine broadcastInDim_apply ![0, 1] h v (ix3 i j u) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

theorem bcast_lasts_apply {α : Type} {a b c : Nat} (v : (⟨3, ![a, b, 1]⟩ : Shape).Idx → α)
    (h : (⟨3, ![a, b, 1]⟩ : Shape).BroadcastsInDim ⟨3, ![a, b, c]⟩ ![0, 1, 2]) (i : Fin a) (j : Fin b) (k : Fin c) :
    broadcastInDim ⟨3, ![a, b, c]⟩ ![0, 1, 2] h v (ix3 i j k) = v (ix3 i j (0 : Fin 1)) := by
  refine broadcastInDim_apply ![0, 1, 2] h v (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

theorem dot_stack_nt_apply {G m k n : Nat}
    (D : DotDims ⟨3, ![G, m, k]⟩ ⟨3, ![G, n, k]⟩ ⟨3, ![G, m, n]⟩)
    (w : DotDims.WF ⟨3, ![G, m, k]⟩ ⟨3, ![G, n, k]⟩ ⟨3, ![G, m, n]⟩ [2] [2] [1] [1] [0] [0])
    (hD : D = ⟨[2], [2], [1], [1], [0], [0], w⟩)
    (X : FVec Ideal ⟨3, ![G, m, k]⟩ .f32) (Y : FVec Ideal ⟨3, ![G, n, k]⟩ .f32) (g : Fin G) (a : Fin m) (b : Fin n) :
    Host.dotGeneral D none X Y (ix3 g a b) = ∑ c : Fin k, X (ix3 g a c) * Y (ix3 g b c) := by
  subst hD
  show FloatOps.dotGeneral _ none _ X Y (ix3 g a b) = _
  rw [Ideal.dotGeneral_apply,
    ← Equiv.sum_comp (contrEquiv1 (⟨[2], [2], [1], [1], [0], [0], w⟩ : DotDims _ _ _) k rfl rfl).symm]
  refine Finset.sum_congr rfl fun c _ => ?_
  have c3 := contrEquiv1_symm_val
    (⟨[2], [2], [1], [1], [0], [0], w⟩ : DotDims ⟨3, ![G, m, k]⟩ ⟨3, ![G, n, k]⟩ ⟨3, ![G, m, n]⟩) k rfl rfl c
  have l3 : (⟨[2], [2], [1], [1], [0], [0], w⟩ : DotDims ⟨3, ![G, m, k]⟩ ⟨3, ![G, n, k]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [2], [1], [1], [0], [0], w⟩ : DotDims ⟨3, ![G, m, k]⟩ ⟨3, ![G, n, k]⟩ ⟨3, ![G, m, n]⟩).rhsIdx (ix3 g a b)
      ((contrEquiv1 _ k rfl rfl).symm c) = ix3 g b c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  rw [l3, r3]

theorem transpose_102_apply {α : Type} {a b c : Nat} (x : (⟨3, ![a, b, c]⟩ : Shape).Idx → α)
    (h : (⟨3, ![a, b, c]⟩ : Shape).Transposes [1, 0, 2] ⟨3, ![b, a, c]⟩) (j : Fin b) (i : Fin a) (k : Fin c) :
    transpose ⟨3, ![b, a, c]⟩ [1, 0, 2] x h (ix3 j i k) = x (ix3 i j k) :=
  transpose_apply _ x h _ _ fun ax => match ax with | ⟨0, _⟩ => rfl | ⟨1, _⟩ => rfl | ⟨2, _⟩ => rfl

theorem heads_flat_apply {α : Type} (x : (⟨3, ![2048, 16, 64]⟩ : Shape).Idx → α)
    (hc : (⟨3, ![2048, 16, 64]⟩ : Shape).ShapeCasts ⟨2, ![2048, 1024]⟩) (s : Fin 2048) (n : Fin 1024) (h : Fin 16)
    (d : Fin 64) (hn : n.val = h.val * 64 + d.val) :
    shapeCast ⟨2, ![2048, 1024]⟩ x hc (ix2 s n) = x (ix3 s h d) :=
  shapeCast_apply x hc _ _ (by
    rw [Shape.rowMajor_val_three, Shape.rowMajor_val_two]
    show (s.val * 16 + h.val) * 64 + d.val = s.val * 1024 + n.val
    omega)

end AtEntry

def rmax16 [Facts₀] (A : Args) (h : Fin 16) (s : Fin 2048) : EReal :=
  (Finset.univ : Finset (Fin 2048)).fold max Cert.Spec.negInf (fun t => st_v16 A (ix3 h s t))

section Softmax
variable [Facts₀] (A : Args)

theorem rmax16_def (h : Fin 16) (s : Fin 2048) :
    rmax16 A h s = (Finset.univ : Finset (Fin 2048)).fold max Cert.Spec.negInf (fun t => st_v16 A (ix3 h s t)) := rfl

theorem st_v17_at (h : Fin 16) (s : Fin 2048) : st_v17 A (ix2 h s) = rmax16 A h s := by
  unfold st_v17 st_cst_1
  exact reduce_max_last3 (st_v16 A) _ _ _ h s

theorem st_v19_at (h : Fin 16) (s : Fin 2048) : st_v19 A (ix2 h s) = rmax16 A h s := by
  unfold st_v19 st_v18 st_cst_2
  rw [maximumf_apply, broadcastInDim_scalar_apply, constant_apply, st_v17_at]
  exact max_eq_right ((Finset.le_fold_max _).mpr (Or.inl le_rfl))

theorem st_v21_at (h : Fin 16) (s t : Fin 2048) : st_v21 A (ix3 h s t) = rmax16 A h s := by
  unfold st_v21 st_v20
  rw [bcast_lasts_apply, bcast_last_apply, st_v19_at]

theorem st_v23_at (h : Fin 16) (s t : Fin 2048) :
    st_v23 A (ix3 h s t) = Ideal.exp (st_v16 A (ix3 h s t) - rmax16 A h s) := by
  unfold st_v23 st_v22
  show FloatOps.hostUnary (F := Ideal) (φ := .f32) .exp (subf (F := Ideal) (φ := .f32) (st_v16 A) (st_v21 A) (ix3 h s t)) = _
  rw [subf_apply, st_v21_at]
  rfl

theorem st_v24_at (h : Fin 16) (s : Fin 2048) :
    st_v24 A (ix2 h s) = ∑ t : Fin 2048, Ideal.exp (st_v16 A (ix3 h s t) - rmax16 A h s) := by
  unfold st_v24 st_cst_3
  refine (reduceAdd_last3 (st_v23 A) _ _ _ h s).trans ?_
  rw [constant_apply, Ideal.ofBits_zero_f32, zero_add]
  exact Finset.sum_congr rfl fun t _ => st_v23_at A h s t

theorem st_v27_at (h : Fin 16) (s t : Fin 2048) :
    st_v27 A (ix3 h s t)
      = Ideal.div (Ideal.exp (st_v16 A (ix3 h s t) - rmax16 A h s))
          (∑ t' : Fin 2048, Ideal.exp (st_v16 A (ix3 h s t') - rmax16 A h s)) := by
  unfold st_v27 st_v26 st_v25
  rw [hostDivf_apply, st_v23_at, bcast_lasts_apply, bcast_last_apply, st_v24_at]

theorem st_v28_at (h : Fin 16) (s : Fin 2048) (d : Fin 64) :
    st_v28 A (ix3 h s d)
      = ∑ t : Fin 2048, Ideal.div (Ideal.exp (st_v16 A (ix3 h s t) - rmax16 A h s))
          (∑ t' : Fin 2048, Ideal.exp (st_v16 A (ix3 h s t') - rmax16 A h s)) * st_v2 A (ix3 h d t) := by
  unfold st_v28
  refine (dot_stack_nt_apply _ _ rfl (st_v27 A) (st_v2 A) h s d).trans ?_
  exact Finset.sum_congr rfl fun t _ => by rw [st_v27_at]

theorem st_v30_at (s : Fin 2048) (n : Fin 1024) (h : Fin 16) (d : Fin 64) (hn : n.val = h.val * 64 + d.val) :
    st_v30 A (ix2 s n)
      = ∑ t : Fin 2048, Ideal.div (Ideal.exp (st_v16 A (ix3 h s t) - rmax16 A h s))
          (∑ t' : Fin 2048, Ideal.exp (st_v16 A (ix3 h s t') - rmax16 A h s)) * st_v2 A (ix3 h d t) := by
  unfold st_v30 st_v29
  exact ((heads_flat_apply _ _ s n h d hn).trans (transpose_102_apply (st_v28 A) _ s h d)).trans (st_v28_at A h s d)

end Softmax

end Cert.ReferenceIdeal.Hand

end
-- ==== Proof.Ref.ValueA.lean ====
import proofs.«176467_j34754875359699_1_alg».proof.Proof.Ref.ValueA1
import proofs.«176467_j34754875359699_1_alg».proof.Proof.Ref.ValueA2

noncomputable section

namespace Cert.ReferenceIdeal.Hand

open Idealize.ShloMosaic Idealize.ShloMosaic.ValueIdx Cert.ReferenceIdeal Cert.ReferenceIdeal.Facts₀
open scoped BigOperators

variable [Facts₀]

abbrev projQ (A : Args) : Cert.Spec.Arr2 2048 1024 :=
  Cert.Spec.mmNT (Cert.Spec.tr A.a0) (Cert.Spec.flat A.a3) (Cert.Spec.zeroRow 1024)
abbrev projK (A : Args) : Cert.Spec.Arr2 2048 1024 :=
  Cert.Spec.mmNT (Cert.Spec.tr A.a1) (Cert.Spec.flat A.a4) (Cert.Spec.zeroRow 1024)
abbrev projV (A : Args) : Cert.Spec.Arr2 2048 1024 :=
  Cert.Spec.mmNT (Cert.Spec.tr A.a2) (Cert.Spec.flat A.a5) (Cert.Spec.zeroRow 1024)

theorem st_v30_eq (A : Args) : st_v30 A = Cert.Spec.attn (projQ A) (projK A) (projV A) := by
  funext i
  obtain ⟨s, n, rfl⟩ : ∃ (s : Fin 2048) (n : Fin 1024), i = ix2 s n := ⟨i 0, i 1, eq_ix2 i⟩
  have hlt : n.val < 1024 := n.isLt

  obtain ⟨h, hh⟩ : ∃ h : Fin 16, h.val = n.val / 64 := ⟨⟨n.val / 64, by omega⟩, rfl⟩
  obtain ⟨d, hd⟩ : ∃ d : Fin 64, d.val = n.val % 64 := ⟨⟨n.val % 64, Nat.mod_lt _ (by decide)⟩, rfl⟩
  have hn : n.val = h.val * 64 + d.val := by rw [hh, hd]; omega
  rw [st_v30_at A s n h d hn]
  have e16 : ∀ t : Fin 2048, st_v16 A (ix3 h s t) = Cert.Spec.logit (projQ A) (projK A) s n t :=
    fun t => st_v16_at A h s t n hh.symm
  have emax : rmax16 A h s = Cert.Spec.rowMax (projQ A) (projK A) s n := by
    rw [rmax16_def]
    unfold Cert.Spec.rowMax
    exact Finset.fold_congr fun t _ => e16 t
  show _ = ∑ t : Fin 2048, Cert.Spec.weight (projQ A) (projK A) s n t * projV A (ix2 t n)
  refine Finset.sum_congr rfl fun t _ => ?_
  rw [emax, st_v2_at A h d t n hn]
  simp only [e16]
  rfl

theorem st_v50_eq (A : Args) :
    st_v50 A = Cert.Spec.attnBlock A.a0 A.a1 A.a2 A.a3 A.a4 A.a5 A.a6 A.a11 A.a12 := by
  rw [st_v50_norm, st_v32_eq, st_v31_eq, st_v30_eq]
  rfl

end Cert.ReferenceIdeal.Hand

end
-- ==== Proof.Assemble.lean ====
import proofs.«176467_j34754875359699_1_alg».proof.Defs
import proofs.«176467_j34754875359699_1_alg».proof.Proof.Gen.Pre_finite_inputs
import proofs.«176467_j34754875359699_1_alg».proof.Proof.Gen.Kernel
import proofs.«176467_j34754875359699_1_alg».proof.Proof.KI.Run
import proofs.«176467_j34754875359699_1_alg».proof.Proof.KI.Value
import proofs.«176467_j34754875359699_1_alg».proof.Proof.Ref.Run
import proofs.«176467_j34754875359699_1_alg».proof.Proof.Ref.ValueA
import proofs.«176467_j34754875359699_1_alg».proof.Proof.Ref.ValueB

noncomputable section

namespace Cert.Proof.Parts

open Idealize.ShloMosaic Idealize.ShloMosaic.TcCoe Idealize.ShloMosaic.Tactic Idealize.SL.Sem

-- The printed program and its idealization are one term under two names: the frame proved at every float instance, read at the printed program's, is its frame.
theorem frame_k : Cert.frame_Kernel (hKernel := Cert.Kernel.Gen.facts) (hPre_finite_inputs := Cert.Pre_finite_inputs.Gen.facts) :=
  fun m ρ _ => cast (by sl_kernel_rfl) (Cert.KernelIdeal.Hand.frame (F := Bits) m ρ)

theorem frame_ki :
    Cert.frame_KernelIdeal (hKernelIdeal := Cert.KernelIdeal.Gen.facts) (hPre_finite_inputs := Cert.Pre_finite_inputs.Gen.facts) :=
  fun m ρ _ => Cert.KernelIdeal.Hand.frame m ρ

theorem frame_ri :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Hand.run m ρ)

theorem preserves : Cert.preserves_Kernel_KernelIdeal := trivial

def layerOf (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v30) :=
  Cert.Spec.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))

def kArgs (m : (ℓ : Loc Cert.KernelIdeal.nD Cert.KernelIdeal.τ Cert.KernelIdeal.sig) → Buf (Elt Ideal) ℓ) (c : Dev Cert.KernelIdeal.nD) :
    Cert.ReferenceIdeal.Hand.Args :=
  ⟨m ((c.tc : Thread Cert.KernelIdeal.nD Cert.KernelIdeal.τ).loc Cert.KernelIdeal.main_arg0),
    m ((c.tc : Thread Cert.KernelIdeal.nD Cert.KernelIdeal.τ).loc Cert.KernelIdeal.main_arg1),
    m ((c.tc : Thread Cert.KernelIdeal.nD Cert.KernelIdeal.τ).loc Cert.KernelIdeal.main_arg2),
    m ((c.tc : Thread Cert.KernelIdeal.nD Cert.KernelIdeal.τ).loc Cert.KernelIdeal.main_arg3),
    m ((c.tc : Thread Cert.KernelIdeal.nD Cert.KernelIdeal.τ).loc Cert.KernelIdeal.main_arg4),
    m ((c.tc : Thread Cert.KernelIdeal.nD Cert.KernelIdeal.τ).loc Cert.KernelIdeal.main_arg5),
    m ((c.tc : Thread Cert.KernelIdeal.nD Cert.KernelIdeal.τ).loc Cert.KernelIdeal.main_arg6),
    m ((c.tc : Thread Cert.KernelIdeal.nD Cert.KernelIdeal.τ).loc Cert.KernelIdeal.main_arg7),
    m ((c.tc : Thread Cert.KernelIdeal.nD Cert.KernelIdeal.τ).loc Cert.KernelIdeal.main_arg8),
    m ((c.tc : Thread Cert.KernelIdeal.nD Cert.KernelIdeal.τ).loc Cert.KernelIdeal.main_arg9),
    m ((c.tc : Thread Cert.KernelIdeal.nD Cert.KernelIdeal.τ).loc Cert.KernelIdeal.main_arg10),
    m ((c.tc : Thread Cert.KernelIdeal.nD Cert.KernelIdeal.τ).loc Cert.KernelIdeal.main_arg11),
    m ((c.tc : Thread Cert.KernelIdeal.nD Cert.KernelIdeal.τ).loc Cert.KernelIdeal.main_arg12)⟩

theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' _ hagree
  refine ⟨layerOf m, ?_, ?_⟩
  ·
    refine (θ_run Cert.KernelIdeal.defs _ _).mono (fun r h c => ?_) (Cert.KernelIdeal.Hand.run_all m ρ)
    exact ⟨(h c _ (Cert.KernelIdeal.Hand.mem_uc Cert.KernelIdeal.main_v30 (by decide))).trans (Cert.KernelIdeal.Hand.Wlast_result m ρ c),
      (h c _ (Cert.KernelIdeal.Hand.mem_uc Cert.KernelIdeal.main_arg0 (by decide))).trans (Cert.KernelIdeal.Hand.Wlast_main_arg0 m ρ c),
      (h c _ (Cert.KernelIdeal.Hand.mem_uc Cert.KernelIdeal.main_arg1 (by decide))).trans (Cert.KernelIdeal.Hand.Wlast_main_arg1 m ρ c),
      (h c _ (Cert.KernelIdeal.Hand.mem_uc Cert.KernelIdeal.main_arg2 (by decide))).trans (Cert.KernelIdeal.Hand.Wlast_main_arg2 m ρ c),
      (h c _ (Cert.KernelIdeal.Hand.mem_uc Cert.KernelIdeal.main_arg3 (by decide))).trans (Cert.KernelIdeal.Hand.Wlast_main_arg3 m ρ c),
      (h c _ (Cert.KernelIdeal.Hand.mem_uc Cert.KernelIdeal.main_arg4 (by decide))).trans (Cert.KernelIdeal.Hand.Wlast_main_arg4 m ρ c),
      (h c _ (Cert.KernelIdeal.Hand.mem_uc Cert.KernelIdeal.main_arg5 (by decide))).trans (Cert.KernelIdeal.Hand.Wlast_main_arg5 m ρ c),
      (h c _ (Cert.KernelIdeal.Hand.mem_uc Cert.KernelIdeal.main_arg6 (by decide))).trans (Cert.KernelIdeal.Hand.Wlast_main_arg6 m ρ c),
      (h c _ (Cert.KernelIdeal.Hand.mem_uc Cert.KernelIdeal.main_arg7 (by decide))).trans (Cert.KernelIdeal.Hand.Wlast_main_arg7 m ρ c),
      (h c _ (Cert.KernelIdeal.Hand.mem_uc Cert.KernelIdeal.main_arg8 (by decide))).trans (Cert.KernelIdeal.Hand.Wlast_main_arg8 m ρ c),
      (h c _ (Cert.KernelIdeal.Hand.mem_uc Cert.KernelIdeal.main_arg9 (by decide))).trans (Cert.KernelIdeal.Hand.Wlast_main_arg9 m ρ c),
      (h c _ (Cert.KernelIdeal.Hand.mem_uc Cert.KernelIdeal.main_arg10 (by decide))).trans (Cert.KernelIdeal.Hand.Wlast_main_arg10 m ρ c),
      (h c _ (Cert.KernelIdeal.Hand.mem_uc Cert.KernelIdeal.main_arg11 (by decide))).trans (Cert.KernelIdeal.Hand.Wlast_main_arg11 m ρ c),
      (h c _ (Cert.KernelIdeal.Hand.mem_uc Cert.KernelIdeal.main_arg12 (by decide))).trans (Cert.KernelIdeal.Hand.Wlast_main_arg12 m ρ c)⟩
  ·
    refine (θ_run Cert.ReferenceIdeal.defs _ _).mono (fun r h c => ⟨(h c).1.trans ?_, (h c).2⟩)
      (Cert.ReferenceIdeal.Hand.run m' ρ')
    obtain ⟨h0, h1, h2, h3, h4, h5, h6, h7, h8, h9, h10, h11, h12⟩ := hagree c
    have hA : Cert.ReferenceIdeal.Hand.argsAt m' c = kArgs m c := by
      unfold Cert.ReferenceIdeal.Hand.argsAt kArgs
      rw [h0, h1, h2, h3, h4, h5, h6, h7, h8, h9, h10, h11, h12]
    rw [hA]
    exact Cert.ReferenceIdeal.Hand.st_v81_layer (kArgs m c) (Cert.ReferenceIdeal.Hand.st_v50_eq (kArgs m c))

end Cert.Proof.Parts

end
-- ==== Proof.lean ====
import proofs.«176467_j34754875359699_1_alg».proof.Defs
import proofs.«176467_j34754875359699_1_alg».proof.Proof.Assemble

noncomputable section

namespace Cert.Proof

theorem claim : Cert.Claim :=
  ⟨Cert.Kernel.Gen.facts, Cert.KernelIdeal.Gen.facts, Cert.ReferenceIdeal.Gen.facts, Cert.Pre_finite_inputs.Gen.facts,
    Parts.frame_k, Parts.frame_ki, Parts.frame_ri, Parts.preserves, Parts.algebraic⟩

end Cert.Proof

end
